-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v321) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S640000 : Shape := ⟨1, ![640000]⟩
abbrev S20000 : Shape := ⟨1, ![20000]⟩
abbrev S256x128 : Shape := ⟨2, ![256, 128]⟩
abbrev S128 : Shape := ⟨1, ![128]⟩
abbrev S3x128 : Shape := ⟨2, ![3, 128]⟩
abbrev S3x128x128 : Shape := ⟨3, ![3, 128, 128]⟩
abbrev S3x128x1 : Shape := ⟨3, ![3, 128, 1]⟩
abbrev S3x1 : Shape := ⟨2, ![3, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000 : S_.BroadcastsInDim S20000 (![] : Fin 0 → Fin S20000.rank)
  reducesTo_S20000_S_d0 : S20000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128x1 : S_.BroadcastsInDim S3x128x1 (![] : Fin 0 → Fin S3x128x1.rank)
  reducesTo_S3x128x1_S_d0_1_2 : S3x128x1.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part2 {F : FTy → Type} [FloatOps F] (main_arg9 : FVec F S3x128 .f32) (main_arg10 : FVec F S3x128x1 .f32) (main_arg11 : FVec F S3x1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x1 .f32 := Host.absf main_arg10
  let main_cst_14 : FVec F S_ .f32 := constant S_ .f32 0x7F800000#32
  let main_v40 : FVec F S3x128x1 .f32 := broadcastInDim S3x128x1 ![] bcast_S_S3x128x1 main_cst_14
  let main_v41 : IVec S3x128x1 1 := cmpf .olt main_v39 main_v40
  let main_c_15 : IVec S_ 1 := constantI S_ 1 1#1
  let main_v42 : IVec S_ 1 := (fun x v => Host.reduce IntOp.andi x v reducesTo_S3x128x1_S_d0_1_2 h_S_) main_v41 main_c_15
  let main_v43 : IVec S_ 1 := andi main_v38 main_v42
  let main_v44 : FVec F S3x1 .f32 := Host.absf main_arg11
  let main_cst_16 : FVec F S_ .f32 := constant S_ .f32 0x7F800000#32
  let main_v45 : FVec F S3x1 .f32 := broadcastInDim S3x1 ![] bcast_S_S3x1 main_cst_16
  let main_v46 : IVec S3x1 1 := cmpf .olt main_v44 main_v45
  let main_c_17 : IVec S_ 1 := constantI S_ 1 1#1
  let main_v47 : IVec S_ 1 := (fun x v => Host.reduce IntOp.andi x v reducesTo_S3x1_S_d0_1 h_S_) main_v46 main_c_17
  let main_v48 : IVec S_ 1 := andi main_v43 main_v47
  main_v48

def fn_part1 {F : FTy → Type} [FloatOps F] (main_arg6 : FVec F S3x128 .f32) (main_arg7 : FVec F S3x128 .f32) (main_arg8 : FVec F S3x128x128 .f32) (main_arg9 : FVec F S3x128 .f32) (main_arg10 : FVec F S3x128x1 .f32) (main_arg11 : FVec F S3x1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S640000 32) (main_arg2 : IVec S640000 32) (main_arg3 : FVec F S20000 .f32) (main_arg4 : FVec F S256x128 .f32) (main_arg5 : FVec F S128 .f32) (main_arg6 : FVec F S3x128 .f32) (main_arg7 : FVec F S3x128 .f32) (main_arg8 : FVec F S3x128x128 .f32) (main_arg9 : FVec F S3x128 .f32) (main_arg10 : FVec F S3x128x1 .f32) (main_arg11 : FVec F S3x1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000 .f32 := Host.absf main_arg3
  let main_cst_0 : FVec F S_ .f32 := constant S_ .f32 0x7F800000#32
  let main_v5 : FVec F S20000 .f32 := broadcastInDim S20000 ![] bcast_S_S20000 main_cst_0
  let main_v6 : IVec S20000 1 := cmpf .olt main_v4 main_v5
  let main_c_1 : IVec S_ 1 := constantI S_ 1 1#1
  let main_v7 : IVec S_ 1 := (fun x v => Host.reduce IntOp.andi x v reducesTo_S20000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S640000 : Shape := ⟨1, ![640000]⟩
abbrev S20000 : Shape := ⟨1, ![20000]⟩
abbrev S256x128 : Shape := ⟨2, ![256, 128]⟩
abbrev S128 : Shape := ⟨1, ![128]⟩
abbrev S3x128 : Shape := ⟨2, ![3, 128]⟩
abbrev S3x128x128 : Shape := ⟨3, ![3, 128, 128]⟩
abbrev S3x128x1 : Shape := ⟨3, ![3, 128, 1]⟩
abbrev S3x1 : Shape := ⟨2, ![3, 1]⟩
abbrev S1x128 : Shape := ⟨2, ![1, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S640000x1 : Shape := ⟨2, ![640000, 1]⟩
abbrev S100000 : Shape := ⟨1, ![100000]⟩
abbrev S1x128x128 : Shape := ⟨3, ![1, 128, 128]⟩
abbrev S128x128 : Shape := ⟨2, ![128, 128]⟩
abbrev S640000x128 : Shape := ⟨2, ![640000, 128]⟩
abbrev S20000x128 : Shape := ⟨2, ![20000, 128]⟩
abbrev S20000x1 : Shape := ⟨2, ![20000, 1]⟩
abbrev S100000x1 : Shape := ⟨2, ![100000, 1]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩
abbrev S5000x1 : Shape := ⟨2, ![5000, 1]⟩

abbrev nBuf : Space → Nat
  | .hbm => 213
  | .vmem => 81
  | .smem => 0
  | _ => 0

abbrev hbmTy0_0 (i : Nat) : BufTy := match i % 128 with
  | 0 => ⟨S100000x256, .f32⟩
  | 1 => ⟨S640000, .i32⟩
  | 2 => ⟨S640000, .i32⟩
  | 3 => ⟨S20000, .f32⟩
  | 4 => ⟨S256x128, .f32⟩
  | 5 => ⟨S128, .f32⟩
  | 6 => ⟨S3x128, .f32⟩
  | 7 => ⟨S3x128, .f32⟩
  | 8 => ⟨S3x128x128, .f32⟩
  | 9 => ⟨S3x128, .f32⟩
  | 10 => ⟨S3x128x1, .f32⟩
  | 11 => ⟨S3x1, .f32⟩
  | 12 => ⟨S1x128, .f32⟩
  | 13 => ⟨S100000x128, .f32⟩
  | 14 => ⟨S_, .i32⟩
  | 15 => ⟨S640000, .i32⟩
  | 16 => ⟨S640000, .i1⟩
  | 17 => ⟨S_, .i32⟩
  | 18 => ⟨S640000, .i32⟩
  | 19 => ⟨S640000, .i32⟩
  | 20 => ⟨S640000, .i32⟩
  | 21 => ⟨S640000x1, .i32⟩
  | 22 => ⟨S640000, .f32⟩
  | 23 => ⟨S_, .f32⟩
  | 24 => ⟨S100000, .f32⟩
  | 25 => ⟨S640000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S640000, .f32⟩
  | 39 => ⟨S_, .f32⟩
  | 40 => ⟨S20000, .f32⟩
  | 41 => ⟨S640000x1, .i32⟩
  | 42 => ⟨S20000, .f32⟩
  | 43 => ⟨S_, .f32⟩
  | 44 => ⟨S20000, .f32⟩
  | 45 => ⟨S20000, .i1⟩
  | 46 => ⟨S_, .f32⟩
  | 47 => ⟨S20000, .f32⟩
  | 48 => ⟨S20000, .f32⟩
  | 49 => ⟨S_, .f32⟩
  | 50 => ⟨S_, .f32⟩
  | 51 => ⟨S20000, .f32⟩
  | 52 => ⟨S20000, .f32⟩
  | 53 => ⟨S1x128, .f32⟩
  | 54 => ⟨S1x128, .f32⟩
  | 55 => ⟨S1x128, .f32⟩
  | 56 => ⟨S1x128, .f32⟩
  | 57 => ⟨S1x128x128, .f32⟩
  | 58 => ⟨S128x128, .f32⟩
  | 59 => ⟨S100000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S_, .f32⟩
  | 70 => ⟨S20000x128, .f32⟩
  | 71 => ⟨S640000x1, .i32⟩
  | 72 => ⟨S20000x128, .f32⟩
  | 73 => ⟨S20000x1, .f32⟩
  | 74 => ⟨S20000x128, .f32⟩
  | 75 => ⟨S20000x128, .f32⟩
  | 76 => ⟨S_, .i32⟩
  | 77 => ⟨S640000, .i32⟩
  | 78 => ⟨S640000, .i1⟩
  | 79 => ⟨S_, .i32⟩
  | 80 => ⟨S640000, .i32⟩
  | 81 => ⟨S640000, .i32⟩
  | 82 => ⟨S640000, .i32⟩
  | 83 => ⟨S640000x1, .i32⟩
  | 84 => ⟨S640000x128, .f32⟩
  | 85 => ⟨S_, .f32⟩
  | 86 => ⟨S100000x128, .f32⟩
  | 87 => ⟨S640000x1, .i32⟩
  | 88 => ⟨S100000x128, .f32⟩
  | 89 => ⟨S100000x1, .f32⟩
  | 90 => ⟨S100000x128, .f32⟩
  | 91 => ⟨S100000x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S1x128x1, .f32⟩
  | 98 => ⟨S128x1, .f32⟩
  | 99 => ⟨S100000x1, .f32⟩
  | 100 => ⟨S1x1, .f32⟩
  | 101 => ⟨S1, .f32⟩
  | 102 => ⟨S1x1, .f32⟩
  | 103 => ⟨S100000x1, .f32⟩
  | 104 => ⟨S100000x1, .f32⟩
  | 105 => ⟨S100000x128, .f32⟩
  | 106 => ⟨S1x128, .f32⟩
  | 107 => ⟨S1x128, .f32⟩
  | 108 => ⟨S1x128, .f32⟩
  | 109 => ⟨S1x128, .f32⟩
  | 110 => ⟨S1x128x128, .f32⟩
  | 111 => ⟨S128x128, .f32⟩
  | 112 => ⟨S100000x128, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S_, .f32⟩
  | 123 => ⟨S20000x128, .f32⟩
  | 124 => ⟨S640000x1, .i32⟩
  | 125 => ⟨S20000x128, .f32⟩
  | 126 => ⟨S20000x1, .f32⟩
  | 127 => ⟨S20000x128, .f32⟩
  | _ => ⟨S100000x256, .f32⟩

abbrev hbmTy0_1 (i : Nat) : BufTy := match i % 128 with
  | 0 => ⟨S20000x128, .f32⟩
  | 1 => ⟨S_, .i32⟩
  | 2 => ⟨S640000, .i32⟩
  | 3 => ⟨S640000, .i1⟩
  | 4 => ⟨S_, .i32⟩
  | 5 => ⟨S640000, .i32⟩
  | 6 => ⟨S640000, .i32⟩
  | 7 => ⟨S640000, .i32⟩
  | 8 => ⟨S640000x1, .i32⟩
  | 9 => ⟨S640000x128, .f32⟩
  | 10 => ⟨S_, .f32⟩
  | 11 => ⟨S100000x128, .f32⟩
  | 12 => ⟨S640000x1, .i32⟩
  | 13 => ⟨S100000x128, .f32⟩
  | 14 => ⟨S100000x1, .f32⟩
  | 15 => ⟨S100000x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S1x128x1, .f32⟩
  | 23 => ⟨S128x1, .f32⟩
  | 24 => ⟨S100000x1, .f32⟩
  | 25 => ⟨S1x1, .f32⟩
  | 26 => ⟨S1, .f32⟩
  | 27 => ⟨S1x1, .f32⟩
  | 28 => ⟨S100000x1, .f32⟩
  | 29 => ⟨S100000x1, .f32⟩
  | 30 => ⟨S100000x128, .f32⟩
  | 31 => ⟨S1x128, .f32⟩
  | 32 => ⟨S1x128, .f32⟩
  | 33 => ⟨S1x128, .f32⟩
  | 34 => ⟨S1x128, .f32⟩
  | 35 => ⟨S1x128x128, .f32⟩
  | 36 => ⟨S128x128, .f32⟩
  | 37 => ⟨S100000x128, .f32⟩
  | 38 => ⟨S_, .i32⟩
  | 39 => ⟨S640000, .i32⟩
  | 40 => ⟨S640000, .i1⟩
  | 41 => ⟨S_, .i32⟩
  | 42 => ⟨S640000, .i32⟩
  | 43 => ⟨S640000, .i32⟩
  | 44 => ⟨S640000, .i32⟩
  | 45 => ⟨S640000x1, .i32⟩
  | 46 => ⟨S640000x128, .f32⟩
  | 47 => ⟨S_, .f32⟩
  | 48 => ⟨S20000x128, .f32⟩
  | 49 => ⟨S640000x1, .i32⟩
  | 50 => ⟨S20000x128, .f32⟩
  | 51 => ⟨S20000x1, .f32⟩
  | 52 => ⟨S20000x128, .f32⟩
  | 53 => ⟨S20000x128, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000x128, .f32⟩
  | 63 => ⟨S_, .f32⟩
  | 64 => ⟨S100000x128, .f32⟩
  | 65 => ⟨S640000x1, .i32⟩
  | 66 => ⟨S100000x128, .f32⟩
  | 67 => ⟨S100000x1, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S1x128x1, .f32⟩
  | 76 => ⟨S128x1, .f32⟩
  | 77 => ⟨S100000x1, .f32⟩
  | 78 => ⟨S1x1, .f32⟩
  | 79 => ⟨S1, .f32⟩
  | 80 => ⟨S1x1, .f32⟩
  | 81 => ⟨S100000x1, .f32⟩
  | 82 => ⟨S100000x1, .f32⟩
  | 83 => ⟨S100000x128, .f32⟩
  | 84 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x1, .f32⟩
  | .local _ .vmem, ⟨49, _⟩ => ⟨S5000x1, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S128x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x1, .f32⟩
  | .local _ .vmem, ⟨72, _⟩ => ⟨S5000x1, .f32⟩
  | .local _ .vmem, ⟨73, _⟩ => ⟨S5000x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_6 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v25 : Ref sig .tc := ⟨.hbm, 52, rfl⟩
abbrev main_v26_0 : Ref sig .tc := ⟨.hbm, 53, rfl⟩
abbrev main_v26_1 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_c_10 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_12 : Ref sig .tc := ⟨.hbm, 76, rfl⟩
abbrev main_v45 : Ref sig .tc := ⟨.hbm, 77, rfl⟩
abbrev main_v46 : Ref sig .tc := ⟨.hbm, 78, rfl⟩
abbrev main_c_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72_0 : Ref sig .tc := ⟨.hbm, 106, rfl⟩
abbrev main_v72_1 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_c_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_17 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_18 : Ref sig .tc := ⟨.hbm, 129, rfl⟩
abbrev main_v91 : Ref sig .tc := ⟨.hbm, 130, rfl⟩
abbrev main_v92 : Ref sig .tc := ⟨.hbm, 131, rfl⟩
abbrev main_c_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118_0 : Ref sig .tc := ⟨.hbm, 159, rfl⟩
abbrev main_v118_1 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_c_21 : Ref sig .tc := ⟨.hbm, 166, rfl⟩
abbrev main_v124 : Ref sig .tc := ⟨.hbm, 167, rfl⟩
abbrev main_v125 : Ref sig .tc := ⟨.hbm, 168, rfl⟩
abbrev main_c_22 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_23 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_24 : Ref sig .tc := ⟨.hbm, 182, rfl⟩
abbrev main_v137 : Ref sig .tc := ⟨.hbm, 183, rfl⟩
abbrev main_v138 : Ref sig .tc := ⟨.hbm, 184, rfl⟩
abbrev main_c_25 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_26 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_scratch0 : Ref sig .tc := ⟨.vmem, 33, rfl⟩
abbrev cc4_scratch1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg2_0 : Ref sig .tc := ⟨.vmem, 55, rfl⟩
abbrev cc7_scratch0 : Ref sig .tc := ⟨.vmem, 56, rfl⟩
abbrev cc7_scratch1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg4_0 : Ref sig .tc := ⟨.vmem, 63, rfl⟩
abbrev cc8_stg5_0 : Ref sig .tc := ⟨.vmem, 64, rfl⟩
abbrev cc8_stg6_0 : Ref sig .tc := ⟨.vmem, 65, rfl⟩
abbrev cc8_stg6_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg2_1 : Ref sig .tc := ⟨.vmem, 72, rfl⟩
abbrev cc9_stg3_0 : Ref sig .tc := ⟨.vmem, 73, rfl⟩
abbrev cc9_stg3_1 : Ref sig .tc := ⟨.vmem, 74, rfl⟩
abbrev cc10_stg0_0 : Ref sig .tc := ⟨.vmem, 75, rfl⟩
abbrev cc10_stg0_1 : Ref sig .tc := ⟨.vmem, 76, rfl⟩
abbrev cc10_stg1_0 : Ref sig .tc := ⟨.vmem, 77, rfl⟩
abbrev cc10_stg1_1 : Ref sig .tc := ⟨.vmem, 78, rfl⟩
abbrev cc10_stg2_0 : Ref sig .tc := ⟨.vmem, 79, rfl⟩
abbrev cc10_stg2_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem6_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem3_0 : DmaSem sig := 56
abbrev cc8_sem4_0 : DmaSem sig := 57
abbrev cc8_sem5_0 : DmaSem sig := 58
abbrev cc8_sem6_0 : DmaSem sig := 59
abbrev cc8_sem6_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem3_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem2_1 : DmaSem sig := 74

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S5000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S100000 : S_.BroadcastsInDim S100000 (![] : Fin 0 → Fin S100000.rank)
  bcast_S_S20000 : S_.BroadcastsInDim S20000 (![] : Fin 0 → Fin S20000.rank)
  shapeCasts_S5000x128_S5000x128 : S5000x128.ShapeCasts S5000x128
  reduces_S5000x128_S128 : S5000x128.Reduces [0] S128
  slices_S3x128_S1x128_0_0 : S3x128.Slices ![0, 0] S1x128
  slices_S3x128x128_S1x128x128_0_0_0 : S3x128x128.Slices ![0, 0, 0] S1x128x128
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S3x128_S1x128_1_0 : S3x128.Slices ![1, 0] S1x128
  slices_S3x128x128_S1x128x128_1_0_0 : S3x128x128.Slices ![1, 0, 0] S1x128x128
  slices_S3x128x1_S1x128x1_1_0_0 : S3x128x1.Slices ![1, 0, 0] S1x128x1
  slices_S3x1_S1x1_1_0 : S3x1.Slices ![1, 0] S1x1
  slices_S3x128_S1x128_2_0 : S3x128.Slices ![2, 0] S1x128
  slices_S3x128x128_S1x128x128_2_0_0 : S3x128x128.Slices ![2, 0, 0] S1x128x128
  slices_S3x128x1_S1x128x1_2_0_0 : S3x128x1.Slices ![2, 0, 0] S1x128x1
  slices_S3x1_S1x1_2_0 : S3x1.Slices ![2, 0] S1x1
  dot_S5000x256_S256x128_S5000x128_1_0_0_1_n_n_wf : DotDims.WF S5000x256 S256x128 S5000x128 [1] [0] [0] [1] [] []
  gather_S20000_S640000x1_S640000_n_0_n_n_0_1_1_wf : GatherDims.WF S20000 S640000x1 S640000 [] [0] [] [0] [] 1 ![1]
  scatter_S100000_S640000x1_S640000_n_0_0_1_wf : ScatterDims.WF S100000 S640000x1 S640000 [] [0] [0] 1
  scatter_S20000_S640000x1_S640000_n_0_0_1_wf : ScatterDims.WF S20000 S640000x1 S640000 [] [0] [0] 1
  dot_S5000x128_S128x128_S5000x128_1_0_0_1_n_n_wf : DotDims.WF S5000x128 S128x128 S5000x128 [1] [0] [0] [1] [] []
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1_S100000x1_1_0_0_1_n_n_wf : DotDims.WF S100000x128 S128x1 S100000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S100000x128.size a
  hwx8_6 : ∀ i : grid8.Coords, EltTy.bits .f32 = 32 ∨ (Rect.block (s := S100000x128) S5000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x128.size a ≤ S100000x128.size a
  hwx10_2 : ∀ i : grid10.Coords, EltTy.bits .f32 = 32 ∨ (Rect.block (s := S100000x128) S5000x128.size (cc10_transform_2 i) (hinb10_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26_1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72_0) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72_1) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v76) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v77) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v108) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v116) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v117) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v117) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118_0) S1x128.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118_1) S1x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v117) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118_0) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v118_1) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v119) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v120) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v122) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v123) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v154) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v162) S5000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v163) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v163) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v1) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v164) S5000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S100000x256 : Shape := ⟨2, ![100000, 256]⟩
abbrev S640000 : Shape := ⟨1, ![640000]⟩
abbrev S20000 : Shape := ⟨1, ![20000]⟩
abbrev S256x128 : Shape := ⟨2, ![256, 128]⟩
abbrev S128 : Shape := ⟨1, ![128]⟩
abbrev S3x128 : Shape := ⟨2, ![3, 128]⟩
abbrev S3x128x128 : Shape := ⟨3, ![3, 128, 128]⟩
abbrev S3x128x1 : Shape := ⟨3, ![3, 128, 1]⟩
abbrev S3x1 : Shape := ⟨2, ![3, 1]⟩
abbrev S100000x128 : Shape := ⟨2, ![100000, 128]⟩
abbrev S1x128 : Shape := ⟨2, ![1, 128]⟩
abbrev S_ : Shape := ⟨0, ![]⟩
abbrev S1x128x128 : Shape := ⟨3, ![1, 128, 128]⟩
abbrev S128x128 : Shape := ⟨2, ![128, 128]⟩
abbrev S640000x1 : Shape := ⟨2, ![640000, 1]⟩
abbrev S100000 : Shape := ⟨1, ![100000]⟩
abbrev S640000x128 : Shape := ⟨2, ![640000, 128]⟩
abbrev S20000x128 : Shape := ⟨2, ![20000, 128]⟩
abbrev S20000x1 : Shape := ⟨2, ![20000, 1]⟩
abbrev S100000x1 : Shape := ⟨2, ![100000, 1]⟩
abbrev S1x128x1 : Shape := ⟨3, ![1, 128, 1]⟩
abbrev S128x1 : Shape := ⟨2, ![128, 1]⟩
abbrev S1x1 : Shape := ⟨2, ![1, 1]⟩
abbrev S1 : Shape := ⟨1, ![1]⟩

abbrev nBuf : Space → Nat
  | .hbm => 426
  | .vmem => 0
  | .smem => 0
  | _ => 0

abbrev hbmTy0_0 (i : Nat) : BufTy := match i % 128 with
  | 0 => ⟨S100000x256, .f32⟩
  | 1 => ⟨S640000, .i32⟩
  | 2 => ⟨S640000, .i32⟩
  | 3 => ⟨S20000, .f32⟩
  | 4 => ⟨S256x128, .f32⟩
  | 5 => ⟨S128, .f32⟩
  | 6 => ⟨S3x128, .f32⟩
  | 7 => ⟨S3x128, .f32⟩
  | 8 => ⟨S3x128x128, .f32⟩
  | 9 => ⟨S3x128, .f32⟩
  | 10 => ⟨S3x128x1, .f32⟩
  | 11 => ⟨S3x1, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S100000x128, .f32⟩
  | 32 => ⟨S_, .f32⟩
  | 33 => ⟨S128, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S100000x128, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000, .f32⟩
  | 67 => ⟨S_, .f32⟩
  | 68 => ⟨S100000, .f32⟩
  | 69 => ⟨S640000x1, .i32⟩
  | 70 => ⟨S100000, .f32⟩
  | 71 => ⟨S_, .f32⟩
  | 72 => ⟨S100000, .f32⟩
  | 73 => ⟨S100000, .i1⟩
  | 74 => ⟨S_, .f32⟩
  | 75 => ⟨S100000, .f32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S640000, .f32⟩
  | 83 => ⟨S_, .f32⟩
  | 84 => ⟨S20000, .f32⟩
  | 85 => ⟨S640000x1, .i32⟩
  | 86 => ⟨S20000, .f32⟩
  | 87 => ⟨S_, .f32⟩
  | 88 => ⟨S20000, .f32⟩
  | 89 => ⟨S20000, .i1⟩
  | 90 => ⟨S_, .f32⟩
  | 91 => ⟨S20000, .f32⟩
  | 92 => ⟨S20000, .f32⟩
  | 93 => ⟨S_, .f32⟩
  | 94 => ⟨S_, .f32⟩
  | 95 => ⟨S20000, .f32⟩
  | 96 => ⟨S20000, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000x128, .f32⟩
  | 106 => ⟨S_, .f32⟩
  | 107 => ⟨S20000x128, .f32⟩
  | 108 => ⟨S640000x1, .i32⟩
  | 109 => ⟨S20000x128, .f32⟩
  | 110 => ⟨S20000x1, .f32⟩
  | 111 => ⟨S20000x128, .f32⟩
  | 112 => ⟨S20000x128, .f32⟩
  | 113 => ⟨S_, .i32⟩
  | 114 => ⟨S640000, .i32⟩
  | 115 => ⟨S640000, .i1⟩
  | 116 => ⟨S_, .i32⟩
  | 117 => ⟨S640000, .i32⟩
  | 118 => ⟨S640000, .i32⟩
  | 119 => ⟨S640000, .i32⟩
  | 120 => ⟨S640000x1, .i32⟩
  | 121 => ⟨S640000x128, .f32⟩
  | 122 => ⟨S_, .f32⟩
  | 123 => ⟨S100000x128, .f32⟩
  | 124 => ⟨S640000x1, .i32⟩
  | 125 => ⟨S100000x128, .f32⟩
  | 126 => ⟨S100000x1, .f32⟩
  | 127 => ⟨S100000x128, .f32⟩
  | _ => ⟨S100000x256, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S1x128x1, .f32⟩
  | 8 => ⟨S128x1, .f32⟩
  | 9 => ⟨S100000x1, .f32⟩
  | 10 => ⟨S1x1, .f32⟩
  | 11 => ⟨S1, .f32⟩
  | 12 => ⟨S1x1, .f32⟩
  | 13 => ⟨S100000x1, .f32⟩
  | 14 => ⟨S100000x1, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S1x128, .f32⟩
  | 27 => ⟨S128, .f32⟩
  | 28 => ⟨S1x128, .f32⟩
  | 29 => ⟨S128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S_, .f32⟩
  | 48 => ⟨S128, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S1x128x128, .f32⟩
  | 61 => ⟨S128x128, .f32⟩
  | 62 => ⟨S1x128, .f32⟩
  | 63 => ⟨S128, .f32⟩
  | 64 => ⟨S100000x128, .f32⟩
  | 65 => ⟨S_, .i32⟩
  | 66 => ⟨S640000, .i32⟩
  | 67 => ⟨S640000, .i1⟩
  | 68 => ⟨S_, .i32⟩
  | 69 => ⟨S640000, .i32⟩
  | 70 => ⟨S640000, .i32⟩
  | 71 => ⟨S640000, .i32⟩
  | 72 => ⟨S640000x1, .i32⟩
  | 73 => ⟨S640000, .f32⟩
  | 74 => ⟨S_, .f32⟩
  | 75 => ⟨S100000, .f32⟩
  | 76 => ⟨S640000x1, .i32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S_, .f32⟩
  | 85 => ⟨S_, .f32⟩
  | 86 => ⟨S100000, .f32⟩
  | 87 => ⟨S100000, .f32⟩
  | 88 => ⟨S_, .f32⟩
  | 89 => ⟨S640000, .f32⟩
  | 90 => ⟨S_, .f32⟩
  | 91 => ⟨S20000, .f32⟩
  | 92 => ⟨S640000x1, .i32⟩
  | 93 => ⟨S20000, .f32⟩
  | 94 => ⟨S_, .f32⟩
  | 95 => ⟨S20000, .f32⟩
  | 96 => ⟨S20000, .i1⟩
  | 97 => ⟨S_, .f32⟩
  | 98 => ⟨S20000, .f32⟩
  | 99 => ⟨S20000, .f32⟩
  | 100 => ⟨S_, .f32⟩
  | 101 => ⟨S_, .f32⟩
  | 102 => ⟨S20000, .f32⟩
  | 103 => ⟨S20000, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S_, .f32⟩
  | 114 => ⟨S20000x128, .f32⟩
  | 115 => ⟨S640000x1, .i32⟩
  | 116 => ⟨S20000x128, .f32⟩
  | 117 => ⟨S20000x1, .f32⟩
  | 118 => ⟨S20000x128, .f32⟩
  | 119 => ⟨S20000x128, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S100000x256, .f32⟩

abbrev hbmTy0_2 (i : Nat) : BufTy := match i % 128 with
  | 0 => ⟨S640000x128, .f32⟩
  | 1 => ⟨S_, .f32⟩
  | 2 => ⟨S100000x128, .f32⟩
  | 3 => ⟨S640000x1, .i32⟩
  | 4 => ⟨S100000x128, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S1x128x1, .f32⟩
  | 15 => ⟨S128x1, .f32⟩
  | 16 => ⟨S100000x1, .f32⟩
  | 17 => ⟨S1x1, .f32⟩
  | 18 => ⟨S1, .f32⟩
  | 19 => ⟨S1x1, .f32⟩
  | 20 => ⟨S100000x1, .f32⟩
  | 21 => ⟨S100000x1, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S_, .f32⟩
  | 28 => ⟨S100000x1, .f32⟩
  | 29 => ⟨S100000x1, .f32⟩
  | 30 => ⟨S100000x128, .f32⟩
  | 31 => ⟨S100000x128, .f32⟩
  | 32 => ⟨S100000x128, .f32⟩
  | 33 => ⟨S1x128, .f32⟩
  | 34 => ⟨S128, .f32⟩
  | 35 => ⟨S1x128, .f32⟩
  | 36 => ⟨S128, .f32⟩
  | 37 => ⟨S_, .f32⟩
  | 38 => ⟨S128, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S_, .f32⟩
  | 55 => ⟨S128, .f32⟩
  | 56 => ⟨S128, .f32⟩
  | 57 => ⟨S128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S1x128x128, .f32⟩
  | 68 => ⟨S128x128, .f32⟩
  | 69 => ⟨S1x128, .f32⟩
  | 70 => ⟨S128, .f32⟩
  | 71 => ⟨S100000x128, .f32⟩
  | 72 => ⟨S_, .i32⟩
  | 73 => ⟨S640000, .i32⟩
  | 74 => ⟨S640000, .i1⟩
  | 75 => ⟨S_, .i32⟩
  | 76 => ⟨S640000, .i32⟩
  | 77 => ⟨S640000, .i32⟩
  | 78 => ⟨S640000, .i32⟩
  | 79 => ⟨S640000x1, .i32⟩
  | 80 => ⟨S640000, .f32⟩
  | 81 => ⟨S_, .f32⟩
  | 82 => ⟨S100000, .f32⟩
  | 83 => ⟨S640000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S_, .f32⟩
  | 92 => ⟨S_, .f32⟩
  | 93 => ⟨S100000, .f32⟩
  | 94 => ⟨S100000, .f32⟩
  | 95 => ⟨S_, .f32⟩
  | 96 => ⟨S640000, .f32⟩
  | 97 => ⟨S_, .f32⟩
  | 98 => ⟨S20000, .f32⟩
  | 99 => ⟨S640000x1, .i32⟩
  | 100 => ⟨S20000, .f32⟩
  | 101 => ⟨S_, .f32⟩
  | 102 => ⟨S20000, .f32⟩
  | 103 => ⟨S20000, .i1⟩
  | 104 => ⟨S_, .f32⟩
  | 105 => ⟨S20000, .f32⟩
  | 106 => ⟨S20000, .f32⟩
  | 107 => ⟨S_, .f32⟩
  | 108 => ⟨S_, .f32⟩
  | 109 => ⟨S20000, .f32⟩
  | 110 => ⟨S20000, .f32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S_, .f32⟩
  | 121 => ⟨S20000x128, .f32⟩
  | 122 => ⟨S640000x1, .i32⟩
  | 123 => ⟨S20000x128, .f32⟩
  | 124 => ⟨S20000x1, .f32⟩
  | 125 => ⟨S20000x128, .f32⟩
  | 126 => ⟨S20000x128, .f32⟩
  | 127 => ⟨S_, .i32⟩
  | _ => ⟨S100000x256, .f32⟩

abbrev hbmTy0_3 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x128, .f32⟩
  | 8 => ⟨S_, .f32⟩
  | 9 => ⟨S100000x128, .f32⟩
  | 10 => ⟨S640000x1, .i32⟩
  | 11 => ⟨S100000x128, .f32⟩
  | 12 => ⟨S100000x1, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x128x1, .f32⟩
  | 22 => ⟨S128x1, .f32⟩
  | 23 => ⟨S100000x1, .f32⟩
  | 24 => ⟨S1x1, .f32⟩
  | 25 => ⟨S1, .f32⟩
  | 26 => ⟨S1x1, .f32⟩
  | 27 => ⟨S100000x1, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x128, .f32⟩
  | 38 => ⟨S100000x128, .f32⟩
  | 39 => ⟨S100000x128, .f32⟩
  | 40 => ⟨S100000x128, .f32⟩
  | 41 => ⟨S100000x128, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_call1_v0 : Ref sig .tc := ⟨.hbm, 78, rfl⟩
abbrev main_call1_v1 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_cst_12 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_call2_v0 : Ref sig .tc := ⟨.hbm, 94, rfl⟩
abbrev main_call2_v1 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_16 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_17 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call3_cst : Ref sig .tc := ⟨.hbm, 132, rfl⟩
abbrev main_call3_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_v104 : Ref sig .tc := ⟨.hbm, 147, rfl⟩
abbrev main_cst_21 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_22 : Ref sig .tc := ⟨.hbm, 158, rfl⟩
abbrev main_v114 : Ref sig .tc := ⟨.hbm, 159, rfl⟩
abbrev main_cst_23 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_24 : Ref sig .tc := ⟨.hbm, 167, rfl⟩
abbrev main_v121 : Ref sig .tc := ⟨.hbm, 168, rfl⟩
abbrev main_cst_25 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_26 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_c_27 : Ref sig .tc := ⟨.hbm, 193, rfl⟩
abbrev main_v144 : Ref sig .tc := ⟨.hbm, 194, rfl⟩
abbrev main_v145 : Ref sig .tc := ⟨.hbm, 195, rfl⟩
abbrev main_c_28 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_29 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_30 : Ref sig .tc := ⟨.hbm, 206, rfl⟩
abbrev main_v154 : Ref sig .tc := ⟨.hbm, 207, rfl⟩
abbrev main_v155 : Ref sig .tc := ⟨.hbm, 208, rfl⟩
abbrev main_cst_31 : Ref sig .tc := ⟨.hbm, 209, rfl⟩
abbrev main_v156 : Ref sig .tc := ⟨.hbm, 210, rfl⟩
abbrev main_v157 : Ref sig .tc := ⟨.hbm, 211, rfl⟩
abbrev main_cst_32 : Ref sig .tc := ⟨.hbm, 212, rfl⟩
abbrev main_call4_v0 : Ref sig .tc := ⟨.hbm, 213, rfl⟩
abbrev main_call4_v1 : Ref sig .tc := ⟨.hbm, 214, rfl⟩
abbrev main_v158 : Ref sig .tc := ⟨.hbm, 215, rfl⟩
abbrev main_cst_33 : Ref sig .tc := ⟨.hbm, 216, rfl⟩
abbrev main_v159 : Ref sig .tc := ⟨.hbm, 217, rfl⟩
abbrev main_cst_34 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_cst_35 : Ref sig .tc := ⟨.hbm, 222, rfl⟩
abbrev main_v163 : Ref sig .tc := ⟨.hbm, 223, rfl⟩
abbrev main_v164 : Ref sig .tc := ⟨.hbm, 224, rfl⟩
abbrev main_cst_36 : Ref sig .tc := ⟨.hbm, 225, rfl⟩
abbrev main_v165 : Ref sig .tc := ⟨.hbm, 226, rfl⟩
abbrev main_v166 : Ref sig .tc := ⟨.hbm, 227, rfl⟩
abbrev main_cst_37 : Ref sig .tc := ⟨.hbm, 228, rfl⟩
abbrev main_call5_v0 : Ref sig .tc := ⟨.hbm, 229, rfl⟩
abbrev main_call5_v1 : Ref sig .tc := ⟨.hbm, 230, rfl⟩
abbrev main_v167 : Ref sig .tc := ⟨.hbm, 231, rfl⟩
abbrev main_c_38 : Ref sig .tc := ⟨.hbm, 232, rfl⟩
abbrev main_v168 : Ref sig .tc := ⟨.hbm, 233, rfl⟩
abbrev main_v169 : Ref sig .tc := ⟨.hbm, 234, rfl⟩
abbrev main_c_39 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_40 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_c_41 : Ref sig .tc := ⟨.hbm, 248, rfl⟩
abbrev main_v181 : Ref sig .tc := ⟨.hbm, 249, rfl⟩
abbrev main_v182 : Ref sig .tc := ⟨.hbm, 250, rfl⟩
abbrev main_c_42 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_cst_43 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_call6_cst : Ref sig .tc := ⟨.hbm, 267, rfl⟩
abbrev main_call6_v0 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_cst_44 : Ref sig .tc := ⟨.hbm, 280, rfl⟩
abbrev main_v208 : Ref sig .tc := ⟨.hbm, 281, rfl⟩
abbrev main_v209 : Ref sig .tc := ⟨.hbm, 282, rfl⟩
abbrev main_cst_45 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_v218 : Ref sig .tc := ⟨.hbm, 292, rfl⟩
abbrev main_cst_46 : Ref sig .tc := ⟨.hbm, 293, rfl⟩
abbrev main_v219 : Ref sig .tc := ⟨.hbm, 294, rfl⟩
abbrev main_cst_47 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_cst_48 : Ref sig .tc := ⟨.hbm, 302, rfl⟩
abbrev main_v226 : Ref sig .tc := ⟨.hbm, 303, rfl⟩
abbrev main_cst_49 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_cst_50 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_c_51 : Ref sig .tc := ⟨.hbm, 328, rfl⟩
abbrev main_v249 : Ref sig .tc := ⟨.hbm, 329, rfl⟩
abbrev main_v250 : Ref sig .tc := ⟨.hbm, 330, rfl⟩
abbrev main_c_52 : Ref sig .tc := ⟨.hbm, 331, rfl⟩
abbrev main_v251 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_cst_53 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_cst_54 : Ref sig .tc := ⟨.hbm, 341, rfl⟩
abbrev main_v259 : Ref sig .tc := ⟨.hbm, 342, rfl⟩
abbrev main_v260 : Ref sig .tc := ⟨.hbm, 343, rfl⟩
abbrev main_cst_55 : Ref sig .tc := ⟨.hbm, 344, rfl⟩
abbrev main_v261 : Ref sig .tc := ⟨.hbm, 345, rfl⟩
abbrev main_v262 : Ref sig .tc := ⟨.hbm, 346, rfl⟩
abbrev main_cst_56 : Ref sig .tc := ⟨.hbm, 347, rfl⟩
abbrev main_call7_v0 : Ref sig .tc := ⟨.hbm, 348, rfl⟩
abbrev main_call7_v1 : Ref sig .tc := ⟨.hbm, 349, rfl⟩
abbrev main_v263 : Ref sig .tc := ⟨.hbm, 350, rfl⟩
abbrev main_cst_57 : Ref sig .tc := ⟨.hbm, 351, rfl⟩
abbrev main_v264 : Ref sig .tc := ⟨.hbm, 352, rfl⟩
abbrev main_cst_58 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_cst_59 : Ref sig .tc := ⟨.hbm, 357, rfl⟩
abbrev main_v268 : Ref sig .tc := ⟨.hbm, 358, rfl⟩
abbrev main_v269 : Ref sig .tc := ⟨.hbm, 359, rfl⟩
abbrev main_cst_60 : Ref sig .tc := ⟨.hbm, 360, rfl⟩
abbrev main_v270 : Ref sig .tc := ⟨.hbm, 361, rfl⟩
abbrev main_v271 : Ref sig .tc := ⟨.hbm, 362, rfl⟩
abbrev main_cst_61 : Ref sig .tc := ⟨.hbm, 363, rfl⟩
abbrev main_call8_v0 : Ref sig .tc := ⟨.hbm, 364, rfl⟩
abbrev main_call8_v1 : Ref sig .tc := ⟨.hbm, 365, rfl⟩
abbrev main_v272 : Ref sig .tc := ⟨.hbm, 366, rfl⟩
abbrev main_c_62 : Ref sig .tc := ⟨.hbm, 367, rfl⟩
abbrev main_v273 : Ref sig .tc := ⟨.hbm, 368, rfl⟩
abbrev main_v274 : Ref sig .tc := ⟨.hbm, 369, rfl⟩
abbrev main_c_63 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_cst_64 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_c_65 : Ref sig .tc := ⟨.hbm, 383, rfl⟩
abbrev main_v286 : Ref sig .tc := ⟨.hbm, 384, rfl⟩
abbrev main_v287 : Ref sig .tc := ⟨.hbm, 385, rfl⟩
abbrev main_c_66 : Ref sig .tc := ⟨.hbm, 386, rfl⟩
abbrev main_v288 : Ref sig .tc := ⟨.hbm, 387, rfl⟩
abbrev main_v289 : Ref sig .tc := ⟨.hbm, 388, rfl⟩
abbrev main_v290 : Ref sig .tc := ⟨.hbm, 389, rfl⟩
abbrev main_v291 : Ref sig .tc := ⟨.hbm, 390, rfl⟩
abbrev main_v292 : Ref sig .tc := ⟨.hbm, 391, rfl⟩
abbrev main_cst_67 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_call9_cst : Ref sig .tc := ⟨.hbm, 402, rfl⟩
abbrev main_call9_v0 : Ref sig .tc := ⟨.hbm, 403, rfl⟩
abbrev main_v302 : Ref sig .tc := ⟨.hbm, 404, rfl⟩
abbrev main_v303 : Ref sig .tc := ⟨.hbm, 405, rfl⟩
abbrev main_v304 : Ref sig .tc := ⟨.hbm, 406, rfl⟩
abbrev main_v305 : Ref sig .tc := ⟨.hbm, 407, rfl⟩
abbrev main_v306 : Ref sig .tc := ⟨.hbm, 408, rfl⟩
abbrev main_v307 : Ref sig .tc := ⟨.hbm, 409, rfl⟩
abbrev main_v308 : Ref sig .tc := ⟨.hbm, 410, rfl⟩
abbrev main_v309 : Ref sig .tc := ⟨.hbm, 411, rfl⟩
abbrev main_v310 : Ref sig .tc := ⟨.hbm, 412, rfl⟩
abbrev main_v311 : Ref sig .tc := ⟨.hbm, 413, rfl⟩
abbrev main_v312 : Ref sig .tc := ⟨.hbm, 414, rfl⟩
abbrev main_cst_68 : Ref sig .tc := ⟨.hbm, 415, rfl⟩
abbrev main_v313 : Ref sig .tc := ⟨.hbm, 416, rfl⟩
abbrev main_v314 : Ref sig .tc := ⟨.hbm, 417, rfl⟩
abbrev main_cst_69 : Ref sig .tc := ⟨.hbm, 418, rfl⟩
abbrev main_v315 : Ref sig .tc := ⟨.hbm, 419, rfl⟩
abbrev main_v316 : Ref sig .tc := ⟨.hbm, 420, rfl⟩
abbrev main_v317 : Ref sig .tc := ⟨.hbm, 421, rfl⟩
abbrev main_v318 : Ref sig .tc := ⟨.hbm, 422, rfl⟩
abbrev main_v319 : Ref sig .tc := ⟨.hbm, 423, rfl⟩
abbrev main_v320 : Ref sig .tc := ⟨.hbm, 424, rfl⟩
abbrev main_v321 : Ref sig .tc := ⟨.hbm, 425, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  bcast_S_S640000 : S_.BroadcastsInDim S640000 (![] : Fin 0 → Fin S640000.rank)
  bcast_S640000_S640000x1_0 : S640000.BroadcastsInDim S640000x1 (![0] : Fin 1 → Fin S640000x1.rank)
  bcast_S_S100000 : S_.BroadcastsInDim S100000 (![] : Fin 0 → Fin S100000.rank)
  bcast_S_S20000 : S_.BroadcastsInDim S20000 (![] : Fin 0 → Fin S20000.rank)
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x1_S1x128x1_0_0_0 : S3x128x1.Slices ![0, 0, 0] S1x128x1
  shapeCasts_S1x128x1_S128x1 : S1x128x1.ShapeCasts S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  slices_S3x128_S1x128_1_0 : S3x128.Slices ![1, 0] S1x128
  slices_S3x128x128_S1x128x128_1_0_0 : S3x128x128.Slices ![1, 0, 0] S1x128x128
  slices_S3x128x1_S1x128x1_1_0_0 : S3x128x1.Slices ![1, 0, 0] S1x128x1
  slices_S3x1_S1x1_1_0 : S3x1.Slices ![1, 0] S1x1
  slices_S3x128_S1x128_2_0 : S3x128.Slices ![2, 0] S1x128
  slices_S3x128x128_S1x128x128_2_0_0 : S3x128x128.Slices ![2, 0, 0] S1x128x128
  slices_S3x128x1_S1x128x1_2_0_0 : S3x128x1.Slices ![2, 0, 0] S1x128x1
  slices_S3x1_S1x1_2_0 : S3x1.Slices ![2, 0] S1x1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  gather_S20000_S640000x1_S640000_n_0_n_n_0_1_1_wf : GatherDims.WF S20000 S640000x1 S640000 [] [0] [] [0] [] 1 ![1]
  scatter_S100000_S640000x1_S640000_n_0_0_1_wf : ScatterDims.WF S100000 S640000x1 S640000 [] [0] [0] 1
  scatter_S20000_S640000x1_S640000_n_0_0_1_wf : ScatterDims.WF S20000 S640000x1 S640000 [] [0] [0] 1
  gather_S100000x128_S640000x1_S640000x128_1_0_n_n_0_1_1128_wf : GatherDims.WF S100000x128 S640000x1 S640000x128 [1] [0] [] [0] [] 1 ![1, 128]
  scatter_S20000x128_S640000x1_S640000x128_1_0_0_1_wf : ScatterDims.WF S20000x128 S640000x1 S640000x128 [1] [0] [0] 1
  gather_S20000x128_S640000x1_S640000x128_1_0_n_n_0_1_1128_wf : GatherDims.WF S20000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1_S100000x1_1_0_0_1_n_n_wf : DotDims.WF S100000x128 S128x1 S100000x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S20000_S640000x1_S640000_n_0_n_n_0_1_1 : GatherDims S20000 S640000x1 S640000 where
  offsetDims := []
  collapsedSliceDims := [0]
  operandBatchingDims := []
  startIndicesBatchingDims := []
  startIndexMap := [0]
  indexVectorDim := 1
  sliceSizes := ![1]
  wf := gather_S20000_S640000x1_S640000_n_0_n_n_0_1_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.K.R0.lean ====
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x256 .f32) (x1 : Vec F S256x128 .f32) (x2 : Vec F S1x128 .f32) : Vec F S5000x128 .f32 :=
  View.canon [⟨r0_3, k0_pay1 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in

theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin_up_kernel i arg1 harg1 arg2 harg2 arg3 harg3 arg4 harg4) K := by
  simp only [cc0__lin_up_kernel_eq_skeleton]; unfold cc0__lin_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.StatsLib.lean ====
import proofs.«415738_j90726889161246_1_alg».proof.Proof.Gen.Kernel
import Idealize.ShloMosaic.Lib.Pipeline.FrameBody
import Idealize.ShloMosaic.Lib.Pipeline.Value

noncomputable section

namespace Cert.Kernel.Hand

open Idealize.ShloMosaic Idealize.SL.Sem
open Cert.Kernel

variable {F : FTy → Type} [FloatOps F]

theorem stats_off_zero : (![0, 0] : Fin 2 → ℕ) = fun _ => 0 := by
  funext a; fin_cases a <;> rfl

theorem stats_read_store_whole {S : Shape} {e : EltTy} {sp : Space} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

theorem stats_readAt_whole {S : Shape} {e : EltTy} {sp : Space} (m : Memref sig .tc sp S e) (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Cert.Kernel.Hand

end
-- ==== Proof.K.StatsRun.lean ====
import proofs.«415738_j90726889161246_1_alg».proof.Proof.K.StatsLib
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

abbrev cond1_2 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_2 : ∀ t : Fin cfg1.N, cond1_2 (grid1.coords t) ↔ t.val = 19 :=
  (by decide +kernel : ∀ t : Fin grid1.N, cond1_2 (grid1.coords t) ↔ t.val = 19)

-- The kernel at the first row block: both running column sums start from nothing.
def RunA (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : cond0 i) (hc2 : ¬cond2 i)
    (x0 : Vec F S5000x128 .f32) (xi1 xi2 : Vec F S1x128 .f32) (E : Set ℕ) (K : PUnit → sProp 𝕄),
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (p4 x0 p1) ∗ owns (c : Thread nD τ) arg5 fullShare (p5 x0 p2)) -∗ K ⟨⟩))
      ⊢ wp frame (wpE (defs₀ (F := F)) Variants.none c none) E (kern i arg1 harg1 arg2 harg2 arg3 harg3 arg4 harg4 arg5 harg5) K

set_option maxHeartbeats 1000000 in
theorem run1_A : RunA (F := F) cc1__stats_kernel cond1_0 cond1_2 k1_pay1 k1_pay2 k1_pay4 k1_pay5 k1_pay6 k1_pay7 := by
  unfold RunA
  intro c i arg1 harg1 arg2 harg2 arg3 harg3 arg4 harg4 arg5 harg5 hc0 hc2 x0 xi1 xi2 E K
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0 | exact hc2)
  sl_step
  sl_unfold_run_names
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [stats_read_store_whole _ _ stats_off_zero, stats_readAt_whole arg1 harg1 x0 stats_off_zero,
      View.readCov_unit_zero arg4.view stats_off_zero]
  iexists _; isplitr
  swap; · iexact H4
  ipureintro
  rw [stats_read_store_whole _ _ stats_off_zero, stats_readAt_whole arg1 harg1 x0 stats_off_zero,
    View.readCov_unit_zero arg5.view stats_off_zero]

-- At a row block in the middle: each running sum gains the block's column sum.
def RunB (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : ¬cond0 i) (hc2 : ¬cond2 i)
    (x0 : Vec F S5000x128 .f32) (xi1 xi2 xs xq : Vec F S1x128 .f32) (E : Set ℕ) (K : PUnit → sProp 𝕄),
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (p4 x0 xs) ∗ owns (c : Thread nD τ) arg5 fullShare (p5 x0 xq)) -∗ K ⟨⟩))
      ⊢ wp frame (wpE (defs₀ (F := F)) Variants.none c none) E (kern i arg1 harg1 arg2 harg2 arg3 harg3 arg4 harg4 arg5 harg5) K

set_option maxHeartbeats 1000000 in
theorem run1_B : RunB (F := F) cc1__stats_kernel cond1_0 cond1_2 k1_pay1 k1_pay2 k1_pay4 k1_pay5 k1_pay6 k1_pay7 := by
  unfold RunB
  intro c i arg1 harg1 arg2 harg2 arg3 harg3 arg4 harg4 arg5 harg5 hc0 hc2 x0 xi1 xi2 xs xq E K
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [stats_read_store_whole _ _ stats_off_zero, stats_readAt_whole arg1 harg1 x0 stats_off_zero,
      stats_readAt_whole arg4 harg4 xs stats_off_zero]
  iexists _; isplitr
  swap; · iexact H4
  ipureintro
  rw [stats_read_store_whole _ _ stats_off_zero, stats_readAt_whole arg1 harg1 x0 stats_off_zero,
    stats_readAt_whole arg5 harg5 xq stats_off_zero]

-- At the last row block: the sums are complete, and the column mean and variance are written from them.
def RunC (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : ¬cond0 i) (hc2 : cond2 i)
    (x0 : Vec F S5000x128 .f32) (xs xq : Vec F S1x128 .f32) (E : Set ℕ) (K : PUnit → sProp 𝕄),
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (p6 (p4 x0 xs))
            ∗ owns (c : Thread nD τ) arg3 fullShare (p7 (p4 x0 xs) (p5 x0 xq))
            ∗ owns (c : Thread nD τ) arg4 fullShare (p4 x0 xs) ∗ owns (c : Thread nD τ) arg5 fullShare (p5 x0 xq)) -∗ K ⟨⟩))
      ⊢ wp frame (wpE (defs₀ (F := F)) Variants.none c none) E (kern i arg1 harg1 arg2 harg2 arg3 harg3 arg4 harg4 arg5 harg5) K

set_option maxHeartbeats 1000000 in
theorem run1_C : RunC (F := F) cc1__stats_kernel cond1_0 cond1_2 k1_pay1 k1_pay2 k1_pay4 k1_pay5 k1_pay6 k1_pay7 := by
  unfold RunC
  intro c i arg1 harg1 arg2 harg2 arg3 harg3 arg4 harg4 arg5 harg5 hc0 hc2 x0 xs xq E K
  simp only [cc1__stats_kernel_eq_skeleton]; unfold cc1__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  obtain rfl := harg1.eq_unread hf0; obtain rfl := harg4.eq_unread hf3; obtain rfl := harg5.eq_unread hf4
  sl_exec (disch := first | exact hc0 | exact hc2)
  sl_step
  sl_unfold_run_names
  iapply Hk
  isplitl [H0]
  · iexists _; isplitr; · ipureintro; exact hf0
    iexact H0
  isplitl [H1]
  · iexists _; isplitr
    swap; · iexact H1
    ipureintro
    rw [stats_read_store_whole _ _ stats_off_zero, View.readCov_unit_zero arg4.view stats_off_zero,
      stats_readAt_whole arg1 harg1 x0 stats_off_zero, stats_readAt_whole arg4 harg4 xs stats_off_zero]
  isplitl [H2]
  · iexists _; isplitr
    swap; · iexact H2
    ipureintro
    rw [stats_read_store_whole _ _ stats_off_zero, View.readCov_unit_zero arg4.view stats_off_zero,
      View.readCov_unit_zero arg5.view stats_off_zero, stats_readAt_whole arg1 harg1 x0 stats_off_zero,
      stats_readAt_whole arg4 harg4 xs stats_off_zero, stats_readAt_whole arg5 harg5 xq stats_off_zero]
  isplitl [H3]
  · iexists _; isplitr
    swap; · iexact H3
    ipureintro
    rw [stats_read_store_whole _ _ stats_off_zero, stats_readAt_whole arg1 harg1 x0 stats_off_zero,
      stats_readAt_whole arg4 harg4 xs stats_off_zero]
  iexists _; isplitr
  swap; · iexact H4
  ipureintro
  rw [stats_read_store_whole _ _ stats_off_zero, stats_readAt_whole arg1 harg1 x0 stats_off_zero,
    stats_readAt_whole arg5 harg5 xq stats_off_zero]

abbrev cond4_0 (i : grid4.Coords) : Prop :=
  (Scalar.cmpi .ne (Scalar.extui (Scalar.cmpi .eq (BitVec.ofNat 32 (i 0).val) 0#32)) 0#32) = 1#1

abbrev cond4_2 (i : grid4.Coords) : Prop := k4_cond2 i = 1#1

theorem hcond4_0 : ∀ t : Fin cfg4.N, cond4_0 (grid4.coords t) ↔ t.val = 0 := hcond1_0
theorem hcond4_2 : ∀ t : Fin cfg4.N, cond4_2 (grid4.coords t) ↔ t.val = 19 := hcond1_2

-- Layers 2 and 3 run the same function as layer 1, so layer 1's three proofs serve them.
theorem run4_A : RunA (F := F) cc4__stats_kernel cond4_0 cond4_2 k4_pay1 k4_pay2 k4_pay4 k4_pay5 k4_pay6 k4_pay7 := run1_A
theorem run4_B : RunB (F := F) cc4__stats_kernel cond4_0 cond4_2 k4_pay1 k4_pay2 k4_pay4 k4_pay5 k4_pay6 k4_pay7 := run1_B
theorem run4_C : RunC (F := F) cc4__stats_kernel cond4_0 cond4_2 k4_pay1 k4_pay2 k4_pay4 k4_pay5 k4_pay6 k4_pay7 := run1_C

abbrev cond7_0 (i : grid7.Coords) : Prop :=
  (Scalar.cmpi .ne (Scalar.extui (Scalar.cmpi .eq (BitVec.ofNat 32 (i 0).val) 0#32)) 0#32) = 1#1

abbrev cond7_2 (i : grid7.Coords) : Prop := k7_cond2 i = 1#1

theorem hcond7_0 : ∀ t : Fin cfg7.N, cond7_0 (grid7.coords t) ↔ t.val = 0 := hcond1_0
theorem hcond7_2 : ∀ t : Fin cfg7.N, cond7_2 (grid7.coords t) ↔ t.val = 19 := hcond1_2

theorem run7_A : RunA (F := F) cc7__stats_kernel cond7_0 cond7_2 k7_pay1 k7_pay2 k7_pay4 k7_pay5 k7_pay6 k7_pay7 := run1_A
theorem run7_B : RunB (F := F) cc7__stats_kernel cond7_0 cond7_2 k7_pay1 k7_pay2 k7_pay4 k7_pay5 k7_pay6 k7_pay7 := run1_B
theorem run7_C : RunC (F := F) cc7__stats_kernel cond7_0 cond7_2 k7_pay1 k7_pay2 k7_pay4 k7_pay5 k7_pay6 k7_pay7 := run1_C

end Cert.Kernel.Hand

end
-- ==== Proof.K.R1.lean ====
import proofs.«415738_j90726889161246_1_alg».proof.Proof.K.StatsRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sumAt1 (c : Dev nD) : ℕ → Vec F S1x128 .f32
  | 0 => if h : 0 < cfg1.N then k1_pay4 (iblk1 V c 0 ⟨0, h⟩) (k1_pay1 (F := F)) else k1_pay1 (F := F)
  | n + 1 => if h : n + 1 < cfg1.N then k1_pay4 (iblk1 V c 0 ⟨n + 1, h⟩) (sumAt1 c n) else sumAt1 c n

def sqAt1 (c : Dev nD) : ℕ → Vec F S1x128 .f32
  | 0 => if h : 0 < cfg1.N then k1_pay5 (iblk1 V c 0 ⟨0, h⟩) (k1_pay2 (F := F)) else k1_pay2 (F := F)
  | n + 1 => if h : n + 1 < cfg1.N then k1_pay5 (iblk1 V c 0 ⟨n + 1, h⟩) (sqAt1 c n) else sqAt1 c n

theorem sumAt1_zero (c : Dev nD) (h : 0 < cfg1.N) :
    sumAt1 V c 0 = k1_pay4 (iblk1 V c 0 ⟨0, h⟩) (k1_pay1 (F := F)) := dif_pos h
theorem sumAt1_succ (c : Dev nD) (n : ℕ) (h : n + 1 < cfg1.N) :
    sumAt1 V c (n + 1) = k1_pay4 (iblk1 V c 0 ⟨n + 1, h⟩) (sumAt1 V c n) := dif_pos h
theorem sqAt1_zero (c : Dev nD) (h : 0 < cfg1.N) :
    sqAt1 V c 0 = k1_pay5 (iblk1 V c 0 ⟨0, h⟩) (k1_pay2 (F := F)) := dif_pos h
theorem sqAt1_succ (c : Dev nD) (n : ℕ) (h : n + 1 < cfg1.N) :
    sqAt1 V c (n + 1) = k1_pay5 (iblk1 V c 0 ⟨n + 1, h⟩) (sqAt1 V c n) := dif_pos h

abbrev scS1 : Memref sig .tc .vmem S1x128 .f32 := Memref.whole cc1_scratch0
abbrev scQ1 : Memref sig .tc .vmem S1x128 .f32 := Memref.whole cc1_scratch1

def Phi1 (c : Dev nD) : ℕ → sProp 𝕄
  | 0 => iprop((∃ r, prngReg c r) ∗ Pipeline.scopedRest (Ix := Unit) (Name := ℕ) (U := UR sig nD τ) (Lvl := ℕ) (Val := Elt F) spec1 c)
  | n + 1 => iprop(owns (c : Thread nD τ) scS1 fullShare (sumAt1 V c n) ∗ owns (c : Thread nD τ) scQ1 fullShare (sqAt1 V c n)
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (sumAt1 V c t.val)
    | ⟨2, _⟩ => k1_pay7 (sumAt1 V c t.val) (sqAt1 V c t.val)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay6 (sumAt1 V c t.val) := by dsimp only [dat1]
theorem after1_2 (c : Dev nD) (t : Fin cfg1.N) :
    (dat1 V c).after 2 t = k1_pay7 (sumAt1 V c t.val) (sqAt1 V c t.val) := by dsimp only [dat1]
theorem Phi_eq1 (c : Dev nD) (t : Fin (cfg1.N + 1)) : (dat1 V c).Φ t = Phi1 V c t.val := by dsimp only [dat1]

theorem Phi1_zero_eq (c : Dev nD) :
    Phi1 V c 0 = iprop((∃ r, prngReg c r) ∗ (iprop((∃ d, owns (c : Thread nD τ) scS1 fullShare d) ∗ (∃ d, owns (c : Thread nD τ) scQ1 fullShare d))
      ∗ Pipeline.scopedRestBut (Ix := Unit) (Name := ℕ) (U := UR sig nD τ) (Lvl := ℕ) (Val := Elt F) spec1 c [cc1_scratch0, cc1_scratch1])) := by
  show iprop((∃ r, prngReg c r) ∗ Pipeline.scopedRest (Ix := Unit) (Name := ℕ) (U := UR sig nD τ) (Lvl := ℕ) (Val := Elt F) spec1 c) = _
  rw [scopedRest1_split]; simp only [scS1, scQ1, owns_whole]; rfl

theorem Phi1_succ (c : Dev nD) (n : ℕ) :
    Phi1 V c (n + 1) = iprop(owns (c : Thread nD τ) scS1 fullShare (sumAt1 V c n) ∗ owns (c : Thread nD τ) scQ1 fullShare (sqAt1 V c n)
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_forget (c : Dev nD) (n : ℕ) : Phi1 V c (n + 1) ⊢ Phi1 V c 0 := by
  rw [Phi1_zero_eq, Phi1_succ]
  iintro ⟨HS, HQ, HR, Hg⟩
  isplitl [Hg]; · iexact Hg
  isplitl [HS HQ]
  · isplitl [HS]; · iexists _; iexact HS
    iexists _; iexact HQ
  iexact HR

theorem liveAt1_0 : ∀ t : Fin cfg1.N, cfg1.idle 0 (grid1.coords t) = false := by decide +kernel

theorem idleAt1_1 : ∀ t : Fin cfg1.N, ¬cond1_2 (grid1.coords t) → cfg1.idle 1 (grid1.coords t) = true := by decide +kernel
theorem idleAt1_2 : ∀ t : Fin cfg1.N, ¬cond1_2 (grid1.coords t) → cfg1.idle 2 (grid1.coords t) = true := by decide +kernel
theorem noFlush1_1 : ∀ t : Fin cfg1.N, ¬cond1_2 (grid1.coords t) → (cfg1.win 1).flush t = false := by decide +kernel
theorem noFlush1_2 : ∀ t : Fin cfg1.N, ¬cond1_2 (grid1.coords t) → (cfg1.win 2).flush t = false := by decide +kernel

theorem liveAt1_1 : ∀ t : Fin cfg1.N, cond1_2 (grid1.coords t) → cfg1.idle 1 (grid1.coords t) = false := by decide +kernel
theorem liveAt1_2 : ∀ t : Fin cfg1.N, cond1_2 (grid1.coords t) → cfg1.idle 2 (grid1.coords t) = false := by decide +kernel

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [liveAt1_0 t], after1_0]
  rw [Phi_eq1, Phi_eq1, Fin.coe_castSucc, Fin.val_succ]
  obtain ⟨tv, ht⟩ := t
  cases tv with
  | zero =>
    have hc0 : cond1_0 (grid1.coords ⟨0, ht⟩) := (hcond1_0 ⟨0, ht⟩).mpr rfl
    have hc2 : ¬cond1_2 (grid1.coords ⟨0, ht⟩) := fun h => absurd ((hcond1_2 ⟨0, ht⟩).mp h) (by decide : ¬(0 : ℕ) = 19)
    rw [Dat.leavesExact_idle (dat1 V c) 1 ⟨0, ht⟩ (idleAt1_1 _ hc2) (noFlush1_1 _ hc2),
      Dat.leavesExact_idle (dat1 V c) 2 ⟨0, ht⟩ (idleAt1_2 _ hc2) (noFlush1_2 _ hc2)]
    rw [Phi1_zero_eq, Phi1_succ, sumAt1_zero V c ht, sqAt1_zero V c ht]
    iintro ⟨⟨Hg, ⟨HS, HQ⟩, HR⟩, Ho, ⟨%d0, H0⟩, ⟨%d1, H1⟩, ⟨%d2, H2⟩⟩
    iapply (run1_A c (grid1.coords ⟨0, ht⟩) _ _ _ _ _ _ _ _ _ _ hc0 hc2 (iblk1 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond1_0 (grid1.coords ⟨n + 1, ht⟩) := fun h => absurd ((hcond1_0 ⟨n + 1, ht⟩).mp h) (Nat.succ_ne_zero n)
    by_cases h2 : n + 1 = 19
    · have hc2 : cond1_2 (grid1.coords ⟨n + 1, ht⟩) := (hcond1_2 ⟨n + 1, ht⟩).mpr h2
      rw [show (dat1 V c).leavesExact 1 ⟨n + 1, ht⟩ = owns (c : Thread nD τ) (st1_1 ⟨n + 1, ht⟩) fullShare ((dat1 V c).after 1 ⟨n + 1, ht⟩) from by
          unfold Dat.leavesExact; rw [liveAt1_1 _ hc2], after1_1]
      rw [show (dat1 V c).leavesExact 2 ⟨n + 1, ht⟩ = owns (c : Thread nD τ) (st1_2 ⟨n + 1, ht⟩) fullShare ((dat1 V c).after 2 ⟨n + 1, ht⟩) from by
          unfold Dat.leavesExact; rw [liveAt1_2 _ hc2], after1_2]
      rw [Phi1_succ V c n, Phi1_succ V c (n + 1), sumAt1_succ V c n ht, sqAt1_succ V c n ht]
      iintro ⟨⟨HS, HQ, HR, Hg⟩, Ho, ⟨%d0, H0⟩, ⟨%d1, H1⟩, ⟨%d2, H2⟩⟩
      iapply (run1_C c (grid1.coords ⟨n + 1, ht⟩) _ _ _ _ _ _ _ _ _ _ hc0 hc2 (iblk1 V c 0 ⟨n + 1, ht⟩) (sumAt1 V c n) (sqAt1 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond1_2 (grid1.coords ⟨n + 1, ht⟩) := fun h => h2 ((hcond1_2 ⟨n + 1, ht⟩).mp h)
      rw [Dat.leavesExact_idle (dat1 V c) 1 ⟨n + 1, ht⟩ (idleAt1_1 _ hc2) (noFlush1_1 _ hc2),
        Dat.leavesExact_idle (dat1 V c) 2 ⟨n + 1, ht⟩ (idleAt1_2 _ hc2) (noFlush1_2 _ hc2)]
      rw [Phi1_succ V c n, Phi1_succ V c (n + 1), sumAt1_succ V c n ht, sqAt1_succ V c n ht]
      iintro ⟨⟨HS, HQ, HR, Hg⟩, Ho, ⟨%d0, H0⟩, ⟨%d1, H1⟩, ⟨%d2, H2⟩⟩
      iapply (run1_B c (grid1.coords ⟨n + 1, ht⟩) _ _ _ _ _ _ _ _ _ _ hc0 hc2 (iblk1 V c 0 ⟨n + 1, ht⟩) _ _ (sumAt1 V c n) (sqAt1 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [Phi_eq1]; exact Idealize.SL.BI.Entails.refl _
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Phi_eq1, show (Fin.last cfg1.N).val = 19 + 1 from N_1]
  exact Phi1_forget V c 19

end Cert.Kernel.Hand

end
-- ==== Proof.K.BnRun.lean ====
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rect2_blk : Rect S5000x128 := Rect.unit (s := S5000x128) ![0, 0] S5000x128.size inb_S5000x128_S5000x128_0_0
abbrev rect2_row : Rect S1x128 := Rect.unit (s := S1x128) ![0, 0] S1x128.size inb_S1x128_S1x128_0_0
abbrev rect2_mat : Rect S128x128 := Rect.unit (s := S128x128) ![0, 0] S128x128.size inb_S128x128_S128x128_0_0

def out2_6 (x0 : Vec F S5000x128 .f32) (x1 x2 x3 x4 : Vec F S1x128 .f32) (x5 : Vec F S128x128 .f32) : Vec F S5000x128 .f32 :=
  View.canon [⟨rect2_blk, k2_pay1 (View.ld x0 rect2_blk) (View.ld x1 rect2_row) (View.ld x2 rect2_row) (View.ld x3 rect2_row)
    (View.ld x4 rect2_row) (View.ld x5 rect2_mat)⟩]

theorem cover2_6 (p0 : Vec F S5000x128 .f32) (y : S5000x128.Idx) :
    ∃ pc ∈ ([⟨rect2_blk, p0⟩] : List (View.Piece (Elt F) S5000x128 .f32)), y ∈ pc.1.set :=
  View.cover_of_tiled [⟨rect2_blk, p0⟩] S5000x128.size (by rfl) y

def BnTriple (kern : type_of% (@cc2__bn_matmul_kernel F _)) (out : type_of% (@out2_6 F _)) : Prop :=
  ∀ (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S5000x128 .f32) (harg6 : arg6.IsWhole)
    (x0 : Vec F S5000x128 .f32) (x1 x2 x3 x4 : Vec F S1x128 .f32) (x5 : Vec F S128x128 .f32) (K : PUnit → sProp 𝕄),
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out x0 x1 x2 x3 x4 x5)) -∗ K ⟨⟩))
      ⊢ wp frame (wpE (defs₀ (F := F)) Variants.none c none) E
          (kern i arg0 harg0 arg1 harg1 arg2 harg2 arg3 harg3 arg4 harg4 arg5 harg5 arg6 harg6) K

set_option maxHeartbeats 1000000 in
theorem sound_kernel2 : BnTriple (F := F) cc2__bn_matmul_kernel out2_6 := by
  unfold BnTriple
  intro c E i arg0 harg0 arg1 harg1 arg2 harg2 arg3 harg3 arg4 harg4 arg5 harg5 arg6 harg6 x0 x1 x2 x3 x4 x5 K
  simp only [cc2__bn_matmul_kernel_eq_skeleton]; unfold cc2__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def out5_6 (x0 : Vec F S5000x128 .f32) (x1 x2 x3 x4 : Vec F S1x128 .f32) (x5 : Vec F S128x128 .f32) : Vec F S5000x128 .f32 :=
  View.canon [⟨rect2_blk, k5_pay1 (View.ld x0 rect2_blk) (View.ld x1 rect2_row) (View.ld x2 rect2_row) (View.ld x3 rect2_row)
    (View.ld x4 rect2_row) (View.ld x5 rect2_mat)⟩]

-- The same function as layer 1's.
theorem sound_kernel5 : BnTriple (F := F) cc5__bn_matmul_kernel out5_6 := sound_kernel2

def out8_6 (x0 : Vec F S5000x128 .f32) (x1 x2 x3 x4 : Vec F S1x128 .f32) (x5 : Vec F S128x128 .f32) : Vec F S5000x128 .f32 :=
  View.canon [⟨rect2_blk, k8_pay1 (View.ld x0 rect2_blk) (View.ld x1 rect2_row) (View.ld x2 rect2_row) (View.ld x3 rect2_row)
    (View.ld x4 rect2_row) (View.ld x5 rect2_mat)⟩]

theorem sound_kernel8 : BnTriple (F := F) cc8__bn_matmul_kernel out8_6 := sound_kernel2

end Cert.Kernel.Hand

end
-- ==== Proof.K.R2.lean ====
import proofs.«415738_j90726889161246_1_alg».proof.Proof.K.BnRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.GateRun.lean ====
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev full3 : Rect S5000x128 := Rect.unit (s := S5000x128) ![0, 0] S5000x128.size inb_S5000x128_S5000x128_0_0

abbrev col3 : Rect S5000x1 := Rect.unit (s := S5000x1) ![0, 0] S5000x1.size inb_S5000x1_S5000x1_0_0

def out3_3 (x0 x1 : Vec F S5000x128 .f32) (x2 : Vec F S5000x1 .f32) : Vec F S5000x128 .f32 :=
  View.canon [⟨full3, k3_pay1 (View.ld x0 full3) (View.ld x2 col3) (View.ld x1 full3)⟩]

theorem cover3_3 (p : Vec F S5000x128 .f32) (y : S5000x128.Idx) :
    ∃ pc ∈ ([⟨full3, p⟩] : List (View.Piece (Elt F) S5000x128 .f32)), y ∈ pc.1.set :=
  View.cover_of_tiled [⟨full3, p⟩] S5000x128.size (by rfl) y

def GateTriple (kern : type_of% (@cc3__gate_resid_kernel F _)) (out : type_of% (@out3_3 F _)) : Prop :=
  ∀ (c : Dev nD) (E : Set ℕ) (i : grid3.Coords)
    (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x128 .f32) (h4 : a4.IsWhole)
    (x0 x1 : Vec F S5000x128 .f32) (x2 : Vec F S5000x1 .f32) (K : PUnit → sProp 𝕄),
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out x0 x1 x2)) -∗ K ⟨⟩))
      ⊢ wp frame (wpE (defs₀ (F := F)) Variants.none c none) E (kern i a1 h1 a2 h2 a3 h3 a4 h4) K

set_option maxHeartbeats 1000000 in
theorem kernel_triple3 : GateTriple (F := F) cc3__gate_resid_kernel out3_3 := by
  unfold GateTriple
  intro c E i a1 h1 a2 h2 a3 h3 a4 h4 x0 x1 x2 K
  simp only [cc3__gate_resid_kernel_eq_skeleton]; unfold cc3__gate_resid_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def out6_3 (x0 x1 : Vec F S5000x128 .f32) (x2 : Vec F S5000x1 .f32) : Vec F S5000x128 .f32 :=
  View.canon [⟨full3, k6_pay1 (View.ld x0 full3) (View.ld x2 col3) (View.ld x1 full3)⟩]

-- The same function as layer 1's.
theorem kernel_triple6 : GateTriple (F := F) cc6__gate_resid_kernel out6_3 := kernel_triple3

def out9_3 (x0 x1 : Vec F S5000x128 .f32) (x2 : Vec F S5000x1 .f32) : Vec F S5000x128 .f32 :=
  View.canon [⟨full3, k9_pay1 (View.ld x0 full3) (View.ld x2 col3) (View.ld x1 full3)⟩]

theorem kernel_triple9 : GateTriple (F := F) cc9__gate_resid_kernel out9_3 := kernel_triple3

end Cert.Kernel.Hand

end
-- ==== Proof.K.R3.lean ====
import proofs.«415738_j90726889161246_1_alg».proof.Proof.K.GateRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body_triple3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact body_triple3 V c t

end Cert.Kernel.Hand

end
-- ==== Proof.K.R4.lean ====
import proofs.«415738_j90726889161246_1_alg».proof.Proof.K.StatsRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sumAt4 (c : Dev nD) : ℕ → Vec F S1x128 .f32
  | 0 => if h : 0 < cfg4.N then k4_pay4 (iblk4 V c 0 ⟨0, h⟩) (k4_pay1 (F := F)) else k4_pay1 (F := F)
  | n + 1 => if h : n + 1 < cfg4.N then k4_pay4 (iblk4 V c 0 ⟨n + 1, h⟩) (sumAt4 c n) else sumAt4 c n

def sqAt4 (c : Dev nD) : ℕ → Vec F S1x128 .f32
  | 0 => if h : 0 < cfg4.N then k4_pay5 (iblk4 V c 0 ⟨0, h⟩) (k4_pay2 (F := F)) else k4_pay2 (F := F)
  | n + 1 => if h : n + 1 < cfg4.N then k4_pay5 (iblk4 V c 0 ⟨n + 1, h⟩) (sqAt4 c n) else sqAt4 c n

theorem sumAt4_zero (c : Dev nD) (h : 0 < cfg4.N) :
    sumAt4 V c 0 = k4_pay4 (iblk4 V c 0 ⟨0, h⟩) (k4_pay1 (F := F)) := dif_pos h
theorem sumAt4_succ (c : Dev nD) (n : ℕ) (h : n + 1 < cfg4.N) :
    sumAt4 V c (n + 1) = k4_pay4 (iblk4 V c 0 ⟨n + 1, h⟩) (sumAt4 V c n) := dif_pos h
theorem sqAt4_zero (c : Dev nD) (h : 0 < cfg4.N) :
    sqAt4 V c 0 = k4_pay5 (iblk4 V c 0 ⟨0, h⟩) (k4_pay2 (F := F)) := dif_pos h
theorem sqAt4_succ (c : Dev nD) (n : ℕ) (h : n + 1 < cfg4.N) :
    sqAt4 V c (n + 1) = k4_pay5 (iblk4 V c 0 ⟨n + 1, h⟩) (sqAt4 V c n) := dif_pos h

abbrev scS4 : Memref sig .tc .vmem S1x128 .f32 := Memref.whole cc4_scratch0
abbrev scQ4 : Memref sig .tc .vmem S1x128 .f32 := Memref.whole cc4_scratch1

def Phi4 (c : Dev nD) : ℕ → sProp 𝕄
  | 0 => iprop((∃ r, prngReg c r) ∗ Pipeline.scopedRest (Ix := Unit) (Name := ℕ) (U := UR sig nD τ) (Lvl := ℕ) (Val := Elt F) spec4 c)
  | n + 1 => iprop(owns (c : Thread nD τ) scS4 fullShare (sumAt4 V c n) ∗ owns (c : Thread nD τ) scQ4 fullShare (sqAt4 V c n)
      ∗ Pipeline.scopedRestBut (Ix := Unit) (Name := ℕ) (U := UR sig nD τ) (Lvl := ℕ) (Val := Elt F) spec4 c [cc4_scratch0, cc4_scratch1]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (sumAt4 V c t.val)
    | ⟨2, _⟩ => k4_pay7 (sumAt4 V c t.val) (sqAt4 V c t.val)
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = k4_pay6 (sumAt4 V c t.val) := by dsimp only [dat4]
theorem after4_2 (c : Dev nD) (t : Fin cfg4.N) :
    (dat4 V c).after 2 t = k4_pay7 (sumAt4 V c t.val) (sqAt4 V c t.val) := by dsimp only [dat4]
theorem Phi_eq4 (c : Dev nD) (t : Fin (cfg4.N + 1)) : (dat4 V c).Φ t = Phi4 V c t.val := by dsimp only [dat4]

theorem Phi4_zero_eq (c : Dev nD) :
    Phi4 V c 0 = iprop((∃ r, prngReg c r) ∗ (iprop((∃ d, owns (c : Thread nD τ) scS4 fullShare d) ∗ (∃ d, owns (c : Thread nD τ) scQ4 fullShare d))
      ∗ Pipeline.scopedRestBut (Ix := Unit) (Name := ℕ) (U := UR sig nD τ) (Lvl := ℕ) (Val := Elt F) spec4 c [cc4_scratch0, cc4_scratch1])) := by
  show iprop((∃ r, prngReg c r) ∗ Pipeline.scopedRest (Ix := Unit) (Name := ℕ) (U := UR sig nD τ) (Lvl := ℕ) (Val := Elt F) spec4 c) = _
  rw [scopedRest4_split]; simp only [scS4, scQ4, owns_whole]; rfl

theorem Phi4_succ (c : Dev nD) (n : ℕ) :
    Phi4 V c (n + 1) = iprop(owns (c : Thread nD τ) scS4 fullShare (sumAt4 V c n) ∗ owns (c : Thread nD τ) scQ4 fullShare (sqAt4 V c n)
      ∗ Pipeline.scopedRestBut (Ix := Unit) (Name := ℕ) (U := UR sig nD τ) (Lvl := ℕ) (Val := Elt F) spec4 c [cc4_scratch0, cc4_scratch1]
      ∗ (∃ r, prngReg c r)) := rfl

theorem Phi4_forget (c : Dev nD) (n : ℕ) : Phi4 V c (n + 1) ⊢ Phi4 V c 0 := by
  rw [Phi4_zero_eq, Phi4_succ]
  iintro ⟨HS, HQ, HR, Hg⟩
  isplitl [Hg]; · iexact Hg
  isplitl [HS HQ]
  · isplitl [HS]; · iexists _; iexact HS
    iexists _; iexact HQ
  iexact HR

theorem liveAt4_0 : ∀ t : Fin cfg4.N, cfg4.idle 0 (grid4.coords t) = false := by decide +kernel

theorem idleAt4_1 : ∀ t : Fin cfg4.N, ¬cond4_2 (grid4.coords t) → cfg4.idle 1 (grid4.coords t) = true := by decide +kernel
theorem idleAt4_2 : ∀ t : Fin cfg4.N, ¬cond4_2 (grid4.coords t) → cfg4.idle 2 (grid4.coords t) = true := by decide +kernel
theorem noFlush4_1 : ∀ t : Fin cfg4.N, ¬cond4_2 (grid4.coords t) → (cfg4.win 1).flush t = false := by decide +kernel
theorem noFlush4_2 : ∀ t : Fin cfg4.N, ¬cond4_2 (grid4.coords t) → (cfg4.win 2).flush t = false := by decide +kernel

theorem liveAt4_1 : ∀ t : Fin cfg4.N, cond4_2 (grid4.coords t) → cfg4.idle 1 (grid4.coords t) = false := by decide +kernel
theorem liveAt4_2 : ∀ t : Fin cfg4.N, cond4_2 (grid4.coords t) → cfg4.idle 2 (grid4.coords t) = false := by decide +kernel

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
      unfold Dat.leavesExact; rw [liveAt4_0 t], after4_0]
  rw [Phi_eq4, Phi_eq4, Fin.coe_castSucc, Fin.val_succ]
  obtain ⟨tv, ht⟩ := t
  cases tv with
  | zero =>
    have hc0 : cond4_0 (grid4.coords ⟨0, ht⟩) := (hcond4_0 ⟨0, ht⟩).mpr rfl
    have hc2 : ¬cond4_2 (grid4.coords ⟨0, ht⟩) := fun h => absurd ((hcond4_2 ⟨0, ht⟩).mp h) (by decide : ¬(0 : ℕ) = 19)
    rw [Dat.leavesExact_idle (dat4 V c) 1 ⟨0, ht⟩ (idleAt4_1 _ hc2) (noFlush4_1 _ hc2),
      Dat.leavesExact_idle (dat4 V c) 2 ⟨0, ht⟩ (idleAt4_2 _ hc2) (noFlush4_2 _ hc2)]
    rw [Phi4_zero_eq, Phi4_succ, sumAt4_zero V c ht, sqAt4_zero V c ht]
    iintro ⟨⟨Hg, ⟨HS, HQ⟩, HR⟩, Ho, ⟨%d0, H0⟩, ⟨%d1, H1⟩, ⟨%d2, H2⟩⟩
    iapply (run4_A c (grid4.coords ⟨0, ht⟩) _ _ _ _ _ _ _ _ _ _ hc0 hc2 (iblk4 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond4_0 (grid4.coords ⟨n + 1, ht⟩) := fun h => absurd ((hcond4_0 ⟨n + 1, ht⟩).mp h) (Nat.succ_ne_zero n)
    by_cases h2 : n + 1 = 19
    · have hc2 : cond4_2 (grid4.coords ⟨n + 1, ht⟩) := (hcond4_2 ⟨n + 1, ht⟩).mpr h2
      rw [show (dat4 V c).leavesExact 1 ⟨n + 1, ht⟩ = owns (c : Thread nD τ) (st4_1 ⟨n + 1, ht⟩) fullShare ((dat4 V c).after 1 ⟨n + 1, ht⟩) from by
          unfold Dat.leavesExact; rw [liveAt4_1 _ hc2], after4_1]
      rw [show (dat4 V c).leavesExact 2 ⟨n + 1, ht⟩ = owns (c : Thread nD τ) (st4_2 ⟨n + 1, ht⟩) fullShare ((dat4 V c).after 2 ⟨n + 1, ht⟩) from by
          unfold Dat.leavesExact; rw [liveAt4_2 _ hc2], after4_2]
      rw [Phi4_succ V c n, Phi4_succ V c (n + 1), sumAt4_succ V c n ht, sqAt4_succ V c n ht]
      iintro ⟨⟨HS, HQ, HR, Hg⟩, Ho, ⟨%d0, H0⟩, ⟨%d1, H1⟩, ⟨%d2, H2⟩⟩
      iapply (run4_C c (grid4.coords ⟨n + 1, ht⟩) _ _ _ _ _ _ _ _ _ _ hc0 hc2 (iblk4 V c 0 ⟨n + 1, ht⟩) (sumAt4 V c n) (sqAt4 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond4_2 (grid4.coords ⟨n + 1, ht⟩) := fun h => h2 ((hcond4_2 ⟨n + 1, ht⟩).mp h)
      rw [Dat.leavesExact_idle (dat4 V c) 1 ⟨n + 1, ht⟩ (idleAt4_1 _ hc2) (noFlush4_1 _ hc2),
        Dat.leavesExact_idle (dat4 V c) 2 ⟨n + 1, ht⟩ (idleAt4_2 _ hc2) (noFlush4_2 _ hc2)]
      rw [Phi4_succ V c n, Phi4_succ V c (n + 1), sumAt4_succ V c n ht, sqAt4_succ V c n ht]
      iintro ⟨⟨HS, HQ, HR, Hg⟩, Ho, ⟨%d0, H0⟩, ⟨%d1, H1⟩, ⟨%d2, H2⟩⟩
      iapply (run4_B c (grid4.coords ⟨n + 1, ht⟩) _ _ _ _ _ _ _ _ _ _ hc0 hc2 (iblk4 V c 0 ⟨n + 1, ht⟩) _ _ (sumAt4 V c n) (sqAt4 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [Phi_eq4]; exact Idealize.SL.BI.Entails.refl _
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [Phi_eq4, show (Fin.last cfg4.N).val = 19 + 1 from N_4]
  exact Phi4_forget V c 19

end Cert.Kernel.Hand

end
-- ==== Proof.K.R5.lean ====
import proofs.«415738_j90726889161246_1_alg».proof.Proof.K.BnRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.R6.lean ====
import proofs.«415738_j90726889161246_1_alg».proof.Proof.K.GateRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def post6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem body_triple6 (c : Dev nD) (t : Fin cfg6.N) :
    pre6 V c t ⊢ wp frame (wpE (defs₀ (F := F)) Variants.none c none) Set.univ (bodyAt6 t) (fun _ => post6 V c t) := by
  unfold pre6 post6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (kernel_triple6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact body_triple6 V c t

end Cert.Kernel.Hand

end
-- ==== Proof.K.R7.lean ====
import proofs.«415738_j90726889161246_1_alg».proof.Proof.K.StatsRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sumAt7 (c : Dev nD) : ℕ → Vec F S1x128 .f32
  | 0 => if h : 0 < cfg7.N then k7_pay4 (iblk7 V c 0 ⟨0, h⟩) (k7_pay1 (F := F)) else k7_pay1 (F := F)
  | n + 1 => if h : n + 1 < cfg7.N then k7_pay4 (iblk7 V c 0 ⟨n + 1, h⟩) (sumAt7 c n) else sumAt7 c n

def sqAt7 (c : Dev nD) : ℕ → Vec F S1x128 .f32
  | 0 => if h : 0 < cfg7.N then k7_pay5 (iblk7 V c 0 ⟨0, h⟩) (k7_pay2 (F := F)) else k7_pay2 (F := F)
  | n + 1 => if h : n + 1 < cfg7.N then k7_pay5 (iblk7 V c 0 ⟨n + 1, h⟩) (sqAt7 c n) else sqAt7 c n

theorem sumAt7_zero (c : Dev nD) (h : 0 < cfg7.N) :
    sumAt7 V c 0 = k7_pay4 (iblk7 V c 0 ⟨0, h⟩) (k7_pay1 (F := F)) := dif_pos h
theorem sumAt7_succ (c : Dev nD) (n : ℕ) (h : n + 1 < cfg7.N) :
    sumAt7 V c (n + 1) = k7_pay4 (iblk7 V c 0 ⟨n + 1, h⟩) (sumAt7 V c n) := dif_pos h
theorem sqAt7_zero (c : Dev nD) (h : 0 < cfg7.N) :
    sqAt7 V c 0 = k7_pay5 (iblk7 V c 0 ⟨0, h⟩) (k7_pay2 (F := F)) := dif_pos h
theorem sqAt7_succ (c : Dev nD) (n : ℕ) (h : n + 1 < cfg7.N) :
    sqAt7 V c (n + 1) = k7_pay5 (iblk7 V c 0 ⟨n + 1, h⟩) (sqAt7 V c n) := dif_pos h

abbrev scS7 : Memref sig .tc .vmem S1x128 .f32 := Memref.whole cc7_scratch0
abbrev scQ7 : Memref sig .tc .vmem S1x128 .f32 := Memref.whole cc7_scratch1

def Phi7 (c : Dev nD) : ℕ → sProp 𝕄
  | 0 => iprop((∃ r, prngReg c r) ∗ Pipeline.scopedRest (Ix := Unit) (Name := ℕ) (U := UR sig nD τ) (Lvl := ℕ) (Val := Elt F) spec7 c)
  | n + 1 => iprop(owns (c : Thread nD τ) scS7 fullShare (sumAt7 V c n) ∗ owns (c : Thread nD τ) scQ7 fullShare (sqAt7 V c n)
      ∗ Pipeline.scopedRestBut (Ix := Unit) (Name := ℕ) (U := UR sig nD τ) (Lvl := ℕ) (Val := Elt F) spec7 c [cc7_scratch0, cc7_scratch1]
      ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => k7_pay6 (sumAt7 V c t.val)
    | ⟨2, _⟩ => k7_pay7 (sumAt7 V c t.val) (sqAt7 V c t.val)
  Φ t := Phi7 V c t.val
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = k7_pay6 (sumAt7 V c t.val) := by dsimp only [dat7]
theorem after7_2 (c : Dev nD) (t : Fin cfg7.N) :
    (dat7 V c).after 2 t = k7_pay7 (sumAt7 V c t.val) (sqAt7 V c t.val) := by dsimp only [dat7]
theorem Phi_eq7 (c : Dev nD) (t : Fin (cfg7.N + 1)) : (dat7 V c).Φ t = Phi7 V c t.val := by dsimp only [dat7]

theorem Phi7_zero_eq (c : Dev nD) :
    Phi7 V c 0 = iprop((∃ r, prngReg c r) ∗ (iprop((∃ d, owns (c : Thread nD τ) scS7 fullShare d) ∗ (∃ d, owns (c : Thread nD τ) scQ7 fullShare d))
      ∗ Pipeline.scopedRestBut (Ix := Unit) (Name := ℕ) (U := UR sig nD τ) (Lvl := ℕ) (Val := Elt F) spec7 c [cc7_scratch0, cc7_scratch1])) := by
  show iprop((∃ r, prngReg c r) ∗ Pipeline.scopedRest (Ix := Unit) (Name := ℕ) (U := UR sig nD τ) (Lvl := ℕ) (Val := Elt F) spec7 c) = _
  rw [scopedRest7_split]; simp only [scS7, scQ7, owns_whole]; rfl

theorem Phi7_succ (c : Dev nD) (n : ℕ) :
    Phi7 V c (n + 1) = iprop(owns (c : Thread nD τ) scS7 fullShare (sumAt7 V c n) ∗ owns (c : Thread nD τ) scQ7 fullShare (sqAt7 V c n)
      ∗ Pipeline.scopedRestBut (Ix := Unit) (Name := ℕ) (U := UR sig nD τ) (Lvl := ℕ) (Val := Elt F) spec7 c [cc7_scratch0, cc7_scratch1]
      ∗ (∃ r, prngReg c r)) := rfl

theorem Phi7_forget (c : Dev nD) (n : ℕ) : Phi7 V c (n + 1) ⊢ Phi7 V c 0 := by
  rw [Phi7_zero_eq, Phi7_succ]
  iintro ⟨HS, HQ, HR, Hg⟩
  isplitl [Hg]; · iexact Hg
  isplitl [HS HQ]
  · isplitl [HS]; · iexists _; iexact HS
    iexists _; iexact HQ
  iexact HR

theorem liveAt7_0 : ∀ t : Fin cfg7.N, cfg7.idle 0 (grid7.coords t) = false := by decide +kernel

theorem idleAt7_1 : ∀ t : Fin cfg7.N, ¬cond7_2 (grid7.coords t) → cfg7.idle 1 (grid7.coords t) = true := by decide +kernel
theorem idleAt7_2 : ∀ t : Fin cfg7.N, ¬cond7_2 (grid7.coords t) → cfg7.idle 2 (grid7.coords t) = true := by decide +kernel
theorem noFlush7_1 : ∀ t : Fin cfg7.N, ¬cond7_2 (grid7.coords t) → (cfg7.win 1).flush t = false := by decide +kernel
theorem noFlush7_2 : ∀ t : Fin cfg7.N, ¬cond7_2 (grid7.coords t) → (cfg7.win 2).flush t = false := by decide +kernel

theorem liveAt7_1 : ∀ t : Fin cfg7.N, cond7_2 (grid7.coords t) → cfg7.idle 1 (grid7.coords t) = false := by decide +kernel
theorem liveAt7_2 : ∀ t : Fin cfg7.N, cond7_2 (grid7.coords t) → cfg7.idle 2 (grid7.coords t) = false := by decide +kernel

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).leavesExact 0 t = owns (c : Thread nD τ) (st7_0 t) fullShare ((dat7 V c).after 0 t) from by
      unfold Dat.leavesExact; rw [liveAt7_0 t], after7_0]
  rw [Phi_eq7, Phi_eq7, Fin.coe_castSucc, Fin.val_succ]
  obtain ⟨tv, ht⟩ := t
  cases tv with
  | zero =>
    have hc0 : cond7_0 (grid7.coords ⟨0, ht⟩) := (hcond7_0 ⟨0, ht⟩).mpr rfl
    have hc2 : ¬cond7_2 (grid7.coords ⟨0, ht⟩) := fun h => absurd ((hcond7_2 ⟨0, ht⟩).mp h) (by decide : ¬(0 : ℕ) = 19)
    rw [Dat.leavesExact_idle (dat7 V c) 1 ⟨0, ht⟩ (idleAt7_1 _ hc2) (noFlush7_1 _ hc2),
      Dat.leavesExact_idle (dat7 V c) 2 ⟨0, ht⟩ (idleAt7_2 _ hc2) (noFlush7_2 _ hc2)]
    rw [Phi7_zero_eq, Phi7_succ, sumAt7_zero V c ht, sqAt7_zero V c ht]
    iintro ⟨⟨Hg, ⟨HS, HQ⟩, HR⟩, Ho, ⟨%d0, H0⟩, ⟨%d1, H1⟩, ⟨%d2, H2⟩⟩
    iapply (run7_A c (grid7.coords ⟨0, ht⟩) _ _ _ _ _ _ _ _ _ _ hc0 hc2 (iblk7 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond7_0 (grid7.coords ⟨n + 1, ht⟩) := fun h => absurd ((hcond7_0 ⟨n + 1, ht⟩).mp h) (Nat.succ_ne_zero n)
    by_cases h2 : n + 1 = 19
    · have hc2 : cond7_2 (grid7.coords ⟨n + 1, ht⟩) := (hcond7_2 ⟨n + 1, ht⟩).mpr h2
      rw [show (dat7 V c).leavesExact 1 ⟨n + 1, ht⟩ = owns (c : Thread nD τ) (st7_1 ⟨n + 1, ht⟩) fullShare ((dat7 V c).after 1 ⟨n + 1, ht⟩) from by
          unfold Dat.leavesExact; rw [liveAt7_1 _ hc2], after7_1]
      rw [show (dat7 V c).leavesExact 2 ⟨n + 1, ht⟩ = owns (c : Thread nD τ) (st7_2 ⟨n + 1, ht⟩) fullShare ((dat7 V c).after 2 ⟨n + 1, ht⟩) from by
          unfold Dat.leavesExact; rw [liveAt7_2 _ hc2], after7_2]
      rw [Phi7_succ V c n, Phi7_succ V c (n + 1), sumAt7_succ V c n ht, sqAt7_succ V c n ht]
      iintro ⟨⟨HS, HQ, HR, Hg⟩, Ho, ⟨%d0, H0⟩, ⟨%d1, H1⟩, ⟨%d2, H2⟩⟩
      iapply (run7_C c (grid7.coords ⟨n + 1, ht⟩) _ _ _ _ _ _ _ _ _ _ hc0 hc2 (iblk7 V c 0 ⟨n + 1, ht⟩) (sumAt7 V c n) (sqAt7 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond7_2 (grid7.coords ⟨n + 1, ht⟩) := fun h => h2 ((hcond7_2 ⟨n + 1, ht⟩).mp h)
      rw [Dat.leavesExact_idle (dat7 V c) 1 ⟨n + 1, ht⟩ (idleAt7_1 _ hc2) (noFlush7_1 _ hc2),
        Dat.leavesExact_idle (dat7 V c) 2 ⟨n + 1, ht⟩ (idleAt7_2 _ hc2) (noFlush7_2 _ hc2)]
      rw [Phi7_succ V c n, Phi7_succ V c (n + 1), sumAt7_succ V c n ht, sqAt7_succ V c n ht]
      iintro ⟨⟨HS, HQ, HR, Hg⟩, Ho, ⟨%d0, H0⟩, ⟨%d1, H1⟩, ⟨%d2, H2⟩⟩
      iapply (run7_B c (grid7.coords ⟨n + 1, ht⟩) _ _ _ _ _ _ _ _ _ _ hc0 hc2 (iblk7 V c 0 ⟨n + 1, ht⟩) _ _ (sumAt7 V c n) (sqAt7 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [Phi_eq7]; exact Idealize.SL.BI.Entails.refl _
theorem hout7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [Phi_eq7, show (Fin.last cfg7.N).val = 19 + 1 from N_7]
  exact Phi7_forget V c 19

end Cert.Kernel.Hand

end
-- ==== Proof.K.R8.lean ====
import proofs.«415738_j90726889161246_1_alg».proof.Proof.K.BnRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl)
    (fun t => by rw [after8_5]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.R9.lean ====
import proofs.«415738_j90726889161246_1_alg».proof.Proof.K.GateRun
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by
  dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def pre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def post9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem body_triple9 (c : Dev nD) (t : Fin cfg9.N) :
    pre9 V c t ⊢ wp frame (wpE (defs₀ (F := F)) Variants.none c none) Set.univ (bodyAt9 t) (fun _ => post9 V c t) := by
  unfold pre9 post9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (kernel_triple9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact body_triple9 V c t

end Cert.Kernel.Hand

end
-- ==== Proof.K.R10.lean ====
import proofs.«415738_j90726889161246_1_alg».proof.Proof.Gen.Kernel.Launch
import proofs.«415738_j90726889161246_1_alg».proof.Proof.Gen.Kernel.Skeleton
import proofs.«415738_j90726889161246_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev full10 : Rect S5000x128 := Rect.unit (s := S5000x128) ![0, 0] S5000x128.size inb_S5000x128_S5000x128_0_0

def out10_2 (x0 x1 : Vec F S5000x128 .f32) : Vec F S5000x128 .f32 :=
  View.canon [⟨full10, k10_pay1 (View.ld x0 full10) (View.ld x1 full10)⟩]

theorem cover10_2 (p : Vec F S5000x128 .f32) (y : S5000x128.Idx) :
    ∃ pc ∈ ([⟨full10, p⟩] : List (View.Piece (Elt F) S5000x128 .f32)), y ∈ pc.1.set :=
  View.cover_of_tiled [⟨full10, p⟩] S5000x128.size (by rfl) y

set_option maxHeartbeats 1000000 in

theorem kernel_triple10 (c : Dev nD) (E : Set ℕ) (i : grid10.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole)
    (x0 x1 : Vec F S5000x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out10_2 x0 x1)) -∗ K ⟨⟩))
      ⊢ wp frame (wpE (defs₀ (F := F)) Variants.none c none) E (cc10__finalize_kernel i a1 h1 a2 h2 a3 h3) K := by
  simp only [cc10__finalize_kernel_eq_skeleton]; unfold cc10__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by
  dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem body_triple10 (c : Dev nD) (t : Fin cfg10.N) :
    pre10 V c t ⊢ wp frame (wpE (defs₀ (F := F)) Variants.none c none) Set.univ (bodyAt10 t) (fun _ => post10 V c t) := by
  unfold pre10 post10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (kernel_triple10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact body_triple10 V c t

end Cert.Kernel.Hand

end
-- ==== Proof.K.Chain.lean ====
import proofs.«415738_j90726889161246_1_alg».proof.Proof.K.R0
import proofs.«415738_j90726889161246_1_alg».proof.Proof.K.R1
import proofs.«415738_j90726889161246_1_alg».proof.Proof.K.R2
import proofs.«415738_j90726889161246_1_alg».proof.Proof.K.R3
import proofs.«415738_j90726889161246_1_alg».proof.Proof.K.R4
import proofs.«415738_j90726889161246_1_alg».proof.Proof.K.R5
import proofs.«415738_j90726889161246_1_alg».proof.Proof.K.R6
import proofs.«415738_j90726889161246_1_alg».proof.Proof.K.R7
import proofs.«415738_j90726889161246_1_alg».proof.Proof.K.R8
import proofs.«415738_j90726889161246_1_alg».proof.Proof.K.R9
import proofs.«415738_j90726889161246_1_alg».proof.Proof.K.R10
import proofs.«415738_j90726889161246_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

-- Carries the contents of every buffer a region does not write across it.
theorem exit_keep {cfg : Pipeline.Cfg sig Λ₀} {c : Dev nD} (dat : Dat τ (Elt F) Unit ℕ (UR sig nD τ) ℕ cfg c)
    (hinj : Function.Injective (Pipeline.arrRef cfg.spec)) (Vin : Valuation τ sig (Elt F))
    (hA : ∀ w, dat.A w = Vin (Proc.devRef .tc (Pipeline.arrRef cfg.spec w)))
    (r : Ref sig .tc) (hr : ∀ w, (cfg.win w).isOut = true → Pipeline.arrRef cfg.spec w ≠ r) :
    Pipeline.withArrays cfg.spec c Vin (fun w => dat.arrAt w cfg.N) (Proc.devRef .tc r) = Vin (Proc.devRef .tc r) := by
  by_cases h : ∃ w, Pipeline.arrRef cfg.spec w = r
  · obtain ⟨w, rfl⟩ := h
    have hin : (cfg.win w).isOut = false := by
      cases hw : (cfg.win w).isOut
      · rfl
      · exact absurd rfl (hr w hw)
    rw [Pipeline.withArrays_arr cfg.spec hinj c Vin _ w, dat.arrAt_in w hin, hA]
  · exact Pipeline.withArrays_of_ne cfg.spec c Vin _ r fun w e => h ⟨w, e⟩

abbrev args : List (Ref sig .tc) :=
  [main_arg0, main_arg1, main_arg2, main_arg3, main_arg4, main_arg5, main_arg6, main_arg7, main_arg8, main_arg9, main_arg10, main_arg11]

def W0 (c : Dev nD) : Valuation τ sig (Elt F) := fun b => m (c, b)
abbrev V0 : (c : Dev nD) → (b : Ref sig .tc) → Buf (Elt F) ((c : Thread nD τ).loc b) := fun c b => W0 m c b

def W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) := StableHlo.after hostOps1 (W2 m c)
abbrev V3 : (c : Dev nD) → (b : Ref sig .tc) → Buf (Elt F) ((c : Thread nD τ).loc b) := fun c b => W3 m c b

def W4 (c : Dev nD) : Valuation τ sig (Elt F) := StableHlo.after hostOps1_1 (W3 m c)
abbrev V4 : (c : Dev nD) → (b : Ref sig .tc) → Buf (Elt F) ((c : Thread nD τ).loc b) := fun c b => W4 m c b

def W5 (c : Dev nD) : Valuation τ sig (Elt F) := StableHlo.after hostOps1_2 (W4 m c)
abbrev V5 : (c : Dev nD) → (b : Ref sig .tc) → Buf (Elt F) ((c : Thread nD τ).loc b) := fun c b => W5 m c b

def W6 (c : Dev nD) : Valuation τ sig (Elt F) := StableHlo.after hostOps1_3 (W5 m c)
abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b

def W8 (c : Dev nD) : Valuation τ sig (Elt F) := StableHlo.after hostOps2 (W7 m c)
abbrev V8 : (c : Dev nD) → (b : Ref sig .tc) → Buf (Elt F) ((c : Thread nD τ).loc b) := fun c b => W8 m c b

def W9 (c : Dev nD) : Valuation τ sig (Elt F) :=
  Pipeline.withArrays spec2 c (W8 m c) fun w => (dat2 (V8 m) c).arrAt w cfg2.N
abbrev V9 : (c : Dev nD) → (b : Ref sig .tc) → Buf (Elt F) ((c : Thread nD τ).loc b) := fun c b => W9 m c b

def W10 (c : Dev nD) : Valuation τ sig (Elt F) := StableHlo.after hostOps3 (W9 m c)
abbrev V10 : (c : Dev nD) → (b : Ref sig .tc) → Buf (Elt F) ((c : Thread nD τ).loc b) := fun c b => W10 m c b

def W11 (c : Dev nD) : Valuation τ sig (Elt F) :=
  Pipeline.withArrays spec3 c (W10 m c) fun w => (dat3 (V10 m) c).arrAt w cfg3.N
abbrev V11 : (c : Dev nD) → (b : Ref sig .tc) → Buf (Elt F) ((c : Thread nD τ).loc b) := fun c b => W11 m c b

def W12 (c : Dev nD) : Valuation τ sig (Elt F) :=
  Pipeline.withArrays spec4 c (W11 m c) fun w => (dat4 (V11 m) c).arrAt w cfg4.N
def W13 (c : Dev nD) : Valuation τ sig (Elt F) := StableHlo.after hostOps5 (W12 m c)
abbrev V13 : (c : Dev nD) → (b : Ref sig .tc) → Buf (Elt F) ((c : Thread nD τ).loc b) := fun c b => W13 m c b

def W14 (c : Dev nD) : Valuation τ sig (Elt F) :=
  Pipeline.withArrays spec5 c (W13 m c) fun w => (dat5 (V13 m) c).arrAt w cfg5.N
def W15 (c : Dev nD) : Valuation τ sig (Elt F) := StableHlo.after hostOps6 (W14 m c)
abbrev V15 : (c : Dev nD) → (b : Ref sig .tc) → Buf (Elt F) ((c : Thread nD τ).loc b) := fun c b => W15 m c b

def W16 (c : Dev nD) : Valuation τ sig (Elt F) :=
  Pipeline.withArrays spec6 c (W15 m c) fun w => (dat6 (V15 m) c).arrAt w cfg6.N
abbrev V16 : (c : Dev nD) → (b : Ref sig .tc) → Buf (Elt F) ((c : Thread nD τ).loc b) := fun c b => W16 m c b

def W17 (c : Dev nD) : Valuation τ sig (Elt F) :=
  Pipeline.withArrays spec7 c (W16 m c) fun w => (dat7 (V16 m) c).arrAt w cfg7.N
def W18 (c : Dev nD) : Valuation τ sig (Elt F) := StableHlo.after hostOps8 (W17 m c)
abbrev V18 : (c : Dev nD) → (b : Ref sig .tc) → Buf (Elt F) ((c : Thread nD τ).loc b) := fun c b => W18 m c b

def W19 (c : Dev nD) : Valuation τ sig (Elt F) :=
  Pipeline.withArrays spec8 c (W18 m c) fun w => (dat8 (V18 m) c).arrAt w cfg8.N
def W20 (c : Dev nD) : Valuation τ sig (Elt F) := StableHlo.after hostOps9 (W19 m c)
abbrev V20 : (c : Dev nD) → (b : Ref sig .tc) → Buf (Elt F) ((c : Thread nD τ).loc b) := fun c b => W20 m c b

def W21 (c : Dev nD) : Valuation τ sig (Elt F) :=
  Pipeline.withArrays spec9 c (W20 m c) fun w => (dat9 (V20 m) c).arrAt w cfg9.N
abbrev V21 : (c : Dev nD) → (b : Ref sig .tc) → Buf (Elt F) ((c : Thread nD τ).loc b) := fun c b => W21 m c b

def W22 (c : Dev nD) : Valuation τ sig (Elt F) :=
  Pipeline.withArrays spec10 c (W21 m c) fun w => (dat10 (V21 m) c).arrAt w cfg10.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W9_arr (c : Dev nD) (w : Fin cfg2.W) :
    W9 m c (Proc.devRef .tc (Pipeline.arrRef spec2 w)) = (dat2 (V8 m) c).arrAt w cfg2.N :=
  Pipeline.withArrays_arr spec2 launch2.win.arr_inj c _ _ w
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W12_arr (c : Dev nD) (w : Fin cfg4.W) :
    W12 m c (Proc.devRef .tc (Pipeline.arrRef spec4 w)) = (dat4 (V11 m) c).arrAt w cfg4.N :=
  Pipeline.withArrays_arr spec4 launch4.win.arr_inj c _ _ w
theorem W14_arr (c : Dev nD) (w : Fin cfg5.W) :
    W14 m c (Proc.devRef .tc (Pipeline.arrRef spec5 w)) = (dat5 (V13 m) c).arrAt w cfg5.N :=
  Pipeline.withArrays_arr spec5 launch5.win.arr_inj c _ _ w
theorem W16_arr (c : Dev nD) (w : Fin cfg6.W) :
    W16 m c (Proc.devRef .tc (Pipeline.arrRef spec6 w)) = (dat6 (V15 m) c).arrAt w cfg6.N :=
  Pipeline.withArrays_arr spec6 launch6.win.arr_inj c _ _ w
theorem W17_arr (c : Dev nD) (w : Fin cfg7.W) :
    W17 m c (Proc.devRef .tc (Pipeline.arrRef spec7 w)) = (dat7 (V16 m) c).arrAt w cfg7.N :=
  Pipeline.withArrays_arr spec7 launch7.win.arr_inj c _ _ w
theorem W19_arr (c : Dev nD) (w : Fin cfg8.W) :
    W19 m c (Proc.devRef .tc (Pipeline.arrRef spec8 w)) = (dat8 (V18 m) c).arrAt w cfg8.N :=
  Pipeline.withArrays_arr spec8 launch8.win.arr_inj c _ _ w
theorem W21_arr (c : Dev nD) (w : Fin cfg9.W) :
    W21 m c (Proc.devRef .tc (Pipeline.arrRef spec9 w)) = (dat9 (V20 m) c).arrAt w cfg9.N :=
  Pipeline.withArrays_arr spec9 launch9.win.arr_inj c _ _ w
theorem W22_arr (c : Dev nD) (w : Fin cfg10.W) :
    W22 m c (Proc.devRef .tc (Pipeline.arrRef spec10 w)) = (dat10 (V21 m) c).arrAt w cfg10.N :=
  Pipeline.withArrays_arr spec10 launch10.win.arr_inj c _ _ w

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v1] : List (Ref sig .tc))) : W2 m c r = W1 m c r :=
  exit_keep (dat0 (V1 m) c) launch0.win.arr_inj (W1 m c) (A_eq0 (V1 m) c) r fun w hw e =>
    h (e ▸ (by decide : ∀ w : Fin cfg0.W, (cfg0.win w).isOut = true → Pipeline.arrRef spec0 w ∈ ([main_v1] : List (Ref sig .tc))) w hw)
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ∉ hostOps1_3_W) : W6 m c r = W5 m c r :=
  StableHlo.after_of_writes_sub hostOps1_3 _ hostOps1_3_writes h
theorem W7_of (c : Dev nD) (r : Ref sig .tc) (h : r ∉ ([main_v26_0, main_v26_1] : List (Ref sig .tc))) : W7 m c r = W6 m c r :=
  exit_keep (dat1 (V6 m) c) launch1.win.arr_inj (W6 m c) (A_eq1 (V6 m) c) r fun w hw e =>
    h (e ▸ (by decide : ∀ w : Fin cfg1.W, (cfg1.win w).isOut = true → Pipeline.arrRef spec1 w ∈ ([main_v26_0, main_v26_1] : List (Ref sig .tc))) w hw)
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ ([main_v31] : List (Ref sig .tc))) : W9 m c r = W8 m c r :=
  exit_keep (dat2 (V8 m) c) launch2.win.arr_inj (W8 m c) (A_eq2 (V8 m) c) r fun w hw e =>
    h (e ▸ (by decide : ∀ w : Fin cfg2.W, (cfg2.win w).isOut = true → Pipeline.arrRef spec2 w ∈ ([main_v31] : List (Ref sig .tc))) w hw)
theorem W10_of (c : Dev nD) (r : Ref sig .tc) (h : r ∉ hostOps3_W) : W10 m c r = W9 m c r :=
  StableHlo.after_of_writes_sub hostOps3 _ hostOps3_writes h
theorem W11_of (c : Dev nD) (r : Ref sig .tc) (h : r ∉ ([main_v71] : List (Ref sig .tc))) : W11 m c r = W10 m c r :=
  exit_keep (dat3 (V10 m) c) launch3.win.arr_inj (W10 m c) (A_eq3 (V10 m) c) r fun w hw e =>
    h (e ▸ (by decide : ∀ w : Fin cfg3.W, (cfg3.win w).isOut = true → Pipeline.arrRef spec3 w ∈ ([main_v71] : List (Ref sig .tc))) w hw)
theorem W12_of (c : Dev nD) (r : Ref sig .tc) (h : r ∉ ([main_v72_0, main_v72_1] : List (Ref sig .tc))) : W12 m c r = W11 m c r :=
  exit_keep (dat4 (V11 m) c) launch4.win.arr_inj (W11 m c) (A_eq4 (V11 m) c) r fun w hw e =>
    h (e ▸ (by decide : ∀ w : Fin cfg4.W, (cfg4.win w).isOut = true → Pipeline.arrRef spec4 w ∈ ([main_v72_0, main_v72_1] : List (Ref sig .tc))) w hw)
theorem W13_of (c : Dev nD) (r : Ref sig .tc) (h : r ∉ hostOps5_W) : W13 m c r = W12 m c r :=
  StableHlo.after_of_writes_sub hostOps5 _ hostOps5_writes h
theorem W14_of (c : Dev nD) (r : Ref sig .tc) (h : r ∉ ([main_v77] : List (Ref sig .tc))) : W14 m c r = W13 m c r :=
  exit_keep (dat5 (V13 m) c) launch5.win.arr_inj (W13 m c) (A_eq5 (V13 m) c) r fun w hw e =>
    h (e ▸ (by decide : ∀ w : Fin cfg5.W, (cfg5.win w).isOut = true → Pipeline.arrRef spec5 w ∈ ([main_v77] : List (Ref sig .tc))) w hw)
theorem W15_of (c : Dev nD) (r : Ref sig .tc) (h : r ∉ hostOps6_W) : W15 m c r = W14 m c r :=
  StableHlo.after_of_writes_sub hostOps6 _ hostOps6_writes h
theorem W16_of (c : Dev nD) (r : Ref sig .tc) (h : r ∉ ([main_v117] : List (Ref sig .tc))) : W16 m c r = W15 m c r :=
  exit_keep (dat6 (V15 m) c) launch6.win.arr_inj (W15 m c) (A_eq6 (V15 m) c) r fun w hw e =>
    h (e ▸ (by decide : ∀ w : Fin cfg6.W, (cfg6.win w).isOut = true → Pipeline.arrRef spec6 w ∈ ([main_v117] : List (Ref sig .tc))) w hw)
theorem W17_of (c : Dev nD) (r : Ref sig .tc) (h : r ∉ ([main_v118_0, main_v118_1] : List (Ref sig .tc))) : W17 m c r = W16 m c r :=
  exit_keep (dat7 (V16 m) c) launch7.win.arr_inj (W16 m c) (A_eq7 (V16 m) c) r fun w hw e =>
    h (e ▸ (by decide : ∀ w : Fin cfg7.W, (cfg7.win w).isOut = true → Pipeline.arrRef spec7 w ∈ ([main_v118_0, main_v118_1] : List (Ref sig .tc))) w hw)
theorem W18_of (c : Dev nD) (r : Ref sig .tc) (h : r ∉ hostOps8_W) : W18 m c r = W17 m c r :=
  StableHlo.after_of_writes_sub hostOps8 _ hostOps8_writes h
theorem W19_of (c : Dev nD) (r : Ref sig .tc) (h : r ∉ ([main_v123] : List (Ref sig .tc))) : W19 m c r = W18 m c r :=
  exit_keep (dat8 (V18 m) c) launch8.win.arr_inj (W18 m c) (A_eq8 (V18 m) c) r fun w hw e =>
    h (e ▸ (by decide : ∀ w : Fin cfg8.W, (cfg8.win w).isOut = true → Pipeline.arrRef spec8 w ∈ ([main_v123] : List (Ref sig .tc))) w hw)
theorem W20_of (c : Dev nD) (r : Ref sig .tc) (h : r ∉ hostOps9_W) : W20 m c r = W19 m c r :=
  StableHlo.after_of_writes_sub hostOps9 _ hostOps9_writes h
theorem W21_of (c : Dev nD) (r : Ref sig .tc) (h : r ∉ ([main_v163] : List (Ref sig .tc))) : W21 m c r = W20 m c r :=
  exit_keep (dat9 (V20 m) c) launch9.win.arr_inj (W20 m c) (A_eq9 (V20 m) c) r fun w hw e =>
    h (e ▸ (by decide : ∀ w : Fin cfg9.W, (cfg9.win w).isOut = true → Pipeline.arrRef spec9 w ∈ ([main_v163] : List (Ref sig .tc))) w hw)
theorem W22_of (c : Dev nD) (r : Ref sig .tc) (h : r ∉ ([main_v164] : List (Ref sig .tc))) : W22 m c r = W21 m c r :=
  exit_keep (dat10 (V21 m) c) launch10.win.arr_inj (W21 m c) (A_eq10 (V21 m) c) r fun w hw e =>
    h (e ▸ (by decide : ∀ w : Fin cfg10.W, (cfg10.win w).isOut = true → Pipeline.arrRef spec10 w ∈ ([main_v164] : List (Ref sig .tc))) w hw)

theorem W1_arg (c : Dev nD) (r : Ref sig .tc) (hr : r ∈ args) : W1 m c r = W0 m c r :=
  W1_of m c r ((by decide : ∀ r ∈ args, r ∉ hostOps0_W) r hr)
theorem W2_arg (c : Dev nD) (r : Ref sig .tc) (hr : r ∈ args) : W2 m c r = W0 m c r :=
  (W2_of m c r ((by decide : ∀ r ∈ args, r ∉ ([main_v1] : List (Ref sig .tc))) r hr)).trans (W1_arg m c r hr)
theorem W4_arg (c : Dev nD) (r : Ref sig .tc) (hr : r ∈ args) : W4 m c r = W0 m c r :=
  (W4_of m c r ((by decide : ∀ r ∈ args, r ∉ hostOps1_1_W) r hr)).trans ((W3_of m c r ((by decide : ∀ r ∈ args, r ∉ hostOps1_W) r hr)).trans (W2_arg m c r hr))
theorem W7_arg (c : Dev nD) (r : Ref sig .tc) (hr : r ∈ args) : W7 m c r = W0 m c r :=
  (W7_of m c r ((by decide : ∀ r ∈ args, r ∉ ([main_v26_0, main_v26_1] : List (Ref sig .tc))) r hr)).trans ((W6_of m c r ((by decide : ∀ r ∈ args, r ∉ hostOps1_3_W) r hr)).trans ((W5_of m c r ((by decide : ∀ r ∈ args, r ∉ hostOps1_2_W) r hr)).trans (W4_arg m c r hr)))
theorem W9_arg (c : Dev nD) (r : Ref sig .tc) (hr : r ∈ args) : W9 m c r = W0 m c r :=
  (W9_of m c r ((by decide : ∀ r ∈ args, r ∉ ([main_v31] : List (Ref sig .tc))) r hr)).trans ((W8_of m c r ((by decide : ∀ r ∈ args, r ∉ hostOps2_W) r hr)).trans (W7_arg m c r hr))
theorem W12_arg (c : Dev nD) (r : Ref sig .tc) (hr : r ∈ args) : W12 m c r = W0 m c r :=
  (W12_of m c r ((by decide : ∀ r ∈ args, r ∉ ([main_v72_0, main_v72_1] : List (Ref sig .tc))) r hr)).trans ((W11_of m c r ((by decide : ∀ r ∈ args, r ∉ ([main_v71] : List (Ref sig .tc))) r hr)).trans ((W10_of m c r ((by decide : ∀ r ∈ args, r ∉ hostOps3_W) r hr)).trans (W9_arg m c r hr)))
theorem W14_arg (c : Dev nD) (r : Ref sig .tc) (hr : r ∈ args) : W14 m c r = W0 m c r :=
  (W14_of m c r ((by decide : ∀ r ∈ args, r ∉ ([main_v77] : List (Ref sig .tc))) r hr)).trans ((W13_of m c r ((by decide : ∀ r ∈ args, r ∉ hostOps5_W) r hr)).trans (W12_arg m c r hr))
theorem W17_arg (c : Dev nD) (r : Ref sig .tc) (hr : r ∈ args) : W17 m c r = W0 m c r :=
  (W17_of m c r ((by decide : ∀ r ∈ args, r ∉ ([main_v118_0, main_v118_1] : List (Ref sig .tc))) r hr)).trans ((W16_of m c r ((by decide : ∀ r ∈ args, r ∉ ([main_v117] : List (Ref sig .tc))) r hr)).trans ((W15_of m c r ((by decide : ∀ r ∈ args, r ∉ hostOps6_W) r hr)).trans (W14_arg m c r hr)))
theorem W19_arg (c : Dev nD) (r : Ref sig .tc) (hr : r ∈ args) : W19 m c r = W0 m c r :=
  (W19_of m c r ((by decide : ∀ r ∈ args, r ∉ ([main_v123] : List (Ref sig .tc))) r hr)).trans ((W18_of m c r ((by decide : ∀ r ∈ args, r ∉ hostOps8_W) r hr)).trans (W17_arg m c r hr))
theorem W22_arg (c : Dev nD) (r : Ref sig .tc) (hr : r ∈ args) : W22 m c r = W0 m c r :=
  (W22_of m c r ((by decide : ∀ r ∈ args, r ∉ ([main_v164] : List (Ref sig .tc))) r hr)).trans ((W21_of m c r ((by decide : ∀ r ∈ args, r ∉ ([main_v163] : List (Ref sig .tc))) r hr)).trans ((W20_of m c r ((by decide : ∀ r ∈ args, r ∉ hostOps9_W) r hr)).trans (W19_arg m c r hr)))

end Cert.Kernel.Hand

end
-- ==== Proof.K.Run.lean ====
import proofs.«415738_j90726889161246_1_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev noVar : Variants := Variants.none

abbrev noLev : GSem nD τ sig → Finset Unit := fun _ => ∅
abbrev lev0 : GSem nD τ sig → Unit → ℕ := fun _ _ => 0

abbrev beside (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

-- Separating conjunction commutes.
theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, Hr⟩
  isplitl [Hr]; · iexact Hr
  iexact Hp

theorem ΦA_out {gr W : ℕ} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

section Region

variable (pd : (p : Fin 11) → (c : Dev nD) → Dat τ (Elt F) Unit ℕ (UR sig nD τ) ℕ (Pipeline.pin (pcfgs (F := F)) adm p) c)
variable (p : Fin 11) (lf : Pipeline.LaunchFacts (nD := nD) (τ := τ) cfgs p)
variable (Win Wout : Dev nD → Valuation τ sig (Elt F))

set_option backward.isDefEq.respectTransparency.types false in
def regOf
    (hA : ∀ c w, (pd p c).A w = Win c (Proc.devRef .tc (Pipeline.arrRef (cfgs p).spec w)))
    (hq : ∀ c w, (pd p c).q w = fullShare)
    (howed : ∀ c t, (pd p c).owed t = 0)
    (hrec : ∀ c, (pd p c).recorded 0 = Set.univ)
    (hbody : ∀ c, BodyObligation (pd p c) (defs₀ (F := F)) Variants.none () Set.univ)
    (hin : ∀ c, (iprop((∃ r, prngReg c r) ∗ Pipeline.scopedRest (Ix := Unit) (Name := ℕ) (U := UR sig nD τ) (Lvl := ℕ) (Val := Elt F) (cfgs p).spec c) : sProp 𝕄)
      ⊢ (pd p c).Φ 0)
    (hout : ∀ c, ((pd p c).Φ (Fin.last (cfgs p).N) : sProp 𝕄)
      ⊢ iprop((∃ r, prngReg c r) ∗ Pipeline.scopedRest (Ix := Unit) (Name := ℕ) (U := UR sig nD τ) (Lvl := ℕ) (Val := Elt F) (cfgs p).spec c))
    (hF : ∀ c w, (pd p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b)) :
    Pipeline.RegionSeg (pcfgs (F := F)) adm pd () defs₀ noVar noLev lev0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLev lev0 p howed
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd lf.win lf.arr_whole c
      ((pd p c).share_full (hq c)) (fun b => Win c b) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    iintro ⟨Hp, -, Hr⟩
    iapply hin c
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Win c b) (fun b => Wout c b) ((pd p c).arrAt · (cfgs p).N) (hF c) (hrest c)
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Region

variable (m : (ℓ : Loc nD τ sig) → Buf (Elt F) ℓ) (ρ : Dev nD → PrngReg)

def pdats : (p : Fin 11) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
  | ⟨2, _⟩ => fun c => dat2 (V8 m) c
  | ⟨3, _⟩ => fun c => dat3 (V10 m) c
  | ⟨4, _⟩ => fun c => dat4 (V11 m) c
  | ⟨5, _⟩ => fun c => dat5 (V13 m) c
  | ⟨6, _⟩ => fun c => dat6 (V15 m) c
  | ⟨7, _⟩ => fun c => dat7 (V16 m) c
  | ⟨8, _⟩ => fun c => dat8 (V18 m) c
  | ⟨9, _⟩ => fun c => dat9 (V20 m) c
  | ⟨10, _⟩ => fun c => dat10 (V21 m) c

set_option backward.isDefEq.respectTransparency.types false in

def reg0 : Pipeline.RegionSeg (pcfgs (F := F)) adm (pdats m) () defs₀ noVar noLev lev0 0 :=
  regOf (pdats m) 0 launch0 (W1 m) (W2 m) (A_eq0 (V1 m)) (fun _ _ => rfl) (fun _ _ => rfl) (fun _ => rfl)
    (body_obligation0 (V1 m)) (ΦA_in spec0) (ΦA_out spec0) (fun c w => (W2_arr m c w).symm)
    (fun c b hb => Pipeline.withArrays_of_ne spec0 c _ _ b fun w e => hb (Finset.mem_image.mpr ⟨w, Finset.mem_univ _, e⟩))
set_option backward.isDefEq.respectTransparency.types false in

def reg1 : Pipeline.RegionSeg (pcfgs (F := F)) adm (pdats m) () defs₀ noVar noLev lev0 1 :=
  regOf (pdats m) 1 launch1 (W6 m) (W7 m) (A_eq1 (V6 m)) (fun _ _ => rfl) (fun _ _ => rfl) (fun _ => rfl)
    (body_obligation1 (V6 m)) (hin1 (V6 m)) (hout1 (V6 m)) (fun c w => (W7_arr m c w).symm)
    (fun c b hb => Pipeline.withArrays_of_ne spec1 c _ _ b fun w e => hb (Finset.mem_image.mpr ⟨w, Finset.mem_univ _, e⟩))
set_option backward.isDefEq.respectTransparency.types false in

def reg2 : Pipeline.RegionSeg (pcfgs (F := F)) adm (pdats m) () defs₀ noVar noLev lev0 2 :=
  regOf (pdats m) 2 launch2 (W8 m) (W9 m) (A_eq2 (V8 m)) (fun _ _ => rfl) (fun _ _ => rfl) (fun _ => rfl)
    (body_obligation2 (V8 m)) (ΦA_in spec2) (ΦA_out spec2) (fun c w => (W9_arr m c w).symm)
    (fun c b hb => Pipeline.withArrays_of_ne spec2 c _ _ b fun w e => hb (Finset.mem_image.mpr ⟨w, Finset.mem_univ _, e⟩))
set_option backward.isDefEq.respectTransparency.types false in

def reg3 : Pipeline.RegionSeg (pcfgs (F := F)) adm (pdats m) () defs₀ noVar noLev lev0 3 :=
  regOf (pdats m) 3 launch3 (W10 m) (W11 m) (A_eq3 (V10 m)) (fun _ _ => rfl) (fun _ _ => rfl) (fun _ => rfl)
    (body_obligation3 (V10 m)) (ΦA_in spec3) (ΦA_out spec3) (fun c w => (W11_arr m c w).symm)
    (fun c b hb => Pipeline.withArrays_of_ne spec3 c _ _ b fun w e => hb (Finset.mem_image.mpr ⟨w, Finset.mem_univ _, e⟩))
set_option backward.isDefEq.respectTransparency.types false in

def reg4 : Pipeline.RegionSeg (pcfgs (F := F)) adm (pdats m) () defs₀ noVar noLev lev0 4 :=
  regOf (pdats m) 4 launch4 (W11 m) (W12 m) (A_eq4 (V11 m)) (fun _ _ => rfl) (fun _ _ => rfl) (fun _ => rfl)
    (body_obligation4 (V11 m)) (hin4 (V11 m)) (hout4 (V11 m)) (fun c w => (W12_arr m c w).symm)
    (fun c b hb => Pipeline.withArrays_of_ne spec4 c _ _ b fun w e => hb (Finset.mem_image.mpr ⟨w, Finset.mem_univ _, e⟩))
set_option backward.isDefEq.respectTransparency.types false in

def reg5 : Pipeline.RegionSeg (pcfgs (F := F)) adm (pdats m) () defs₀ noVar noLev lev0 5 :=
  regOf (pdats m) 5 launch5 (W13 m) (W14 m) (A_eq5 (V13 m)) (fun _ _ => rfl) (fun _ _ => rfl) (fun _ => rfl)
    (body_obligation5 (V13 m)) (ΦA_in spec5) (ΦA_out spec5) (fun c w => (W14_arr m c w).symm)
    (fun c b hb => Pipeline.withArrays_of_ne spec5 c _ _ b fun w e => hb (Finset.mem_image.mpr ⟨w, Finset.mem_univ _, e⟩))
set_option backward.isDefEq.respectTransparency.types false in

def reg6 : Pipeline.RegionSeg (pcfgs (F := F)) adm (pdats m) () defs₀ noVar noLev lev0 6 :=
  regOf (pdats m) 6 launch6 (W15 m) (W16 m) (A_eq6 (V15 m)) (fun _ _ => rfl) (fun _ _ => rfl) (fun _ => rfl)
    (body_obligation6 (V15 m)) (ΦA_in spec6) (ΦA_out spec6) (fun c w => (W16_arr m c w).symm)
    (fun c b hb => Pipeline.withArrays_of_ne spec6 c _ _ b fun w e => hb (Finset.mem_image.mpr ⟨w, Finset.mem_univ _, e⟩))
set_option backward.isDefEq.respectTransparency.types false in

def reg7 : Pipeline.RegionSeg (pcfgs (F := F)) adm (pdats m) () defs₀ noVar noLev lev0 7 :=
  regOf (pdats m) 7 launch7 (W16 m) (W17 m) (A_eq7 (V16 m)) (fun _ _ => rfl) (fun _ _ => rfl) (fun _ => rfl)
    (body_obligation7 (V16 m)) (hin7 (V16 m)) (hout7 (V16 m)) (fun c w => (W17_arr m c w).symm)
    (fun c b hb => Pipeline.withArrays_of_ne spec7 c _ _ b fun w e => hb (Finset.mem_image.mpr ⟨w, Finset.mem_univ _, e⟩))
set_option backward.isDefEq.respectTransparency.types false in

def reg8 : Pipeline.RegionSeg (pcfgs (F := F)) adm (pdats m) () defs₀ noVar noLev lev0 8 :=
  regOf (pdats m) 8 launch8 (W18 m) (W19 m) (A_eq8 (V18 m)) (fun _ _ => rfl) (fun _ _ => rfl) (fun _ => rfl)
    (body_obligation8 (V18 m)) (ΦA_in spec8) (ΦA_out spec8) (fun c w => (W19_arr m c w).symm)
    (fun c b hb => Pipeline.withArrays_of_ne spec8 c _ _ b fun w e => hb (Finset.mem_image.mpr ⟨w, Finset.mem_univ _, e⟩))
set_option backward.isDefEq.respectTransparency.types false in

def reg9 : Pipeline.RegionSeg (pcfgs (F := F)) adm (pdats m) () defs₀ noVar noLev lev0 9 :=
  regOf (pdats m) 9 launch9 (W20 m) (W21 m) (A_eq9 (V20 m)) (fun _ _ => rfl) (fun _ _ => rfl) (fun _ => rfl)
    (body_obligation9 (V20 m)) (ΦA_in spec9) (ΦA_out spec9) (fun c w => (W21_arr m c w).symm)
    (fun c b hb => Pipeline.withArrays_of_ne spec9 c _ _ b fun w e => hb (Finset.mem_image.mpr ⟨w, Finset.mem_univ _, e⟩))
set_option backward.isDefEq.respectTransparency.types false in

def reg10 : Pipeline.RegionSeg (pcfgs (F := F)) adm (pdats m) () defs₀ noVar noLev lev0 10 :=
  regOf (pdats m) 10 launch10 (W21 m) (W22 m) (A_eq10 (V21 m)) (fun _ _ => rfl) (fun _ _ => rfl) (fun _ => rfl)
    (body_obligation10 (V21 m)) (ΦA_in spec10) (ΦA_out spec10) (fun c w => (W22_arr m c w).symm)
    (fun c b hb => Pipeline.withArrays_of_ne spec10 c _ _ b fun w e => hb (Finset.mem_image.mpr ⟨w, Finset.mem_univ _, e⟩))

abbrev segs : List (Pipeline.Seg (pcfgs (F := F)) adm (pdats m) () defs₀ noVar noLev lev0) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m),
    .host (hseg hostOps3 hostOps3_sub hostOps3_fresh (W9 m)),
    .region (reg3 m),
    .region (reg4 m),
    .host (hseg hostOps5 hostOps5_sub hostOps5_fresh (W12 m)),
    .region (reg5 m),
    .host (hseg hostOps6 hostOps6_sub hostOps6_fresh (W14 m)),
    .region (reg6 m),
    .region (reg7 m),
    .host (hseg hostOps8 hostOps8_sub hostOps8_fresh (W17 m)),
    .region (reg8 m),
    .host (hseg hostOps9 hostOps9_sub hostOps9_fresh (W19 m)),
    .region (reg9 m),
    .region (reg10 m) ]

theorem main_run (c : Dev nD) : main (F := F) c = Pipeline.Seg.run (segs m) := by
  rw [main_chain c, Pipeline.Seg.run_eq_chain]; rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 :=
  iprop(StableHlo.held (c : Thread nD τ) (Pipeline.ucRefs τ sig) (W22 m c) ∗ ∃ r, prngReg c r)

theorem end_assoc (c : Dev nD) :
    (iprop(StableHlo.held (c : Thread nD τ) (Pipeline.ucRefs τ sig) (W22 m c) ∗ beside c) : sProp 𝕄)
      ⊢ iprop(Tend m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in

theorem run : θ_run defs (onTc (τ := τ) (main (F := F))) ⟨m, fun _ => 0, ρ⟩
    (fun r => ∀ c : Dev nD, ∀ b ∈ Pipeline.ucRefs τ sig, r.2.mem ((c : Thread nD τ).1, b) = W22 m c b) :=
  Pipeline.θ_run_regions_kit (pcfgs (F := F)) adm (pdats m) () cellOf_inj emb₁ defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => end_assoc m c⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h => h)

theorem arg_end (c : Dev nD) (s : MemSt nD τ sig (Elt F))
    (h : ∀ b ∈ Pipeline.ucRefs τ sig, s.mem ((c : Thread nD τ).1, b) = W22 m c b)
    (r : Ref sig .tc) (hu : ¬ (Proc.devRef .tc r : DevRef τ sig).isScoped) (hr : r ∈ args) :
    s.mem ((c.tc : Thread nD τ).loc r) = m ((c.tc : Thread nD τ).loc r) :=
  (h _ (mem_uc r hu)).trans (W22_arg m c r hr)

theorem run_value : θ_run defs (onTc (τ := τ) (main (F := F))) ⟨m, fun _ => 0, ρ⟩ (fun r => ∀ c : Dev nD,
      r.2.mem ((c.tc : Thread nD τ).loc main_v164) = W22 m c main_v164
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v164 (by decide)),
     arg_end m c r.2 (h c) main_arg0 (by decide) (by decide), arg_end m c r.2 (h c) main_arg1 (by decide) (by decide),
     arg_end m c r.2 (h c) main_arg2 (by decide) (by decide), arg_end m c r.2 (h c) main_arg3 (by decide) (by decide),
     arg_end m c r.2 (h c) main_arg4 (by decide) (by decide), arg_end m c r.2 (h c) main_arg5 (by decide) (by decide),
     arg_end m c r.2 (h c) main_arg6 (by decide) (by decide), arg_end m c r.2 (h c) main_arg7 (by decide) (by decide),
     arg_end m c r.2 (h c) main_arg8 (by decide) (by decide), arg_end m c r.2 (h c) main_arg9 (by decide) (by decide),
     arg_end m c r.2 (h c) main_arg10 (by decide) (by decide), arg_end m c r.2 (h c) main_arg11 (by decide) (by decide)⟩)
    (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_value m ρ)

end Cert.Kernel.Hand

end
-- ==== Proof.KI.R0.lean ====
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x256 := Rect.unit (s := S5000x256) ![0, 0] S5000x256.size inb_S5000x256_S5000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S5000x128 := Rect.unit (s := S5000x128) ![0, 0] S5000x128.size inb_S5000x128_S5000x128_0_0

def out0_3 (x0 : Vec F S5000x256 .f32) (x1 : Vec F S256x128 .f32) (x2 : Vec F S1x128 .f32) : Vec F S5000x128 .f32 :=
  View.canon [⟨r0_3, k0_pay1 (View.ld x0 r0_0) (View.ld x1 r0_1) (View.ld x2 r0_2)⟩]

theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

set_option maxHeartbeats 1000000 in

theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S5000x128 .f32) (harg4 : arg4.IsWhole)
    (x0 : Vec F S5000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__lin_up_kernel i arg1 harg1 arg2 harg2 arg3 harg3 arg4 harg4) K := by
  simp only [cc0__lin_up_kernel_eq_skeleton]; unfold cc0__lin_up_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.StatsLib.lean ====
import proofs.«415738_j90726889161246_1_alg».proof.Proof.Gen.KernelIdeal
import Idealize.ShloMosaic.Lib.Pipeline.FrameBody
import Idealize.ShloMosaic.Lib.Pipeline.Value

noncomputable section

namespace Cert.KernelIdeal.Hand

open Idealize.ShloMosaic Idealize.SL.Sem
open Cert.KernelIdeal

variable {F : FTy → Type} [FloatOps F]

theorem stats_off_zero : (![0, 0] : Fin 2 → ℕ) = fun _ => 0 := by
  funext a; fin_cases a <;> rfl

theorem stats_read_store_whole {S : Shape} {e : EltTy} {sp : Space} (v : View sig .tc sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

theorem stats_readAt_whole {S : Shape} {e : EltTy} {sp : Space} (m : Memref sig .tc sp S e) (hm : m.IsWhole) (X : S.Idx → Elt F e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, hm.read_unread, View.ld_unit_zero h]

end Cert.KernelIdeal.Hand

end
-- ==== Proof.KI.StatsRun.lean ====
import proofs.«415738_j90726889161246_1_alg».proof.Proof.KI.StatsLib
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 0).val) 0#32)) 0#32) = 1#1

abbrev cond1_2 (i : grid1.Coords) : Prop := k1_cond2 i = 1#1

theorem hcond1_0 : ∀ t : Fin cfg1.N, cond1_0 (grid1.coords t) ↔ t.val = 0 :=
  (by decide +kernel : ∀ t : Fin grid1.N, cond1_0 (grid1.coords t) ↔ t.val = 0)
theorem hcond1_2 : ∀ t : Fin cfg1.N, cond1_2 (grid1.coords t) ↔ t.val = 19 :=
  (by decide +kernel : ∀ t : Fin grid1.N, cond1_2 (grid1.coords t) ↔ t.val = 19)

-- The kernel at the first row block: both running column sums start from nothing.
def RunA (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : cond0 i) (hc2 : ¬cond2 i)
    (x0 : Vec F S5000x128 .f32) (xi1 xi2 : Vec F S1x128 .f32) (E : Set ℕ) (K : PUnit → sProp 𝕄),
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (p4 x0 p1) ∗ owns (c : Thread nD τ) arg5 fullShare (p5 x0 p2)) -∗ K ⟨⟩))
      ⊢ wp frame (wpE (defs₀ (F := F)) Variants.none c none) E (kern i arg1 harg1 arg2 harg2 arg3 harg3 arg4 harg4 arg5 harg5) K

set_option maxHeartbeats 1000000 in
theorem run1_A : RunA (F := F) cc1__stats_kernel cond1_0 cond1_2 k1_pay1 k1_pay2 k1_pay4 k1_pay5 k1_pay6 k1_pay7 := by
  unfold RunA
  intro c i arg1 harg1 arg2 harg2 arg3 harg3 arg4 harg4 arg5 harg5 hc0 hc2 x0 xi1 xi2 E K
  simp only [cc1__stats_kernel_eq_skeleton]; unfold cc1__stats_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := first | exact hc0 | exact hc2)
  sl_step
  sl_unfold_run_names
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [stats_read_store_whole _ _ stats_off_zero, stats_readAt_whole arg1 harg1 x0 stats_off_zero,
      View.readCov_unit_zero arg4.view stats_off_zero]
  iexists _; isplitr
  swap; · iexact H4
  ipureintro
  rw [stats_read_store_whole _ _ stats_off_zero, stats_readAt_whole arg1 harg1 x0 stats_off_zero,
    View.readCov_unit_zero arg5.view stats_off_zero]

-- At a row block in the middle: each running sum gains the block's column sum.
def RunB (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : ¬cond0 i) (hc2 : ¬cond2 i)
    (x0 : Vec F S5000x128 .f32) (xi1 xi2 xs xq : Vec F S1x128 .f32) (E : Set ℕ) (K : PUnit → sProp 𝕄),
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (p4 x0 xs) ∗ owns (c : Thread nD τ) arg5 fullShare (p5 x0 xq)) -∗ K ⟨⟩))
      ⊢ wp frame (wpE (defs₀ (F := F)) Variants.none c none) E (kern i arg1 harg1 arg2 harg2 arg3 harg3 arg4 harg4 arg5 harg5) K

set_option maxHeartbeats 1000000 in
theorem run1_B : RunB (F := F) cc1__stats_kernel cond1_0 cond1_2 k1_pay1 k1_pay2 k1_pay4 k1_pay5 k1_pay6 k1_pay7 := by
  unfold RunB
  intro c i arg1 harg1 arg2 harg2 arg3 harg3 arg4 harg4 arg5 harg5 hc0 hc2 x0 xi1 xi2 xs xq E K
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [stats_read_store_whole _ _ stats_off_zero, stats_readAt_whole arg1 harg1 x0 stats_off_zero,
      stats_readAt_whole arg4 harg4 xs stats_off_zero]
  iexists _; isplitr
  swap; · iexact H4
  ipureintro
  rw [stats_read_store_whole _ _ stats_off_zero, stats_readAt_whole arg1 harg1 x0 stats_off_zero,
    stats_readAt_whole arg5 harg5 xq stats_off_zero]

-- At the last row block: the sums are complete, and the column mean and variance are written from them.
def RunC (kern : type_of% (@cc1__stats_kernel F _)) (cond0 cond2 : grid1.Coords → Prop)
    (p1 p2 : type_of% (@k1_pay1 F _)) (p4 p5 : type_of% (@k1_pay4 F _)) (p6 : type_of% (@k1_pay6 F _)) (p7 : type_of% (@k1_pay7 F _)) : Prop :=
  ∀ (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (hc0 : ¬cond0 i) (hc2 : cond2 i)
    (x0 : Vec F S5000x128 .f32) (xs xq : Vec F S1x128 .f32) (E : Set ℕ) (K : PUnit → sProp 𝕄),
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (p6 (p4 x0 xs))
            ∗ owns (c : Thread nD τ) arg3 fullShare (p7 (p4 x0 xs) (p5 x0 xq))
            ∗ owns (c : Thread nD τ) arg4 fullShare (p4 x0 xs) ∗ owns (c : Thread nD τ) arg5 fullShare (p5 x0 xq)) -∗ K ⟨⟩))
      ⊢ wp frame (wpE (defs₀ (F := F)) Variants.none c none) E (kern i arg1 harg1 arg2 harg2 arg3 harg3 arg4 harg4 arg5 harg5) K

set_option maxHeartbeats 1000000 in
theorem run1_C : RunC (F := F) cc1__stats_kernel cond1_0 cond1_2 k1_pay1 k1_pay2 k1_pay4 k1_pay5 k1_pay6 k1_pay7 := by
  unfold RunC
  intro c i arg1 harg1 arg2 harg2 arg3 harg3 arg4 harg4 arg5 harg5 hc0 hc2 x0 xs xq E K
  simp only [cc1__stats_kernel_eq_skeleton]; unfold cc1__stats_kernel_skel
  unfold owns
  iintro ⟨⟨%f0, %hf0, H0⟩, ⟨%d1, %f1, -, H1⟩, ⟨%d2, %f2, -, H2⟩, ⟨%f3, %hf3, H3⟩, ⟨%f4, %hf4, H4⟩, Hk⟩
  obtain rfl := harg1.eq_unread hf0; obtain rfl := harg4.eq_unread hf3; obtain rfl := harg5.eq_unread hf4
  sl_exec (disch := first | exact hc0 | exact hc2)
  sl_step
  sl_unfold_run_names
  iapply Hk
  isplitl [H0]
  · iexists _; isplitr; · ipureintro; exact hf0
    iexact H0
  isplitl [H1]
  · iexists _; isplitr
    swap; · iexact H1
    ipureintro
    rw [stats_read_store_whole _ _ stats_off_zero, View.readCov_unit_zero arg4.view stats_off_zero,
      stats_readAt_whole arg1 harg1 x0 stats_off_zero, stats_readAt_whole arg4 harg4 xs stats_off_zero]
  isplitl [H2]
  · iexists _; isplitr
    swap; · iexact H2
    ipureintro
    rw [stats_read_store_whole _ _ stats_off_zero, View.readCov_unit_zero arg4.view stats_off_zero,
      View.readCov_unit_zero arg5.view stats_off_zero, stats_readAt_whole arg1 harg1 x0 stats_off_zero,
      stats_readAt_whole arg4 harg4 xs stats_off_zero, stats_readAt_whole arg5 harg5 xq stats_off_zero]
  isplitl [H3]
  · iexists _; isplitr
    swap; · iexact H3
    ipureintro
    rw [stats_read_store_whole _ _ stats_off_zero, stats_readAt_whole arg1 harg1 x0 stats_off_zero,
      stats_readAt_whole arg4 harg4 xs stats_off_zero]
  iexists _; isplitr
  swap; · iexact H4
  ipureintro
  rw [stats_read_store_whole _ _ stats_off_zero, stats_readAt_whole arg1 harg1 x0 stats_off_zero,
    stats_readAt_whole arg5 harg5 xq stats_off_zero]

abbrev cond4_0 (i : grid4.Coords) : Prop :=
  (Scalar.cmpi .ne (Scalar.extui (Scalar.cmpi .eq (BitVec.ofNat 32 (i 0).val) 0#32)) 0#32) = 1#1

abbrev cond4_2 (i : grid4.Coords) : Prop := k4_cond2 i = 1#1

theorem hcond4_0 : ∀ t : Fin cfg4.N, cond4_0 (grid4.coords t) ↔ t.val = 0 := hcond1_0
theorem hcond4_2 : ∀ t : Fin cfg4.N, cond4_2 (grid4.coords t) ↔ t.val = 19 := hcond1_2

-- Layers 2 and 3 run the same function as layer 1, so layer 1's three proofs serve them.
theorem run4_A : RunA (F := F) cc4__stats_kernel cond4_0 cond4_2 k4_pay1 k4_pay2 k4_pay4 k4_pay5 k4_pay6 k4_pay7 := run1_A
theorem run4_B : RunB (F := F) cc4__stats_kernel cond4_0 cond4_2 k4_pay1 k4_pay2 k4_pay4 k4_pay5 k4_pay6 k4_pay7 := run1_B
theorem run4_C : RunC (F := F) cc4__stats_kernel cond4_0 cond4_2 k4_pay1 k4_pay2 k4_pay4 k4_pay5 k4_pay6 k4_pay7 := run1_C

abbrev cond7_0 (i : grid7.Coords) : Prop :=
  (Scalar.cmpi .ne (Scalar.extui (Scalar.cmpi .eq (BitVec.ofNat 32 (i 0).val) 0#32)) 0#32) = 1#1

abbrev cond7_2 (i : grid7.Coords) : Prop := k7_cond2 i = 1#1

theorem hcond7_0 : ∀ t : Fin cfg7.N, cond7_0 (grid7.coords t) ↔ t.val = 0 := hcond1_0
theorem hcond7_2 : ∀ t : Fin cfg7.N, cond7_2 (grid7.coords t) ↔ t.val = 19 := hcond1_2

theorem run7_A : RunA (F := F) cc7__stats_kernel cond7_0 cond7_2 k7_pay1 k7_pay2 k7_pay4 k7_pay5 k7_pay6 k7_pay7 := run1_A
theorem run7_B : RunB (F := F) cc7__stats_kernel cond7_0 cond7_2 k7_pay1 k7_pay2 k7_pay4 k7_pay5 k7_pay6 k7_pay7 := run1_B
theorem run7_C : RunC (F := F) cc7__stats_kernel cond7_0 cond7_2 k7_pay1 k7_pay2 k7_pay4 k7_pay5 k7_pay6 k7_pay7 := run1_C

end Cert.KernelIdeal.Hand

end
-- ==== Proof.KI.R1.lean ====
import proofs.«415738_j90726889161246_1_alg».proof.Proof.KI.StatsRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def sumAt1 (c : Dev nD) : ℕ → Vec F S1x128 .f32
  | 0 => if h : 0 < cfg1.N then k1_pay4 (iblk1 V c 0 ⟨0, h⟩) (k1_pay1 (F := F)) else k1_pay1 (F := F)
  | n + 1 => if h : n + 1 < cfg1.N then k1_pay4 (iblk1 V c 0 ⟨n + 1, h⟩) (sumAt1 c n) else sumAt1 c n

def sqAt1 (c : Dev nD) : ℕ → Vec F S1x128 .f32
  | 0 => if h : 0 < cfg1.N then k1_pay5 (iblk1 V c 0 ⟨0, h⟩) (k1_pay2 (F := F)) else k1_pay2 (F := F)
  | n + 1 => if h : n + 1 < cfg1.N then k1_pay5 (iblk1 V c 0 ⟨n + 1, h⟩) (sqAt1 c n) else sqAt1 c n

theorem sumAt1_zero (c : Dev nD) (h : 0 < cfg1.N) :
    sumAt1 V c 0 = k1_pay4 (iblk1 V c 0 ⟨0, h⟩) (k1_pay1 (F := F)) := dif_pos h
theorem sumAt1_succ (c : Dev nD) (n : ℕ) (h : n + 1 < cfg1.N) :
    sumAt1 V c (n + 1) = k1_pay4 (iblk1 V c 0 ⟨n + 1, h⟩) (sumAt1 V c n) := dif_pos h
theorem sqAt1_zero (c : Dev nD) (h : 0 < cfg1.N) :
    sqAt1 V c 0 = k1_pay5 (iblk1 V c 0 ⟨0, h⟩) (k1_pay2 (F := F)) := dif_pos h
theorem sqAt1_succ (c : Dev nD) (n : ℕ) (h : n + 1 < cfg1.N) :
    sqAt1 V c (n + 1) = k1_pay5 (iblk1 V c 0 ⟨n + 1, h⟩) (sqAt1 V c n) := dif_pos h

abbrev scS1 : Memref sig .tc .vmem S1x128 .f32 := Memref.whole cc1_scratch0
abbrev scQ1 : Memref sig .tc .vmem S1x128 .f32 := Memref.whole cc1_scratch1

def Phi1 (c : Dev nD) : ℕ → sProp 𝕄
  | 0 => iprop((∃ r, prngReg c r) ∗ Pipeline.scopedRest (Ix := Unit) (Name := ℕ) (U := UR sig nD τ) (Lvl := ℕ) (Val := Elt F) spec1 c)
  | n + 1 => iprop(owns (c : Thread nD τ) scS1 fullShare (sumAt1 V c n) ∗ owns (c : Thread nD τ) scQ1 fullShare (sqAt1 V c n)
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (sumAt1 V c t.val)
    | ⟨2, _⟩ => k1_pay7 (sumAt1 V c t.val) (sqAt1 V c t.val)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay6 (sumAt1 V c t.val) := by dsimp only [dat1]
theorem after1_2 (c : Dev nD) (t : Fin cfg1.N) :
    (dat1 V c).after 2 t = k1_pay7 (sumAt1 V c t.val) (sqAt1 V c t.val) := by dsimp only [dat1]
theorem Phi_eq1 (c : Dev nD) (t : Fin (cfg1.N + 1)) : (dat1 V c).Φ t = Phi1 V c t.val := by dsimp only [dat1]

theorem Phi1_zero_eq (c : Dev nD) :
    Phi1 V c 0 = iprop((∃ r, prngReg c r) ∗ (iprop((∃ d, owns (c : Thread nD τ) scS1 fullShare d) ∗ (∃ d, owns (c : Thread nD τ) scQ1 fullShare d))
      ∗ Pipeline.scopedRestBut (Ix := Unit) (Name := ℕ) (U := UR sig nD τ) (Lvl := ℕ) (Val := Elt F) spec1 c [cc1_scratch0, cc1_scratch1])) := by
  show iprop((∃ r, prngReg c r) ∗ Pipeline.scopedRest (Ix := Unit) (Name := ℕ) (U := UR sig nD τ) (Lvl := ℕ) (Val := Elt F) spec1 c) = _
  rw [scopedRest1_split]; simp only [scS1, scQ1, owns_whole]; rfl

theorem Phi1_succ (c : Dev nD) (n : ℕ) :
    Phi1 V c (n + 1) = iprop(owns (c : Thread nD τ) scS1 fullShare (sumAt1 V c n) ∗ owns (c : Thread nD τ) scQ1 fullShare (sqAt1 V c n)
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_forget (c : Dev nD) (n : ℕ) : Phi1 V c (n + 1) ⊢ Phi1 V c 0 := by
  rw [Phi1_zero_eq, Phi1_succ]
  iintro ⟨HS, HQ, HR, Hg⟩
  isplitl [Hg]; · iexact Hg
  isplitl [HS HQ]
  · isplitl [HS]; · iexists _; iexact HS
    iexists _; iexact HQ
  iexact HR

theorem liveAt1_0 : ∀ t : Fin cfg1.N, cfg1.idle 0 (grid1.coords t) = false := by decide +kernel

theorem idleAt1_1 : ∀ t : Fin cfg1.N, ¬cond1_2 (grid1.coords t) → cfg1.idle 1 (grid1.coords t) = true := by decide +kernel
theorem idleAt1_2 : ∀ t : Fin cfg1.N, ¬cond1_2 (grid1.coords t) → cfg1.idle 2 (grid1.coords t) = true := by decide +kernel
theorem noFlush1_1 : ∀ t : Fin cfg1.N, ¬cond1_2 (grid1.coords t) → (cfg1.win 1).flush t = false := by decide +kernel
theorem noFlush1_2 : ∀ t : Fin cfg1.N, ¬cond1_2 (grid1.coords t) → (cfg1.win 2).flush t = false := by decide +kernel

theorem liveAt1_1 : ∀ t : Fin cfg1.N, cond1_2 (grid1.coords t) → cfg1.idle 1 (grid1.coords t) = false := by decide +kernel
theorem liveAt1_2 : ∀ t : Fin cfg1.N, cond1_2 (grid1.coords t) → cfg1.idle 2 (grid1.coords t) = false := by decide +kernel

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).leavesExact 0 t = owns (c : Thread nD τ) (st1_0 t) fullShare ((dat1 V c).after 0 t) from by
      unfold Dat.leavesExact; rw [liveAt1_0 t], after1_0]
  rw [Phi_eq1, Phi_eq1, Fin.coe_castSucc, Fin.val_succ]
  obtain ⟨tv, ht⟩ := t
  cases tv with
  | zero =>
    have hc0 : cond1_0 (grid1.coords ⟨0, ht⟩) := (hcond1_0 ⟨0, ht⟩).mpr rfl
    have hc2 : ¬cond1_2 (grid1.coords ⟨0, ht⟩) := fun h => absurd ((hcond1_2 ⟨0, ht⟩).mp h) (by decide : ¬(0 : ℕ) = 19)
    rw [Dat.leavesExact_idle (dat1 V c) 1 ⟨0, ht⟩ (idleAt1_1 _ hc2) (noFlush1_1 _ hc2),
      Dat.leavesExact_idle (dat1 V c) 2 ⟨0, ht⟩ (idleAt1_2 _ hc2) (noFlush1_2 _ hc2)]
    rw [Phi1_zero_eq, Phi1_succ, sumAt1_zero V c ht, sqAt1_zero V c ht]
    iintro ⟨⟨Hg, ⟨HS, HQ⟩, HR⟩, Ho, ⟨%d0, H0⟩, ⟨%d1, H1⟩, ⟨%d2, H2⟩⟩
    iapply (run1_A c (grid1.coords ⟨0, ht⟩) _ _ _ _ _ _ _ _ _ _ hc0 hc2 (iblk1 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond1_0 (grid1.coords ⟨n + 1, ht⟩) := fun h => absurd ((hcond1_0 ⟨n + 1, ht⟩).mp h) (Nat.succ_ne_zero n)
    by_cases h2 : n + 1 = 19
    · have hc2 : cond1_2 (grid1.coords ⟨n + 1, ht⟩) := (hcond1_2 ⟨n + 1, ht⟩).mpr h2
      rw [show (dat1 V c).leavesExact 1 ⟨n + 1, ht⟩ = owns (c : Thread nD τ) (st1_1 ⟨n + 1, ht⟩) fullShare ((dat1 V c).after 1 ⟨n + 1, ht⟩) from by
          unfold Dat.leavesExact; rw [liveAt1_1 _ hc2], after1_1]
      rw [show (dat1 V c).leavesExact 2 ⟨n + 1, ht⟩ = owns (c : Thread nD τ) (st1_2 ⟨n + 1, ht⟩) fullShare ((dat1 V c).after 2 ⟨n + 1, ht⟩) from by
          unfold Dat.leavesExact; rw [liveAt1_2 _ hc2], after1_2]
      rw [Phi1_succ V c n, Phi1_succ V c (n + 1), sumAt1_succ V c n ht, sqAt1_succ V c n ht]
      iintro ⟨⟨HS, HQ, HR, Hg⟩, Ho, ⟨%d0, H0⟩, ⟨%d1, H1⟩, ⟨%d2, H2⟩⟩
      iapply (run1_C c (grid1.coords ⟨n + 1, ht⟩) _ _ _ _ _ _ _ _ _ _ hc0 hc2 (iblk1 V c 0 ⟨n + 1, ht⟩) (sumAt1 V c n) (sqAt1 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond1_2 (grid1.coords ⟨n + 1, ht⟩) := fun h => h2 ((hcond1_2 ⟨n + 1, ht⟩).mp h)
      rw [Dat.leavesExact_idle (dat1 V c) 1 ⟨n + 1, ht⟩ (idleAt1_1 _ hc2) (noFlush1_1 _ hc2),
        Dat.leavesExact_idle (dat1 V c) 2 ⟨n + 1, ht⟩ (idleAt1_2 _ hc2) (noFlush1_2 _ hc2)]
      rw [Phi1_succ V c n, Phi1_succ V c (n + 1), sumAt1_succ V c n ht, sqAt1_succ V c n ht]
      iintro ⟨⟨HS, HQ, HR, Hg⟩, Ho, ⟨%d0, H0⟩, ⟨%d1, H1⟩, ⟨%d2, H2⟩⟩
      iapply (run1_B c (grid1.coords ⟨n + 1, ht⟩) _ _ _ _ _ _ _ _ _ _ hc0 hc2 (iblk1 V c 0 ⟨n + 1, ht⟩) _ _ (sumAt1 V c n) (sqAt1 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) :
    (iprop((∃ r, prngReg c r) ∗ Pipeline.scopedRest (Ix := Unit) (Name := ℕ) (U := UR sig nD τ) (Lvl := ℕ) (Val := Elt F) spec1 c) : sProp 𝕄)
      ⊢ (dat1 V c).Φ 0 := by
  rw [Phi_eq1]; exact Idealize.SL.BI.Entails.refl _
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  rw [Phi_eq1, show (Fin.last cfg1.N).val = 19 + 1 from N_1]
  exact Phi1_forget V c 19

end Cert.KernelIdeal.Hand

end
-- ==== Proof.KI.BnRun.lean ====
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rect2_blk : Rect S5000x128 := Rect.unit (s := S5000x128) ![0, 0] S5000x128.size inb_S5000x128_S5000x128_0_0
abbrev rect2_row : Rect S1x128 := Rect.unit (s := S1x128) ![0, 0] S1x128.size inb_S1x128_S1x128_0_0
abbrev rect2_mat : Rect S128x128 := Rect.unit (s := S128x128) ![0, 0] S128x128.size inb_S128x128_S128x128_0_0

def out2_6 (x0 : Vec F S5000x128 .f32) (x1 x2 x3 x4 : Vec F S1x128 .f32) (x5 : Vec F S128x128 .f32) : Vec F S5000x128 .f32 :=
  View.canon [⟨rect2_blk, k2_pay1 (View.ld x0 rect2_blk) (View.ld x1 rect2_row) (View.ld x2 rect2_row) (View.ld x3 rect2_row)
    (View.ld x4 rect2_row) (View.ld x5 rect2_mat)⟩]

theorem cover2_6 (p0 : Vec F S5000x128 .f32) (y : S5000x128.Idx) :
    ∃ pc ∈ ([⟨rect2_blk, p0⟩] : List (View.Piece (Elt F) S5000x128 .f32)), y ∈ pc.1.set :=
  View.cover_of_tiled [⟨rect2_blk, p0⟩] S5000x128.size (by rfl) y

def BnTriple (kern : type_of% (@cc2__bn_matmul_kernel F _)) (out : type_of% (@out2_6 F _)) : Prop :=
  ∀ (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S5000x128 .f32) (harg6 : arg6.IsWhole)
    (x0 : Vec F S5000x128 .f32) (x1 x2 x3 x4 : Vec F S1x128 .f32) (x5 : Vec F S128x128 .f32) (K : PUnit → sProp 𝕄),
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out x0 x1 x2 x3 x4 x5)) -∗ K ⟨⟩))
      ⊢ wp frame (wpE (defs₀ (F := F)) Variants.none c none) E
          (kern i arg0 harg0 arg1 harg1 arg2 harg2 arg3 harg3 arg4 harg4 arg5 harg5 arg6 harg6) K

set_option maxHeartbeats 1000000 in
theorem sound_kernel2 : BnTriple (F := F) cc2__bn_matmul_kernel out2_6 := by
  unfold BnTriple
  intro c E i arg0 harg0 arg1 harg1 arg2 harg2 arg3 harg3 arg4 harg4 arg5 harg5 arg6 harg6 x0 x1 x2 x3 x4 x5 K
  simp only [cc2__bn_matmul_kernel_eq_skeleton]; unfold cc2__bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

def out5_6 (x0 : Vec F S5000x128 .f32) (x1 x2 x3 x4 : Vec F S1x128 .f32) (x5 : Vec F S128x128 .f32) : Vec F S5000x128 .f32 :=
  View.canon [⟨rect2_blk, k5_pay1 (View.ld x0 rect2_blk) (View.ld x1 rect2_row) (View.ld x2 rect2_row) (View.ld x3 rect2_row)
    (View.ld x4 rect2_row) (View.ld x5 rect2_mat)⟩]

-- The same function as layer 1's.
theorem sound_kernel5 : BnTriple (F := F) cc5__bn_matmul_kernel out5_6 := sound_kernel2

def out8_6 (x0 : Vec F S5000x128 .f32) (x1 x2 x3 x4 : Vec F S1x128 .f32) (x5 : Vec F S128x128 .f32) : Vec F S5000x128 .f32 :=
  View.canon [⟨rect2_blk, k8_pay1 (View.ld x0 rect2_blk) (View.ld x1 rect2_row) (View.ld x2 rect2_row) (View.ld x3 rect2_row)
    (View.ld x4 rect2_row) (View.ld x5 rect2_mat)⟩]

theorem sound_kernel8 : BnTriple (F := F) cc8__bn_matmul_kernel out8_6 := sound_kernel2

end Cert.KernelIdeal.Hand

end
-- ==== Proof.KI.R2.lean ====
import proofs.«415738_j90726889161246_1_alg».proof.Proof.KI.BnRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.GateRun.lean ====
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev full3 : Rect S5000x128 := Rect.unit (s := S5000x128) ![0, 0] S5000x128.size inb_S5000x128_S5000x128_0_0

abbrev col3 : Rect S5000x1 := Rect.unit (s := S5000x1) ![0, 0] S5000x1.size inb_S5000x1_S5000x1_0_0

def out3_3 (x0 x1 : Vec F S5000x128 .f32) (x2 : Vec F S5000x1 .f32) : Vec F S5000x128 .f32 :=
  View.canon [⟨full3, k3_pay1 (View.ld x0 full3) (View.ld x2 col3) (View.ld x1 full3)⟩]

theorem cover3_3 (p : Vec F S5000x128 .f32) (y : S5000x128.Idx) :
    ∃ pc ∈ ([⟨full3, p⟩] : List (View.Piece (Elt F) S5000x128 .f32)), y ∈ pc.1.set :=
  View.cover_of_tiled [⟨full3, p⟩] S5000x128.size (by rfl) y

def GateTriple (kern : type_of% (@cc3__gate_resid_kernel F _)) (out : type_of% (@out3_3 F _)) : Prop :=
  ∀ (c : Dev nD) (E : Set ℕ) (i : grid3.Coords)
    (a1 : Memref sig .tc .vmem S5000x128 .f32) (h1 : a1.IsWhole) (a2 : Memref sig .tc .vmem S5000x128 .f32) (h2 : a2.IsWhole)
    (a3 : Memref sig .tc .vmem S5000x1 .f32) (h3 : a3.IsWhole) (a4 : Memref sig .tc .vmem S5000x128 .f32) (h4 : a4.IsWhole)
    (x0 x1 : Vec F S5000x128 .f32) (x2 : Vec F S5000x1 .f32) (K : PUnit → sProp 𝕄),
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (out x0 x1 x2)) -∗ K ⟨⟩))
      ⊢ wp frame (wpE (defs₀ (F := F)) Variants.none c none) E (kern i a1 h1 a2 h2 a3 h3 a4 h4) K

set_option maxHeartbeats 1000000 in
theorem kernel_triple3 : GateTriple (F := F) cc3__gate_resid_kernel out3_3 := by
  unfold GateTriple
  intro c E i a1 h1 a2 h2 a3 h3 a4 h4 x0 x1 x2 K
  simp only [cc3__gate_resid_kernel_eq_skeleton]; unfold cc3__gate_resid_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def out6_3 (x0 x1 : Vec F S5000x128 .f32) (x2 : Vec F S5000x1 .f32) : Vec F S5000x128 .f32 :=
  View.canon [⟨full3, k6_pay1 (View.ld x0 full3) (View.ld x2 col3) (View.ld x1 full3)⟩]

-- The same function as layer 1's.
theorem kernel_triple6 : GateTriple (F := F) cc6__gate_resid_kernel out6_3 := kernel_triple3

def out9_3 (x0 x1 : Vec F S5000x128 .f32) (x2 : Vec F S5000x1 .f32) : Vec F S5000x128 .f32 :=
  View.canon [⟨full3, k9_pay1 (View.ld x0 full3) (View.ld x2 col3) (View.ld x1 full3)⟩]

theorem kernel_triple9 : GateTriple (F := F) cc9__gate_resid_kernel out9_3 := kernel_triple3

end Cert.KernelIdeal.Hand

end
-- ==== Proof.KI.R3.lean ====
import proofs.«415738_j90726889161246_1_alg».proof.Proof.KI.GateRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem body_triple3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (kernel_triple3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact body_triple3 V c t

end Cert.KernelIdeal.Hand

end
-- ==== Proof.KI.R4.lean ====
import proofs.«415738_j90726889161246_1_alg».proof.Proof.KI.StatsRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def sumAt4 (c : Dev nD) : ℕ → Vec F S1x128 .f32
  | 0 => if h : 0 < cfg4.N then k4_pay4 (iblk4 V c 0 ⟨0, h⟩) (k4_pay1 (F := F)) else k4_pay1 (F := F)
  | n + 1 => if h : n + 1 < cfg4.N then k4_pay4 (iblk4 V c 0 ⟨n + 1, h⟩) (sumAt4 c n) else sumAt4 c n

def sqAt4 (c : Dev nD) : ℕ → Vec F S1x128 .f32
  | 0 => if h : 0 < cfg4.N then k4_pay5 (iblk4 V c 0 ⟨0, h⟩) (k4_pay2 (F := F)) else k4_pay2 (F := F)
  | n + 1 => if h : n + 1 < cfg4.N then k4_pay5 (iblk4 V c 0 ⟨n + 1, h⟩) (sqAt4 c n) else sqAt4 c n

theorem sumAt4_zero (c : Dev nD) (h : 0 < cfg4.N) :
    sumAt4 V c 0 = k4_pay4 (iblk4 V c 0 ⟨0, h⟩) (k4_pay1 (F := F)) := dif_pos h
theorem sumAt4_succ (c : Dev nD) (n : ℕ) (h : n + 1 < cfg4.N) :
    sumAt4 V c (n + 1) = k4_pay4 (iblk4 V c 0 ⟨n + 1, h⟩) (sumAt4 V c n) := dif_pos h
theorem sqAt4_zero (c : Dev nD) (h : 0 < cfg4.N) :
    sqAt4 V c 0 = k4_pay5 (iblk4 V c 0 ⟨0, h⟩) (k4_pay2 (F := F)) := dif_pos h
theorem sqAt4_succ (c : Dev nD) (n : ℕ) (h : n + 1 < cfg4.N) :
    sqAt4 V c (n + 1) = k4_pay5 (iblk4 V c 0 ⟨n + 1, h⟩) (sqAt4 V c n) := dif_pos h

abbrev scS4 : Memref sig .tc .vmem S1x128 .f32 := Memref.whole cc4_scratch0
abbrev scQ4 : Memref sig .tc .vmem S1x128 .f32 := Memref.whole cc4_scratch1

def Phi4 (c : Dev nD) : ℕ → sProp 𝕄
  | 0 => iprop((∃ r, prngReg c r) ∗ Pipeline.scopedRest (Ix := Unit) (Name := ℕ) (U := UR sig nD τ) (Lvl := ℕ) (Val := Elt F) spec4 c)
  | n + 1 => iprop(owns (c : Thread nD τ) scS4 fullShare (sumAt4 V c n) ∗ owns (c : Thread nD τ) scQ4 fullShare (sqAt4 V c n)
      ∗ Pipeline.scopedRestBut (Ix := Unit) (Name := ℕ) (U := UR sig nD τ) (Lvl := ℕ) (Val := Elt F) spec4 c [cc4_scratch0, cc4_scratch1]
      ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (sumAt4 V c t.val)
    | ⟨2, _⟩ => k4_pay7 (sumAt4 V c t.val) (sqAt4 V c t.val)
  Φ t := Phi4 V c t.val
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = k4_pay6 (sumAt4 V c t.val) := by dsimp only [dat4]
theorem after4_2 (c : Dev nD) (t : Fin cfg4.N) :
    (dat4 V c).after 2 t = k4_pay7 (sumAt4 V c t.val) (sqAt4 V c t.val) := by dsimp only [dat4]
theorem Phi_eq4 (c : Dev nD) (t : Fin (cfg4.N + 1)) : (dat4 V c).Φ t = Phi4 V c t.val := by dsimp only [dat4]

theorem Phi4_zero_eq (c : Dev nD) :
    Phi4 V c 0 = iprop((∃ r, prngReg c r) ∗ (iprop((∃ d, owns (c : Thread nD τ) scS4 fullShare d) ∗ (∃ d, owns (c : Thread nD τ) scQ4 fullShare d))
      ∗ Pipeline.scopedRestBut (Ix := Unit) (Name := ℕ) (U := UR sig nD τ) (Lvl := ℕ) (Val := Elt F) spec4 c [cc4_scratch0, cc4_scratch1])) := by
  show iprop((∃ r, prngReg c r) ∗ Pipeline.scopedRest (Ix := Unit) (Name := ℕ) (U := UR sig nD τ) (Lvl := ℕ) (Val := Elt F) spec4 c) = _
  rw [scopedRest4_split]; simp only [scS4, scQ4, owns_whole]; rfl

theorem Phi4_succ (c : Dev nD) (n : ℕ) :
    Phi4 V c (n + 1) = iprop(owns (c : Thread nD τ) scS4 fullShare (sumAt4 V c n) ∗ owns (c : Thread nD τ) scQ4 fullShare (sqAt4 V c n)
      ∗ Pipeline.scopedRestBut (Ix := Unit) (Name := ℕ) (U := UR sig nD τ) (Lvl := ℕ) (Val := Elt F) spec4 c [cc4_scratch0, cc4_scratch1]
      ∗ (∃ r, prngReg c r)) := rfl

theorem Phi4_forget (c : Dev nD) (n : ℕ) : Phi4 V c (n + 1) ⊢ Phi4 V c 0 := by
  rw [Phi4_zero_eq, Phi4_succ]
  iintro ⟨HS, HQ, HR, Hg⟩
  isplitl [Hg]; · iexact Hg
  isplitl [HS HQ]
  · isplitl [HS]; · iexists _; iexact HS
    iexists _; iexact HQ
  iexact HR

theorem liveAt4_0 : ∀ t : Fin cfg4.N, cfg4.idle 0 (grid4.coords t) = false := by decide +kernel

theorem idleAt4_1 : ∀ t : Fin cfg4.N, ¬cond4_2 (grid4.coords t) → cfg4.idle 1 (grid4.coords t) = true := by decide +kernel
theorem idleAt4_2 : ∀ t : Fin cfg4.N, ¬cond4_2 (grid4.coords t) → cfg4.idle 2 (grid4.coords t) = true := by decide +kernel
theorem noFlush4_1 : ∀ t : Fin cfg4.N, ¬cond4_2 (grid4.coords t) → (cfg4.win 1).flush t = false := by decide +kernel
theorem noFlush4_2 : ∀ t : Fin cfg4.N, ¬cond4_2 (grid4.coords t) → (cfg4.win 2).flush t = false := by decide +kernel

theorem liveAt4_1 : ∀ t : Fin cfg4.N, cond4_2 (grid4.coords t) → cfg4.idle 1 (grid4.coords t) = false := by decide +kernel
theorem liveAt4_2 : ∀ t : Fin cfg4.N, cond4_2 (grid4.coords t) → cfg4.idle 2 (grid4.coords t) = false := by decide +kernel

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).leavesExact 0 t = owns (c : Thread nD τ) (st4_0 t) fullShare ((dat4 V c).after 0 t) from by
      unfold Dat.leavesExact; rw [liveAt4_0 t], after4_0]
  rw [Phi_eq4, Phi_eq4, Fin.coe_castSucc, Fin.val_succ]
  obtain ⟨tv, ht⟩ := t
  cases tv with
  | zero =>
    have hc0 : cond4_0 (grid4.coords ⟨0, ht⟩) := (hcond4_0 ⟨0, ht⟩).mpr rfl
    have hc2 : ¬cond4_2 (grid4.coords ⟨0, ht⟩) := fun h => absurd ((hcond4_2 ⟨0, ht⟩).mp h) (by decide : ¬(0 : ℕ) = 19)
    rw [Dat.leavesExact_idle (dat4 V c) 1 ⟨0, ht⟩ (idleAt4_1 _ hc2) (noFlush4_1 _ hc2),
      Dat.leavesExact_idle (dat4 V c) 2 ⟨0, ht⟩ (idleAt4_2 _ hc2) (noFlush4_2 _ hc2)]
    rw [Phi4_zero_eq, Phi4_succ, sumAt4_zero V c ht, sqAt4_zero V c ht]
    iintro ⟨⟨Hg, ⟨HS, HQ⟩, HR⟩, Ho, ⟨%d0, H0⟩, ⟨%d1, H1⟩, ⟨%d2, H2⟩⟩
    iapply (run4_A c (grid4.coords ⟨0, ht⟩) _ _ _ _ _ _ _ _ _ _ hc0 hc2 (iblk4 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond4_0 (grid4.coords ⟨n + 1, ht⟩) := fun h => absurd ((hcond4_0 ⟨n + 1, ht⟩).mp h) (Nat.succ_ne_zero n)
    by_cases h2 : n + 1 = 19
    · have hc2 : cond4_2 (grid4.coords ⟨n + 1, ht⟩) := (hcond4_2 ⟨n + 1, ht⟩).mpr h2
      rw [show (dat4 V c).leavesExact 1 ⟨n + 1, ht⟩ = owns (c : Thread nD τ) (st4_1 ⟨n + 1, ht⟩) fullShare ((dat4 V c).after 1 ⟨n + 1, ht⟩) from by
          unfold Dat.leavesExact; rw [liveAt4_1 _ hc2], after4_1]
      rw [show (dat4 V c).leavesExact 2 ⟨n + 1, ht⟩ = owns (c : Thread nD τ) (st4_2 ⟨n + 1, ht⟩) fullShare ((dat4 V c).after 2 ⟨n + 1, ht⟩) from by
          unfold Dat.leavesExact; rw [liveAt4_2 _ hc2], after4_2]
      rw [Phi4_succ V c n, Phi4_succ V c (n + 1), sumAt4_succ V c n ht, sqAt4_succ V c n ht]
      iintro ⟨⟨HS, HQ, HR, Hg⟩, Ho, ⟨%d0, H0⟩, ⟨%d1, H1⟩, ⟨%d2, H2⟩⟩
      iapply (run4_C c (grid4.coords ⟨n + 1, ht⟩) _ _ _ _ _ _ _ _ _ _ hc0 hc2 (iblk4 V c 0 ⟨n + 1, ht⟩) (sumAt4 V c n) (sqAt4 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond4_2 (grid4.coords ⟨n + 1, ht⟩) := fun h => h2 ((hcond4_2 ⟨n + 1, ht⟩).mp h)
      rw [Dat.leavesExact_idle (dat4 V c) 1 ⟨n + 1, ht⟩ (idleAt4_1 _ hc2) (noFlush4_1 _ hc2),
        Dat.leavesExact_idle (dat4 V c) 2 ⟨n + 1, ht⟩ (idleAt4_2 _ hc2) (noFlush4_2 _ hc2)]
      rw [Phi4_succ V c n, Phi4_succ V c (n + 1), sumAt4_succ V c n ht, sqAt4_succ V c n ht]
      iintro ⟨⟨HS, HQ, HR, Hg⟩, Ho, ⟨%d0, H0⟩, ⟨%d1, H1⟩, ⟨%d2, H2⟩⟩
      iapply (run4_B c (grid4.coords ⟨n + 1, ht⟩) _ _ _ _ _ _ _ _ _ _ hc0 hc2 (iblk4 V c 0 ⟨n + 1, ht⟩) _ _ (sumAt4 V c n) (sqAt4 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) :
    (iprop((∃ r, prngReg c r) ∗ Pipeline.scopedRest (Ix := Unit) (Name := ℕ) (U := UR sig nD τ) (Lvl := ℕ) (Val := Elt F) spec4 c) : sProp 𝕄)
      ⊢ (dat4 V c).Φ 0 := by
  rw [Phi_eq4]; exact Idealize.SL.BI.Entails.refl _
theorem hout4 (c : Dev nD) :
    ((dat4 V c).Φ (Fin.last cfg4.N) : sProp 𝕄)
      ⊢ iprop((∃ r, prngReg c r) ∗ Pipeline.scopedRest (Ix := Unit) (Name := ℕ) (U := UR sig nD τ) (Lvl := ℕ) (Val := Elt F) spec4 c) := by
  rw [Phi_eq4, show (Fin.last cfg4.N).val = 19 + 1 from N_4]
  exact Phi4_forget V c 19

end Cert.KernelIdeal.Hand

end
-- ==== Proof.KI.R5.lean ====
import proofs.«415738_j90726889161246_1_alg».proof.Proof.KI.BnRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.R6.lean ====
import proofs.«415738_j90726889161246_1_alg».proof.Proof.KI.GateRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by
  dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def pre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def post6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem body_triple6 (c : Dev nD) (t : Fin cfg6.N) :
    pre6 V c t ⊢ wp frame (wpE (defs₀ (F := F)) Variants.none c none) Set.univ (bodyAt6 t) (fun _ => post6 V c t) := by
  unfold pre6 post6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (kernel_triple6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact body_triple6 V c t

end Cert.KernelIdeal.Hand

end
-- ==== Proof.KI.R7.lean ====
import proofs.«415738_j90726889161246_1_alg».proof.Proof.KI.StatsRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def sumAt7 (c : Dev nD) : ℕ → Vec F S1x128 .f32
  | 0 => if h : 0 < cfg7.N then k7_pay4 (iblk7 V c 0 ⟨0, h⟩) (k7_pay1 (F := F)) else k7_pay1 (F := F)
  | n + 1 => if h : n + 1 < cfg7.N then k7_pay4 (iblk7 V c 0 ⟨n + 1, h⟩) (sumAt7 c n) else sumAt7 c n

def sqAt7 (c : Dev nD) : ℕ → Vec F S1x128 .f32
  | 0 => if h : 0 < cfg7.N then k7_pay5 (iblk7 V c 0 ⟨0, h⟩) (k7_pay2 (F := F)) else k7_pay2 (F := F)
  | n + 1 => if h : n + 1 < cfg7.N then k7_pay5 (iblk7 V c 0 ⟨n + 1, h⟩) (sqAt7 c n) else sqAt7 c n

theorem sumAt7_zero (c : Dev nD) (h : 0 < cfg7.N) :
    sumAt7 V c 0 = k7_pay4 (iblk7 V c 0 ⟨0, h⟩) (k7_pay1 (F := F)) := dif_pos h
theorem sumAt7_succ (c : Dev nD) (n : ℕ) (h : n + 1 < cfg7.N) :
    sumAt7 V c (n + 1) = k7_pay4 (iblk7 V c 0 ⟨n + 1, h⟩) (sumAt7 V c n) := dif_pos h
theorem sqAt7_zero (c : Dev nD) (h : 0 < cfg7.N) :
    sqAt7 V c 0 = k7_pay5 (iblk7 V c 0 ⟨0, h⟩) (k7_pay2 (F := F)) := dif_pos h
theorem sqAt7_succ (c : Dev nD) (n : ℕ) (h : n + 1 < cfg7.N) :
    sqAt7 V c (n + 1) = k7_pay5 (iblk7 V c 0 ⟨n + 1, h⟩) (sqAt7 V c n) := dif_pos h

abbrev scS7 : Memref sig .tc .vmem S1x128 .f32 := Memref.whole cc7_scratch0
abbrev scQ7 : Memref sig .tc .vmem S1x128 .f32 := Memref.whole cc7_scratch1

def Phi7 (c : Dev nD) : ℕ → sProp 𝕄
  | 0 => iprop((∃ r, prngReg c r) ∗ Pipeline.scopedRest (Ix := Unit) (Name := ℕ) (U := UR sig nD τ) (Lvl := ℕ) (Val := Elt F) spec7 c)
  | n + 1 => iprop(owns (c : Thread nD τ) scS7 fullShare (sumAt7 V c n) ∗ owns (c : Thread nD τ) scQ7 fullShare (sqAt7 V c n)
      ∗ Pipeline.scopedRestBut (Ix := Unit) (Name := ℕ) (U := UR sig nD τ) (Lvl := ℕ) (Val := Elt F) spec7 c [cc7_scratch0, cc7_scratch1]
      ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => k7_pay6 (sumAt7 V c t.val)
    | ⟨2, _⟩ => k7_pay7 (sumAt7 V c t.val) (sqAt7 V c t.val)
  Φ t := Phi7 V c t.val
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = k7_pay6 (sumAt7 V c t.val) := by dsimp only [dat7]
theorem after7_2 (c : Dev nD) (t : Fin cfg7.N) :
    (dat7 V c).after 2 t = k7_pay7 (sumAt7 V c t.val) (sqAt7 V c t.val) := by dsimp only [dat7]
theorem Phi_eq7 (c : Dev nD) (t : Fin (cfg7.N + 1)) : (dat7 V c).Φ t = Phi7 V c t.val := by dsimp only [dat7]

theorem Phi7_zero_eq (c : Dev nD) :
    Phi7 V c 0 = iprop((∃ r, prngReg c r) ∗ (iprop((∃ d, owns (c : Thread nD τ) scS7 fullShare d) ∗ (∃ d, owns (c : Thread nD τ) scQ7 fullShare d))
      ∗ Pipeline.scopedRestBut (Ix := Unit) (Name := ℕ) (U := UR sig nD τ) (Lvl := ℕ) (Val := Elt F) spec7 c [cc7_scratch0, cc7_scratch1])) := by
  show iprop((∃ r, prngReg c r) ∗ Pipeline.scopedRest (Ix := Unit) (Name := ℕ) (U := UR sig nD τ) (Lvl := ℕ) (Val := Elt F) spec7 c) = _
  rw [scopedRest7_split]; simp only [scS7, scQ7, owns_whole]; rfl

theorem Phi7_succ (c : Dev nD) (n : ℕ) :
    Phi7 V c (n + 1) = iprop(owns (c : Thread nD τ) scS7 fullShare (sumAt7 V c n) ∗ owns (c : Thread nD τ) scQ7 fullShare (sqAt7 V c n)
      ∗ Pipeline.scopedRestBut (Ix := Unit) (Name := ℕ) (U := UR sig nD τ) (Lvl := ℕ) (Val := Elt F) spec7 c [cc7_scratch0, cc7_scratch1]
      ∗ (∃ r, prngReg c r)) := rfl

theorem Phi7_forget (c : Dev nD) (n : ℕ) : Phi7 V c (n + 1) ⊢ Phi7 V c 0 := by
  rw [Phi7_zero_eq, Phi7_succ]
  iintro ⟨HS, HQ, HR, Hg⟩
  isplitl [Hg]; · iexact Hg
  isplitl [HS HQ]
  · isplitl [HS]; · iexists _; iexact HS
    iexists _; iexact HQ
  iexact HR

theorem liveAt7_0 : ∀ t : Fin cfg7.N, cfg7.idle 0 (grid7.coords t) = false := by decide +kernel

theorem idleAt7_1 : ∀ t : Fin cfg7.N, ¬cond7_2 (grid7.coords t) → cfg7.idle 1 (grid7.coords t) = true := by decide +kernel
theorem idleAt7_2 : ∀ t : Fin cfg7.N, ¬cond7_2 (grid7.coords t) → cfg7.idle 2 (grid7.coords t) = true := by decide +kernel
theorem noFlush7_1 : ∀ t : Fin cfg7.N, ¬cond7_2 (grid7.coords t) → (cfg7.win 1).flush t = false := by decide +kernel
theorem noFlush7_2 : ∀ t : Fin cfg7.N, ¬cond7_2 (grid7.coords t) → (cfg7.win 2).flush t = false := by decide +kernel

theorem liveAt7_1 : ∀ t : Fin cfg7.N, cond7_2 (grid7.coords t) → cfg7.idle 1 (grid7.coords t) = false := by decide +kernel
theorem liveAt7_2 : ∀ t : Fin cfg7.N, cond7_2 (grid7.coords t) → cfg7.idle 2 (grid7.coords t) = false := by decide +kernel

theorem before7_0 (c : Dev nD) (t : Fin cfg7.N) (d) : (dat7 V c).before 0 t d = iblk7 V c 0 t :=
  ((dat7 V c).before_in_eq_fetched 0 rfl (fun _ => rfl) (fun _ _ _ => rfl)
      (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).leavesExact 0 t = owns (c : Thread nD τ) (st7_0 t) fullShare ((dat7 V c).after 0 t) from by
      unfold Dat.leavesExact; rw [liveAt7_0 t], after7_0]
  rw [Phi_eq7, Phi_eq7, Fin.coe_castSucc, Fin.val_succ]
  obtain ⟨tv, ht⟩ := t
  cases tv with
  | zero =>
    have hc0 : cond7_0 (grid7.coords ⟨0, ht⟩) := (hcond7_0 ⟨0, ht⟩).mpr rfl
    have hc2 : ¬cond7_2 (grid7.coords ⟨0, ht⟩) := fun h => absurd ((hcond7_2 ⟨0, ht⟩).mp h) (by decide : ¬(0 : ℕ) = 19)
    rw [Dat.leavesExact_idle (dat7 V c) 1 ⟨0, ht⟩ (idleAt7_1 _ hc2) (noFlush7_1 _ hc2),
      Dat.leavesExact_idle (dat7 V c) 2 ⟨0, ht⟩ (idleAt7_2 _ hc2) (noFlush7_2 _ hc2)]
    rw [Phi7_zero_eq, Phi7_succ, sumAt7_zero V c ht, sqAt7_zero V c ht]
    iintro ⟨⟨Hg, ⟨HS, HQ⟩, HR⟩, Ho, ⟨%d0, H0⟩, ⟨%d1, H1⟩, ⟨%d2, H2⟩⟩
    iapply (run7_A c (grid7.coords ⟨0, ht⟩) _ _ _ _ _ _ _ _ _ _ hc0 hc2 (iblk7 V c 0 ⟨0, ht⟩) _ _ Set.univ _)
    isplitl [H0]; · iexact H0
    isplitl [H1]; · iexact H1
    isplitl [H2]; · iexact H2
    isplitl [HS]; · iexact HS
    isplitl [HQ]; · iexact HQ
    iintro ⟨H0, H1, H2, HS, HQ⟩
    isplitl [HS HQ HR Hg]
    · isplitl [HS]; · iexact HS
      isplitl [HQ]; · iexact HQ
      isplitl [HR]; · iexact HR
      iexact Hg
    isplitl [Ho]; · iexact Ho
    isplitl [H0]; · iexact H0
    isplitl [H1]; · iexists _; iexact H1
    iexists _; iexact H2
  | succ n =>
    have hc0 : ¬cond7_0 (grid7.coords ⟨n + 1, ht⟩) := fun h => absurd ((hcond7_0 ⟨n + 1, ht⟩).mp h) (Nat.succ_ne_zero n)
    by_cases h2 : n + 1 = 19
    · have hc2 : cond7_2 (grid7.coords ⟨n + 1, ht⟩) := (hcond7_2 ⟨n + 1, ht⟩).mpr h2
      rw [show (dat7 V c).leavesExact 1 ⟨n + 1, ht⟩ = owns (c : Thread nD τ) (st7_1 ⟨n + 1, ht⟩) fullShare ((dat7 V c).after 1 ⟨n + 1, ht⟩) from by
          unfold Dat.leavesExact; rw [liveAt7_1 _ hc2], after7_1]
      rw [show (dat7 V c).leavesExact 2 ⟨n + 1, ht⟩ = owns (c : Thread nD τ) (st7_2 ⟨n + 1, ht⟩) fullShare ((dat7 V c).after 2 ⟨n + 1, ht⟩) from by
          unfold Dat.leavesExact; rw [liveAt7_2 _ hc2], after7_2]
      rw [Phi7_succ V c n, Phi7_succ V c (n + 1), sumAt7_succ V c n ht, sqAt7_succ V c n ht]
      iintro ⟨⟨HS, HQ, HR, Hg⟩, Ho, ⟨%d0, H0⟩, ⟨%d1, H1⟩, ⟨%d2, H2⟩⟩
      iapply (run7_C c (grid7.coords ⟨n + 1, ht⟩) _ _ _ _ _ _ _ _ _ _ hc0 hc2 (iblk7 V c 0 ⟨n + 1, ht⟩) (sumAt7 V c n) (sqAt7 V c n) Set.univ _)
      isplitl [H0]; · iexact H0
      isplitl [H1]; · iexists _; iexact H1
      isplitl [H2]; · iexists _; iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexact H1
      iexact H2
    · have hc2 : ¬cond7_2 (grid7.coords ⟨n + 1, ht⟩) := fun h => h2 ((hcond7_2 ⟨n + 1, ht⟩).mp h)
      rw [Dat.leavesExact_idle (dat7 V c) 1 ⟨n + 1, ht⟩ (idleAt7_1 _ hc2) (noFlush7_1 _ hc2),
        Dat.leavesExact_idle (dat7 V c) 2 ⟨n + 1, ht⟩ (idleAt7_2 _ hc2) (noFlush7_2 _ hc2)]
      rw [Phi7_succ V c n, Phi7_succ V c (n + 1), sumAt7_succ V c n ht, sqAt7_succ V c n ht]
      iintro ⟨⟨HS, HQ, HR, Hg⟩, Ho, ⟨%d0, H0⟩, ⟨%d1, H1⟩, ⟨%d2, H2⟩⟩
      iapply (run7_B c (grid7.coords ⟨n + 1, ht⟩) _ _ _ _ _ _ _ _ _ _ hc0 hc2 (iblk7 V c 0 ⟨n + 1, ht⟩) _ _ (sumAt7 V c n) (sqAt7 V c n) Set.univ _)
      isplitl [H0]; · iexact H0
      isplitl [H1]; · iexact H1
      isplitl [H2]; · iexact H2
      isplitl [HS]; · iexact HS
      isplitl [HQ]; · iexact HQ
      iintro ⟨H0, H1, H2, HS, HQ⟩
      isplitl [HS HQ HR Hg]
      · isplitl [HS]; · iexact HS
        isplitl [HQ]; · iexact HQ
        isplitl [HR]; · iexact HR
        iexact Hg
      isplitl [Ho]; · iexact Ho
      isplitl [H0]; · iexact H0
      isplitl [H1]; · iexists _; iexact H1
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) :
    (iprop((∃ r, prngReg c r) ∗ Pipeline.scopedRest (Ix := Unit) (Name := ℕ) (U := UR sig nD τ) (Lvl := ℕ) (Val := Elt F) spec7 c) : sProp 𝕄)
      ⊢ (dat7 V c).Φ 0 := by
  rw [Phi_eq7]; exact Idealize.SL.BI.Entails.refl _
theorem hout7 (c : Dev nD) :
    ((dat7 V c).Φ (Fin.last cfg7.N) : sProp 𝕄)
      ⊢ iprop((∃ r, prngReg c r) ∗ Pipeline.scopedRest (Ix := Unit) (Name := ℕ) (U := UR sig nD τ) (Lvl := ℕ) (Val := Elt F) spec7 c) := by
  rw [Phi_eq7, show (Fin.last cfg7.N).val = 19 + 1 from N_7]
  exact Phi7_forget V c 19

end Cert.KernelIdeal.Hand

end
-- ==== Proof.KI.R8.lean ====
import proofs.«415738_j90726889161246_1_alg».proof.Proof.KI.BnRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t
    = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [after8_2]; unfold Dat.blockOf iblk8; rw [A_eq8]; try rfl) t d).trans
    (by unfold Dat.fetched Dat.blockOf iblk8; rw [A_eq8]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [after8_3]; unfold Dat.blockOf iblk8; rw [A_eq8]; try rfl) t d).trans
    (by unfold Dat.fetched Dat.blockOf iblk8; rw [A_eq8]; try rfl)
theorem before8_4 (c : Dev nD) (t : Fin cfg8.N) (d) : (dat8 V c).before 4 t d = iblk8 V c 4 t :=
  ((dat8 V c).before_in_eq_fetched 4 rfl (fun _ => rfl) (fun _ _ _ => rfl)
    (fun t => by rw [after8_4]; unfold Dat.blockOf iblk8; rw [A_eq8]; try rfl) t d).trans
    (by unfold Dat.fetched Dat.blockOf iblk8; rw [A_eq8]; try rfl)
theorem before8_5 (c : Dev nD) (t : Fin cfg8.N) (d) : (dat8 V c).before 5 t d = iblk8 V c 5 t :=
  ((dat8 V c).before_in_eq_fetched 5 rfl (fun _ => rfl) (fun _ _ _ => rfl)
    (fun t => by rw [after8_5]; unfold Dat.blockOf iblk8; rw [A_eq8]; try rfl) t d).trans
    (by unfold Dat.fetched Dat.blockOf iblk8; rw [A_eq8]; try rfl)

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _
    (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.R9.lean ====
import proofs.«415738_j90726889161246_1_alg».proof.Proof.KI.GateRun
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by
  dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

def pre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def post9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem body_triple9 (c : Dev nD) (t : Fin cfg9.N) :
    pre9 V c t ⊢ wp frame (wpE (defs₀ (F := F)) Variants.none c none) Set.univ (bodyAt9 t) (fun _ => post9 V c t) := by
  unfold pre9 post9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (kernel_triple9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation9 (c : Dev nD) : BodyObligation (dat9 (F := F) V c) (defs₀ (F := F)) Variants.none () Set.univ := fun t => by
  rw [bigSep_W9, bigSep_W9]
  exact body_triple9 V c t

end Cert.KernelIdeal.Hand

end
-- ==== Proof.KI.R10.lean ====
import proofs.«415738_j90726889161246_1_alg».proof.Proof.Gen.KernelIdeal.Launch
import proofs.«415738_j90726889161246_1_alg».proof.Proof.Gen.KernelIdeal.Skeleton
import proofs.«415738_j90726889161246_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

abbrev full10 : Rect S5000x128 := Rect.unit (s := S5000x128) ![0, 0] S5000x128.size inb_S5000x128_S5000x128_0_0

def out10_2 (x0 x1 : Vec F S5000x128 .f32) : Vec F S5000x128 .f32 :=
  View.canon [⟨full10, k10_pay1 (View.ld x0 full10) (View.ld x1 full10)⟩]

theorem cover10_2 (p : Vec F S5000x128 .f32) (y : S5000x128.Idx) :
    ∃ pc ∈ ([⟨full10, p⟩] : List (View.Piece (Elt F) S5000x128 .f32)), y ∈ pc.1.set :=
  View.cover_of_tiled [⟨full10, p⟩] S5000x128.size (by rfl) y

set_option maxHeartbeats 1000000 in

theorem kernel_triple10 (c : Dev nD) (E : Set ℕ) (i : grid10.Coords)
    (a1 : Memref sig .tc .vmem S5000x128 .f32) (h1 : a1.IsWhole) (a2 : Memref sig .tc .vmem S5000x128 .f32) (h2 : a2.IsWhole)
    (a3 : Memref sig .tc .vmem S5000x128 .f32) (h3 : a3.IsWhole)
    (x0 x1 : Vec F S5000x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out10_2 x0 x1)) -∗ K ⟨⟩))
      ⊢ wp frame (wpE (defs₀ (F := F)) Variants.none c none) E (cc10__finalize_kernel i a1 h1 a2 h2 a3 h3) K := by
  simp only [cc10__finalize_kernel_eq_skeleton]; unfold cc10__finalize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by
  dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

def pre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

def post10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem body_triple10 (c : Dev nD) (t : Fin cfg10.N) :
    pre10 V c t ⊢ wp frame (wpE (defs₀ (F := F)) Variants.none c none) Set.univ (bodyAt10 t) (fun _ => post10 V c t) := by
  unfold pre10 post10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (kernel_triple10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation10 (c : Dev nD) : BodyObligation (dat10 (F := F) V c) (defs₀ (F := F)) Variants.none () Set.univ := fun t => by
  rw [bigSep_W10, bigSep_W10]
  exact body_triple10 V c t

end Cert.KernelIdeal.Hand

end
-- ==== Proof.KI.Chain.lean ====
import proofs.«415738_j90726889161246_1_alg».proof.Proof.KI.R0
import proofs.«415738_j90726889161246_1_alg».proof.Proof.KI.R1
import proofs.«415738_j90726889161246_1_alg».proof.Proof.KI.R2
import proofs.«415738_j90726889161246_1_alg».proof.Proof.KI.R3
import proofs.«415738_j90726889161246_1_alg».proof.Proof.KI.R4
import proofs.«415738_j90726889161246_1_alg».proof.Proof.KI.R5
import proofs.«415738_j90726889161246_1_alg».proof.Proof.KI.R6
import proofs.«415738_j90726889161246_1_alg».proof.Proof.KI.R7
import proofs.«415738_j90726889161246_1_alg».proof.Proof.KI.R8
import proofs.«415738_j90726889161246_1_alg».proof.Proof.KI.R9
import proofs.«415738_j90726889161246_1_alg».proof.Proof.KI.R10
import proofs.«415738_j90726889161246_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

-- Carries the contents of every buffer a region does not write across it.
theorem exit_keep {cfg : Pipeline.Cfg sig Λ₀} {c : Dev nD} (dat : Dat τ (Elt F) Unit ℕ (UR sig nD τ) ℕ cfg c)
    (hinj : Function.Injective (Pipeline.arrRef cfg.spec)) (Vin : Valuation τ sig (Elt F))
    (hA : ∀ w, dat.A w = Vin (Proc.devRef .tc (Pipeline.arrRef cfg.spec w)))
    (r : Ref sig .tc) (hr : ∀ w, (cfg.win w).isOut = true → Pipeline.arrRef cfg.spec w ≠ r) :
    Pipeline.withArrays cfg.spec c Vin (fun w => dat.arrAt w cfg.N) (Proc.devRef .tc r) = Vin (Proc.devRef .tc r) := by
  by_cases h : ∃ w, Pipeline.arrRef cfg.spec w = r
  · obtain ⟨w, rfl⟩ := h
    have hin : (cfg.win w).isOut = false := by
      cases hw : (cfg.win w).isOut
      · rfl
      · exact absurd rfl (hr w hw)
    rw [Pipeline.withArrays_arr cfg.spec hinj c Vin _ w, dat.arrAt_in w hin, hA]
  · exact Pipeline.withArrays_of_ne cfg.spec c Vin _ r fun w e => h ⟨w, e⟩

abbrev args : List (Ref sig .tc) :=
  [main_arg0, main_arg1, main_arg2, main_arg3, main_arg4, main_arg5, main_arg6, main_arg7, main_arg8, main_arg9, main_arg10, main_arg11]

def W0 (c : Dev nD) : Valuation τ sig (Elt F) := fun b => m (c, b)
abbrev V0 : (c : Dev nD) → (b : Ref sig .tc) → Buf (Elt F) ((c : Thread nD τ).loc b) := fun c b => W0 m c b

def W1 (c : Dev nD) : Valuation τ sig (Elt F) := StableHlo.after hostOps0 (W0 m c)
abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b

def W3 (c : Dev nD) : Valuation τ sig (Elt F) := StableHlo.after hostOps1 (W2 m c)
abbrev V3 : (c : Dev nD) → (b : Ref sig .tc) → Buf (Elt F) ((c : Thread nD τ).loc b) := fun c b => W3 m c b

def W4 (c : Dev nD) : Valuation τ sig (Elt F) := StableHlo.after hostOps1_1 (W3 m c)
abbrev V4 : (c : Dev nD) → (b : Ref sig .tc) → Buf (Elt F) ((c : Thread nD τ).loc b) := fun c b => W4 m c b

def W5 (c : Dev nD) : Valuation τ sig (Elt F) := StableHlo.after hostOps1_2 (W4 m c)
abbrev V5 : (c : Dev nD) → (b : Ref sig .tc) → Buf (Elt F) ((c : Thread nD τ).loc b) := fun c b => W5 m c b

def W6 (c : Dev nD) : Valuation τ sig (Elt F) := StableHlo.after hostOps1_3 (W5 m c)
abbrev V6 : (c : Dev nD) → (b : Ref sig .tc) → Buf (Elt F) ((c : Thread nD τ).loc b) := fun c b => W6 m c b

def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b

def W8 (c : Dev nD) : Valuation τ sig (Elt F) := StableHlo.after hostOps2 (W7 m c)
abbrev V8 : (c : Dev nD) → (b : Ref sig .tc) → Buf (Elt F) ((c : Thread nD τ).loc b) := fun c b => W8 m c b

def W9 (c : Dev nD) : Valuation τ sig (Elt F) :=
  Pipeline.withArrays spec2 c (W8 m c) fun w => (dat2 (V8 m) c).arrAt w cfg2.N
abbrev V9 : (c : Dev nD) → (b : Ref sig .tc) → Buf (Elt F) ((c : Thread nD τ).loc b) := fun c b => W9 m c b

def W10 (c : Dev nD) : Valuation τ sig (Elt F) := StableHlo.after hostOps3 (W9 m c)
abbrev V10 : (c : Dev nD) → (b : Ref sig .tc) → Buf (Elt F) ((c : Thread nD τ).loc b) := fun c b => W10 m c b

def W11 (c : Dev nD) : Valuation τ sig (Elt F) :=
  Pipeline.withArrays spec3 c (W10 m c) fun w => (dat3 (V10 m) c).arrAt w cfg3.N
abbrev V11 : (c : Dev nD) → (b : Ref sig .tc) → Buf (Elt F) ((c : Thread nD τ).loc b) := fun c b => W11 m c b

def W12 (c : Dev nD) : Valuation τ sig (Elt F) :=
  Pipeline.withArrays spec4 c (W11 m c) fun w => (dat4 (V11 m) c).arrAt w cfg4.N
def W13 (c : Dev nD) : Valuation τ sig (Elt F) := StableHlo.after hostOps5 (W12 m c)
abbrev V13 : (c : Dev nD) → (b : Ref sig .tc) → Buf (Elt F) ((c : Thread nD τ).loc b) := fun c b => W13 m c b

def W14 (c : Dev nD) : Valuation τ sig (Elt F) :=
  Pipeline.withArrays spec5 c (W13 m c) fun w => (dat5 (V13 m) c).arrAt w cfg5.N
def W15 (c : Dev nD) : Valuation τ sig (Elt F) := StableHlo.after hostOps6 (W14 m c)
abbrev V15 : (c : Dev nD) → (b : Ref sig .tc) → Buf (Elt F) ((c : Thread nD τ).loc b) := fun c b => W15 m c b

def W16 (c : Dev nD) : Valuation τ sig (Elt F) :=
  Pipeline.withArrays spec6 c (W15 m c) fun w => (dat6 (V15 m) c).arrAt w cfg6.N
abbrev V16 : (c : Dev nD) → (b : Ref sig .tc) → Buf (Elt F) ((c : Thread nD τ).loc b) := fun c b => W16 m c b

def W17 (c : Dev nD) : Valuation τ sig (Elt F) :=
  Pipeline.withArrays spec7 c (W16 m c) fun w => (dat7 (V16 m) c).arrAt w cfg7.N
def W18 (c : Dev nD) : Valuation τ sig (Elt F) := StableHlo.after hostOps8 (W17 m c)
abbrev V18 : (c : Dev nD) → (b : Ref sig .tc) → Buf (Elt F) ((c : Thread nD τ).loc b) := fun c b => W18 m c b

def W19 (c : Dev nD) : Valuation τ sig (Elt F) :=
  Pipeline.withArrays spec8 c (W18 m c) fun w => (dat8 (V18 m) c).arrAt w cfg8.N
def W20 (c : Dev nD) : Valuation τ sig (Elt F) := StableHlo.after hostOps9 (W19 m c)
abbrev V20 : (c : Dev nD) → (b : Ref sig .tc) → Buf (Elt F) ((c : Thread nD τ).loc b) := fun c b => W20 m c b

def W21 (c : Dev nD) : Valuation τ sig (Elt F) :=
  Pipeline.withArrays spec9 c (W20 m c) fun w => (dat9 (V20 m) c).arrAt w cfg9.N
abbrev V21 : (c : Dev nD) → (b : Ref sig .tc) → Buf (Elt F) ((c : Thread nD τ).loc b) := fun c b => W21 m c b

def W22 (c : Dev nD) : Valuation τ sig (Elt F) :=
  Pipeline.withArrays spec10 c (W21 m c) fun w => (dat10 (V21 m) c).arrAt w cfg10.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W7_arr (c : Dev nD) (w : Fin cfg1.W) :
    W7 m c (Proc.devRef .tc (Pipeline.arrRef spec1 w)) = (dat1 (V6 m) c).arrAt w cfg1.N :=
  Pipeline.withArrays_arr spec1 launch1.win.arr_inj c _ _ w
theorem W9_arr (c : Dev nD) (w : Fin cfg2.W) :
    W9 m c (Proc.devRef .tc (Pipeline.arrRef spec2 w)) = (dat2 (V8 m) c).arrAt w cfg2.N :=
  Pipeline.withArrays_arr spec2 launch2.win.arr_inj c _ _ w
theorem W11_arr (c : Dev nD) (w : Fin cfg3.W) :
    W11 m c (Proc.devRef .tc (Pipeline.arrRef spec3 w)) = (dat3 (V10 m) c).arrAt w cfg3.N :=
  Pipeline.withArrays_arr spec3 launch3.win.arr_inj c _ _ w
theorem W12_arr (c : Dev nD) (w : Fin cfg4.W) :
    W12 m c (Proc.devRef .tc (Pipeline.arrRef spec4 w)) = (dat4 (V11 m) c).arrAt w cfg4.N :=
  Pipeline.withArrays_arr spec4 launch4.win.arr_inj c _ _ w
theorem W14_arr (c : Dev nD) (w : Fin cfg5.W) :
    W14 m c (Proc.devRef .tc (Pipeline.arrRef spec5 w)) = (dat5 (V13 m) c).arrAt w cfg5.N :=
  Pipeline.withArrays_arr spec5 launch5.win.arr_inj c _ _ w
theorem W16_arr (c : Dev nD) (w : Fin cfg6.W) :
    W16 m c (Proc.devRef .tc (Pipeline.arrRef spec6 w)) = (dat6 (V15 m) c).arrAt w cfg6.N :=
  Pipeline.withArrays_arr spec6 launch6.win.arr_inj c _ _ w
theorem W17_arr (c : Dev nD) (w : Fin cfg7.W) :
    W17 m c (Proc.devRef .tc (Pipeline.arrRef spec7 w)) = (dat7 (V16 m) c).arrAt w cfg7.N :=
  Pipeline.withArrays_arr spec7 launch7.win.arr_inj c _ _ w
theorem W19_arr (c : Dev nD) (w : Fin cfg8.W) :
    W19 m c (Proc.devRef .tc (Pipeline.arrRef spec8 w)) = (dat8 (V18 m) c).arrAt w cfg8.N :=
  Pipeline.withArrays_arr spec8 launch8.win.arr_inj c _ _ w
theorem W21_arr (c : Dev nD) (w : Fin cfg9.W) :
    W21 m c (Proc.devRef .tc (Pipeline.arrRef spec9 w)) = (dat9 (V20 m) c).arrAt w cfg9.N :=
  Pipeline.withArrays_arr spec9 launch9.win.arr_inj c _ _ w
theorem W22_arr (c : Dev nD) (w : Fin cfg10.W) :
    W22 m c (Proc.devRef .tc (Pipeline.arrRef spec10 w)) = (dat10 (V21 m) c).arrAt w cfg10.N :=
  Pipeline.withArrays_arr spec10 launch10.win.arr_inj c _ _ w

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v1] : List (Ref sig .tc))) : W2 m c r = W1 m c r :=
  exit_keep (dat0 (V1 m) c) launch0.win.arr_inj (W1 m c) (A_eq0 (V1 m) c) r fun w hw e =>
    h (e ▸ (by decide : ∀ w : Fin cfg0.W, (cfg0.win w).isOut = true → Pipeline.arrRef spec0 w ∈ ([main_v1] : List (Ref sig .tc))) w hw)
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ hostOps1_1_W) : W4 m c r = W3 m c r :=
  StableHlo.after_of_writes_sub hostOps1_1 _ hostOps1_1_writes h
theorem W5_of (c : Dev nD) (r : Ref sig .tc) (h : r ∉ hostOps1_2_W) : W5 m c r = W4 m c r :=
  StableHlo.after_of_writes_sub hostOps1_2 _ hostOps1_2_writes h
theorem W6_of (c : Dev nD) (r : Ref sig .tc) (h : r ∉ hostOps1_3_W) : W6 m c r = W5 m c r :=
  StableHlo.after_of_writes_sub hostOps1_3 _ hostOps1_3_writes h
theorem W7_of (c : Dev nD) (r : Ref sig .tc) (h : r ∉ ([main_v26_0, main_v26_1] : List (Ref sig .tc))) : W7 m c r = W6 m c r :=
  exit_keep (dat1 (V6 m) c) launch1.win.arr_inj (W6 m c) (A_eq1 (V6 m) c) r fun w hw e =>
    h (e ▸ (by decide : ∀ w : Fin cfg1.W, (cfg1.win w).isOut = true → Pipeline.arrRef spec1 w ∈ ([main_v26_0, main_v26_1] : List (Ref sig .tc))) w hw)
theorem W8_of (c : Dev nD) (r : Ref sig .tc) (h : r ∉ hostOps2_W) : W8 m c r = W7 m c r :=
  StableHlo.after_of_writes_sub hostOps2 _ hostOps2_writes h
theorem W9_of (c : Dev nD) (r : Ref sig .tc) (h : r ∉ ([main_v31] : List (Ref sig .tc))) : W9 m c r = W8 m c r :=
  exit_keep (dat2 (V8 m) c) launch2.win.arr_inj (W8 m c) (A_eq2 (V8 m) c) r fun w hw e =>
    h (e ▸ (by decide : ∀ w : Fin cfg2.W, (cfg2.win w).isOut = true → Pipeline.arrRef spec2 w ∈ ([main_v31] : List (Ref sig .tc))) w hw)
theorem W10_of (c : Dev nD) (r : Ref sig .tc) (h : r ∉ hostOps3_W) : W10 m c r = W9 m c r :=
  StableHlo.after_of_writes_sub hostOps3 _ hostOps3_writes h
theorem W11_of (c : Dev nD) (r : Ref sig .tc) (h : r ∉ ([main_v71] : List (Ref sig .tc))) : W11 m c r = W10 m c r :=
  exit_keep (dat3 (V10 m) c) launch3.win.arr_inj (W10 m c) (A_eq3 (V10 m) c) r fun w hw e =>
    h (e ▸ (by decide : ∀ w : Fin cfg3.W, (cfg3.win w).isOut = true → Pipeline.arrRef spec3 w ∈ ([main_v71] : List (Ref sig .tc))) w hw)
theorem W12_of (c : Dev nD) (r : Ref sig .tc) (h : r ∉ ([main_v72_0, main_v72_1] : List (Ref sig .tc))) : W12 m c r = W11 m c r :=
  exit_keep (dat4 (V11 m) c) launch4.win.arr_inj (W11 m c) (A_eq4 (V11 m) c) r fun w hw e =>
    h (e ▸ (by decide : ∀ w : Fin cfg4.W, (cfg4.win w).isOut = true → Pipeline.arrRef spec4 w ∈ ([main_v72_0, main_v72_1] : List (Ref sig .tc))) w hw)
theorem W13_of (c : Dev nD) (r : Ref sig .tc) (h : r ∉ hostOps5_W) : W13 m c r = W12 m c r :=
  StableHlo.after_of_writes_sub hostOps5 _ hostOps5_writes h
theorem W14_of (c : Dev nD) (r : Ref sig .tc) (h : r ∉ ([main_v77] : List (Ref sig .tc))) : W14 m c r = W13 m c r :=
  exit_keep (dat5 (V13 m) c) launch5.win.arr_inj (W13 m c) (A_eq5 (V13 m) c) r fun w hw e =>
    h (e ▸ (by decide : ∀ w : Fin cfg5.W, (cfg5.win w).isOut = true → Pipeline.arrRef spec5 w ∈ ([main_v77] : List (Ref sig .tc))) w hw)
theorem W15_of (c : Dev nD) (r : Ref sig .tc) (h : r ∉ hostOps6_W) : W15 m c r = W14 m c r :=
  StableHlo.after_of_writes_sub hostOps6 _ hostOps6_writes h
theorem W16_of (c : Dev nD) (r : Ref sig .tc) (h : r ∉ ([main_v117] : List (Ref sig .tc))) : W16 m c r = W15 m c r :=
  exit_keep (dat6 (V15 m) c) launch6.win.arr_inj (W15 m c) (A_eq6 (V15 m) c) r fun w hw e =>
    h (e ▸ (by decide : ∀ w : Fin cfg6.W, (cfg6.win w).isOut = true → Pipeline.arrRef spec6 w ∈ ([main_v117] : List (Ref sig .tc))) w hw)
theorem W17_of (c : Dev nD) (r : Ref sig .tc) (h : r ∉ ([main_v118_0, main_v118_1] : List (Ref sig .tc))) : W17 m c r = W16 m c r :=
  exit_keep (dat7 (V16 m) c) launch7.win.arr_inj (W16 m c) (A_eq7 (V16 m) c) r fun w hw e =>
    h (e ▸ (by decide : ∀ w : Fin cfg7.W, (cfg7.win w).isOut = true → Pipeline.arrRef spec7 w ∈ ([main_v118_0, main_v118_1] : List (Ref sig .tc))) w hw)
theorem W18_of (c : Dev nD) (r : Ref sig .tc) (h : r ∉ hostOps8_W) : W18 m c r = W17 m c r :=
  StableHlo.after_of_writes_sub hostOps8 _ hostOps8_writes h
theorem W19_of (c : Dev nD) (r : Ref sig .tc) (h : r ∉ ([main_v123] : List (Ref sig .tc))) : W19 m c r = W18 m c r :=
  exit_keep (dat8 (V18 m) c) launch8.win.arr_inj (W18 m c) (A_eq8 (V18 m) c) r fun w hw e =>
    h (e ▸ (by decide : ∀ w : Fin cfg8.W, (cfg8.win w).isOut = true → Pipeline.arrRef spec8 w ∈ ([main_v123] : List (Ref sig .tc))) w hw)
theorem W20_of (c : Dev nD) (r : Ref sig .tc) (h : r ∉ hostOps9_W) : W20 m c r = W19 m c r :=
  StableHlo.after_of_writes_sub hostOps9 _ hostOps9_writes h
theorem W21_of (c : Dev nD) (r : Ref sig .tc) (h : r ∉ ([main_v163] : List (Ref sig .tc))) : W21 m c r = W20 m c r :=
  exit_keep (dat9 (V20 m) c) launch9.win.arr_inj (W20 m c) (A_eq9 (V20 m) c) r fun w hw e =>
    h (e ▸ (by decide : ∀ w : Fin cfg9.W, (cfg9.win w).isOut = true → Pipeline.arrRef spec9 w ∈ ([main_v163] : List (Ref sig .tc))) w hw)
theorem W22_of (c : Dev nD) (r : Ref sig .tc) (h : r ∉ ([main_v164] : List (Ref sig .tc))) : W22 m c r = W21 m c r :=
  exit_keep (dat10 (V21 m) c) launch10.win.arr_inj (W21 m c) (A_eq10 (V21 m) c) r fun w hw e =>
    h (e ▸ (by decide : ∀ w : Fin cfg10.W, (cfg10.win w).isOut = true → Pipeline.arrRef spec10 w ∈ ([main_v164] : List (Ref sig .tc))) w hw)

theorem W1_arg (c : Dev nD) (r : Ref sig .tc) (hr : r ∈ args) : W1 m c r = W0 m c r :=
  W1_of m c r ((by decide : ∀ r ∈ args, r ∉ hostOps0_W) r hr)
theorem W2_arg (c : Dev nD) (r : Ref sig .tc) (hr : r ∈ args) : W2 m c r = W0 m c r :=
  (W2_of m c r ((by decide : ∀ r ∈ args, r ∉ ([main_v1] : List (Ref sig .tc))) r hr)).trans (W1_arg m c r hr)
theorem W4_arg (c : Dev nD) (r : Ref sig .tc) (hr : r ∈ args) : W4 m c r = W0 m c r :=
  (W4_of m c r ((by decide : ∀ r ∈ args, r ∉ hostOps1_1_W) r hr)).trans ((W3_of m c r ((by decide : ∀ r ∈ args, r ∉ hostOps1_W) r hr)).trans (W2_arg m c r hr))
theorem W7_arg (c : Dev nD) (r : Ref sig .tc) (hr : r ∈ args) : W7 m c r = W0 m c r :=
  (W7_of m c r ((by decide : ∀ r ∈ args, r ∉ ([main_v26_0, main_v26_1] : List (Ref sig .tc))) r hr)).trans ((W6_of m c r ((by decide : ∀ r ∈ args, r ∉ hostOps1_3_W) r hr)).trans ((W5_of m c r ((by decide : ∀ r ∈ args, r ∉ hostOps1_2_W) r hr)).trans (W4_arg m c r hr)))
theorem W9_arg (c : Dev nD) (r : Ref sig .tc) (hr : r ∈ args) : W9 m c r = W0 m c r :=
  (W9_of m c r ((by decide : ∀ r ∈ args, r ∉ ([main_v31] : List (Ref sig .tc))) r hr)).trans ((W8_of m c r ((by decide : ∀ r ∈ args, r ∉ hostOps2_W) r hr)).trans (W7_arg m c r hr))
theorem W12_arg (c : Dev nD) (r : Ref sig .tc) (hr : r ∈ args) : W12 m c r = W0 m c r :=
  (W12_of m c r ((by decide : ∀ r ∈ args, r ∉ ([main_v72_0, main_v72_1] : List (Ref sig .tc))) r hr)).trans ((W11_of m c r ((by decide : ∀ r ∈ args, r ∉ ([main_v71] : List (Ref sig .tc))) r hr)).trans ((W10_of m c r ((by decide : ∀ r ∈ args, r ∉ hostOps3_W) r hr)).trans (W9_arg m c r hr)))
theorem W14_arg (c : Dev nD) (r : Ref sig .tc) (hr : r ∈ args) : W14 m c r = W0 m c r :=
  (W14_of m c r ((by decide : ∀ r ∈ args, r ∉ ([main_v77] : List (Ref sig .tc))) r hr)).trans ((W13_of m c r ((by decide : ∀ r ∈ args, r ∉ hostOps5_W) r hr)).trans (W12_arg m c r hr))
theorem W17_arg (c : Dev nD) (r : Ref sig .tc) (hr : r ∈ args) : W17 m c r = W0 m c r :=
  (W17_of m c r ((by decide : ∀ r ∈ args, r ∉ ([main_v118_0, main_v118_1] : List (Ref sig .tc))) r hr)).trans ((W16_of m c r ((by decide : ∀ r ∈ args, r ∉ ([main_v117] : List (Ref sig .tc))) r hr)).trans ((W15_of m c r ((by decide : ∀ r ∈ args, r ∉ hostOps6_W) r hr)).trans (W14_arg m c r hr)))
theorem W19_arg (c : Dev nD) (r : Ref sig .tc) (hr : r ∈ args) : W19 m c r = W0 m c r :=
  (W19_of m c r ((by decide : ∀ r ∈ args, r ∉ ([main_v123] : List (Ref sig .tc))) r hr)).trans ((W18_of m c r ((by decide : ∀ r ∈ args, r ∉ hostOps8_W) r hr)).trans (W17_arg m c r hr))
theorem W22_arg (c : Dev nD) (r : Ref sig .tc) (hr : r ∈ args) : W22 m c r = W0 m c r :=
  (W22_of m c r ((by decide : ∀ r ∈ args, r ∉ ([main_v164] : List (Ref sig .tc))) r hr)).trans ((W21_of m c r ((by decide : ∀ r ∈ args, r ∉ ([main_v163] : List (Ref sig .tc))) r hr)).trans ((W20_of m c r ((by decide : ∀ r ∈ args, r ∉ hostOps9_W) r hr)).trans (W19_arg m c r hr)))

end Cert.KernelIdeal.Hand

end
-- ==== Proof.KI.Run.lean ====
import proofs.«415738_j90726889161246_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev noVar : Variants := Variants.none

abbrev noLev : GSem nD τ sig → Finset Unit := fun _ => ∅
abbrev lev0 : GSem nD τ sig → Unit → ℕ := fun _ _ => 0

abbrev beside (c : Dev nD) : sProp 𝕄 :=
  iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

-- Separating conjunction commutes.
theorem ΦA_in {gr W : ℕ} (win : Fin W → Pipeline.WinSpec sig gr) (c : Dev nD) :
    (iprop((∃ r, prngReg c r) ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, Hr⟩
  isplitl [Hr]; · iexact Hr
  iexact Hp

theorem ΦA_out {gr W : ℕ} (win : Fin W → Pipeline.WinSpec sig gr) (c : Dev nD) :
    (Pipeline.ΦA win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

section Region

variable (pd : (p : Fin 11) → (c : Dev nD) → Dat τ (Elt F) Unit ℕ (UR sig nD τ) ℕ (Pipeline.pin (pcfgs (F := F)) adm p) c)
variable (p : Fin 11) (lf : Pipeline.LaunchFacts (nD := nD) (τ := τ) cfgs p)
variable (Win Wout : Dev nD → Valuation τ sig (Elt F))

set_option backward.isDefEq.respectTransparency.types false in
def regOf
    (hA : ∀ c w, (pd p c).A w = Win c (Proc.devRef .tc (Pipeline.arrRef (cfgs p).spec w)))
    (hq : ∀ c w, (pd p c).q w = fullShare)
    (howed : ∀ c t, (pd p c).owed t = 0)
    (hrec : ∀ c, (pd p c).recorded 0 = Set.univ)
    (hbody : ∀ c, BodyObligation (pd p c) (defs₀ (F := F)) Variants.none () Set.univ)
    (hin : ∀ c, (iprop((∃ r, prngReg c r) ∗ Pipeline.scopedRest (Ix := Unit) (Name := ℕ) (U := UR sig nD τ) (Lvl := ℕ) (Val := Elt F) (cfgs p).spec c) : sProp 𝕄)
      ⊢ (pd p c).Φ 0)
    (hout : ∀ c, ((pd p c).Φ (Fin.last (cfgs p).N) : sProp 𝕄)
      ⊢ iprop((∃ r, prngReg c r) ∗ Pipeline.scopedRest (Ix := Unit) (Name := ℕ) (U := UR sig nD τ) (Lvl := ℕ) (Val := Elt F) (cfgs p).spec c))
    (hF : ∀ c w, (pd p c).arrAt w (cfgs p).N = Wout c (Proc.devRef .tc (Pipeline.arrRef (cfgs p).spec w)))
    (hrest : ∀ c (b : Ref sig .tc), b ∉ Finset.univ.image (Pipeline.arrRef (cfgs p).spec) → Wout c (Proc.devRef .tc b) = Win c (Proc.devRef .tc b)) :
    Pipeline.RegionSeg (pcfgs (F := F)) adm pd () defs₀ noVar noLev lev0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLev lev0 p howed
  pre c := iprop(StableHlo.held (c : Thread nD τ) (Pipeline.ucRefs τ sig) (Win c) ∗ beside c)
  post c := iprop(StableHlo.held (c : Thread nD τ) (Pipeline.ucRefs τ sig) (Wout c) ∗ beside c)
  X c := iprop(∃ r, prngReg c r)
  Y c := iprop(∃ r, prngReg c r)
  Z c := Pipeline.unscopedRest (Ix := Unit) (Name := ℕ) (U := UR sig nD τ) (Lvl := ℕ) (cfgs p).spec c (fun b => Win c b)
  hentry c := by
    rw [Pipeline.ownSems0_none]
    have hsplit := Pipeline.arrays_of_unscopedBufs (p := p) (pcfgs (F := F)) adm pd lf.win lf.arr_whole c
      ((pd p c).share_full (hq c)) (fun b => Win c b) (hA c)
    rw [Pipeline.unscopedBufs_held c (Win c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed c 0, hrec c]
      icases HO with ⟨%W, HO⟩; iexists W; isplitr; · ipureintro; exact fun _ _ => Or.inl trivial
      iexact HO
    isplitl [Hp]; · iexact Hp
    iexact Hrest
  hin c := by
    iintro ⟨Hp, -, Hr⟩
    iapply hin c
    isplitl [Hp]; · iexact Hp
    iexact Hr
  hout c := by
    rw [Pipeline.ownSems0_none]
    iintro H
    ihave H' := hout c $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c))
      (fun b => Win c b) (fun b => Wout c b) ((pd p c).arrAt · (cfgs p).N) (hF c) (hrest c)
    rw [Pipeline.unscopedBufs_held c (Wout c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Region

variable (m : (ℓ : Loc nD τ sig) → Buf (Elt F) ℓ) (ρ : Dev nD → PrngReg)

def pdats : (p : Fin 11) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V6 m) c
  | ⟨2, _⟩ => fun c => dat2 (V8 m) c
  | ⟨3, _⟩ => fun c => dat3 (V10 m) c
  | ⟨4, _⟩ => fun c => dat4 (V11 m) c
  | ⟨5, _⟩ => fun c => dat5 (V13 m) c
  | ⟨6, _⟩ => fun c => dat6 (V15 m) c
  | ⟨7, _⟩ => fun c => dat7 (V16 m) c
  | ⟨8, _⟩ => fun c => dat8 (V18 m) c
  | ⟨9, _⟩ => fun c => dat9 (V20 m) c
  | ⟨10, _⟩ => fun c => dat10 (V21 m) c

set_option backward.isDefEq.respectTransparency.types false in

def reg0 : Pipeline.RegionSeg (pcfgs (F := F)) adm (pdats m) () defs₀ noVar noLev lev0 0 :=
  regOf (pdats m) 0 launch0 (W1 m) (W2 m) (A_eq0 (V1 m)) (fun _ _ => rfl) (fun _ _ => rfl) (fun _ => rfl)
    (body_obligation0 (V1 m)) (ΦA_in spec0) (ΦA_out spec0) (fun c w => (W2_arr m c w).symm)
    (fun c b hb => Pipeline.withArrays_of_ne spec0 c _ _ b fun w e => hb (Finset.mem_image.mpr ⟨w, Finset.mem_univ _, e⟩))
set_option backward.isDefEq.respectTransparency.types false in

def reg1 : Pipeline.RegionSeg (pcfgs (F := F)) adm (pdats m) () defs₀ noVar noLev lev0 1 :=
  regOf (pdats m) 1 launch1 (W6 m) (W7 m) (A_eq1 (V6 m)) (fun _ _ => rfl) (fun _ _ => rfl) (fun _ => rfl)
    (body_obligation1 (V6 m)) (hin1 (V6 m)) (hout1 (V6 m)) (fun c w => (W7_arr m c w).symm)
    (fun c b hb => Pipeline.withArrays_of_ne spec1 c _ _ b fun w e => hb (Finset.mem_image.mpr ⟨w, Finset.mem_univ _, e⟩))
set_option backward.isDefEq.respectTransparency.types false in

def reg2 : Pipeline.RegionSeg (pcfgs (F := F)) adm (pdats m) () defs₀ noVar noLev lev0 2 :=
  regOf (pdats m) 2 launch2 (W8 m) (W9 m) (A_eq2 (V8 m)) (fun _ _ => rfl) (fun _ _ => rfl) (fun _ => rfl)
    (body_obligation2 (V8 m)) (ΦA_in spec2) (ΦA_out spec2) (fun c w => (W9_arr m c w).symm)
    (fun c b hb => Pipeline.withArrays_of_ne spec2 c _ _ b fun w e => hb (Finset.mem_image.mpr ⟨w, Finset.mem_univ _, e⟩))
set_option backward.isDefEq.respectTransparency.types false in

def reg3 : Pipeline.RegionSeg (pcfgs (F := F)) adm (pdats m) () defs₀ noVar noLev lev0 3 :=
  regOf (pdats m) 3 launch3 (W10 m) (W11 m) (A_eq3 (V10 m)) (fun _ _ => rfl) (fun _ _ => rfl) (fun _ => rfl)
    (body_obligation3 (V10 m)) (ΦA_in spec3) (ΦA_out spec3) (fun c w => (W11_arr m c w).symm)
    (fun c b hb => Pipeline.withArrays_of_ne spec3 c _ _ b fun w e => hb (Finset.mem_image.mpr ⟨w, Finset.mem_univ _, e⟩))
set_option backward.isDefEq.respectTransparency.types false in

def reg4 : Pipeline.RegionSeg (pcfgs (F := F)) adm (pdats m) () defs₀ noVar noLev lev0 4 :=
  regOf (pdats m) 4 launch4 (W11 m) (W12 m) (A_eq4 (V11 m)) (fun _ _ => rfl) (fun _ _ => rfl) (fun _ => rfl)
    (body_obligation4 (V11 m)) (hin4 (V11 m)) (hout4 (V11 m)) (fun c w => (W12_arr m c w).symm)
    (fun c b hb => Pipeline.withArrays_of_ne spec4 c _ _ b fun w e => hb (Finset.mem_image.mpr ⟨w, Finset.mem_univ _, e⟩))
set_option backward.isDefEq.respectTransparency.types false in

def reg5 : Pipeline.RegionSeg (pcfgs (F := F)) adm (pdats m) () defs₀ noVar noLev lev0 5 :=
  regOf (pdats m) 5 launch5 (W13 m) (W14 m) (A_eq5 (V13 m)) (fun _ _ => rfl) (fun _ _ => rfl) (fun _ => rfl)
    (body_obligation5 (V13 m)) (ΦA_in spec5) (ΦA_out spec5) (fun c w => (W14_arr m c w).symm)
    (fun c b hb => Pipeline.withArrays_of_ne spec5 c _ _ b fun w e => hb (Finset.mem_image.mpr ⟨w, Finset.mem_univ _, e⟩))
set_option backward.isDefEq.respectTransparency.types false in

def reg6 : Pipeline.RegionSeg (pcfgs (F := F)) adm (pdats m) () defs₀ noVar noLev lev0 6 :=
  regOf (pdats m) 6 launch6 (W15 m) (W16 m) (A_eq6 (V15 m)) (fun _ _ => rfl) (fun _ _ => rfl) (fun _ => rfl)
    (body_obligation6 (V15 m)) (ΦA_in spec6) (ΦA_out spec6) (fun c w => (W16_arr m c w).symm)
    (fun c b hb => Pipeline.withArrays_of_ne spec6 c _ _ b fun w e => hb (Finset.mem_image.mpr ⟨w, Finset.mem_univ _, e⟩))
set_option backward.isDefEq.respectTransparency.types false in

def reg7 : Pipeline.RegionSeg (pcfgs (F := F)) adm (pdats m) () defs₀ noVar noLev lev0 7 :=
  regOf (pdats m) 7 launch7 (W16 m) (W17 m) (A_eq7 (V16 m)) (fun _ _ => rfl) (fun _ _ => rfl) (fun _ => rfl)
    (body_obligation7 (V16 m)) (hin7 (V16 m)) (hout7 (V16 m)) (fun c w => (W17_arr m c w).symm)
    (fun c b hb => Pipeline.withArrays_of_ne spec7 c _ _ b fun w e => hb (Finset.mem_image.mpr ⟨w, Finset.mem_univ _, e⟩))
set_option backward.isDefEq.respectTransparency.types false in

def reg8 : Pipeline.RegionSeg (pcfgs (F := F)) adm (pdats m) () defs₀ noVar noLev lev0 8 :=
  regOf (pdats m) 8 launch8 (W18 m) (W19 m) (A_eq8 (V18 m)) (fun _ _ => rfl) (fun _ _ => rfl) (fun _ => rfl)
    (body_obligation8 (V18 m)) (ΦA_in spec8) (ΦA_out spec8) (fun c w => (W19_arr m c w).symm)
    (fun c b hb => Pipeline.withArrays_of_ne spec8 c _ _ b fun w e => hb (Finset.mem_image.mpr ⟨w, Finset.mem_univ _, e⟩))
set_option backward.isDefEq.respectTransparency.types false in

def reg9 : Pipeline.RegionSeg (pcfgs (F := F)) adm (pdats m) () defs₀ noVar noLev lev0 9 :=
  regOf (pdats m) 9 launch9 (W20 m) (W21 m) (A_eq9 (V20 m)) (fun _ _ => rfl) (fun _ _ => rfl) (fun _ => rfl)
    (body_obligation9 (V20 m)) (ΦA_in spec9) (ΦA_out spec9) (fun c w => (W21_arr m c w).symm)
    (fun c b hb => Pipeline.withArrays_of_ne spec9 c _ _ b fun w e => hb (Finset.mem_image.mpr ⟨w, Finset.mem_univ _, e⟩))
set_option backward.isDefEq.respectTransparency.types false in

def reg10 : Pipeline.RegionSeg (pcfgs (F := F)) adm (pdats m) () defs₀ noVar noLev lev0 10 :=
  regOf (pdats m) 10 launch10 (W21 m) (W22 m) (A_eq10 (V21 m)) (fun _ _ => rfl) (fun _ _ => rfl) (fun _ => rfl)
    (body_obligation10 (V21 m)) (ΦA_in spec10) (ΦA_out spec10) (fun c w => (W22_arr m c w).symm)
    (fun c b hb => Pipeline.withArrays_of_ne spec10 c _ _ b fun w e => hb (Finset.mem_image.mpr ⟨w, Finset.mem_univ _, e⟩))

abbrev segs : List (Pipeline.Seg (pcfgs (F := F)) adm (pdats m) () defs₀ noVar noLev lev0) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .region (reg1 m),
    .host (hseg hostOps2 hostOps2_sub hostOps2_fresh (W7 m)),
    .region (reg2 m),
    .host (hseg hostOps3 hostOps3_sub hostOps3_fresh (W9 m)),
    .region (reg3 m),
    .region (reg4 m),
    .host (hseg hostOps5 hostOps5_sub hostOps5_fresh (W12 m)),
    .region (reg5 m),
    .host (hseg hostOps6 hostOps6_sub hostOps6_fresh (W14 m)),
    .region (reg6 m),
    .region (reg7 m),
    .host (hseg hostOps8 hostOps8_sub hostOps8_fresh (W17 m)),
    .region (reg8 m),
    .host (hseg hostOps9 hostOps9_sub hostOps9_fresh (W19 m)),
    .region (reg9 m),
    .region (reg10 m) ]

theorem main_run (c : Dev nD) : main (F := F) c = Pipeline.Seg.run (segs m) := by
  rw [main_chain c, Pipeline.Seg.run_eq_chain]; rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tend (c : Dev nD) : sProp 𝕄 :=
  iprop(StableHlo.held (c : Thread nD τ) (Pipeline.ucRefs τ sig) (W22 m c) ∗ ∃ r, prngReg c r)

theorem end_assoc (c : Dev nD) :
    (iprop(StableHlo.held (c : Thread nD τ) (Pipeline.ucRefs τ sig) (W22 m c) ∗ beside c) : sProp 𝕄)
      ⊢ iprop(Tend m c ∗ ∃ W, owes (c : Thread nD τ) (0 : CellTallies nD τ sig Unit) W) := by
  iintro ⟨Hh, Hp, HO⟩
  isplitl [Hh Hp]
  · isplitl [Hh] <;> iassumption
  iexact HO

set_option backward.isDefEq.respectTransparency.types false in

theorem run : θ_run defs (onTc (τ := τ) (main (F := F))) ⟨m, fun _ => 0, ρ⟩
    (fun r => ∀ c : Dev nD, ∀ b ∈ Pipeline.ucRefs τ sig, r.2.mem ((c : Thread nD τ).1, b) = W22 m c b) :=
  Pipeline.θ_run_regions_kit (pcfgs (F := F)) adm (pdats m) () cellOf_inj emb₁ defs₀ noVar noLev lev0 m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := Tend m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => end_assoc m c⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m c b)
    (hfin := fun c s' => by
      iintro ⟨⟨Hh, -⟩, HSI⟩
      unfold StableHlo.held
      imodintro
      iapply (pointsTo_read_all (Pipeline.ucRefs τ sig) (fun b => (((c : Thread nD τ)).1, b)) (W22 m c) s')
      isplitl [Hh] <;> iassumption)
    (hQ := fun s h => h)

theorem arg_end (c : Dev nD) (s : MemSt nD τ sig (Elt F))
    (h : ∀ b ∈ Pipeline.ucRefs τ sig, s.mem ((c : Thread nD τ).1, b) = W22 m c b)
    (r : Ref sig .tc) (hu : ¬ (Proc.devRef .tc r : DevRef τ sig).isScoped) (hr : r ∈ args) :
    s.mem ((c.tc : Thread nD τ).loc r) = m ((c.tc : Thread nD τ).loc r) :=
  (h _ (mem_uc r hu)).trans (W22_arg m c r hr)

theorem run_value : θ_run defs (onTc (τ := τ) (main (F := F))) ⟨m, fun _ => 0, ρ⟩ (fun r => ∀ c : Dev nD,
      r.2.mem ((c.tc : Thread nD τ).loc main_v164) = W22 m c main_v164
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v164 (by decide)),
     arg_end m c r.2 (h c) main_arg0 (by decide) (by decide), arg_end m c r.2 (h c) main_arg1 (by decide) (by decide),
     arg_end m c r.2 (h c) main_arg2 (by decide) (by decide), arg_end m c r.2 (h c) main_arg3 (by decide) (by decide),
     arg_end m c r.2 (h c) main_arg4 (by decide) (by decide), arg_end m c r.2 (h c) main_arg5 (by decide) (by decide),
     arg_end m c r.2 (h c) main_arg6 (by decide) (by decide), arg_end m c r.2 (h c) main_arg7 (by decide) (by decide),
     arg_end m c r.2 (h c) main_arg8 (by decide) (by decide), arg_end m c r.2 (h c) main_arg9 (by decide) (by decide),
     arg_end m c r.2 (h c) main_arg10 (by decide) (by decide), arg_end m c r.2 (h c) main_arg11 (by decide) (by decide)⟩)
    (run m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_value m ρ)

end Cert.KernelIdeal.Hand

end
-- ==== Proof.Ref.Run0.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk0 : List (HloOp τ sig (Elt F)) :=
  [ binary main_arg0 main_arg4 main_v0 (fun l r => Host.dotGeneral dot_S100000x256_S256x128_S100000x128_1_0_0_1_n_n none l r),
    unary main_arg5 main_v1 (broadcastInDim S1x128 ![1] bcast_S128_S1x128_1),
    unary main_v1 main_v2 (broadcastInDim S100000x128 ![0, 1] bcast_S1x128_S100000x128_0_1),
    binary main_v0 main_v2 main_v3 addf,
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v3) (TRef.of (T := ⟨S100000x128, .f32⟩) main_call0_v0) (TRef.of (T := ⟨S100000x128, .f32⟩) main_v4) maximumf ]

theorem chunk0_sub : (chunk0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem chunk0_fresh : (chunk0 : List (HloOp τ sig (Elt F))).Forall fun op => op.fresh = ∅ :=
  ⟨rfl, rfl, rfl, rfl, rfl, rfl, rfl⟩

abbrev chunk1 : List (HloOp τ sig (Elt F)) :=
  [ unary main_arg6 main_v5 (extractStridedSlice S1x128 ![0, 0] · slices_S3x128_S1x128_0_0),
    reshape main_v5 main_v6 rfl shapeCasts_S1x128_S128,
    unary main_arg7 main_v7 (extractStridedSlice S1x128 ![0, 0] · slices_S3x128_S1x128_0_0),
    reshape main_v7 main_v8 rfl shapeCasts_S1x128_S128,
    nullary main_cst (constant S_ .f32 0x00000000#32),
    binary main_v4 main_cst main_v9 (fun x v => Host.reduceAdd x v reducesTo_S100000x128_S128_d0 h_S_),
    nullary main_cst_0 (constant S_ .f32 0x47C35000#32),
    unary main_cst_0 main_v10 (broadcastInDim S128 ![] bcast_S_S128),
    binary main_v9 main_v10 main_v11 Host.divf,
    unary main_v11 main_v12 (broadcastInDim S1x128 ![1] bcast_S128_S1x128_1),
    unary main_v12 main_v13 (broadcastInDim S100000x128 ![0, 1] bcast_S1x128_S100000x128_0_1),
    binary main_v4 main_v13 main_v14 subf,
    binary main_v14 main_v14 main_v15 mulf,
    nullary main_cst_1 (constant S_ .f32 0x00000000#32),
    binary main_v15 main_cst_1 main_v16 (fun x v => Host.reduceAdd x v reducesTo_S100000x128_S128_d0 h_S_),
    nullary main_cst_2 (constant S_ .f32 0x47C35000#32),
    unary main_cst_2 main_v17 (broadcastInDim S128 ![] bcast_S_S128),
    binary main_v16 main_v17 main_v18 Host.divf,
    unary main_v11 main_v19 (broadcastInDim S1x128 ![1] bcast_S128_S1x128_1),
    unary main_v19 main_v20 (broadcastInDim S100000x128 ![0, 1] bcast_S1x128_S100000x128_0_1),
    binary main_v4 main_v20 main_v21 subf,
    nullary main_cst_3 (constant S_ .f32 0x3727C5AC#32),
    unary main_cst_3 main_v22 (broadcastInDim S128 ![] bcast_S_S128),
    binary main_v18 main_v22 main_v23 addf,
    unary main_v23 main_v24 Host.rsqrt,
    unary main_v24 main_v25 (broadcastInDim S1x128 ![1] bcast_S128_S1x128_1),
    unary main_v25 main_v26 (broadcastInDim S100000x128 ![0, 1] bcast_S1x128_S100000x128_0_1),
    binary main_v21 main_v26 main_v27 mulf,
    unary main_v6 main_v28 (broadcastInDim S1x128 ![1] bcast_S128_S1x128_1),
    unary main_v28 main_v29 (broadcastInDim S100000x128 ![0, 1] bcast_S1x128_S100000x128_0_1),
    binary main_v27 main_v29 main_v30 mulf,
    unary main_v8 main_v31 (broadcastInDim S1x128 ![1] bcast_S128_S1x128_1),
    unary main_v31 main_v32 (broadcastInDim S100000x128 ![0, 1] bcast_S1x128_S100000x128_0_1),
    binary main_v30 main_v32 main_v33 addf,
    unary main_arg8 main_v34 (extractStridedSlice S1x128x128 ![0, 0, 0] · slices_S3x128x128_S1x128x128_0_0_0),
    reshape main_v34 main_v35 rfl shapeCasts_S1x128x128_S128x128,
    unary main_arg9 main_v36 (extractStridedSlice S1x128 ![0, 0] · slices_S3x128_S1x128_0_0),
    reshape main_v36 main_v37 rfl shapeCasts_S1x128_S128,
    binary main_v33 main_v35 main_v38 (fun l r => Host.dotGeneral dot_S100000x128_S128x128_S100000x128_1_0_0_1_n_n none l r) ]

theorem chunk1_sub : (chunk1 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub ..⟩

theorem chunk1_fresh : (chunk1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev chunk2 : List (HloOp τ sig (Elt F)) :=
  [ nullary main_c (constantI S_ 32 0#32),
    unary main_c main_v39 (broadcastInDim S640000 ![] bcast_S_S640000),
    binary main_arg2 main_v39 main_v40 (cmpi .slt),
    nullary main_c_4 (constantI S_ 32 20000#32),
    unary main_c_4 main_v41 (broadcastInDim S640000 ![] bcast_S_S640000),
    binary main_arg2 main_v41 main_v42 addi,
    ternary main_v40 main_v42 main_arg2 main_v43 select,
    unary main_v43 main_v44 (broadcastInDim S640000x1 ![0] bcast_S640000_S640000x1_0),
    binary main_arg3 main_v44 main_v45 (fun x i => Host.gather gather_S20000_S640000x1_S640000_n_0_n_n_0_1_1 x i),
    nullary main_cst_5 (constant S_ .f32 0x00000000#32),
    unary main_cst_5 main_v46 (broadcastInDim S100000 ![] bcast_S_S100000),
    unary main_arg1 main_v47 (broadcastInDim S640000x1 ![0] bcast_S640000_S640000x1_0),
    ternary main_v46 main_v47 main_v45 main_v48 (fun x i u => Host.scatterAdd scatter_S100000_S640000x1_S640000_n_0_0_1 x i u),
    nullary main_cst_6 (constant S_ .f32 0x00000000#32),
    unary main_cst_6 main_v49 (broadcastInDim S100000 ![] bcast_S_S100000),
    binary main_v48 main_v49 main_v50 (cmpf .ogt) ]

theorem chunk2_sub : (chunk2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub ..⟩

theorem chunk2_fresh : (chunk2 : List (HloOp τ sig (Elt F))).Forall fun op => op.fresh = ∅ :=
  ⟨rfl, rfl, rfl, rfl, rfl, rfl, rfl, rfl, rfl, rfl, rfl, rfl, rfl, rfl, rfl, rfl⟩

abbrev ops_part0 : List (HloOp τ sig (Elt F)) :=
  chunk0 ++ (chunk1 ++ (chunk2))

set_option maxRecDepth 8192 in

theorem main_part0_eq (c : Dev nD) : main_part0 (F := F) c = seq ops_part0 := rfl

theorem ops_part0_sub : (ops_part0 : List (HloOp τ sig (Elt F))).Forall fun op => op.bufs ⊆ tcRefs τ sig :=
  List.forall_append.2 ⟨chunk0_sub, List.forall_append.2 ⟨chunk1_sub, chunk2_sub⟩⟩

theorem ops_part0_fresh : (ops_part0 : List (HloOp τ sig (Elt F))).Forall fun op => op.fresh = ∅ :=
  List.forall_append.2 ⟨chunk0_fresh, List.forall_append.2 ⟨chunk1_fresh, chunk2_fresh⟩⟩

end Cert.ReferenceIdeal.Hand

end
-- ==== Proof.Ref.Run1.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk3 : List (HloOp τ sig (Elt F)) :=
  [ nullary main_cst_7 (constant S_ .f32 0x3F800000#32),
    unary main_cst_7 main_v51 (broadcastInDim S100000 ![] bcast_S_S100000),
    binary main_v51 main_v48 main_v52 Host.divf,
    nullary main_cst_8 (constant S_ .f32 0x00000000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v50) (TRef.of (T := ⟨S100000, .f32⟩) main_v52) (TRef.of (T := ⟨S100000, .f32⟩) main_call1_v1) (TRef.of (T := ⟨S100000, .f32⟩) main_v53) select ]

theorem chunk3_sub : (chunk3 : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub ..⟩

theorem chunk3_fresh : (chunk3 : List (HloOp τ sig (Elt F))).Forall fun op => op.fresh = ∅ :=
  ⟨rfl, rfl, rfl, rfl, rfl, rfl, rfl⟩

abbrev chunk4 : List (HloOp τ sig (Elt F)) :=
  [ nullary main_cst_9 (constant S_ .f32 0x3F800000#32),
    unary main_cst_9 main_v54 (broadcastInDim S640000 ![] bcast_S_S640000),
    nullary main_cst_10 (constant S_ .f32 0x00000000#32),
    unary main_cst_10 main_v55 (broadcastInDim S20000 ![] bcast_S_S20000),
    unary main_arg2 main_v56 (broadcastInDim S640000x1 ![0] bcast_S640000_S640000x1_0),
    ternary main_v55 main_v56 main_v54 main_v57 (fun x i u => Host.scatterAdd scatter_S20000_S640000x1_S640000_n_0_0_1 x i u),
    nullary main_cst_11 (constant S_ .f32 0x00000000#32),
    unary main_cst_11 main_v58 (broadcastInDim S20000 ![] bcast_S_S20000),
    binary main_v57 main_v58 main_v59 (cmpf .ogt),
    nullary main_cst_12 (constant S_ .f32 0x3F800000#32),
    unary main_cst_12 main_v60 (broadcastInDim S20000 ![] bcast_S_S20000),
    binary main_v60 main_v57 main_v61 Host.divf,
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S20000, .f32⟩) main_call2_v1) (broadcastInDim S20000 ![] bcast_S_S20000),
    TRef.ternary (TRef.of (T := ⟨S20000, .i1⟩) main_v59) (TRef.of (T := ⟨S20000, .f32⟩) main_v61) (TRef.of (T := ⟨S20000, .f32⟩) main_call2_v1) (TRef.of (T := ⟨S20000, .f32⟩) main_v62) select ]

theorem chunk4_sub : (chunk4 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

theorem chunk4_fresh : (chunk4 : List (HloOp τ sig (Elt F))).Forall fun op => op.fresh = ∅ :=
  ⟨rfl, rfl, rfl, rfl, rfl, rfl, rfl, rfl, rfl, rfl, rfl, rfl, rfl, rfl, rfl, rfl⟩

abbrev chunk5 : List (HloOp τ sig (Elt F)) :=
  [ nullary main_c_14 (constantI S_ 32 0#32),
    unary main_c_14 main_v63 (broadcastInDim S640000 ![] bcast_S_S640000),
    binary main_arg1 main_v63 main_v64 (cmpi .slt),
    nullary main_c_15 (constantI S_ 32 100000#32),
    unary main_c_15 main_v65 (broadcastInDim S640000 ![] bcast_S_S640000),
    binary main_arg1 main_v65 main_v66 addi,
    ternary main_v64 main_v66 main_arg1 main_v67 select,
    unary main_v67 main_v68 (broadcastInDim S640000x1 ![0] bcast_S640000_S640000x1_0),
    binary main_v38 main_v68 main_v69 (fun x i => Host.gather gather_S100000x128_S640000x1_S640000x128_1_0_n_n_0_1_1128 x i),
    nullary main_cst_16 (constant S_ .f32 0x00000000#32),
    unary main_cst_16 main_v70 (broadcastInDim S20000x128 ![] bcast_S_S20000x128),
    unary main_arg2 main_v71 (broadcastInDim S640000x1 ![0] bcast_S640000_S640000x1_0),
    ternary main_v70 main_v71 main_v69 main_v72 (fun x i u => Host.scatterAdd scatter_S20000x128_S640000x1_S640000x128_1_0_0_1 x i u),
    unary main_v62 main_v73 (broadcastInDim S20000x1 ![0] bcast_S20000_S20000x1_0),
    unary main_v73 main_v74 (broadcastInDim S20000x128 ![0, 1] bcast_S20000x1_S20000x128_0_1),
    binary main_v72 main_v74 main_v75 mulf,
    nullary main_c_17 (constantI S_ 32 0#32),
    unary main_c_17 main_v76 (broadcastInDim S640000 ![] bcast_S_S640000),
    binary main_arg2 main_v76 main_v77 (cmpi .slt),
    nullary main_c_18 (constantI S_ 32 20000#32),
    unary main_c_18 main_v78 (broadcastInDim S640000 ![] bcast_S_S640000),
    binary main_arg2 main_v78 main_v79 addi,
    ternary main_v77 main_v79 main_arg2 main_v80 select,
    unary main_v80 main_v81 (broadcastInDim S640000x1 ![0] bcast_S640000_S640000x1_0),
    binary main_v75 main_v81 main_v82 (fun x i => Host.gather gather_S20000x128_S640000x1_S640000x128_1_0_n_n_0_1_1128 x i),
    nullary main_cst_19 (constant S_ .f32 0x00000000#32),
    unary main_cst_19 main_v83 (broadcastInDim S100000x128 ![] bcast_S_S100000x128),
    unary main_arg1 main_v84 (broadcastInDim S640000x1 ![0] bcast_S640000_S640000x1_0),
    ternary main_v83 main_v84 main_v82 main_v85 (fun x i u => Host.scatterAdd scatter_S100000x128_S640000x1_S640000x128_1_0_0_1 x i u),
    unary main_v53 main_v86 (broadcastInDim S100000x1 ![0] bcast_S100000_S100000x1_0),
    unary main_v86 main_v87 (broadcastInDim S100000x128 ![0, 1] bcast_S100000x1_S100000x128_0_1),
    binary main_v85 main_v87 main_v88 mulf,
    unary main_v37 main_v89 (broadcastInDim S1x128 ![1] bcast_S128_S1x128_1),
    unary main_v89 main_v90 (broadcastInDim S100000x128 ![0, 1] bcast_S1x128_S100000x128_0_1),
    binary main_v88 main_v90 main_v91 addf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v91) (TRef.of (T := ⟨S100000x128, .f32⟩) main_call3_v0) (TRef.of (T := ⟨S100000x128, .f32⟩) main_v92) maximumf ]

theorem chunk5_sub : (chunk5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub ..⟩

theorem chunk5_fresh : (chunk5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev chunk6 : List (HloOp τ sig (Elt F)) :=
  [ unary main_arg10 main_v93 (extractStridedSlice S1x128x1 ![0, 0, 0] · slices_S3x128x1_S1x128x1_0_0_0),
    reshape main_v93 main_v94 rfl shapeCasts_S1x128x1_S128x1,
    binary main_v4 main_v94 main_v95 (fun l r => Host.dotGeneral dot_S100000x128_S128x1_S100000x1_1_0_0_1_n_n none l r),
    unary main_arg11 main_v96 (extractStridedSlice S1x1 ![0, 0] · slices_S3x1_S1x1_0_0),
    reshape main_v96 main_v97 rfl shapeCasts_S1x1_S1 ]

theorem chunk6_sub : (chunk6 : List (HloOp τ sig (Elt F))).Forall fun op => op.bufs ⊆ tcRefs τ sig :=
  ⟨unary_bufs_sub .., reshape_bufs_sub .., binary_bufs_sub .., unary_bufs_sub .., reshape_bufs_sub ..⟩

theorem chunk6_fresh : (chunk6 : List (HloOp τ sig (Elt F))).Forall fun op => op.fresh = ∅ :=
  ⟨rfl, rfl, rfl, rfl, rfl⟩

abbrev ops_part1 : List (HloOp τ sig (Elt F)) :=
  chunk3 ++ (chunk4 ++ (chunk5 ++ (chunk6)))

set_option maxRecDepth 8192 in

theorem main_part1_eq (c : Dev nD) : main_part1 (F := F) c = seq ops_part1 := rfl

theorem ops_part1_sub : (ops_part1 : List (HloOp τ sig (Elt F))).Forall fun op => op.bufs ⊆ tcRefs τ sig :=
  List.forall_append.2 ⟨chunk3_sub, List.forall_append.2 ⟨chunk4_sub, List.forall_append.2 ⟨chunk5_sub, chunk6_sub⟩⟩⟩

theorem ops_part1_fresh : (ops_part1 : List (HloOp τ sig (Elt F))).Forall fun op => op.fresh = ∅ :=
  List.forall_append.2 ⟨chunk3_fresh, List.forall_append.2 ⟨chunk4_fresh, List.forall_append.2 ⟨chunk5_fresh, chunk6_fresh⟩⟩⟩

end Cert.ReferenceIdeal.Hand

end
-- ==== Proof.Ref.Run2.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk7 : List (HloOp τ sig (Elt F)) :=
  [ unary main_v97 main_v98 (broadcastInDim S1x1 ![1] bcast_S1_S1x1_1),
    unary main_v98 main_v99 (broadcastInDim S100000x1 ![0, 1] bcast_S1x1_S100000x1_0_1),
    binary main_v95 main_v99 main_v100 addf,
    unary main_v100 main_v101 Host.negf,
    unary main_v101 main_v102 Host.exp,
    nullary main_cst_20 (constant S_ .f32 0x3F800000#32),
    unary main_cst_20 main_v103 (broadcastInDim S100000x1 ![] bcast_S_S100000x1),
    binary main_v103 main_v102 main_v104 addf,
    nullary main_cst_21 (constant S_ .f32 0x3F800000#32),
    unary main_cst_21 main_v105 (broadcastInDim S100000x1 ![] bcast_S_S100000x1),
    binary main_v105 main_v104 main_v106 Host.divf,
    unary main_v106 main_v107 (broadcastInDim S100000x128 ![0, 1] bcast_S100000x1_S100000x128_0_1),
    binary main_v92 main_v107 main_v108 mulf,
    binary main_v4 main_v108 main_v109 addf ]

theorem chunk7_sub : (chunk7 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩

theorem chunk7_fresh : (chunk7 : List (HloOp τ sig (Elt F))).Forall fun op => op.fresh = ∅ :=
  ⟨rfl, rfl, rfl, rfl, rfl, rfl, rfl, rfl, rfl, rfl, rfl, rfl, rfl, rfl⟩

abbrev chunk8 : List (HloOp τ sig (Elt F)) :=
  [ unary main_arg6 main_v110 (extractStridedSlice S1x128 ![1, 0] · slices_S3x128_S1x128_1_0),
    reshape main_v110 main_v111 rfl shapeCasts_S1x128_S128,
    unary main_arg7 main_v112 (extractStridedSlice S1x128 ![1, 0] · slices_S3x128_S1x128_1_0),
    reshape main_v112 main_v113 rfl shapeCasts_S1x128_S128,
    nullary main_cst_22 (constant S_ .f32 0x00000000#32),
    binary main_v109 main_cst_22 main_v114 (fun x v => Host.reduceAdd x v reducesTo_S100000x128_S128_d0 h_S_),
    nullary main_cst_23 (constant S_ .f32 0x47C35000#32),
    unary main_cst_23 main_v115 (broadcastInDim S128 ![] bcast_S_S128),
    binary main_v114 main_v115 main_v116 Host.divf,
    unary main_v116 main_v117 (broadcastInDim S1x128 ![1] bcast_S128_S1x128_1),
    unary main_v117 main_v118 (broadcastInDim S100000x128 ![0, 1] bcast_S1x128_S100000x128_0_1),
    binary main_v109 main_v118 main_v119 subf,
    binary main_v119 main_v119 main_v120 mulf,
    nullary main_cst_24 (constant S_ .f32 0x00000000#32),
    binary main_v120 main_cst_24 main_v121 (fun x v => Host.reduceAdd x v reducesTo_S100000x128_S128_d0 h_S_),
    nullary main_cst_25 (constant S_ .f32 0x47C35000#32),
    unary main_cst_25 main_v122 (broadcastInDim S128 ![] bcast_S_S128),
    binary main_v121 main_v122 main_v123 Host.divf,
    unary main_v116 main_v124 (broadcastInDim S1x128 ![1] bcast_S128_S1x128_1),
    unary main_v124 main_v125 (broadcastInDim S100000x128 ![0, 1] bcast_S1x128_S100000x128_0_1),
    binary main_v109 main_v125 main_v126 subf,
    nullary main_cst_26 (constant S_ .f32 0x3727C5AC#32),
    unary main_cst_26 main_v127 (broadcastInDim S128 ![] bcast_S_S128),
    binary main_v123 main_v127 main_v128 addf,
    unary main_v128 main_v129 Host.rsqrt,
    unary main_v129 main_v130 (broadcastInDim S1x128 ![1] bcast_S128_S1x128_1),
    unary main_v130 main_v131 (broadcastInDim S100000x128 ![0, 1] bcast_S1x128_S100000x128_0_1),
    binary main_v126 main_v131 main_v132 mulf,
    unary main_v111 main_v133 (broadcastInDim S1x128 ![1] bcast_S128_S1x128_1),
    unary main_v133 main_v134 (broadcastInDim S100000x128 ![0, 1] bcast_S1x128_S100000x128_0_1),
    binary main_v132 main_v134 main_v135 mulf,
    unary main_v113 main_v136 (broadcastInDim S1x128 ![1] bcast_S128_S1x128_1),
    unary main_v136 main_v137 (broadcastInDim S100000x128 ![0, 1] bcast_S1x128_S100000x128_0_1),
    binary main_v135 main_v137 main_v138 addf,
    unary main_arg8 main_v139 (extractStridedSlice S1x128x128 ![1, 0, 0] · slices_S3x128x128_S1x128x128_1_0_0),
    reshape main_v139 main_v140 rfl shapeCasts_S1x128x128_S128x128,
    unary main_arg9 main_v141 (extractStridedSlice S1x128 ![1, 0] · slices_S3x128_S1x128_1_0),
    reshape main_v141 main_v142 rfl shapeCasts_S1x128_S128,
    binary main_v138 main_v140 main_v143 (fun l r => Host.dotGeneral dot_S100000x128_S128x128_S100000x128_1_0_0_1_n_n none l r) ]

theorem chunk8_sub : (chunk8 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub ..⟩

theorem chunk8_fresh : (chunk8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev chunk9 : List (HloOp τ sig (Elt F)) :=
  [ nullary main_c_27 (constantI S_ 32 0#32),
    unary main_c_27 main_v144 (broadcastInDim S640000 ![] bcast_S_S640000),
    binary main_arg2 main_v144 main_v145 (cmpi .slt),
    nullary main_c_28 (constantI S_ 32 20000#32),
    unary main_c_28 main_v146 (broadcastInDim S640000 ![] bcast_S_S640000),
    binary main_arg2 main_v146 main_v147 addi,
    ternary main_v145 main_v147 main_arg2 main_v148 select ]

theorem chunk9_sub : (chunk9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

theorem chunk9_fresh : (chunk9 : List (HloOp τ sig (Elt F))).Forall fun op => op.fresh = ∅ :=
  ⟨rfl, rfl, rfl, rfl, rfl, rfl, rfl⟩

abbrev ops_part2 : List (HloOp τ sig (Elt F)) :=
  chunk7 ++ (chunk8 ++ (chunk9))

set_option maxRecDepth 8192 in

theorem main_part2_eq (c : Dev nD) : main_part2 (F := F) c = seq ops_part2 := rfl

theorem ops_part2_sub : (ops_part2 : List (HloOp τ sig (Elt F))).Forall fun op => op.bufs ⊆ tcRefs τ sig :=
  List.forall_append.2 ⟨chunk7_sub, List.forall_append.2 ⟨chunk8_sub, chunk9_sub⟩⟩

theorem ops_part2_fresh : (ops_part2 : List (HloOp τ sig (Elt F))).Forall fun op => op.fresh = ∅ :=
  List.forall_append.2 ⟨chunk7_fresh, List.forall_append.2 ⟨chunk8_fresh, chunk9_fresh⟩⟩

end Cert.ReferenceIdeal.Hand

end
-- ==== Proof.Ref.Run3.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk10 : List (HloOp τ sig (Elt F)) :=
  [ unary main_v148 main_v149 (broadcastInDim S640000x1 ![0] bcast_S640000_S640000x1_0),
    binary main_arg3 main_v149 main_v150 (fun x i => Host.gather gather_S20000_S640000x1_S640000_n_0_n_n_0_1_1 x i),
    nullary main_cst_29 (constant S_ .f32 0x00000000#32),
    unary main_cst_29 main_v151 (broadcastInDim S100000 ![] bcast_S_S100000),
    unary main_arg1 main_v152 (broadcastInDim S640000x1 ![0] bcast_S640000_S640000x1_0),
    ternary main_v151 main_v152 main_v150 main_v153 (fun x i u => Host.scatterAdd scatter_S100000_S640000x1_S640000_n_0_0_1 x i u),
    nullary main_cst_30 (constant S_ .f32 0x00000000#32),
    unary main_cst_30 main_v154 (broadcastInDim S100000 ![] bcast_S_S100000),
    binary main_v153 main_v154 main_v155 (cmpf .ogt),
    nullary main_cst_31 (constant S_ .f32 0x3F800000#32),
    unary main_cst_31 main_v156 (broadcastInDim S100000 ![] bcast_S_S100000),
    binary main_v156 main_v153 main_v157 Host.divf,
    nullary main_cst_32 (constant S_ .f32 0x00000000#32),
    TRef.unary (TRef.of (T := ⟨S_, .f32⟩) main_cst_32) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v155) (TRef.of (T := ⟨S100000, .f32⟩) main_v157) (TRef.of (T := ⟨S100000, .f32⟩) main_call4_v1) (TRef.of (T := ⟨S100000, .f32⟩) main_v158) select ]

theorem chunk10_sub : (chunk10 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

theorem chunk10_fresh : (chunk10 : List (HloOp τ sig (Elt F))).Forall fun op => op.fresh = ∅ :=
  ⟨rfl, rfl, rfl, rfl, rfl, rfl, rfl, rfl, rfl, rfl, rfl, rfl, rfl, rfl, rfl, rfl⟩

abbrev chunk11 : List (HloOp τ sig (Elt F)) :=
  [ nullary main_cst_33 (constant S_ .f32 0x3F800000#32),
    unary main_cst_33 main_v159 (broadcastInDim S640000 ![] bcast_S_S640000),
    nullary main_cst_34 (constant S_ .f32 0x00000000#32),
    unary main_cst_34 main_v160 (broadcastInDim S20000 ![] bcast_S_S20000),
    unary main_arg2 main_v161 (broadcastInDim S640000x1 ![0] bcast_S640000_S640000x1_0),
    ternary main_v160 main_v161 main_v159 main_v162 (fun x i u => Host.scatterAdd scatter_S20000_S640000x1_S640000_n_0_0_1 x i u),
    nullary main_cst_35 (constant S_ .f32 0x00000000#32),
    unary main_cst_35 main_v163 (broadcastInDim S20000 ![] bcast_S_S20000),
    binary main_v162 main_v163 main_v164 (cmpf .ogt),
    nullary main_cst_36 (constant S_ .f32 0x3F800000#32),
    unary main_cst_36 main_v165 (broadcastInDim S20000 ![] bcast_S_S20000),
    binary main_v165 main_v162 main_v166 Host.divf,
    nullary main_cst_37 (constant S_ .f32 0x00000000#32),
    TRef.unary (TRef.of (T := ⟨S_, .f32⟩) main_cst_37) (TRef.of (T := ⟨S_, .f32⟩) main_call5_v0) id,
    TRef.unary (TRef.of (T := ⟨S_, .f32⟩) main_call5_v0) (TRef.of (T := ⟨S20000, .f32⟩) main_call5_v1) (broadcastInDim S20000 ![] bcast_S_S20000),
    TRef.ternary (TRef.of (T := ⟨S20000, .i1⟩) main_v164) (TRef.of (T := ⟨S20000, .f32⟩) main_v166) (TRef.of (T := ⟨S20000, .f32⟩) main_call5_v1) (TRef.of (T := ⟨S20000, .f32⟩) main_v167) select ]

theorem chunk11_sub : (chunk11 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

theorem chunk11_fresh : (chunk11 : List (HloOp τ sig (Elt F))).Forall fun op => op.fresh = ∅ :=
  ⟨rfl, rfl, rfl, rfl, rfl, rfl, rfl, rfl, rfl, rfl, rfl, rfl, rfl, rfl, rfl, rfl⟩

abbrev chunk12 : List (HloOp τ sig (Elt F)) :=
  [ nullary main_c_38 (constantI S_ 32 0#32),
    unary main_c_38 main_v168 (broadcastInDim S640000 ![] bcast_S_S640000),
    binary main_arg1 main_v168 main_v169 (cmpi .slt),
    nullary main_c_39 (constantI S_ 32 100000#32),
    unary main_c_39 main_v170 (broadcastInDim S640000 ![] bcast_S_S640000),
    binary main_arg1 main_v170 main_v171 addi,
    ternary main_v169 main_v171 main_arg1 main_v172 select,
    unary main_v172 main_v173 (broadcastInDim S640000x1 ![0] bcast_S640000_S640000x1_0),
    binary main_v143 main_v173 main_v174 (fun x i => Host.gather gather_S100000x128_S640000x1_S640000x128_1_0_n_n_0_1_1128 x i),
    nullary main_cst_40 (constant S_ .f32 0x00000000#32),
    unary main_cst_40 main_v175 (broadcastInDim S20000x128 ![] bcast_S_S20000x128),
    unary main_arg2 main_v176 (broadcastInDim S640000x1 ![0] bcast_S640000_S640000x1_0),
    ternary main_v175 main_v176 main_v174 main_v177 (fun x i u => Host.scatterAdd scatter_S20000x128_S640000x1_S640000x128_1_0_0_1 x i u),
    unary main_v167 main_v178 (broadcastInDim S20000x1 ![0] bcast_S20000_S20000x1_0),
    unary main_v178 main_v179 (broadcastInDim S20000x128 ![0, 1] bcast_S20000x1_S20000x128_0_1),
    binary main_v177 main_v179 main_v180 mulf,
    nullary main_c_41 (constantI S_ 32 0#32),
    unary main_c_41 main_v181 (broadcastInDim S640000 ![] bcast_S_S640000),
    binary main_arg2 main_v181 main_v182 (cmpi .slt),
    nullary main_c_42 (constantI S_ 32 20000#32),
    unary main_c_42 main_v183 (broadcastInDim S640000 ![] bcast_S_S640000),
    binary main_arg2 main_v183 main_v184 addi,
    ternary main_v182 main_v184 main_arg2 main_v185 select,
    unary main_v185 main_v186 (broadcastInDim S640000x1 ![0] bcast_S640000_S640000x1_0),
    binary main_v180 main_v186 main_v187 (fun x i => Host.gather gather_S20000x128_S640000x1_S640000x128_1_0_n_n_0_1_1128 x i),
    nullary main_cst_43 (constant S_ .f32 0x00000000#32),
    unary main_cst_43 main_v188 (broadcastInDim S100000x128 ![] bcast_S_S100000x128),
    unary main_arg1 main_v189 (broadcastInDim S640000x1 ![0] bcast_S640000_S640000x1_0),
    ternary main_v188 main_v189 main_v187 main_v190 (fun x i u => Host.scatterAdd scatter_S100000x128_S640000x1_S640000x128_1_0_0_1 x i u),
    unary main_v158 main_v191 (broadcastInDim S100000x1 ![0] bcast_S100000_S100000x1_0),
    unary main_v191 main_v192 (broadcastInDim S100000x128 ![0, 1] bcast_S100000x1_S100000x128_0_1),
    binary main_v190 main_v192 main_v193 mulf ]

theorem chunk12_sub : (chunk12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩

theorem chunk12_fresh : (chunk12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_part3 : List (HloOp τ sig (Elt F)) :=
  chunk10 ++ (chunk11 ++ (chunk12))

set_option maxRecDepth 8192 in

theorem main_part3_eq (c : Dev nD) : main_part3 (F := F) c = seq ops_part3 := rfl

theorem ops_part3_sub : (ops_part3 : List (HloOp τ sig (Elt F))).Forall fun op => op.bufs ⊆ tcRefs τ sig :=
  List.forall_append.2 ⟨chunk10_sub, List.forall_append.2 ⟨chunk11_sub, chunk12_sub⟩⟩

theorem ops_part3_fresh : (ops_part3 : List (HloOp τ sig (Elt F))).Forall fun op => op.fresh = ∅ :=
  List.forall_append.2 ⟨chunk10_fresh, List.forall_append.2 ⟨chunk11_fresh, chunk12_fresh⟩⟩

end Cert.ReferenceIdeal.Hand

end
-- ==== Proof.Ref.Run4.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk13 : List (HloOp τ sig (Elt F)) :=
  [ unary main_v142 main_v194 (broadcastInDim S1x128 ![1] bcast_S128_S1x128_1),
    unary main_v194 main_v195 (broadcastInDim S100000x128 ![0, 1] bcast_S1x128_S100000x128_0_1),
    binary main_v193 main_v195 main_v196 addf,
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v196) (TRef.of (T := ⟨S100000x128, .f32⟩) main_call6_v0) (TRef.of (T := ⟨S100000x128, .f32⟩) main_v197) maximumf ]

theorem chunk13_sub : (chunk13 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem chunk13_fresh : (chunk13 : List (HloOp τ sig (Elt F))).Forall fun op => op.fresh = ∅ :=
  ⟨rfl, rfl, rfl, rfl, rfl, rfl⟩

abbrev chunk14 : List (HloOp τ sig (Elt F)) :=
  [ unary main_arg10 main_v198 (extractStridedSlice S1x128x1 ![1, 0, 0] · slices_S3x128x1_S1x128x1_1_0_0),
    reshape main_v198 main_v199 rfl shapeCasts_S1x128x1_S128x1,
    binary main_v109 main_v199 main_v200 (fun l r => Host.dotGeneral dot_S100000x128_S128x1_S100000x1_1_0_0_1_n_n none l r),
    unary main_arg11 main_v201 (extractStridedSlice S1x1 ![1, 0] · slices_S3x1_S1x1_1_0),
    reshape main_v201 main_v202 rfl shapeCasts_S1x1_S1,
    unary main_v202 main_v203 (broadcastInDim S1x1 ![1] bcast_S1_S1x1_1),
    unary main_v203 main_v204 (broadcastInDim S100000x1 ![0, 1] bcast_S1x1_S100000x1_0_1),
    binary main_v200 main_v204 main_v205 addf,
    unary main_v205 main_v206 Host.negf,
    unary main_v206 main_v207 Host.exp,
    nullary main_cst_44 (constant S_ .f32 0x3F800000#32),
    unary main_cst_44 main_v208 (broadcastInDim S100000x1 ![] bcast_S_S100000x1),
    binary main_v208 main_v207 main_v209 addf,
    nullary main_cst_45 (constant S_ .f32 0x3F800000#32),
    unary main_cst_45 main_v210 (broadcastInDim S100000x1 ![] bcast_S_S100000x1),
    binary main_v210 main_v209 main_v211 Host.divf,
    unary main_v211 main_v212 (broadcastInDim S100000x128 ![0, 1] bcast_S100000x1_S100000x128_0_1),
    binary main_v197 main_v212 main_v213 mulf,
    binary main_v109 main_v213 main_v214 addf ]

theorem chunk14_sub : (chunk14 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩

theorem chunk14_fresh : (chunk14 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev chunk15 : List (HloOp τ sig (Elt F)) :=
  [ unary main_arg6 main_v215 (extractStridedSlice S1x128 ![2, 0] · slices_S3x128_S1x128_2_0),
    reshape main_v215 main_v216 rfl shapeCasts_S1x128_S128,
    unary main_arg7 main_v217 (extractStridedSlice S1x128 ![2, 0] · slices_S3x128_S1x128_2_0),
    reshape main_v217 main_v218 rfl shapeCasts_S1x128_S128,
    nullary main_cst_46 (constant S_ .f32 0x00000000#32),
    binary main_v214 main_cst_46 main_v219 (fun x v => Host.reduceAdd x v reducesTo_S100000x128_S128_d0 h_S_),
    nullary main_cst_47 (constant S_ .f32 0x47C35000#32),
    unary main_cst_47 main_v220 (broadcastInDim S128 ![] bcast_S_S128),
    binary main_v219 main_v220 main_v221 Host.divf,
    unary main_v221 main_v222 (broadcastInDim S1x128 ![1] bcast_S128_S1x128_1),
    unary main_v222 main_v223 (broadcastInDim S100000x128 ![0, 1] bcast_S1x128_S100000x128_0_1),
    binary main_v214 main_v223 main_v224 subf,
    binary main_v224 main_v224 main_v225 mulf,
    nullary main_cst_48 (constant S_ .f32 0x00000000#32),
    binary main_v225 main_cst_48 main_v226 (fun x v => Host.reduceAdd x v reducesTo_S100000x128_S128_d0 h_S_),
    nullary main_cst_49 (constant S_ .f32 0x47C35000#32),
    unary main_cst_49 main_v227 (broadcastInDim S128 ![] bcast_S_S128),
    binary main_v226 main_v227 main_v228 Host.divf,
    unary main_v221 main_v229 (broadcastInDim S1x128 ![1] bcast_S128_S1x128_1),
    unary main_v229 main_v230 (broadcastInDim S100000x128 ![0, 1] bcast_S1x128_S100000x128_0_1),
    binary main_v214 main_v230 main_v231 subf,
    nullary main_cst_50 (constant S_ .f32 0x3727C5AC#32),
    unary main_cst_50 main_v232 (broadcastInDim S128 ![] bcast_S_S128),
    binary main_v228 main_v232 main_v233 addf,
    unary main_v233 main_v234 Host.rsqrt,
    unary main_v234 main_v235 (broadcastInDim S1x128 ![1] bcast_S128_S1x128_1),
    unary main_v235 main_v236 (broadcastInDim S100000x128 ![0, 1] bcast_S1x128_S100000x128_0_1),
    binary main_v231 main_v236 main_v237 mulf,
    unary main_v216 main_v238 (broadcastInDim S1x128 ![1] bcast_S128_S1x128_1),
    unary main_v238 main_v239 (broadcastInDim S100000x128 ![0, 1] bcast_S1x128_S100000x128_0_1),
    binary main_v237 main_v239 main_v240 mulf,
    unary main_v218 main_v241 (broadcastInDim S1x128 ![1] bcast_S128_S1x128_1),
    unary main_v241 main_v242 (broadcastInDim S100000x128 ![0, 1] bcast_S1x128_S100000x128_0_1),
    binary main_v240 main_v242 main_v243 addf,
    unary main_arg8 main_v244 (extractStridedSlice S1x128x128 ![2, 0, 0] · slices_S3x128x128_S1x128x128_2_0_0),
    reshape main_v244 main_v245 rfl shapeCasts_S1x128x128_S128x128,
    unary main_arg9 main_v246 (extractStridedSlice S1x128 ![2, 0] · slices_S3x128_S1x128_2_0) ]

theorem chunk15_sub : (chunk15 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub ..⟩

theorem chunk15_fresh : (chunk15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_part4 : List (HloOp τ sig (Elt F)) :=
  chunk13 ++ (chunk14 ++ (chunk15))

set_option maxRecDepth 8192 in

theorem main_part4_eq (c : Dev nD) : main_part4 (F := F) c = seq ops_part4 := rfl

theorem ops_part4_sub : (ops_part4 : List (HloOp τ sig (Elt F))).Forall fun op => op.bufs ⊆ tcRefs τ sig :=
  List.forall_append.2 ⟨chunk13_sub, List.forall_append.2 ⟨chunk14_sub, chunk15_sub⟩⟩

theorem ops_part4_fresh : (ops_part4 : List (HloOp τ sig (Elt F))).Forall fun op => op.fresh = ∅ :=
  List.forall_append.2 ⟨chunk13_fresh, List.forall_append.2 ⟨chunk14_fresh, chunk15_fresh⟩⟩

end Cert.ReferenceIdeal.Hand

end
-- ==== Proof.Ref.Run5.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk16 : List (HloOp τ sig (Elt F)) :=
  [ reshape main_v246 main_v247 rfl shapeCasts_S1x128_S128,
    binary main_v243 main_v245 main_v248 (fun l r => Host.dotGeneral dot_S100000x128_S128x128_S100000x128_1_0_0_1_n_n none l r) ]

theorem chunk16_sub : (chunk16 : List (HloOp τ sig (Elt F))).Forall fun op => op.bufs ⊆ tcRefs τ sig :=
  ⟨reshape_bufs_sub .., binary_bufs_sub ..⟩

theorem chunk16_fresh : (chunk16 : List (HloOp τ sig (Elt F))).Forall fun op => op.fresh = ∅ :=
  ⟨rfl, rfl⟩

abbrev chunk17 : List (HloOp τ sig (Elt F)) :=
  [ nullary main_c_51 (constantI S_ 32 0#32),
    unary main_c_51 main_v249 (broadcastInDim S640000 ![] bcast_S_S640000),
    binary main_arg2 main_v249 main_v250 (cmpi .slt),
    nullary main_c_52 (constantI S_ 32 20000#32),
    unary main_c_52 main_v251 (broadcastInDim S640000 ![] bcast_S_S640000),
    binary main_arg2 main_v251 main_v252 addi,
    ternary main_v250 main_v252 main_arg2 main_v253 select,
    unary main_v253 main_v254 (broadcastInDim S640000x1 ![0] bcast_S640000_S640000x1_0),
    binary main_arg3 main_v254 main_v255 (fun x i => Host.gather gather_S20000_S640000x1_S640000_n_0_n_n_0_1_1 x i),
    nullary main_cst_53 (constant S_ .f32 0x00000000#32),
    unary main_cst_53 main_v256 (broadcastInDim S100000 ![] bcast_S_S100000),
    unary main_arg1 main_v257 (broadcastInDim S640000x1 ![0] bcast_S640000_S640000x1_0),
    ternary main_v256 main_v257 main_v255 main_v258 (fun x i u => Host.scatterAdd scatter_S100000_S640000x1_S640000_n_0_0_1 x i u),
    nullary main_cst_54 (constant S_ .f32 0x00000000#32),
    unary main_cst_54 main_v259 (broadcastInDim S100000 ![] bcast_S_S100000),
    binary main_v258 main_v259 main_v260 (cmpf .ogt),
    nullary main_cst_55 (constant S_ .f32 0x3F800000#32),
    unary main_cst_55 main_v261 (broadcastInDim S100000 ![] bcast_S_S100000),
    binary main_v261 main_v258 main_v262 Host.divf,
    nullary main_cst_56 (constant S_ .f32 0x00000000#32),
    TRef.unary (TRef.of (T := ⟨S_, .f32⟩) main_cst_56) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.ternary (TRef.of (T := ⟨S100000, .i1⟩) main_v260) (TRef.of (T := ⟨S100000, .f32⟩) main_v262) (TRef.of (T := ⟨S100000, .f32⟩) main_call7_v1) (TRef.of (T := ⟨S100000, .f32⟩) main_v263) select ]

theorem chunk17_sub : (chunk17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

theorem chunk17_fresh : (chunk17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev chunk18 : List (HloOp τ sig (Elt F)) :=
  [ nullary main_cst_57 (constant S_ .f32 0x3F800000#32),
    unary main_cst_57 main_v264 (broadcastInDim S640000 ![] bcast_S_S640000),
    nullary main_cst_58 (constant S_ .f32 0x00000000#32),
    unary main_cst_58 main_v265 (broadcastInDim S20000 ![] bcast_S_S20000),
    unary main_arg2 main_v266 (broadcastInDim S640000x1 ![0] bcast_S640000_S640000x1_0),
    ternary main_v265 main_v266 main_v264 main_v267 (fun x i u => Host.scatterAdd scatter_S20000_S640000x1_S640000_n_0_0_1 x i u),
    nullary main_cst_59 (constant S_ .f32 0x00000000#32),
    unary main_cst_59 main_v268 (broadcastInDim S20000 ![] bcast_S_S20000),
    binary main_v267 main_v268 main_v269 (cmpf .ogt),
    nullary main_cst_60 (constant S_ .f32 0x3F800000#32),
    unary main_cst_60 main_v270 (broadcastInDim S20000 ![] bcast_S_S20000),
    binary main_v270 main_v267 main_v271 Host.divf,
    nullary main_cst_61 (constant S_ .f32 0x00000000#32),
    TRef.unary (TRef.of (T := ⟨S_, .f32⟩) main_cst_61) (TRef.of (T := ⟨S_, .f32⟩) main_call8_v0) id,
    TRef.unary (TRef.of (T := ⟨S_, .f32⟩) main_call8_v0) (TRef.of (T := ⟨S20000, .f32⟩) main_call8_v1) (broadcastInDim S20000 ![] bcast_S_S20000),
    TRef.ternary (TRef.of (T := ⟨S20000, .i1⟩) main_v269) (TRef.of (T := ⟨S20000, .f32⟩) main_v271) (TRef.of (T := ⟨S20000, .f32⟩) main_call8_v1) (TRef.of (T := ⟨S20000, .f32⟩) main_v272) select ]

theorem chunk18_sub : (chunk18 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub ..⟩

theorem chunk18_fresh : (chunk18 : List (HloOp τ sig (Elt F))).Forall fun op => op.fresh = ∅ :=
  ⟨rfl, rfl, rfl, rfl, rfl, rfl, rfl, rfl, rfl, rfl, rfl, rfl, rfl, rfl, rfl, rfl⟩

abbrev chunk19 : List (HloOp τ sig (Elt F)) :=
  [ nullary main_c_62 (constantI S_ 32 0#32),
    unary main_c_62 main_v273 (broadcastInDim S640000 ![] bcast_S_S640000),
    binary main_arg1 main_v273 main_v274 (cmpi .slt),
    nullary main_c_63 (constantI S_ 32 100000#32),
    unary main_c_63 main_v275 (broadcastInDim S640000 ![] bcast_S_S640000),
    binary main_arg1 main_v275 main_v276 addi,
    ternary main_v274 main_v276 main_arg1 main_v277 select,
    unary main_v277 main_v278 (broadcastInDim S640000x1 ![0] bcast_S640000_S640000x1_0),
    binary main_v248 main_v278 main_v279 (fun x i => Host.gather gather_S100000x128_S640000x1_S640000x128_1_0_n_n_0_1_1128 x i),
    nullary main_cst_64 (constant S_ .f32 0x00000000#32),
    unary main_cst_64 main_v280 (broadcastInDim S20000x128 ![] bcast_S_S20000x128),
    unary main_arg2 main_v281 (broadcastInDim S640000x1 ![0] bcast_S640000_S640000x1_0),
    ternary main_v280 main_v281 main_v279 main_v282 (fun x i u => Host.scatterAdd scatter_S20000x128_S640000x1_S640000x128_1_0_0_1 x i u),
    unary main_v272 main_v283 (broadcastInDim S20000x1 ![0] bcast_S20000_S20000x1_0),
    unary main_v283 main_v284 (broadcastInDim S20000x128 ![0, 1] bcast_S20000x1_S20000x128_0_1),
    binary main_v282 main_v284 main_v285 mulf,
    nullary main_c_65 (constantI S_ 32 0#32),
    unary main_c_65 main_v286 (broadcastInDim S640000 ![] bcast_S_S640000),
    binary main_arg2 main_v286 main_v287 (cmpi .slt),
    nullary main_c_66 (constantI S_ 32 20000#32),
    unary main_c_66 main_v288 (broadcastInDim S640000 ![] bcast_S_S640000),
    binary main_arg2 main_v288 main_v289 addi,
    ternary main_v287 main_v289 main_arg2 main_v290 select ]

theorem chunk19_sub : (chunk19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem chunk19_fresh : (chunk19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

abbrev ops_part5 : List (HloOp τ sig (Elt F)) :=
  chunk16 ++ (chunk17 ++ (chunk18 ++ (chunk19)))

set_option maxRecDepth 8192 in

theorem main_part5_eq (c : Dev nD) : main_part5 (F := F) c = seq ops_part5 := rfl

theorem ops_part5_sub : (ops_part5 : List (HloOp τ sig (Elt F))).Forall fun op => op.bufs ⊆ tcRefs τ sig :=
  List.forall_append.2 ⟨chunk16_sub, List.forall_append.2 ⟨chunk17_sub, List.forall_append.2 ⟨chunk18_sub, chunk19_sub⟩⟩⟩

theorem ops_part5_fresh : (ops_part5 : List (HloOp τ sig (Elt F))).Forall fun op => op.fresh = ∅ :=
  List.forall_append.2 ⟨chunk16_fresh, List.forall_append.2 ⟨chunk17_fresh, List.forall_append.2 ⟨chunk18_fresh, chunk19_fresh⟩⟩⟩

end Cert.ReferenceIdeal.Hand

end
-- ==== Proof.Ref.Run6.lean ====
import proofs.«415738_j90726889161246_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev chunk20 : List (HloOp τ sig (Elt F)) :=
  [ unary main_v290 main_v291 (broadcastInDim S640000x1 ![0] bcast_S640000_S640000x1_0),
    binary main_v285 main_v291 main_v292 (fun x i => Host.gather gather_S20000x128_S640000x1_S640000x128_1_0_n_n_0_1_1128 x i),
    nullary main_cst_67 (constant S_ .f32 0x00000000#32),
    unary main_cst_67 main_v293 (broadcastInDim S100000x128 ![] bcast_S_S100000x128),
    unary main_arg1 main_v294 (broadcastInDim S640000x1 ![0] bcast_S640000_S640000x1_0),
    ternary main_v293 main_v294 main_v292 main_v295 (fun x i u => Host.scatterAdd scatter_S100000x128_S640000x1_S640000x128_1_0_0_1 x i u),
    unary main_v263 main_v296 (broadcastInDim S100000x1 ![0] bcast_S100000_S100000x1_0),
    unary main_v296 main_v297 (broadcastInDim S100000x128 ![0, 1] bcast_S100000x1_S100000x128_0_1),
    binary main_v295 main_v297 main_v298 mulf,
    unary main_v247 main_v299 (broadcastInDim S1x128 ![1] bcast_S128_S1x128_1),
    unary main_v299 main_v300 (broadcastInDim S100000x128 ![0, 1] bcast_S1x128_S100000x128_0_1),
    binary main_v298 main_v300 main_v301 addf,
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v301) (TRef.of (T := ⟨S100000x128, .f32⟩) main_call9_v0) (TRef.of (T := ⟨S100000x128, .f32⟩) main_v302) maximumf ]

theorem chunk20_sub : (chunk20 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub ..⟩

theorem chunk20_fresh : (chunk20 : List (HloOp τ sig (Elt F))).Forall fun op => op.fresh = ∅ :=
  ⟨rfl, rfl, rfl, rfl, rfl, rfl, rfl, rfl, rfl, rfl, rfl, rfl, rfl, rfl, rfl⟩

abbrev chunk21 : List (HloOp τ sig (Elt F)) :=
  [ unary main_arg10 main_v303 (extractStridedSlice S1x128x1 ![2, 0, 0] · slices_S3x128x1_S1x128x1_2_0_0),
    reshape main_v303 main_v304 rfl shapeCasts_S1x128x1_S128x1,
    binary main_v214 main_v304 main_v305 (fun l r => Host.dotGeneral dot_S100000x128_S128x1_S100000x1_1_0_0_1_n_n none l r),
    unary main_arg11 main_v306 (extractStridedSlice S1x1 ![2, 0] · slices_S3x1_S1x1_2_0),
    reshape main_v306 main_v307 rfl shapeCasts_S1x1_S1,
    unary main_v307 main_v308 (broadcastInDim S1x1 ![1] bcast_S1_S1x1_1),
    unary main_v308 main_v309 (broadcastInDim S100000x1 ![0, 1] bcast_S1x1_S100000x1_0_1),
    binary main_v305 main_v309 main_v310 addf,
    unary main_v310 main_v311 Host.negf,
    unary main_v311 main_v312 Host.exp,
    nullary main_cst_68 (constant S_ .f32 0x3F800000#32),
    unary main_cst_68 main_v313 (broadcastInDim S100000x1 ![] bcast_S_S100000x1),
    binary main_v313 main_v312 main_v314 addf,
    nullary main_cst_69 (constant S_ .f32 0x3F800000#32),
    unary main_cst_69 main_v315 (broadcastInDim S100000x1 ![] bcast_S_S100000x1),
    binary main_v315 main_v314 main_v316 Host.divf,
    unary main_v316 main_v317 (broadcastInDim S100000x128 ![0, 1] bcast_S100000x1_S100000x128_0_1),
    binary main_v302 main_v317 main_v318 mulf,
    binary main_v214 main_v318 main_v319 addf ]

theorem chunk21_sub : (chunk21 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩

theorem chunk21_fresh : (chunk21 : List (HloOp τ sig (Elt F))).Forall fun op => op.fresh = ∅ :=
  ⟨rfl, rfl, rfl, rfl, rfl, rfl, rfl, rfl, rfl, rfl, rfl, rfl, rfl, rfl, rfl, rfl, rfl, rfl, rfl⟩

abbrev chunk22 : List (HloOp τ sig (Elt F)) :=
  [ binary main_v319 main_v4 main_v320 addf,
    binary main_v320 main_v319 main_v321 addf ]

theorem chunk22_sub : (chunk22 : List (HloOp τ sig (Elt F))).Forall fun op => op.bufs ⊆ tcRefs τ sig :=
  ⟨binary_bufs_sub .., binary_bufs_sub ..⟩

theorem chunk22_fresh : (chunk22 : List (HloOp τ sig (Elt F))).Forall fun op => op.fresh = ∅ :=
  ⟨rfl, rfl⟩

abbrev ops_part6 : List (HloOp τ sig (Elt F)) :=
  chunk20 ++ (chunk21 ++ (chunk22))

set_option maxRecDepth 8192 in

theorem main_part6_eq (c : Dev nD) : main_part6 (F := F) c = seq ops_part6 := rfl

theorem ops_part6_sub : (ops_part6 : List (HloOp τ sig (Elt F))).Forall fun op => op.bufs ⊆ tcRefs τ sig :=
  List.forall_append.2 ⟨chunk20_sub, List.forall_append.2 ⟨chunk21_sub, chunk22_sub⟩⟩

theorem ops_part6_fresh : (ops_part6 : List (HloOp τ sig (Elt F))).Forall fun op => op.fresh = ∅ :=
  List.forall_append.2 ⟨chunk20_fresh, List.forall_append.2 ⟨chunk21_fresh, chunk22_fresh⟩⟩

end Cert.ReferenceIdeal.Hand

end
-- ==== Proof.Ref.Run.lean ====
import proofs.«415738_j90726889161246_1_alg».proof.Proof.Gen.ReferenceIdeal
import Idealize.ShloMosaic.Lib.StableHlo.Run
import proofs.«415738_j90726889161246_1_alg».proof.Proof.Ref.Run0
import proofs.«415738_j90726889161246_1_alg».proof.Proof.Ref.Run1
import proofs.«415738_j90726889161246_1_alg».proof.Proof.Ref.Run2
import proofs.«415738_j90726889161246_1_alg».proof.Proof.Ref.Run3
import proofs.«415738_j90726889161246_1_alg».proof.Proof.Ref.Run4
import proofs.«415738_j90726889161246_1_alg».proof.Proof.Ref.Run5
import proofs.«415738_j90726889161246_1_alg».proof.Proof.Ref.Run6

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  chunk0 ++ (chunk1 ++ (chunk2 ++ (chunk3 ++ (chunk4 ++ (chunk5 ++ (chunk6 ++ (chunk7 ++ (chunk8 ++ (chunk9 ++
  (chunk10 ++ (chunk11 ++ (chunk12 ++ (chunk13 ++ (chunk14 ++ (chunk15 ++ (chunk16 ++ (chunk17 ++ (chunk18 ++
  (chunk19 ++ (chunk20 ++ (chunk21 ++ chunk22)))))))))))))))))))))

theorem ops_eq_parts :
    (ops : List (HloOp τ sig (Elt F)))
      = ops_part0 ++ (ops_part1 ++ (ops_part2 ++ (ops_part3 ++ (ops_part4 ++ (ops_part5 ++ ops_part6))))) := by
  simp only [ops, ops_part0, ops_part1, ops_part2, ops_part3, ops_part4, ops_part5, ops_part6, List.append_assoc]

theorem bind_seq_append {Λ : Labels} {p₁ p₂ : Prog (TpuEff nD τ sig (Elt F) Λ .tc) PUnit}
    {l₁ l₂ : List (HloOp τ sig (Elt F))} (h₁ : p₁ = seq l₁) (h₂ : p₂ = seq l₂) :
    (p₁ >>= fun _ => p₂) = seq (l₁ ++ l₂) := by
  rw [seq_append, h₁, h₂]

theorem main_eq (c : Dev nD) : main (F := F) c = seq ops :=
  (show main (F := F) c
      = seq (ops_part0 ++ (ops_part1 ++ (ops_part2 ++ (ops_part3 ++ (ops_part4 ++ (ops_part5 ++ ops_part6)))))) from
    bind_seq_append (main_part0_eq c) (bind_seq_append (main_part1_eq c) (bind_seq_append (main_part2_eq c)
      (bind_seq_append (main_part3_eq c) (bind_seq_append (main_part4_eq c) (bind_seq_append (main_part5_eq c)
        (main_part6_eq c))))))).trans
    (congrArg seq ops_eq_parts.symm)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  by
  rw [ops_eq_parts]
  exact List.forall_append.2 ⟨ops_part0_sub, List.forall_append.2 ⟨ops_part1_sub, List.forall_append.2 ⟨ops_part2_sub,
    List.forall_append.2 ⟨ops_part3_sub, List.forall_append.2 ⟨ops_part4_sub,
      List.forall_append.2 ⟨ops_part5_sub, ops_part6_sub⟩⟩⟩⟩⟩⟩

theorem ops_fresh : (ops : List (HloOp τ sig (Elt F))).Forall fun op => op.fresh = ∅ :=
  by
  rw [ops_eq_parts]
  exact List.forall_append.2 ⟨ops_part0_fresh, List.forall_append.2 ⟨ops_part1_fresh, List.forall_append.2 ⟨ops_part2_fresh,
    List.forall_append.2 ⟨ops_part3_fresh, List.forall_append.2 ⟨ops_part4_fresh,
      List.forall_append.2 ⟨ops_part5_fresh, ops_part6_fresh⟩⟩⟩⟩⟩⟩

theorem run_fold (m : (ℓ : Loc nD τ sig) → Buf (Elt F) ℓ) (ρ : Dev nD → PrngReg) :
    θ_run defs (onTc (τ := τ) (main (F := F))) ⟨m, fun _ => 0, ρ⟩ (fun r =>
      ∀ (d : Dev nD) (b : Ref sig .tc),
        r.2.mem ((d.tc : Thread nD τ).loc b) = StableHlo.after ops (launchContents m d) (Proc.devRef .tc b)) :=
  run_seq scopedRefs_eq scopedSems_eq defs main (fun _ => ops) main_eq (fun _ => ops_sub) m ρ
    (fun _ => List.forall_iff_forall_mem.1 ops_fresh)

end Cert.ReferenceIdeal.Hand

end
-- ==== Proof.Ref.Read.lean ====
import proofs.«415738_j90726889161246_1_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S100000x256, .f32⟩ : BufTy).Contents (Elt F)) (x4 : (⟨S256x128, .f32⟩ : BufTy).Contents (Elt F)) : (⟨S100000x128, .f32⟩ : BufTy).Contents (Elt F) :=
  Host.dotGeneral dot_S100000x256_S256x128_S100000x128_1_0_0_1_n_n none (x0) (x4)

theorem lhs_main_v0_0 (i : S100000x128.Idx) (q : dot_S100000x256_S256x128_S100000x128_1_0_0_1_n_n.contr.Idx) :
    (dot_S100000x256_S256x128_S100000x128_1_0_0_1_n_n.lhsIdx i q 0).val = (i 0).val := by
  unfold DotDims.lhsIdx
  rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
  rfl

theorem lhs_main_v0_1 (i : S100000x128.Idx) (q : dot_S100000x256_S256x128_S100000x128_1_0_0_1_n_n.contr.Idx) :
    (dot_S100000x256_S256x128_S100000x128_1_0_0_1_n_n.lhsIdx i q 1).val = (q ⟨0, by decide⟩).val :=
  dot_S100000x256_S256x128_S100000x128_1_0_0_1_n_n.lhsIdx_val_of_single rfl i q

theorem rhs_main_v0_0 (i : S100000x128.Idx) (q : dot_S100000x256_S256x128_S100000x128_1_0_0_1_n_n.contr.Idx) :
    (dot_S100000x256_S256x128_S100000x128_1_0_0_1_n_n.rhsIdx i q 0).val = (q ⟨0, by decide⟩).val :=
  dot_S100000x256_S256x128_S100000x128_1_0_0_1_n_n.rhsIdx_val_of_single rfl i q

theorem rhs_main_v0_1 (i : S100000x128.Idx) (q : dot_S100000x256_S256x128_S100000x128_1_0_0_1_n_n.contr.Idx) :
    (dot_S100000x256_S256x128_S100000x128_1_0_0_1_n_n.rhsIdx i q 1).val = (i 1).val := by
  unfold DotDims.rhsIdx
  rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
  rfl

abbrev lidx_main_v0 (i : S100000x128.Idx) (k : Fin 256) : S100000x256.Idx := fun a => match a with
  | ⟨0, _⟩ => ⟨(i 0).val, (i 0).isLt⟩
  | ⟨1, _⟩ => ⟨k.val, k.isLt⟩

abbrev ridx_main_v0 (i : S100000x128.Idx) (k : Fin 256) : S256x128.Idx := fun a => match a with
  | ⟨0, _⟩ => ⟨k.val, k.isLt⟩
  | ⟨1, _⟩ => ⟨(i 1).val, (i 1).isLt⟩

theorem val_main_v0_apply (x0 : (⟨S100000x256, .f32⟩ : BufTy).Contents (Elt Ideal)) (x4 : (⟨S256x128, .f32⟩ : BufTy).Contents (Elt Ideal)) (i : S100000x128.Idx) :
    val_main_v0 (F := Ideal) x0 x4 i = ∑ k : Fin 256, x0 (lidx_main_v0 i k) * x4 (ridx_main_v0 i k) := by
  unfold val_main_v0
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx i ((ValueIdx.contrEquiv1 dot_S100000x256_S256x128_S100000x128_1_0_0_1_n_n 256 rfl rfl).symm k) = lidx_main_v0 i k := funext fun a => Fin.ext (by
    match a with
    | ⟨0, _⟩ => exact lhs_main_v0_0 _ _
    | ⟨1, _⟩ => exact (lhs_main_v0_1 _ _).trans hk)
  have er : dot_S100000x256_S256x128_S100000x128_1_0_0_1_n_n.rhsIdx i ((ValueIdx.contrEquiv1 dot_S100000x256_S256x128_S100000x128_1_0_0_1_n_n 256 rfl rfl).symm k) = ridx_main_v0 i k := funext fun a => Fin.ext (by
    match a with
    | ⟨0, _⟩ => exact (rhs_main_v0_0 _ _).trans hk
    | ⟨1, _⟩ => exact rhs_main_v0_1 _ _)
  rw [el, er]

def val_main_v1 (x5 : (⟨S128, .f32⟩ : BufTy).Contents (Elt F)) : (⟨S1x128, .f32⟩ : BufTy).Contents (Elt F) :=
  broadcastInDim S1x128 ![1] bcast_S128_S1x128_1 (x5)

abbrev idx_main_v1 (i : S1x128.Idx) : S128.Idx := fun a => match a with
  | ⟨0, _⟩ => ⟨(i 1).val, (i 1).isLt⟩

theorem val_main_v1_apply (x5 : (⟨S128, .f32⟩ : BufTy).Contents (Elt F)) (i : S1x128.Idx) :
    val_main_v1 (F := F) x5 i = x5 (idx_main_v1 i) := by
  unfold val_main_v1
  exact broadcastInDim_apply _ bcast_S128_S1x128_1 x5 i (idx_main_v1 i) (fun a => match a with
    | ⟨0, _⟩ => by show (i 1).val = if (128 : Nat) = 1 then 0 else (i 1).val; rw [if_neg (by decide)])

def val_main_v2 (x5 : (⟨S128, .f32⟩ : BufTy).Contents (Elt F)) : (⟨S100000x128, .f32⟩ : BufTy).Contents (Elt F) :=
  broadcastInDim S100000x128 ![0, 1] bcast_S1x128_S100000x128_0_1 (val_main_v1 (F := F) x5)

abbrev idx_main_v2 (i : S100000x128.Idx) : S1x128.Idx := fun a => match a with
  | ⟨0, _⟩ => ⟨0, Nat.one_pos⟩
  | ⟨1, _⟩ => ⟨(i 1).val, (i 1).isLt⟩

theorem val_main_v2_apply (x5 : (⟨S128, .f32⟩ : BufTy).Contents (Elt F)) (i : S100000x128.Idx) :
    val_main_v2 (F := F) x5 i = val_main_v1 (F := F) x5 (idx_main_v2 i) := by
  unfold val_main_v2
  generalize val_main_v1 (F := F) x5 = y
  exact broadcastInDim_apply _ bcast_S1x128_S100000x128_0_1 y i (idx_main_v2 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

def val_main_v3 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  addf (val_main_v0 (F := F) x0 x4) (val_main_v2 (F := F) x5)

theorem val_main_v3_apply (x0 : (⟨S100000x256, .f32⟩ : BufTy).Contents (Elt F)) (x4 : (⟨S256x128, .f32⟩ : BufTy).Contents (Elt F)) (x5 : (⟨S128, .f32⟩ : BufTy).Contents (Elt F)) (i : S100000x128.Idx) :
    val_main_v3 (F := F) x0 x4 x5 i = FloatOps.addf (val_main_v0 (F := F) x0 x4 i) (val_main_v2 (F := F) x5 i) := rfl

def val_main_call0_cst : (⟨S_, .f32⟩ : BufTy).Contents (Elt F) :=
  constant S_ .f32 0x00000000#32

def val_main_call0_v0 : (⟨S100000x128, .f32⟩ : BufTy).Contents (Elt F) :=
  broadcastInDim S100000x128 ![] bcast_S_S100000x128 (val_main_call0_cst (F := F))

def val_main_v4 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  maximumf (val_main_v3 (F := F) x0 x4 x5) (val_main_call0_v0 (F := F))

theorem val_main_v4_apply (x0 : (⟨S100000x256, .f32⟩ : BufTy).Contents (Elt F)) (x4 : (⟨S256x128, .f32⟩ : BufTy).Contents (Elt F)) (x5 : (⟨S128, .f32⟩ : BufTy).Contents (Elt F)) (i : S100000x128.Idx) :
    val_main_v4 (F := F) x0 x4 x5 i = FloatOps.maximumf (val_main_v3 (F := F) x0 x4 x5 i) (val_main_call0_v0 (F := F) i) := rfl

def val_main_v5 (x6 : (⟨S3x128, .f32⟩ : BufTy).Contents (Elt F)) : (⟨S1x128, .f32⟩ : BufTy).Contents (Elt F) :=
  extractStridedSlice S1x128 ![0, 0] (x6) slices_S3x128_S1x128_0_0

def val_main_v6 (x6 : (⟨S3x128, .f32⟩ : BufTy).Contents (Elt F)) : (⟨S128, .f32⟩ : BufTy).Contents (Elt F) :=
  shapeCast _ (val_main_v5 (F := F) x6) shapeCasts_S1x128_S128

def val_main_v7 (x7 : (⟨S3x128, .f32⟩ : BufTy).Contents (Elt F)) : (⟨S1x128, .f32⟩ : BufTy).Contents (Elt F) :=
  extractStridedSlice S1x128 ![0, 0] (x7) slices_S3x128_S1x128_0_0

def val_main_v8 (x7 : (⟨S3x128, .f32⟩ : BufTy).Contents (Elt F)) : (⟨S128, .f32⟩ : BufTy).Contents (Elt F) :=
  shapeCast _ (val_main_v7 (F := F) x7) shapeCasts_S1x128_S128

def val_main_cst : (⟨S_, .f32⟩ : BufTy).Contents (Elt F) :=
  constant S_ .f32 0x00000000#32

def val_main_v9 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  Host.reduceAdd (val_main_v4 (F := F) x0 x4 x5) (val_main_cst (F := F)) reducesTo_S100000x128_S128_d0 h_S_

def val_main_cst_0 : (⟨S_, .f32⟩ : BufTy).Contents (Elt F) :=
  constant S_ .f32 0x47C35000#32

def val_main_v10 : (⟨S128, .f32⟩ : BufTy).Contents (Elt F) :=
  broadcastInDim S128 ![] bcast_S_S128 (val_main_cst_0 (F := F))

def val_main_v11 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  Host.divf (val_main_v9 (F := F) x0 x4 x5) (val_main_v10 (F := F))

def val_main_v12 (x0 : (⟨S100000x256, .f32⟩ : BufTy).Contents (Elt F)) (x4 : (⟨S256x128, .f32⟩ : BufTy).Contents (Elt F)) (x5 : (⟨S128, .f32⟩ : BufTy).Contents (Elt F)) : (⟨S1x128, .f32⟩ : BufTy).Contents (Elt F) :=
  broadcastInDim S1x128 ![1] bcast_S128_S1x128_1 (val_main_v11 (F := F) x0 x4 x5)

def val_main_v13 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  broadcastInDim S100000x128 ![0, 1] bcast_S1x128_S100000x128_0_1 (val_main_v12 (F := F) x0 x4 x5)

def val_main_v14 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  subf (val_main_v4 (F := F) x0 x4 x5) (val_main_v13 (F := F) x0 x4 x5)

def val_main_v15 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  mulf (val_main_v14 (F := F) x0 x4 x5) (val_main_v14 (F := F) x0 x4 x5)

def val_main_cst_1 : (⟨S_, .f32⟩ : BufTy).Contents (Elt F) :=
  constant S_ .f32 0x00000000#32

def val_main_v16 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  Host.reduceAdd (val_main_v15 (F := F) x0 x4 x5) (val_main_cst_1 (F := F)) reducesTo_S100000x128_S128_d0 h_S_

def val_main_cst_2 : (⟨S_, .f32⟩ : BufTy).Contents (Elt F) :=
  constant S_ .f32 0x47C35000#32

def val_main_v17 : (⟨S128, .f32⟩ : BufTy).Contents (Elt F) :=
  broadcastInDim S128 ![] bcast_S_S128 (val_main_cst_2 (F := F))

def val_main_v18 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  Host.divf (val_main_v16 (F := F) x0 x4 x5) (val_main_v17 (F := F))

def val_main_v19 (x0 : (⟨S100000x256, .f32⟩ : BufTy).Contents (Elt F)) (x4 : (⟨S256x128, .f32⟩ : BufTy).Contents (Elt F)) (x5 : (⟨S128, .f32⟩ : BufTy).Contents (Elt F)) : (⟨S1x128, .f32⟩ : BufTy).Contents (Elt F) :=
  broadcastInDim S1x128 ![1] bcast_S128_S1x128_1 (val_main_v11 (F := F) x0 x4 x5)

def val_main_v20 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  broadcastInDim S100000x128 ![0, 1] bcast_S1x128_S100000x128_0_1 (val_main_v19 (F := F) x0 x4 x5)

def val_main_v21 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  subf (val_main_v4 (F := F) x0 x4 x5) (val_main_v20 (F := F) x0 x4 x5)

def val_main_cst_3 : (⟨S_, .f32⟩ : BufTy).Contents (Elt F) :=
  constant S_ .f32 0x3727C5AC#32

def val_main_v22 : (⟨S128, .f32⟩ : BufTy).Contents (Elt F) :=
  broadcastInDim S128 ![] bcast_S_S128 (val_main_cst_3 (F := F))

def val_main_v23 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  addf (val_main_v18 (F := F) x0 x4 x5) (val_main_v22 (F := F))

def val_main_v24 (x0 : (⟨S100000x256, .f32⟩ : BufTy).Contents (Elt F)) (x4 : (⟨S256x128, .f32⟩ : BufTy).Contents (Elt F)) (x5 : (⟨S128, .f32⟩ : BufTy).Contents (Elt F)) : (⟨S128, .f32⟩ : BufTy).Contents (Elt F) :=
  Host.rsqrt (val_main_v23 (F := F) x0 x4 x5)

def val_main_v25 (x0 : (⟨S100000x256, .f32⟩ : BufTy).Contents (Elt F)) (x4 : (⟨S256x128, .f32⟩ : BufTy).Contents (Elt F)) (x5 : (⟨S128, .f32⟩ : BufTy).Contents (Elt F)) : (⟨S1x128, .f32⟩ : BufTy).Contents (Elt F) :=
  broadcastInDim S1x128 ![1] bcast_S128_S1x128_1 (val_main_v24 (F := F) x0 x4 x5)

def val_main_v26 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  broadcastInDim S100000x128 ![0, 1] bcast_S1x128_S100000x128_0_1 (val_main_v25 (F := F) x0 x4 x5)

def val_main_v27 (x0 : (⟨S100000x256, .f32⟩ : BufTy).Contents (Elt F)) (x4 : (⟨S256x128, .f32⟩ : BufTy).Contents (Elt F)) (x5 : (⟨S128, .f32⟩ : BufTy).Contents (Elt F)) : (⟨S100000x128, .f32⟩ : BufTy).Contents (Elt F) :=
  mulf (val_main_v21 (F := F) x0 x4 x5) (val_main_v26 (F := F) x0 x4 x5)

def val_main_v28 (x6 : (⟨S3x128, .f32⟩ : BufTy).Contents (Elt F)) : (⟨S1x128, .f32⟩ : BufTy).Contents (Elt F) :=
  broadcastInDim S1x128 ![1] bcast_S128_S1x128_1 (val_main_v6 (F := F) x6)

def val_main_v29 (x6 : (⟨S3x128, .f32⟩ : BufTy).Contents (Elt F)) : (⟨S100000x128, .f32⟩ : BufTy).Contents (Elt F) :=
  broadcastInDim S100000x128 ![0, 1] bcast_S1x128_S100000x128_0_1 (val_main_v28 (F := F) x6)

def val_main_v30 (x0 : (⟨S100000x256, .f32⟩ : BufTy).Contents (Elt F)) (x4 : (⟨S256x128, .f32⟩ : BufTy).Contents (Elt F)) (x5 : (⟨S128, .f32⟩ : BufTy).Contents (Elt F)) (x6 : (⟨S3x128, .f32⟩ : BufTy).Contents (Elt F)) : (⟨S100000x128, .f32⟩ : BufTy).Contents (Elt F) :=
  mulf (val_main_v27 (F := F) x0 x4 x5) (val_main_v29 (F := F) x6)

def val_main_v31 (x7 : (⟨S3x128, .f32⟩ : BufTy).Contents (Elt F)) : (⟨S1x128, .f32⟩ : BufTy).Contents (Elt F) :=
  broadcastInDim S1x128 ![1] bcast_S128_S1x128_1 (val_main_v8 (F := F) x7)

def val_main_v32 (x7 : (⟨S3x128, .f32⟩ : BufTy).Contents (Elt F)) : (⟨S100000x128, .f32⟩ : BufTy).Contents (Elt F) :=
  broadcastInDim S100000x128 ![0, 1] bcast_S1x128_S100000x128_0_1 (val_main_v31 (F := F) x7)

def val_main_v33 (x0 : (⟨S100000x256, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) : (⟨S100000x128, .f32⟩ : BufTy).Contents (Elt F) :=
  addf (val_main_v30 (F := F) x0 x4 x5 x6) (val_main_v32 (F := F) x7)

def val_main_v34 (x8 : (⟨S3x128x128, .f32⟩ : BufTy).Contents (Elt F)) : (⟨S1x128x128, .f32⟩ : BufTy).Contents (Elt F) :=
  extractStridedSlice S1x128x128 ![0, 0, 0] (x8) slices_S3x128x128_S1x128x128_0_0_0

def val_main_v35 (x8 : (⟨S3x128x128, .f32⟩ : BufTy).Contents (Elt F)) : (⟨S128x128, .f32⟩ : BufTy).Contents (Elt F) :=
  shapeCast _ (val_main_v34 (F := F) x8) shapeCasts_S1x128x128_S128x128

def val_main_v36 (x9 : (⟨S3x128, .f32⟩ : BufTy).Contents (Elt F)) : (⟨S1x128, .f32⟩ : BufTy).Contents (Elt F) :=
  extractStridedSlice S1x128 ![0, 0] (x9) slices_S3x128_S1x128_0_0

def val_main_v37 (x9 : (⟨S3x128, .f32⟩ : BufTy).Contents (Elt F)) : (⟨S128, .f32⟩ : BufTy).Contents (Elt F) :=
  shapeCast _ (val_main_v36 (F := F) x9) shapeCasts_S1x128_S128

def val_main_v38 (x0 : (⟨S100000x256, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S100000x128, .f32⟩ : BufTy).Contents (Elt F) :=
  Host.dotGeneral dot_S100000x128_S128x128_S100000x128_1_0_0_1_n_n none (val_main_v33 (F := F) x0 x4 x5 x6 x7) (val_main_v35 (F := F) x8)

theorem lhs_main_v38_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl

theorem lhs_main_v38_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q

theorem rhs_main_v38_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q

theorem rhs_main_v38_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

def val_main_c : (⟨S_, .i32⟩ : BufTy).Contents (Elt F) :=
  constantI S_ 32 0#32

def val_main_v39 : (⟨S640000, .i32⟩ : BufTy).Contents (Elt F) :=
  broadcastInDim S640000 ![] bcast_S_S640000 (val_main_c (F := F))

def val_main_v40 (x2 : (⟨S640000, .i32⟩ : BufTy).Contents (Elt F)) : (⟨S640000, .i1⟩ : BufTy).Contents (Elt F) :=
  cmpi .slt (x2) (val_main_v39 (F := F))

def val_main_c_4 : (⟨S_, .i32⟩ : BufTy).Contents (Elt F) :=
  constantI S_ 32 20000#32

def val_main_v41 : (⟨S640000, .i32⟩ : BufTy).Contents (Elt F) :=
  broadcastInDim S640000 ![] bcast_S_S640000 (val_main_c_4 (F := F))

def val_main_v42 (x2 : (⟨S640000, .i32⟩ : BufTy).Contents (Elt F)) : (⟨S640000, .i32⟩ : BufTy).Contents (Elt F) :=
  addi (x2) (val_main_v41 (F := F))

def val_main_v43 (x2 : (⟨S640000, .i32⟩ : BufTy).Contents (Elt F)) : (⟨S640000, .i32⟩ : BufTy).Contents (Elt F) :=
  select (val_main_v40 (F := F) x2) (val_main_v42 (F := F) x2) (x2)

def val_main_v44 (x2 : (⟨S640000, .i32⟩ : BufTy).Contents (Elt F)) : (⟨S640000x1, .i32⟩ : BufTy).Contents (Elt F) :=
  broadcastInDim S640000x1 ![0] bcast_S640000_S640000x1_0 (val_main_v43 (F := F) x2)

def val_main_v45 (x2 : (⟨S640000, .i32⟩ : BufTy).Contents (Elt F)) (x3 : (⟨S20000, .f32⟩ : BufTy).Contents (Elt F)) : (⟨S640000, .f32⟩ : BufTy).Contents (Elt F) :=
  Host.gather gather_S20000_S640000x1_S640000_n_0_n_n_0_1_1 (x3) (val_main_v44 (F := F) x2)

def val_main_cst_5 : (⟨S_, .f32⟩ : BufTy).Contents (Elt F) :=
  constant S_ .f32 0x00000000#32

def val_main_v46 : (⟨S100000, .f32⟩ : BufTy).Contents (Elt F) :=
  broadcastInDim S100000 ![] bcast_S_S100000 (val_main_cst_5 (F := F))

def val_main_v47 (x1 : (⟨S640000, .i32⟩ : BufTy).Contents (Elt F)) : (⟨S640000x1, .i32⟩ : BufTy).Contents (Elt F) :=
  broadcastInDim S640000x1 ![0] bcast_S640000_S640000x1_0 (x1)

def val_main_v48 (x1 x2 : (⟨S640000, .i32⟩ : BufTy).Contents (Elt F)) (x3 : (⟨S20000, .f32⟩ : BufTy).Contents (Elt F)) : (⟨S100000, .f32⟩ : BufTy).Contents (Elt F) :=
  Host.scatterAdd scatter_S100000_S640000x1_S640000_n_0_0_1 (val_main_v46 (F := F)) (val_main_v47 (F := F) x1) (val_main_v45 (F := F) x2 x3)

def val_main_cst_6 : (⟨S_, .f32⟩ : BufTy).Contents (Elt F) :=
  constant S_ .f32 0x00000000#32

def val_main_v49 : (⟨S100000, .f32⟩ : BufTy).Contents (Elt F) :=
  broadcastInDim S100000 ![] bcast_S_S100000 (val_main_cst_6 (F := F))

def val_main_v50 (x1 x2 : (⟨S640000, .i32⟩ : BufTy).Contents (Elt F)) (x3 : (⟨S20000, .f32⟩ : BufTy).Contents (Elt F)) : (⟨S100000, .i1⟩ : BufTy).Contents (Elt F) :=
  cmpf .ogt (val_main_v48 (F := F) x1 x2 x3) (val_main_v49 (F := F))

def val_main_cst_7 : (⟨S_, .f32⟩ : BufTy).Contents (Elt F) :=
  constant S_ .f32 0x3F800000#32

def val_main_v51 : (⟨S100000, .f32⟩ : BufTy).Contents (Elt F) :=
  broadcastInDim S100000 ![] bcast_S_S100000 (val_main_cst_7 (F := F))

def val_main_v52 (x1 x2 : (⟨S640000, .i32⟩ : BufTy).Contents (Elt F)) (x3 : (⟨S20000, .f32⟩ : BufTy).Contents (Elt F)) : (⟨S100000, .f32⟩ : BufTy).Contents (Elt F) :=
  Host.divf (val_main_v51 (F := F)) (val_main_v48 (F := F) x1 x2 x3)

def val_main_cst_8 : (⟨S_, .f32⟩ : BufTy).Contents (Elt F) :=
  constant S_ .f32 0x00000000#32

def val_main_call1_v0 : (⟨S_, .f32⟩ : BufTy).Contents (Elt F) :=
  id (val_main_cst_8 (F := F))

def val_main_call1_v1 : (⟨S100000, .f32⟩ : BufTy).Contents (Elt F) :=
  broadcastInDim S100000 ![] bcast_S_S100000 (val_main_call1_v0 (F := F))

def val_main_v53 (x1 x2 : (⟨S640000, .i32⟩ : BufTy).Contents (Elt F)) (x3 : (⟨S20000, .f32⟩ : BufTy).Contents (Elt F)) : (⟨S100000, .f32⟩ : BufTy).Contents (Elt F) :=
  select (val_main_v50 (F := F) x1 x2 x3) (val_main_v52 (F := F) x1 x2 x3) (val_main_call1_v1 (F := F))

def val_main_cst_9 : (⟨S_, .f32⟩ : BufTy).Contents (Elt F) :=
  constant S_ .f32 0x3F800000#32

def val_main_v54 : (⟨S640000, .f32⟩ : BufTy).Contents (Elt F) :=
  broadcastInDim S640000 ![] bcast_S_S640000 (val_main_cst_9 (F := F))

def val_main_cst_10 : (⟨S_, .f32⟩ : BufTy).Contents (Elt F) :=
  constant S_ .f32 0x00000000#32

def val_main_v55 : (⟨S20000, .f32⟩ : BufTy).Contents (Elt F) :=
  broadcastInDim S20000 ![] bcast_S_S20000 (val_main_cst_10 (F := F))

def val_main_v56 (x2 : (⟨S640000, .i32⟩ : BufTy).Contents (Elt F)) : (⟨S640000x1, .i32⟩ : BufTy).Contents (Elt F) :=
  broadcastInDim S640000x1 ![0] bcast_S640000_S640000x1_0 (x2)

def val_main_v57 (x2 : (⟨S640000, .i32⟩ : BufTy).Contents (Elt F)) : (⟨S20000, .f32⟩ : BufTy).Contents (Elt F) :=
  Host.scatterAdd scatter_S20000_S640000x1_S640000_n_0_0_1 (val_main_v55 (F := F)) (val_main_v56 (F := F) x2) (val_main_v54 (F := F))

def val_main_cst_11 : (⟨S_, .f32⟩ : BufTy).Contents (Elt F) :=
  constant S_ .f32 0x00000000#32

def val_main_v58 : (⟨S20000, .f32⟩ : BufTy).Contents (Elt F) :=
  broadcastInDim S20000 ![] bcast_S_S20000 (val_main_cst_11 (F := F))

def val_main_v59 (x2 : (⟨S640000, .i32⟩ : BufTy).Contents (Elt F)) : (⟨S20000, .i1⟩ : BufTy).Contents (Elt F) :=
  cmpf .ogt (val_main_v57 (F := F) x2) (val_main_v58 (F := F))

def val_main_cst_12 : (⟨S_, .f32⟩ : BufTy).Contents (Elt F) :=
  constant S_ .f32 0x3F800000#32

def val_main_v60 : (⟨S20000, .f32⟩ : BufTy).Contents (Elt F) :=
  broadcastInDim S20000 ![] bcast_S_S20000 (val_main_cst_12 (F := F))

def val_main_v61 (x2 : (⟨S640000, .i32⟩ : BufTy).Contents (Elt F)) : (⟨S20000, .f32⟩ : BufTy).Contents (Elt F) :=
  Host.divf (val_main_v60 (F := F)) (val_main_v57 (F := F) x2)

def val_main_cst_13 : (⟨S_, .f32⟩ : BufTy).Contents (Elt F) :=
  constant S_ .f32 0x00000000#32

def val_main_call2_v0 : (⟨S_, .f32⟩ : BufTy).Contents (Elt F) :=
  id (val_main_cst_13 (F := F))

def val_main_call2_v1 : (⟨S20000, .f32⟩ : BufTy).Contents (Elt F) :=
  broadcastInDim S20000 ![] bcast_S_S20000 (val_main_call2_v0 (F := F))

def val_main_v62 (x2 : (⟨S640000, .i32⟩ : BufTy).Contents (Elt F)) : (⟨S20000, .f32⟩ : BufTy).Contents (Elt F) :=
  select (val_main_v59 (F := F) x2) (val_main_v61 (F := F) x2) (val_main_call2_v1 (F := F))

def val_main_c_14 : (⟨S_, .i32⟩ : BufTy).Contents (Elt F) :=
  constantI S_ 32 0#32

def val_main_v63 : (⟨S640000, .i32⟩ : BufTy).Contents (Elt F) :=
  broadcastInDim S640000 ![] bcast_S_S640000 (val_main_c_14 (F := F))

def val_main_v64 (x1 : (⟨S640000, .i32⟩ : BufTy).Contents (Elt F)) : (⟨S640000, .i1⟩ : BufTy).Contents (Elt F) :=
  cmpi .slt (x1) (val_main_v63 (F := F))

def val_main_c_15 : (⟨S_, .i32⟩ : BufTy).Contents (Elt F) :=
  constantI S_ 32 100000#32

def val_main_v65 : (⟨S640000, .i32⟩ : BufTy).Contents (Elt F) :=
  broadcastInDim S640000 ![] bcast_S_S640000 (val_main_c_15 (F := F))

def val_main_v66 (x1 : (⟨S640000, .i32⟩ : BufTy).Contents (Elt F)) : (⟨S640000, .i32⟩ : BufTy).Contents (Elt F) :=
  addi (x1) (val_main_v65 (F := F))

def val_main_v67 (x1 : (⟨S640000, .i32⟩ : BufTy).Contents (Elt F)) : (⟨S640000, .i32⟩ : BufTy).Contents (Elt F) :=
  select (val_main_v64 (F := F) x1) (val_main_v66 (F := F) x1) (x1)

def val_main_v68 (x1 : (⟨S640000, .i32⟩ : BufTy).Contents (Elt F)) : (⟨S640000x1, .i32⟩ : BufTy).Contents (Elt F) :=
  broadcastInDim S640000x1 ![0] bcast_S640000_S640000x1_0 (val_main_v67 (F := F) x1)

def val_main_v69 (x0 : (⟨S100000x256, .f32⟩ : BufTy).Contents (Elt F)) (x1 : (⟨S640000, .i32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S640000x128, .f32⟩ : BufTy).Contents (Elt F) :=
  Host.gather gather_S100000x128_S640000x1_S640000x128_1_0_n_n_0_1_1128 (val_main_v38 (F := F) x0 x4 x5 x6 x7 x8) (val_main_v68 (F := F) x1)

def val_main_cst_16 : (⟨S_, .f32⟩ : BufTy).Contents (Elt F) :=
  constant S_ .f32 0x00000000#32

def val_main_v70 : (⟨S20000x128, .f32⟩ : BufTy).Contents (Elt F) :=
  broadcastInDim S20000x128 ![] bcast_S_S20000x128 (val_main_cst_16 (F := F))

def val_main_v71 (x2 : (⟨S640000, .i32⟩ : BufTy).Contents (Elt F)) : (⟨S640000x1, .i32⟩ : BufTy).Contents (Elt F) :=
  broadcastInDim S640000x1 ![0] bcast_S640000_S640000x1_0 (x2)

def val_main_v72 (x0 : (⟨S100000x256, .f32⟩ : BufTy).Contents (Elt F)) (x1 x2 : (⟨S640000, .i32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S20000x128, .f32⟩ : BufTy).Contents (Elt F) :=
  Host.scatterAdd scatter_S20000x128_S640000x1_S640000x128_1_0_0_1 (val_main_v70 (F := F)) (val_main_v71 (F := F) x2) (val_main_v69 (F := F) x0 x1 x4 x5 x6 x7 x8)

def val_main_v73 (x2 : (⟨S640000, .i32⟩ : BufTy).Contents (Elt F)) : (⟨S20000x1, .f32⟩ : BufTy).Contents (Elt F) :=
  broadcastInDim S20000x1 ![0] bcast_S20000_S20000x1_0 (val_main_v62 (F := F) x2)

def val_main_v74 (x2 : (⟨S640000, .i32⟩ : BufTy).Contents (Elt F)) : (⟨S20000x128, .f32⟩ : BufTy).Contents (Elt F) :=
  broadcastInDim S20000x128 ![0, 1] bcast_S20000x1_S20000x128_0_1 (val_main_v73 (F := F) x2)

def val_main_v75 (x0 : (⟨S100000x256, .f32⟩ : BufTy).Contents (Elt F)) (x1 x2 : (⟨S640000, .i32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S20000x128, .f32⟩ : BufTy).Contents (Elt F) :=
  mulf (val_main_v72 (F := F) x0 x1 x2 x4 x5 x6 x7 x8) (val_main_v74 (F := F) x2)

def val_main_c_17 : (⟨S_, .i32⟩ : BufTy).Contents (Elt F) :=
  constantI S_ 32 0#32

def val_main_v76 : (⟨S640000, .i32⟩ : BufTy).Contents (Elt F) :=
  broadcastInDim S640000 ![] bcast_S_S640000 (val_main_c_17 (F := F))

def val_main_v77 (x2 : (⟨S640000, .i32⟩ : BufTy).Contents (Elt F)) : (⟨S640000, .i1⟩ : BufTy).Contents (Elt F) :=
  cmpi .slt (x2) (val_main_v76 (F := F))

def val_main_c_18 : (⟨S_, .i32⟩ : BufTy).Contents (Elt F) :=
  constantI S_ 32 20000#32

def val_main_v78 : (⟨S640000, .i32⟩ : BufTy).Contents (Elt F) :=
  broadcastInDim S640000 ![] bcast_S_S640000 (val_main_c_18 (F := F))

def val_main_v79 (x2 : (⟨S640000, .i32⟩ : BufTy).Contents (Elt F)) : (⟨S640000, .i32⟩ : BufTy).Contents (Elt F) :=
  addi (x2) (val_main_v78 (F := F))

def val_main_v80 (x2 : (⟨S640000, .i32⟩ : BufTy).Contents (Elt F)) : (⟨S640000, .i32⟩ : BufTy).Contents (Elt F) :=
  select (val_main_v77 (F := F) x2) (val_main_v79 (F := F) x2) (x2)

def val_main_v81 (x2 : (⟨S640000, .i32⟩ : BufTy).Contents (Elt F)) : (⟨S640000x1, .i32⟩ : BufTy).Contents (Elt F) :=
  broadcastInDim S640000x1 ![0] bcast_S640000_S640000x1_0 (val_main_v80 (F := F) x2)

def val_main_v82 (x0 : (⟨S100000x256, .f32⟩ : BufTy).Contents (Elt F)) (x1 x2 : (⟨S640000, .i32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S640000x128, .f32⟩ : BufTy).Contents (Elt F) :=
  Host.gather gather_S20000x128_S640000x1_S640000x128_1_0_n_n_0_1_1128 (val_main_v75 (F := F) x0 x1 x2 x4 x5 x6 x7 x8) (val_main_v81 (F := F) x2)

def val_main_cst_19 : (⟨S_, .f32⟩ : BufTy).Contents (Elt F) :=
  constant S_ .f32 0x00000000#32

def val_main_v83 : (⟨S100000x128, .f32⟩ : BufTy).Contents (Elt F) :=
  broadcastInDim S100000x128 ![] bcast_S_S100000x128 (val_main_cst_19 (F := F))

def val_main_v84 (x1 : (⟨S640000, .i32⟩ : BufTy).Contents (Elt F)) : (⟨S640000x1, .i32⟩ : BufTy).Contents (Elt F) :=
  broadcastInDim S640000x1 ![0] bcast_S640000_S640000x1_0 (x1)

def val_main_v85 (x0 : (⟨S100000x256, .f32⟩ : BufTy).Contents (Elt F)) (x1 x2 : (⟨S640000, .i32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S100000x128, .f32⟩ : BufTy).Contents (Elt F) :=
  Host.scatterAdd scatter_S100000x128_S640000x1_S640000x128_1_0_0_1 (val_main_v83 (F := F)) (val_main_v84 (F := F) x1) (val_main_v82 (F := F) x0 x1 x2 x4 x5 x6 x7 x8)

def val_main_v86 (x1 x2 : (⟨S640000, .i32⟩ : BufTy).Contents (Elt F)) (x3 : (⟨S20000, .f32⟩ : BufTy).Contents (Elt F)) : (⟨S100000x1, .f32⟩ : BufTy).Contents (Elt F) :=
  broadcastInDim S100000x1 ![0] bcast_S100000_S100000x1_0 (val_main_v53 (F := F) x1 x2 x3)

def val_main_v87 (x1 x2 : (⟨S640000, .i32⟩ : BufTy).Contents (Elt F)) (x3 : (⟨S20000, .f32⟩ : BufTy).Contents (Elt F)) : (⟨S100000x128, .f32⟩ : BufTy).Contents (Elt F) :=
  broadcastInDim S100000x128 ![0, 1] bcast_S100000x1_S100000x128_0_1 (val_main_v86 (F := F) x1 x2 x3)

def val_main_v88 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) : (⟨S100000x128, .f32⟩ : BufTy).Contents (Elt F) :=
  mulf (val_main_v85 (F := F) x0 x1 x2 x4 x5 x6 x7 x8) (val_main_v87 (F := F) x1 x2 x3)

def val_main_v89 (x9 : (⟨S3x128, .f32⟩ : BufTy).Contents (Elt F)) : (⟨S1x128, .f32⟩ : BufTy).Contents (Elt F) :=
  broadcastInDim S1x128 ![1] bcast_S128_S1x128_1 (val_main_v37 (F := F) x9)

def val_main_v90 (x9 : (⟨S3x128, .f32⟩ : BufTy).Contents (Elt F)) : (⟨S100000x128, .f32⟩ : BufTy).Contents (Elt F) :=
  broadcastInDim S100000x128 ![0, 1] bcast_S1x128_S100000x128_0_1 (val_main_v89 (F := F) x9)

def val_main_v91 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) : (⟨S100000x128, .f32⟩ : BufTy).Contents (Elt F) :=
  addf (val_main_v88 (F := F) x0 x1 x2 x3 x4 x5 x6 x7 x8) (val_main_v90 (F := F) x9)

def val_main_call3_cst : (⟨S_, .f32⟩ : BufTy).Contents (Elt F) :=
  constant S_ .f32 0x00000000#32

def val_main_call3_v0 : (⟨S100000x128, .f32⟩ : BufTy).Contents (Elt F) :=
  broadcastInDim S100000x128 ![] bcast_S_S100000x128 (val_main_call3_cst (F := F))

def val_main_v92 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) : (⟨S100000x128, .f32⟩ : BufTy).Contents (Elt F) :=
  maximumf (val_main_v91 (F := F) x0 x1 x2 x3 x4 x5 x6 x7 x8 x9) (val_main_call3_v0 (F := F))

def val_main_v93 (x10 : (⟨S3x128x1, .f32⟩ : BufTy).Contents (Elt F)) : (⟨S1x128x1, .f32⟩ : BufTy).Contents (Elt F) :=
  extractStridedSlice S1x128x1 ![0, 0, 0] (x10) slices_S3x128x1_S1x128x1_0_0_0

def val_main_v94 (x10 : (⟨S3x128x1, .f32⟩ : BufTy).Contents (Elt F)) : (⟨S128x1, .f32⟩ : BufTy).Contents (Elt F) :=
  shapeCast _ (val_main_v93 (F := F) x10) shapeCasts_S1x128x1_S128x1

def val_main_v95 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) : (⟨S100000x1, .f32⟩ : BufTy).Contents (Elt F) :=
  Host.dotGeneral dot_S100000x128_S128x1_S100000x1_1_0_0_1_n_n none (val_main_v4 (F := F) x0 x4 x5) (val_main_v94 (F := F) x10)

def val_main_v96 (x11 : (⟨S3x1, .f32⟩ : BufTy).Contents (Elt F)) : (⟨S1x1, .f32⟩ : BufTy).Contents (Elt F) :=
  extractStridedSlice S1x1 ![0, 0] (x11) slices_S3x1_S1x1_0_0

def val_main_v97 (x11 : (⟨S3x1, .f32⟩ : BufTy).Contents (Elt F)) : (⟨S1, .f32⟩ : BufTy).Contents (Elt F) :=
  shapeCast _ (val_main_v96 (F := F) x11) shapeCasts_S1x1_S1

def val_main_v98 (x11 : (⟨S3x1, .f32⟩ : BufTy).Contents (Elt F)) : (⟨S1x1, .f32⟩ : BufTy).Contents (Elt F) :=
  broadcastInDim S1x1 ![1] bcast_S1_S1x1_1 (val_main_v97 (F := F) x11)

def val_main_v99 (x11 : (⟨S3x1, .f32⟩ : BufTy).Contents (Elt F)) : (⟨S100000x1, .f32⟩ : BufTy).Contents (Elt F) :=
  broadcastInDim S100000x1 ![0, 1] bcast_S1x1_S100000x1_0_1 (val_main_v98 (F := F) x11)

def val_main_v100 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v95 (F := F) x0 x4 x5 x10) (val_main_v99 (F := F) x11)

def val_main_v101 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.negf (val_main_v100 (F := F) x0 x4 x5 x10 x11)

def val_main_v102 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.exp (val_main_v101 (F := F) x0 x4 x5 x10 x11)

def val_main_cst_20 : (⟨S_, .f32⟩ : BufTy).Contents (Elt F) :=
  constant S_ .f32 0x3F800000#32

def val_main_v103 : (⟨S100000x1, .f32⟩ : BufTy).Contents (Elt F) :=
  broadcastInDim S100000x1 ![] bcast_S_S100000x1 (val_main_cst_20 (F := F))

def val_main_v104 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v103 (F := F)) (val_main_v102 (F := F) x0 x4 x5 x10 x11)

def val_main_cst_21 : (⟨S_, .f32⟩ : BufTy).Contents (Elt F) :=
  constant S_ .f32 0x3F800000#32

def val_main_v105 : (⟨S100000x1, .f32⟩ : BufTy).Contents (Elt F) :=
  broadcastInDim S100000x1 ![] bcast_S_S100000x1 (val_main_cst_21 (F := F))

def val_main_v106 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.divf (val_main_v105 (F := F)) (val_main_v104 (F := F) x0 x4 x5 x10 x11)

def val_main_v107 (x0 : (⟨S100000x256, .f32⟩ : BufTy).Contents (Elt F)) (x4 : (⟨S256x128, .f32⟩ : BufTy).Contents (Elt F)) (x5 : (⟨S128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S100000x1_S100000x128_0_1 (val_main_v106 (F := F) x0 x4 x5 x10 x11)

def val_main_v108 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v92 (F := F) x0 x1 x2 x3 x4 x5 x6 x7 x8 x9) (val_main_v107 (F := F) x0 x4 x5 x10 x11)

def val_main_v109 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v4 (F := F) x0 x4 x5) (val_main_v108 (F := F) x0 x1 x2 x3 x4 x5 x6 x7 x8 x9 x10 x11)

def val_main_v110 (x6 : (⟨S3x128, .f32⟩ : BufTy).Contents (Elt F)) : (⟨S1x128, .f32⟩ : BufTy).Contents (Elt F) :=
  extractStridedSlice S1x128 ![1, 0] (x6) slices_S3x128_S1x128_1_0

def val_main_v111 (x6 : (⟨S3x128, .f32⟩ : BufTy).Contents (Elt F)) : (⟨S128, .f32⟩ : BufTy).Contents (Elt F) :=
  shapeCast _ (val_main_v110 (F := F) x6) shapeCasts_S1x128_S128

def val_main_v112 (x7 : (⟨S3x128, .f32⟩ : BufTy).Contents (Elt F)) : (⟨S1x128, .f32⟩ : BufTy).Contents (Elt F) :=
  extractStridedSlice S1x128 ![1, 0] (x7) slices_S3x128_S1x128_1_0

def val_main_v113 (x7 : (⟨S3x128, .f32⟩ : BufTy).Contents (Elt F)) : (⟨S128, .f32⟩ : BufTy).Contents (Elt F) :=
  shapeCast _ (val_main_v112 (F := F) x7) shapeCasts_S1x128_S128

def val_main_cst_22 : (⟨S_, .f32⟩ : BufTy).Contents (Elt F) :=
  constant S_ .f32 0x00000000#32

def val_main_v114 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.reduceAdd (val_main_v109 (F := F) x0 x1 x2 x3 x4 x5 x6 x7 x8 x9 x10 x11) (val_main_cst_22 (F := F)) reducesTo_S100000x128_S128_d0 h_S_

def val_main_cst_23 : (⟨S_, .f32⟩ : BufTy).Contents (Elt F) :=
  constant S_ .f32 0x47C35000#32

def val_main_v115 : (⟨S128, .f32⟩ : BufTy).Contents (Elt F) :=
  broadcastInDim S128 ![] bcast_S_S128 (val_main_cst_23 (F := F))

def val_main_v116 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.divf (val_main_v114 (F := F) x0 x1 x2 x3 x4 x5 x6 x7 x8 x9 x10 x11) (val_main_v115 (F := F))

def val_main_v117 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v116 (F := F) x0 x1 x2 x3 x4 x5 x6 x7 x8 x9 x10 x11)

def val_main_v118 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v117 (F := F) x0 x1 x2 x3 x4 x5 x6 x7 x8 x9 x10 x11)

def val_main_v119 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  subf (val_main_v109 (F := F) x0 x1 x2 x3 x4 x5 x6 x7 x8 x9 x10 x11) (val_main_v118 (F := F) x0 x1 x2 x3 x4 x5 x6 x7 x8 x9 x10 x11)

def val_main_v120 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v119 (F := F) x0 x1 x2 x3 x4 x5 x6 x7 x8 x9 x10 x11) (val_main_v119 (F := F) x0 x1 x2 x3 x4 x5 x6 x7 x8 x9 x10 x11)

def val_main_cst_24 : (⟨S_, .f32⟩ : BufTy).Contents (Elt F) :=
  constant S_ .f32 0x00000000#32

def val_main_v121 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.reduceAdd (val_main_v120 (F := F) x0 x1 x2 x3 x4 x5 x6 x7 x8 x9 x10 x11) (val_main_cst_24 (F := F)) reducesTo_S100000x128_S128_d0 h_S_

def val_main_cst_25 : (⟨S_, .f32⟩ : BufTy).Contents (Elt F) :=
  constant S_ .f32 0x47C35000#32

def val_main_v122 : (⟨S128, .f32⟩ : BufTy).Contents (Elt F) :=
  broadcastInDim S128 ![] bcast_S_S128 (val_main_cst_25 (F := F))

def val_main_v123 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.divf (val_main_v121 (F := F) x0 x1 x2 x3 x4 x5 x6 x7 x8 x9 x10 x11) (val_main_v122 (F := F))

def val_main_v124 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v116 (F := F) x0 x1 x2 x3 x4 x5 x6 x7 x8 x9 x10 x11)

def val_main_v125 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v124 (F := F) x0 x1 x2 x3 x4 x5 x6 x7 x8 x9 x10 x11)

def val_main_v126 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  subf (val_main_v109 (F := F) x0 x1 x2 x3 x4 x5 x6 x7 x8 x9 x10 x11) (val_main_v125 (F := F) x0 x1 x2 x3 x4 x5 x6 x7 x8 x9 x10 x11)

def val_main_cst_26 : (⟨S_, .f32⟩ : BufTy).Contents (Elt F) :=
  constant S_ .f32 0x3727C5AC#32

def val_main_v127 : (⟨S128, .f32⟩ : BufTy).Contents (Elt F) :=
  broadcastInDim S128 ![] bcast_S_S128 (val_main_cst_26 (F := F))

def val_main_v128 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  addf (val_main_v123 (F := F) x0 x1 x2 x3 x4 x5 x6 x7 x8 x9 x10 x11) (val_main_v127 (F := F))

def val_main_v129 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.rsqrt (val_main_v128 (F := F) x0 x1 x2 x3 x4 x5 x6 x7 x8 x9 x10 x11)

def val_main_v130 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v129 (F := F) x0 x1 x2 x3 x4 x5 x6 x7 x8 x9 x10 x11)

def val_main_v131 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v130 (F := F) x0 x1 x2 x3 x4 x5 x6 x7 x8 x9 x10 x11)

def val_main_v132 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v126 (F := F) x0 x1 x2 x3 x4 x5 x6 x7 x8 x9 x10 x11) (val_main_v131 (F := F) x0 x1 x2 x3 x4 x5 x6 x7 x8 x9 x10 x11)

def val_main_v133 (x6 : (⟨S3x128, .f32⟩ : BufTy).Contents (Elt F)) : (⟨S1x128, .f32⟩ : BufTy).Contents (Elt F) :=
  broadcastInDim S1x128 ![1] bcast_S128_S1x128_1 (val_main_v111 (F := F) x6)

def val_main_v134 (x6 : (⟨S3x128, .f32⟩ : BufTy).Contents (Elt F)) : (⟨S100000x128, .f32⟩ : BufTy).Contents (Elt F) :=
  broadcastInDim S100000x128 ![0, 1] bcast_S1x128_S100000x128_0_1 (val_main_v133 (F := F) x6)

def val_main_v135 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v132 (F := F) x0 x1 x2 x3 x4 x5 x6 x7 x8 x9 x10 x11) (val_main_v134 (F := F) x6)

def val_main_v136 (x7 : (⟨S3x128, .f32⟩ : BufTy).Contents (Elt F)) : (⟨S1x128, .f32⟩ : BufTy).Contents (Elt F) :=
  broadcastInDim S1x128 ![1] bcast_S128_S1x128_1 (val_main_v113 (F := F) x7)

def val_main_v137 (x7 : (⟨S3x128, .f32⟩ : BufTy).Contents (Elt F)) : (⟨S100000x128, .f32⟩ : BufTy).Contents (Elt F) :=
  broadcastInDim S100000x128 ![0, 1] bcast_S1x128_S100000x128_0_1 (val_main_v136 (F := F) x7)

def val_main_v138 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v135 (F := F) x0 x1 x2 x3 x4 x5 x6 x7 x8 x9 x10 x11) (val_main_v137 (F := F) x7)

def val_main_v139 (x8 : (⟨S3x128x128, .f32⟩ : BufTy).Contents (Elt F)) : (⟨S1x128x128, .f32⟩ : BufTy).Contents (Elt F) :=
  extractStridedSlice S1x128x128 ![1, 0, 0] (x8) slices_S3x128x128_S1x128x128_1_0_0

def val_main_v140 (x8 : (⟨S3x128x128, .f32⟩ : BufTy).Contents (Elt F)) : (⟨S128x128, .f32⟩ : BufTy).Contents (Elt F) :=
  shapeCast _ (val_main_v139 (F := F) x8) shapeCasts_S1x128x128_S128x128

def val_main_v141 (x9 : (⟨S3x128, .f32⟩ : BufTy).Contents (Elt F)) : (⟨S1x128, .f32⟩ : BufTy).Contents (Elt F) :=
  extractStridedSlice S1x128 ![1, 0] (x9) slices_S3x128_S1x128_1_0

def val_main_v142 (x9 : (⟨S3x128, .f32⟩ : BufTy).Contents (Elt F)) : (⟨S128, .f32⟩ : BufTy).Contents (Elt F) :=
  shapeCast _ (val_main_v141 (F := F) x9) shapeCasts_S1x128_S128

def val_main_v143 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  Host.dotGeneral dot_S100000x128_S128x128_S100000x128_1_0_0_1_n_n none (val_main_v138 (F := F) x0 x1 x2 x3 x4 x5 x6 x7 x8 x9 x10 x11) (val_main_v140 (F := F) x8)

def val_main_c_27 : (⟨S_, .i32⟩ : BufTy).Contents (Elt F) :=
  constantI S_ 32 0#32

def val_main_v144 : (⟨S640000, .i32⟩ : BufTy).Contents (Elt F) :=
  broadcastInDim S640000 ![] bcast_S_S640000 (val_main_c_27 (F := F))

def val_main_v145 (x2 : (⟨S640000, .i32⟩ : BufTy).Contents (Elt F)) : (⟨S640000, .i1⟩ : BufTy).Contents (Elt F) :=
  cmpi .slt (x2) (val_main_v144 (F := F))

def val_main_c_28 : (⟨S_, .i32⟩ : BufTy).Contents (Elt F) :=
  constantI S_ 32 20000#32

def val_main_v146 : (⟨S640000, .i32⟩ : BufTy).Contents (Elt F) :=
  broadcastInDim S640000 ![] bcast_S_S640000 (val_main_c_28 (F := F))

def val_main_v147 (x2 : (⟨S640000, .i32⟩ : BufTy).Contents (Elt F)) : (⟨S640000, .i32⟩ : BufTy).Contents (Elt F) :=
  addi (x2) (val_main_v146 (F := F))

def val_main_v148 (x2 : (⟨S640000, .i32⟩ : BufTy).Contents (Elt F)) : (⟨S640000, .i32⟩ : BufTy).Contents (Elt F) :=
  select (val_main_v145 (F := F) x2) (val_main_v147 (F := F) x2) (x2)

def val_main_v149 (x2 : (⟨S640000, .i32⟩ : BufTy).Contents (Elt F)) : (⟨S640000x1, .i32⟩ : BufTy).Contents (Elt F) :=
  broadcastInDim S640000x1 ![0] bcast_S640000_S640000x1_0 (val_main_v148 (F := F) x2)

def val_main_v150 (x2 : (⟨S640000, .i32⟩ : BufTy).Contents (Elt F)) (x3 : (⟨S20000, .f32⟩ : BufTy).Contents (Elt F)) : (⟨S640000, .f32⟩ : BufTy).Contents (Elt F) :=
  Host.gather gather_S20000_S640000x1_S640000_n_0_n_n_0_1_1 (x3) (val_main_v149 (F := F) x2)

def val_main_cst_29 : (⟨S_, .f32⟩ : BufTy).Contents (Elt F) :=
  constant S_ .f32 0x00000000#32

def val_main_v151 : (⟨S100000, .f32⟩ : BufTy).Contents (Elt F) :=
  broadcastInDim S100000 ![] bcast_S_S100000 (val_main_cst_29 (F := F))

def val_main_v152 (x1 : (⟨S640000, .i32⟩ : BufTy).Contents (Elt F)) : (⟨S640000x1, .i32⟩ : BufTy).Contents (Elt F) :=
  broadcastInDim S640000x1 ![0] bcast_S640000_S640000x1_0 (x1)

def val_main_v153 (x1 x2 : (⟨S640000, .i32⟩ : BufTy).Contents (Elt F)) (x3 : (⟨S20000, .f32⟩ : BufTy).Contents (Elt F)) : (⟨S100000, .f32⟩ : BufTy).Contents (Elt F) :=
  Host.scatterAdd scatter_S100000_S640000x1_S640000_n_0_0_1 (val_main_v151 (F := F)) (val_main_v152 (F := F) x1) (val_main_v150 (F := F) x2 x3)

def val_main_cst_30 : (⟨S_, .f32⟩ : BufTy).Contents (Elt F) :=
  constant S_ .f32 0x00000000#32

def val_main_v154 : (⟨S100000, .f32⟩ : BufTy).Contents (Elt F) :=
  broadcastInDim S100000 ![] bcast_S_S100000 (val_main_cst_30 (F := F))

def val_main_v155 (x1 x2 : (⟨S640000, .i32⟩ : BufTy).Contents (Elt F)) (x3 : (⟨S20000, .f32⟩ : BufTy).Contents (Elt F)) : (⟨S100000, .i1⟩ : BufTy).Contents (Elt F) :=
  cmpf .ogt (val_main_v153 (F := F) x1 x2 x3) (val_main_v154 (F := F))

def val_main_cst_31 : (⟨S_, .f32⟩ : BufTy).Contents (Elt F) :=
  constant S_ .f32 0x3F800000#32

def val_main_v156 : (⟨S100000, .f32⟩ : BufTy).Contents (Elt F) :=
  broadcastInDim S100000 ![] bcast_S_S100000 (val_main_cst_31 (F := F))

def val_main_v157 (x1 x2 : (⟨S640000, .i32⟩ : BufTy).Contents (Elt F)) (x3 : (⟨S20000, .f32⟩ : BufTy).Contents (Elt F)) : (⟨S100000, .f32⟩ : BufTy).Contents (Elt F) :=
  Host.divf (val_main_v156 (F := F)) (val_main_v153 (F := F) x1 x2 x3)

def val_main_cst_32 : (⟨S_, .f32⟩ : BufTy).Contents (Elt F) :=
  constant S_ .f32 0x00000000#32

def val_main_call4_v0 : (⟨S_, .f32⟩ : BufTy).Contents (Elt F) :=
  id (val_main_cst_32 (F := F))

def val_main_call4_v1 : (⟨S100000, .f32⟩ : BufTy).Contents (Elt F) :=
  broadcastInDim S100000 ![] bcast_S_S100000 (val_main_call4_v0 (F := F))

def val_main_v158 (x1 x2 : (⟨S640000, .i32⟩ : BufTy).Contents (Elt F)) (x3 : (⟨S20000, .f32⟩ : BufTy).Contents (Elt F)) : (⟨S100000, .f32⟩ : BufTy).Contents (Elt F) :=
  select (val_main_v155 (F := F) x1 x2 x3) (val_main_v157 (F := F) x1 x2 x3) (val_main_call4_v1 (F := F))

def val_main_cst_33 : (⟨S_, .f32⟩ : BufTy).Contents (Elt F) :=
  constant S_ .f32 0x3F800000#32

def val_main_v159 : (⟨S640000, .f32⟩ : BufTy).Contents (Elt F) :=
  broadcastInDim S640000 ![] bcast_S_S640000 (val_main_cst_33 (F := F))

def val_main_cst_34 : (⟨S_, .f32⟩ : BufTy).Contents (Elt F) :=
  constant S_ .f32 0x00000000#32

def val_main_v160 : (⟨S20000, .f32⟩ : BufTy).Contents (Elt F) :=
  broadcastInDim S20000 ![] bcast_S_S20000 (val_main_cst_34 (F := F))

def val_main_v161 (x2 : (⟨S640000, .i32⟩ : BufTy).Contents (Elt F)) : (⟨S640000x1, .i32⟩ : BufTy).Contents (Elt F) :=
  broadcastInDim S640000x1 ![0] bcast_S640000_S640000x1_0 (x2)

def val_main_v162 (x2 : (⟨S640000, .i32⟩ : BufTy).Contents (Elt F)) : (⟨S20000, .f32⟩ : BufTy).Contents (Elt F) :=
  Host.scatterAdd scatter_S20000_S640000x1_S640000_n_0_0_1 (val_main_v160 (F := F)) (val_main_v161 (F := F) x2) (val_main_v159 (F := F))

def val_main_cst_35 : (⟨S_, .f32⟩ : BufTy).Contents (Elt F) :=
  constant S_ .f32 0x00000000#32

def val_main_v163 : (⟨S20000, .f32⟩ : BufTy).Contents (Elt F) :=
  broadcastInDim S20000 ![] bcast_S_S20000 (val_main_cst_35 (F := F))

def val_main_v164 (x2 : (⟨S640000, .i32⟩ : BufTy).Contents (Elt F)) : (⟨S20000, .i1⟩ : BufTy).Contents (Elt F) :=
  cmpf .ogt (val_main_v162 (F := F) x2) (val_main_v163 (F := F))

def val_main_cst_36 : (⟨S_, .f32⟩ : BufTy).Contents (Elt F) :=
  constant S_ .f32 0x3F800000#32

def val_main_v165 : (⟨S20000, .f32⟩ : BufTy).Contents (Elt F) :=
  broadcastInDim S20000 ![] bcast_S_S20000 (val_main_cst_36 (F := F))

def val_main_v166 (x2 : (⟨S640000, .i32⟩ : BufTy).Contents (Elt F)) : (⟨S20000, .f32⟩ : BufTy).Contents (Elt F) :=
  Host.divf (val_main_v165 (F := F)) (val_main_v162 (F := F) x2)

def val_main_cst_37 : (⟨S_, .f32⟩ : BufTy).Contents (Elt F) :=
  constant S_ .f32 0x00000000#32

def val_main_call5_v0 : (⟨S_, .f32⟩ : BufTy).Contents (Elt F) :=
  id (val_main_cst_37 (F := F))

def val_main_call5_v1 : (⟨S20000, .f32⟩ : BufTy).Contents (Elt F) :=
  broadcastInDim S20000 ![] bcast_S_S20000 (val_main_call5_v0 (F := F))

def val_main_v167 (x2 : (⟨S640000, .i32⟩ : BufTy).Contents (Elt F)) : (⟨S20000, .f32⟩ : BufTy).Contents (Elt F) :=
  select (val_main_v164 (F := F) x2) (val_main_v166 (F := F) x2) (val_main_call5_v1 (F := F))

def val_main_c_38 : (⟨S_, .i32⟩ : BufTy).Contents (Elt F) :=
  constantI S_ 32 0#32

def val_main_v168 : (⟨S640000, .i32⟩ : BufTy).Contents (Elt F) :=
  broadcastInDim S640000 ![] bcast_S_S640000 (val_main_c_38 (F := F))

def val_main_v169 (x1 : (⟨S640000, .i32⟩ : BufTy).Contents (Elt F)) : (⟨S640000, .i1⟩ : BufTy).Contents (Elt F) :=
  cmpi .slt (x1) (val_main_v168 (F := F))

def val_main_c_39 : (⟨S_, .i32⟩ : BufTy).Contents (Elt F) :=
  constantI S_ 32 100000#32

def val_main_v170 : (⟨S640000, .i32⟩ : BufTy).Contents (Elt F) :=
  broadcastInDim S640000 ![] bcast_S_S640000 (val_main_c_39 (F := F))

def val_main_v171 (x1 : (⟨S640000, .i32⟩ : BufTy).Contents (Elt F)) : (⟨S640000, .i32⟩ : BufTy).Contents (Elt F) :=
  addi (x1) (val_main_v170 (F := F))

def val_main_v172 (x1 : (⟨S640000, .i32⟩ : BufTy).Contents (Elt F)) : (⟨S640000, .i32⟩ : BufTy).Contents (Elt F) :=
  select (val_main_v169 (F := F) x1) (val_main_v171 (F := F) x1) (x1)

def val_main_v173 (x1 : (⟨S640000, .i32⟩ : BufTy).Contents (Elt F)) : (⟨S640000x1, .i32⟩ : BufTy).Contents (Elt F) :=
  broadcastInDim S640000x1 ![0] bcast_S640000_S640000x1_0 (val_main_v172 (F := F) x1)

def val_main_v174 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S640000x128, .f32⟩ : BufTy).Contents (Elt F) :=
  Host.gather gather_S100000x128_S640000x1_S640000x128_1_0_n_n_0_1_1128 (val_main_v143 (F := F) x0 x1 x2 x3 x4 x5 x6 x7 x8 x9 x10 x11) (val_main_v173 (F := F) x1)

def val_main_cst_40 : (⟨S_, .f32⟩ : BufTy).Contents (Elt F) :=
  constant S_ .f32 0x00000000#32

def val_main_v175 : (⟨S20000x128, .f32⟩ : BufTy).Contents (Elt F) :=
  broadcastInDim S20000x128 ![] bcast_S_S20000x128 (val_main_cst_40 (F := F))

def val_main_v176 (x2 : (⟨S640000, .i32⟩ : BufTy).Contents (Elt F)) : (⟨S640000x1, .i32⟩ : BufTy).Contents (Elt F) :=
  broadcastInDim S640000x1 ![0] bcast_S640000_S640000x1_0 (x2)

def val_main_v177 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S20000x128, .f32⟩ : BufTy).Contents (Elt F) :=
  Host.scatterAdd scatter_S20000x128_S640000x1_S640000x128_1_0_0_1 (val_main_v175 (F := F)) (val_main_v176 (F := F) x2) (val_main_v174 (F := F) x0 x1 x2 x3 x4 x5 x6 x7 x8 x9 x10 x11)

def val_main_v178 (x2 : (⟨S640000, .i32⟩ : BufTy).Contents (Elt F)) : (⟨S20000x1, .f32⟩ : BufTy).Contents (Elt F) :=
  broadcastInDim S20000x1 ![0] bcast_S20000_S20000x1_0 (val_main_v167 (F := F) x2)

def val_main_v179 (x2 : (⟨S640000, .i32⟩ : BufTy).Contents (Elt F)) : (⟨S20000x128, .f32⟩ : BufTy).Contents (Elt F) :=
  broadcastInDim S20000x128 ![0, 1] bcast_S20000x1_S20000x128_0_1 (val_main_v178 (F := F) x2)

def val_main_v180 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S20000x128, .f32⟩ : BufTy).Contents (Elt F) :=
  mulf (val_main_v177 (F := F) x0 x1 x2 x3 x4 x5 x6 x7 x8 x9 x10 x11) (val_main_v179 (F := F) x2)

def val_main_c_41 : (⟨S_, .i32⟩ : BufTy).Contents (Elt F) :=
  constantI S_ 32 0#32

def val_main_v181 : (⟨S640000, .i32⟩ : BufTy).Contents (Elt F) :=
  broadcastInDim S640000 ![] bcast_S_S640000 (val_main_c_41 (F := F))

def val_main_v182 (x2 : (⟨S640000, .i32⟩ : BufTy).Contents (Elt F)) : (⟨S640000, .i1⟩ : BufTy).Contents (Elt F) :=
  cmpi .slt (x2) (val_main_v181 (F := F))

def val_main_c_42 : (⟨S_, .i32⟩ : BufTy).Contents (Elt F) :=
  constantI S_ 32 20000#32

def val_main_v183 : (⟨S640000, .i32⟩ : BufTy).Contents (Elt F) :=
  broadcastInDim S640000 ![] bcast_S_S640000 (val_main_c_42 (F := F))

def val_main_v184 (x2 : (⟨S640000, .i32⟩ : BufTy).Contents (Elt F)) : (⟨S640000, .i32⟩ : BufTy).Contents (Elt F) :=
  addi (x2) (val_main_v183 (F := F))

def val_main_v185 (x2 : (⟨S640000, .i32⟩ : BufTy).Contents (Elt F)) : (⟨S640000, .i32⟩ : BufTy).Contents (Elt F) :=
  select (val_main_v182 (F := F) x2) (val_main_v184 (F := F) x2) (x2)

def val_main_v186 (x2 : (⟨S640000, .i32⟩ : BufTy).Contents (Elt F)) : (⟨S640000x1, .i32⟩ : BufTy).Contents (Elt F) :=
  broadcastInDim S640000x1 ![0] bcast_S640000_S640000x1_0 (val_main_v185 (F := F) x2)

def val_main_v187 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S640000x128, .f32⟩ : BufTy).Contents (Elt F) :=
  Host.gather gather_S20000x128_S640000x1_S640000x128_1_0_n_n_0_1_1128 (val_main_v180 (F := F) x0 x1 x2 x3 x4 x5 x6 x7 x8 x9 x10 x11) (val_main_v186 (F := F) x2)

def val_main_cst_43 : (⟨S_, .f32⟩ : BufTy).Contents (Elt F) :=
  constant S_ .f32 0x00000000#32

def val_main_v188 : (⟨S100000x128, .f32⟩ : BufTy).Contents (Elt F) :=
  broadcastInDim S100000x128 ![] bcast_S_S100000x128 (val_main_cst_43 (F := F))

def val_main_v189 (x1 : (⟨S640000, .i32⟩ : BufTy).Contents (Elt F)) : (⟨S640000x1, .i32⟩ : BufTy).Contents (Elt F) :=
  broadcastInDim S640000x1 ![0] bcast_S640000_S640000x1_0 (x1)

def val_main_v190 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  Host.scatterAdd scatter_S100000x128_S640000x1_S640000x128_1_0_0_1 (val_main_v188 (F := F)) (val_main_v189 (F := F) x1) (val_main_v187 (F := F) x0 x1 x2 x3 x4 x5 x6 x7 x8 x9 x10 x11)

def val_main_v191 (x1 x2 : (⟨S640000, .i32⟩ : BufTy).Contents (Elt F)) (x3 : (⟨S20000, .f32⟩ : BufTy).Contents (Elt F)) : (⟨S100000x1, .f32⟩ : BufTy).Contents (Elt F) :=
  broadcastInDim S100000x1 ![0] bcast_S100000_S100000x1_0 (val_main_v158 (F := F) x1 x2 x3)

def val_main_v192 (x1 x2 : (⟨S640000, .i32⟩ : BufTy).Contents (Elt F)) (x3 : (⟨S20000, .f32⟩ : BufTy).Contents (Elt F)) : (⟨S100000x128, .f32⟩ : BufTy).Contents (Elt F) :=
  broadcastInDim S100000x128 ![0, 1] bcast_S100000x1_S100000x128_0_1 (val_main_v191 (F := F) x1 x2 x3)

def val_main_v193 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v190 (F := F) x0 x1 x2 x3 x4 x5 x6 x7 x8 x9 x10 x11) (val_main_v192 (F := F) x1 x2 x3)

def val_main_v194 (x9 : (⟨S3x128, .f32⟩ : BufTy).Contents (Elt F)) : (⟨S1x128, .f32⟩ : BufTy).Contents (Elt F) :=
  broadcastInDim S1x128 ![1] bcast_S128_S1x128_1 (val_main_v142 (F := F) x9)

def val_main_v195 (x9 : (⟨S3x128, .f32⟩ : BufTy).Contents (Elt F)) : (⟨S100000x128, .f32⟩ : BufTy).Contents (Elt F) :=
  broadcastInDim S100000x128 ![0, 1] bcast_S1x128_S100000x128_0_1 (val_main_v194 (F := F) x9)

def val_main_v196 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v193 (F := F) x0 x1 x2 x3 x4 x5 x6 x7 x8 x9 x10 x11) (val_main_v195 (F := F) x9)

def val_main_call6_cst : (⟨S_, .f32⟩ : BufTy).Contents (Elt F) :=
  constant S_ .f32 0x00000000#32

def val_main_call6_v0 : (⟨S100000x128, .f32⟩ : BufTy).Contents (Elt F) :=
  broadcastInDim S100000x128 ![] bcast_S_S100000x128 (val_main_call6_cst (F := F))

def val_main_v197 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  maximumf (val_main_v196 (F := F) x0 x1 x2 x3 x4 x5 x6 x7 x8 x9 x10 x11) (val_main_call6_v0 (F := F))

def val_main_v198 (x10 : (⟨S3x128x1, .f32⟩ : BufTy).Contents (Elt F)) : (⟨S1x128x1, .f32⟩ : BufTy).Contents (Elt F) :=
  extractStridedSlice S1x128x1 ![1, 0, 0] (x10) slices_S3x128x1_S1x128x1_1_0_0

def val_main_v199 (x10 : (⟨S3x128x1, .f32⟩ : BufTy).Contents (Elt F)) : (⟨S128x1, .f32⟩ : BufTy).Contents (Elt F) :=
  shapeCast _ (val_main_v198 (F := F) x10) shapeCasts_S1x128x1_S128x1

def val_main_v200 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.dotGeneral dot_S100000x128_S128x1_S100000x1_1_0_0_1_n_n none (val_main_v109 (F := F) x0 x1 x2 x3 x4 x5 x6 x7 x8 x9 x10 x11) (val_main_v199 (F := F) x10)

def val_main_v201 (x11 : (⟨S3x1, .f32⟩ : BufTy).Contents (Elt F)) : (⟨S1x1, .f32⟩ : BufTy).Contents (Elt F) :=
  extractStridedSlice S1x1 ![1, 0] (x11) slices_S3x1_S1x1_1_0

def val_main_v202 (x11 : (⟨S3x1, .f32⟩ : BufTy).Contents (Elt F)) : (⟨S1, .f32⟩ : BufTy).Contents (Elt F) :=
  shapeCast _ (val_main_v201 (F := F) x11) shapeCasts_S1x1_S1

def val_main_v203 (x11 : (⟨S3x1, .f32⟩ : BufTy).Contents (Elt F)) : (⟨S1x1, .f32⟩ : BufTy).Contents (Elt F) :=
  broadcastInDim S1x1 ![1] bcast_S1_S1x1_1 (val_main_v202 (F := F) x11)

def val_main_v204 (x11 : (⟨S3x1, .f32⟩ : BufTy).Contents (Elt F)) : (⟨S100000x1, .f32⟩ : BufTy).Contents (Elt F) :=
  broadcastInDim S100000x1 ![0, 1] bcast_S1x1_S100000x1_0_1 (val_main_v203 (F := F) x11)

def val_main_v205 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v200 (F := F) x0 x1 x2 x3 x4 x5 x6 x7 x8 x9 x10 x11) (val_main_v204 (F := F) x11)

def val_main_v206 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.negf (val_main_v205 (F := F) x0 x1 x2 x3 x4 x5 x6 x7 x8 x9 x10 x11)

def val_main_v207 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.exp (val_main_v206 (F := F) x0 x1 x2 x3 x4 x5 x6 x7 x8 x9 x10 x11)

def val_main_cst_44 : (⟨S_, .f32⟩ : BufTy).Contents (Elt F) :=
  constant S_ .f32 0x3F800000#32

def val_main_v208 : (⟨S100000x1, .f32⟩ : BufTy).Contents (Elt F) :=
  broadcastInDim S100000x1 ![] bcast_S_S100000x1 (val_main_cst_44 (F := F))

def val_main_v209 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v208 (F := F)) (val_main_v207 (F := F) x0 x1 x2 x3 x4 x5 x6 x7 x8 x9 x10 x11)

def val_main_cst_45 : (⟨S_, .f32⟩ : BufTy).Contents (Elt F) :=
  constant S_ .f32 0x3F800000#32

def val_main_v210 : (⟨S100000x1, .f32⟩ : BufTy).Contents (Elt F) :=
  broadcastInDim S100000x1 ![] bcast_S_S100000x1 (val_main_cst_45 (F := F))

def val_main_v211 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.divf (val_main_v210 (F := F)) (val_main_v209 (F := F) x0 x1 x2 x3 x4 x5 x6 x7 x8 x9 x10 x11)

def val_main_v212 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S100000x1_S100000x128_0_1 (val_main_v211 (F := F) x0 x1 x2 x3 x4 x5 x6 x7 x8 x9 x10 x11)

def val_main_v213 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v197 (F := F) x0 x1 x2 x3 x4 x5 x6 x7 x8 x9 x10 x11) (val_main_v212 (F := F) x0 x1 x2 x3 x4 x5 x6 x7 x8 x9 x10 x11)

def val_main_v214 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v109 (F := F) x0 x1 x2 x3 x4 x5 x6 x7 x8 x9 x10 x11) (val_main_v213 (F := F) x0 x1 x2 x3 x4 x5 x6 x7 x8 x9 x10 x11)

def val_main_v215 (x6 : (⟨S3x128, .f32⟩ : BufTy).Contents (Elt F)) : (⟨S1x128, .f32⟩ : BufTy).Contents (Elt F) :=
  extractStridedSlice S1x128 ![2, 0] (x6) slices_S3x128_S1x128_2_0

def val_main_v216 (x6 : (⟨S3x128, .f32⟩ : BufTy).Contents (Elt F)) : (⟨S128, .f32⟩ : BufTy).Contents (Elt F) :=
  shapeCast _ (val_main_v215 (F := F) x6) shapeCasts_S1x128_S128

def val_main_v217 (x7 : (⟨S3x128, .f32⟩ : BufTy).Contents (Elt F)) : (⟨S1x128, .f32⟩ : BufTy).Contents (Elt F) :=
  extractStridedSlice S1x128 ![2, 0] (x7) slices_S3x128_S1x128_2_0

def val_main_v218 (x7 : (⟨S3x128, .f32⟩ : BufTy).Contents (Elt F)) : (⟨S128, .f32⟩ : BufTy).Contents (Elt F) :=
  shapeCast _ (val_main_v217 (F := F) x7) shapeCasts_S1x128_S128

def val_main_cst_46 : (⟨S_, .f32⟩ : BufTy).Contents (Elt F) :=
  constant S_ .f32 0x00000000#32

def val_main_v219 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.reduceAdd (val_main_v214 (F := F) x0 x1 x2 x3 x4 x5 x6 x7 x8 x9 x10 x11) (val_main_cst_46 (F := F)) reducesTo_S100000x128_S128_d0 h_S_

def val_main_cst_47 : (⟨S_, .f32⟩ : BufTy).Contents (Elt F) :=
  constant S_ .f32 0x47C35000#32

def val_main_v220 : (⟨S128, .f32⟩ : BufTy).Contents (Elt F) :=
  broadcastInDim S128 ![] bcast_S_S128 (val_main_cst_47 (F := F))

def val_main_v221 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.divf (val_main_v219 (F := F) x0 x1 x2 x3 x4 x5 x6 x7 x8 x9 x10 x11) (val_main_v220 (F := F))

def val_main_v222 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v221 (F := F) x0 x1 x2 x3 x4 x5 x6 x7 x8 x9 x10 x11)

def val_main_v223 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v222 (F := F) x0 x1 x2 x3 x4 x5 x6 x7 x8 x9 x10 x11)

def val_main_v224 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  subf (val_main_v214 (F := F) x0 x1 x2 x3 x4 x5 x6 x7 x8 x9 x10 x11) (val_main_v223 (F := F) x0 x1 x2 x3 x4 x5 x6 x7 x8 x9 x10 x11)

def val_main_v225 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v224 (F := F) x0 x1 x2 x3 x4 x5 x6 x7 x8 x9 x10 x11) (val_main_v224 (F := F) x0 x1 x2 x3 x4 x5 x6 x7 x8 x9 x10 x11)

def val_main_cst_48 : (⟨S_, .f32⟩ : BufTy).Contents (Elt F) :=
  constant S_ .f32 0x00000000#32

def val_main_v226 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.reduceAdd (val_main_v225 (F := F) x0 x1 x2 x3 x4 x5 x6 x7 x8 x9 x10 x11) (val_main_cst_48 (F := F)) reducesTo_S100000x128_S128_d0 h_S_

def val_main_cst_49 : (⟨S_, .f32⟩ : BufTy).Contents (Elt F) :=
  constant S_ .f32 0x47C35000#32

def val_main_v227 : (⟨S128, .f32⟩ : BufTy).Contents (Elt F) :=
  broadcastInDim S128 ![] bcast_S_S128 (val_main_cst_49 (F := F))

def val_main_v228 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.divf (val_main_v226 (F := F) x0 x1 x2 x3 x4 x5 x6 x7 x8 x9 x10 x11) (val_main_v227 (F := F))

def val_main_v229 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v221 (F := F) x0 x1 x2 x3 x4 x5 x6 x7 x8 x9 x10 x11)

def val_main_v230 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v229 (F := F) x0 x1 x2 x3 x4 x5 x6 x7 x8 x9 x10 x11)

def val_main_v231 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  subf (val_main_v214 (F := F) x0 x1 x2 x3 x4 x5 x6 x7 x8 x9 x10 x11) (val_main_v230 (F := F) x0 x1 x2 x3 x4 x5 x6 x7 x8 x9 x10 x11)

def val_main_cst_50 : (⟨S_, .f32⟩ : BufTy).Contents (Elt F) :=
  constant S_ .f32 0x3727C5AC#32

def val_main_v232 : (⟨S128, .f32⟩ : BufTy).Contents (Elt F) :=
  broadcastInDim S128 ![] bcast_S_S128 (val_main_cst_50 (F := F))

def val_main_v233 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  addf (val_main_v228 (F := F) x0 x1 x2 x3 x4 x5 x6 x7 x8 x9 x10 x11) (val_main_v232 (F := F))

def val_main_v234 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S128, .f32⟩ : BufTy).Contents (Elt F) :=
  Host.rsqrt (val_main_v233 (F := F) x0 x1 x2 x3 x4 x5 x6 x7 x8 x9 x10 x11)

def val_main_v235 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S1x128, .f32⟩ : BufTy).Contents (Elt F) :=
  broadcastInDim S1x128 ![1] bcast_S128_S1x128_1 (val_main_v234 (F := F) x0 x1 x2 x3 x4 x5 x6 x7 x8 x9 x10 x11)

def val_main_v236 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S1x128_S100000x128_0_1 (val_main_v235 (F := F) x0 x1 x2 x3 x4 x5 x6 x7 x8 x9 x10 x11)

def val_main_v237 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v231 (F := F) x0 x1 x2 x3 x4 x5 x6 x7 x8 x9 x10 x11) (val_main_v236 (F := F) x0 x1 x2 x3 x4 x5 x6 x7 x8 x9 x10 x11)

def val_main_v238 (x6 : (⟨S3x128, .f32⟩ : BufTy).Contents (Elt F)) : (⟨S1x128, .f32⟩ : BufTy).Contents (Elt F) :=
  broadcastInDim S1x128 ![1] bcast_S128_S1x128_1 (val_main_v216 (F := F) x6)

def val_main_v239 (x6 : (⟨S3x128, .f32⟩ : BufTy).Contents (Elt F)) : (⟨S100000x128, .f32⟩ : BufTy).Contents (Elt F) :=
  broadcastInDim S100000x128 ![0, 1] bcast_S1x128_S100000x128_0_1 (val_main_v238 (F := F) x6)

def val_main_v240 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v237 (F := F) x0 x1 x2 x3 x4 x5 x6 x7 x8 x9 x10 x11) (val_main_v239 (F := F) x6)

def val_main_v241 (x7 : (⟨S3x128, .f32⟩ : BufTy).Contents (Elt F)) : (⟨S1x128, .f32⟩ : BufTy).Contents (Elt F) :=
  broadcastInDim S1x128 ![1] bcast_S128_S1x128_1 (val_main_v218 (F := F) x7)

def val_main_v242 (x7 : (⟨S3x128, .f32⟩ : BufTy).Contents (Elt F)) : (⟨S100000x128, .f32⟩ : BufTy).Contents (Elt F) :=
  broadcastInDim S100000x128 ![0, 1] bcast_S1x128_S100000x128_0_1 (val_main_v241 (F := F) x7)

def val_main_v243 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v240 (F := F) x0 x1 x2 x3 x4 x5 x6 x7 x8 x9 x10 x11) (val_main_v242 (F := F) x7)

def val_main_v244 (x8 : (⟨S3x128x128, .f32⟩ : BufTy).Contents (Elt F)) : (⟨S1x128x128, .f32⟩ : BufTy).Contents (Elt F) :=
  extractStridedSlice S1x128x128 ![2, 0, 0] (x8) slices_S3x128x128_S1x128x128_2_0_0

def val_main_v245 (x8 : (⟨S3x128x128, .f32⟩ : BufTy).Contents (Elt F)) : (⟨S128x128, .f32⟩ : BufTy).Contents (Elt F) :=
  shapeCast _ (val_main_v244 (F := F) x8) shapeCasts_S1x128x128_S128x128

def val_main_v246 (x9 : (⟨S3x128, .f32⟩ : BufTy).Contents (Elt F)) : (⟨S1x128, .f32⟩ : BufTy).Contents (Elt F) :=
  extractStridedSlice S1x128 ![2, 0] (x9) slices_S3x128_S1x128_2_0

def val_main_v247 (x9 : (⟨S3x128, .f32⟩ : BufTy).Contents (Elt F)) : (⟨S128, .f32⟩ : BufTy).Contents (Elt F) :=
  shapeCast _ (val_main_v246 (F := F) x9) shapeCasts_S1x128_S128

def val_main_v248 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  Host.dotGeneral dot_S100000x128_S128x128_S100000x128_1_0_0_1_n_n none (val_main_v243 (F := F) x0 x1 x2 x3 x4 x5 x6 x7 x8 x9 x10 x11) (val_main_v245 (F := F) x8)

def val_main_c_51 : (⟨S_, .i32⟩ : BufTy).Contents (Elt F) :=
  constantI S_ 32 0#32

def val_main_v249 : (⟨S640000, .i32⟩ : BufTy).Contents (Elt F) :=
  broadcastInDim S640000 ![] bcast_S_S640000 (val_main_c_51 (F := F))

def val_main_v250 (x2 : (⟨S640000, .i32⟩ : BufTy).Contents (Elt F)) : (⟨S640000, .i1⟩ : BufTy).Contents (Elt F) :=
  cmpi .slt (x2) (val_main_v249 (F := F))

def val_main_c_52 : (⟨S_, .i32⟩ : BufTy).Contents (Elt F) :=
  constantI S_ 32 20000#32

def val_main_v251 : (⟨S640000, .i32⟩ : BufTy).Contents (Elt F) :=
  broadcastInDim S640000 ![] bcast_S_S640000 (val_main_c_52 (F := F))

def val_main_v252 (x2 : (⟨S640000, .i32⟩ : BufTy).Contents (Elt F)) : (⟨S640000, .i32⟩ : BufTy).Contents (Elt F) :=
  addi (x2) (val_main_v251 (F := F))

def val_main_v253 (x2 : (⟨S640000, .i32⟩ : BufTy).Contents (Elt F)) : (⟨S640000, .i32⟩ : BufTy).Contents (Elt F) :=
  select (val_main_v250 (F := F) x2) (val_main_v252 (F := F) x2) (x2)

def val_main_v254 (x2 : (⟨S640000, .i32⟩ : BufTy).Contents (Elt F)) : (⟨S640000x1, .i32⟩ : BufTy).Contents (Elt F) :=
  broadcastInDim S640000x1 ![0] bcast_S640000_S640000x1_0 (val_main_v253 (F := F) x2)

def val_main_v255 (x2 : (⟨S640000, .i32⟩ : BufTy).Contents (Elt F)) (x3 : (⟨S20000, .f32⟩ : BufTy).Contents (Elt F)) : (⟨S640000, .f32⟩ : BufTy).Contents (Elt F) :=
  Host.gather gather_S20000_S640000x1_S640000_n_0_n_n_0_1_1 (x3) (val_main_v254 (F := F) x2)

def val_main_cst_53 : (⟨S_, .f32⟩ : BufTy).Contents (Elt F) :=
  constant S_ .f32 0x00000000#32

def val_main_v256 : (⟨S100000, .f32⟩ : BufTy).Contents (Elt F) :=
  broadcastInDim S100000 ![] bcast_S_S100000 (val_main_cst_53 (F := F))

def val_main_v257 (x1 : (⟨S640000, .i32⟩ : BufTy).Contents (Elt F)) : (⟨S640000x1, .i32⟩ : BufTy).Contents (Elt F) :=
  broadcastInDim S640000x1 ![0] bcast_S640000_S640000x1_0 (x1)

def val_main_v258 (x1 x2 : (⟨S640000, .i32⟩ : BufTy).Contents (Elt F)) (x3 : (⟨S20000, .f32⟩ : BufTy).Contents (Elt F)) : (⟨S100000, .f32⟩ : BufTy).Contents (Elt F) :=
  Host.scatterAdd scatter_S100000_S640000x1_S640000_n_0_0_1 (val_main_v256 (F := F)) (val_main_v257 (F := F) x1) (val_main_v255 (F := F) x2 x3)

def val_main_cst_54 : (⟨S_, .f32⟩ : BufTy).Contents (Elt F) :=
  constant S_ .f32 0x00000000#32

def val_main_v259 : (⟨S100000, .f32⟩ : BufTy).Contents (Elt F) :=
  broadcastInDim S100000 ![] bcast_S_S100000 (val_main_cst_54 (F := F))

def val_main_v260 (x1 x2 : (⟨S640000, .i32⟩ : BufTy).Contents (Elt F)) (x3 : (⟨S20000, .f32⟩ : BufTy).Contents (Elt F)) : (⟨S100000, .i1⟩ : BufTy).Contents (Elt F) :=
  cmpf .ogt (val_main_v258 (F := F) x1 x2 x3) (val_main_v259 (F := F))

def val_main_cst_55 : (⟨S_, .f32⟩ : BufTy).Contents (Elt F) :=
  constant S_ .f32 0x3F800000#32

def val_main_v261 : (⟨S100000, .f32⟩ : BufTy).Contents (Elt F) :=
  broadcastInDim S100000 ![] bcast_S_S100000 (val_main_cst_55 (F := F))

def val_main_v262 (x1 x2 : (⟨S640000, .i32⟩ : BufTy).Contents (Elt F)) (x3 : (⟨S20000, .f32⟩ : BufTy).Contents (Elt F)) : (⟨S100000, .f32⟩ : BufTy).Contents (Elt F) :=
  Host.divf (val_main_v261 (F := F)) (val_main_v258 (F := F) x1 x2 x3)

def val_main_cst_56 : (⟨S_, .f32⟩ : BufTy).Contents (Elt F) :=
  constant S_ .f32 0x00000000#32

def val_main_call7_v0 : (⟨S_, .f32⟩ : BufTy).Contents (Elt F) :=
  id (val_main_cst_56 (F := F))

def val_main_call7_v1 : (⟨S100000, .f32⟩ : BufTy).Contents (Elt F) :=
  broadcastInDim S100000 ![] bcast_S_S100000 (val_main_call7_v0 (F := F))

def val_main_v263 (x1 x2 : (⟨S640000, .i32⟩ : BufTy).Contents (Elt F)) (x3 : (⟨S20000, .f32⟩ : BufTy).Contents (Elt F)) : (⟨S100000, .f32⟩ : BufTy).Contents (Elt F) :=
  select (val_main_v260 (F := F) x1 x2 x3) (val_main_v262 (F := F) x1 x2 x3) (val_main_call7_v1 (F := F))

def val_main_cst_57 : (⟨S_, .f32⟩ : BufTy).Contents (Elt F) :=
  constant S_ .f32 0x3F800000#32

def val_main_v264 : (⟨S640000, .f32⟩ : BufTy).Contents (Elt F) :=
  broadcastInDim S640000 ![] bcast_S_S640000 (val_main_cst_57 (F := F))

def val_main_cst_58 : (⟨S_, .f32⟩ : BufTy).Contents (Elt F) :=
  constant S_ .f32 0x00000000#32

def val_main_v265 : (⟨S20000, .f32⟩ : BufTy).Contents (Elt F) :=
  broadcastInDim S20000 ![] bcast_S_S20000 (val_main_cst_58 (F := F))

def val_main_v266 (x2 : (⟨S640000, .i32⟩ : BufTy).Contents (Elt F)) : (⟨S640000x1, .i32⟩ : BufTy).Contents (Elt F) :=
  broadcastInDim S640000x1 ![0] bcast_S640000_S640000x1_0 (x2)

def val_main_v267 (x2 : (⟨S640000, .i32⟩ : BufTy).Contents (Elt F)) : (⟨S20000, .f32⟩ : BufTy).Contents (Elt F) :=
  Host.scatterAdd scatter_S20000_S640000x1_S640000_n_0_0_1 (val_main_v265 (F := F)) (val_main_v266 (F := F) x2) (val_main_v264 (F := F))

def val_main_cst_59 : (⟨S_, .f32⟩ : BufTy).Contents (Elt F) :=
  constant S_ .f32 0x00000000#32

def val_main_v268 : (⟨S20000, .f32⟩ : BufTy).Contents (Elt F) :=
  broadcastInDim S20000 ![] bcast_S_S20000 (val_main_cst_59 (F := F))

def val_main_v269 (x2 : (⟨S640000, .i32⟩ : BufTy).Contents (Elt F)) : (⟨S20000, .i1⟩ : BufTy).Contents (Elt F) :=
  cmpf .ogt (val_main_v267 (F := F) x2) (val_main_v268 (F := F))

def val_main_cst_60 : (⟨S_, .f32⟩ : BufTy).Contents (Elt F) :=
  constant S_ .f32 0x3F800000#32

def val_main_v270 : (⟨S20000, .f32⟩ : BufTy).Contents (Elt F) :=
  broadcastInDim S20000 ![] bcast_S_S20000 (val_main_cst_60 (F := F))

def val_main_v271 (x2 : (⟨S640000, .i32⟩ : BufTy).Contents (Elt F)) : (⟨S20000, .f32⟩ : BufTy).Contents (Elt F) :=
  Host.divf (val_main_v270 (F := F)) (val_main_v267 (F := F) x2)

def val_main_cst_61 : (⟨S_, .f32⟩ : BufTy).Contents (Elt F) :=
  constant S_ .f32 0x00000000#32

def val_main_call8_v0 : (⟨S_, .f32⟩ : BufTy).Contents (Elt F) :=
  id (val_main_cst_61 (F := F))

def val_main_call8_v1 : (⟨S20000, .f32⟩ : BufTy).Contents (Elt F) :=
  broadcastInDim S20000 ![] bcast_S_S20000 (val_main_call8_v0 (F := F))

def val_main_v272 (x2 : (⟨S640000, .i32⟩ : BufTy).Contents (Elt F)) : (⟨S20000, .f32⟩ : BufTy).Contents (Elt F) :=
  select (val_main_v269 (F := F) x2) (val_main_v271 (F := F) x2) (val_main_call8_v1 (F := F))

def val_main_c_62 : (⟨S_, .i32⟩ : BufTy).Contents (Elt F) :=
  constantI S_ 32 0#32

def val_main_v273 : (⟨S640000, .i32⟩ : BufTy).Contents (Elt F) :=
  broadcastInDim S640000 ![] bcast_S_S640000 (val_main_c_62 (F := F))

def val_main_v274 (x1 : (⟨S640000, .i32⟩ : BufTy).Contents (Elt F)) : (⟨S640000, .i1⟩ : BufTy).Contents (Elt F) :=
  cmpi .slt (x1) (val_main_v273 (F := F))

def val_main_c_63 : (⟨S_, .i32⟩ : BufTy).Contents (Elt F) :=
  constantI S_ 32 100000#32

def val_main_v275 : (⟨S640000, .i32⟩ : BufTy).Contents (Elt F) :=
  broadcastInDim S640000 ![] bcast_S_S640000 (val_main_c_63 (F := F))

def val_main_v276 (x1 : (⟨S640000, .i32⟩ : BufTy).Contents (Elt F)) : (⟨S640000, .i32⟩ : BufTy).Contents (Elt F) :=
  addi (x1) (val_main_v275 (F := F))

def val_main_v277 (x1 : (⟨S640000, .i32⟩ : BufTy).Contents (Elt F)) : (⟨S640000, .i32⟩ : BufTy).Contents (Elt F) :=
  select (val_main_v274 (F := F) x1) (val_main_v276 (F := F) x1) (x1)

def val_main_v278 (x1 : (⟨S640000, .i32⟩ : BufTy).Contents (Elt F)) : (⟨S640000x1, .i32⟩ : BufTy).Contents (Elt F) :=
  broadcastInDim S640000x1 ![0] bcast_S640000_S640000x1_0 (val_main_v277 (F := F) x1)

def val_main_v279 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S640000x128, .f32⟩ : BufTy).Contents (Elt F) :=
  Host.gather gather_S100000x128_S640000x1_S640000x128_1_0_n_n_0_1_1128 (val_main_v248 (F := F) x0 x1 x2 x3 x4 x5 x6 x7 x8 x9 x10 x11) (val_main_v278 (F := F) x1)

def val_main_cst_64 : (⟨S_, .f32⟩ : BufTy).Contents (Elt F) :=
  constant S_ .f32 0x00000000#32

def val_main_v280 : (⟨S20000x128, .f32⟩ : BufTy).Contents (Elt F) :=
  broadcastInDim S20000x128 ![] bcast_S_S20000x128 (val_main_cst_64 (F := F))

def val_main_v281 (x2 : (⟨S640000, .i32⟩ : BufTy).Contents (Elt F)) : (⟨S640000x1, .i32⟩ : BufTy).Contents (Elt F) :=
  broadcastInDim S640000x1 ![0] bcast_S640000_S640000x1_0 (x2)

def val_main_v282 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S20000x128, .f32⟩ : BufTy).Contents (Elt F) :=
  Host.scatterAdd scatter_S20000x128_S640000x1_S640000x128_1_0_0_1 (val_main_v280 (F := F)) (val_main_v281 (F := F) x2) (val_main_v279 (F := F) x0 x1 x2 x3 x4 x5 x6 x7 x8 x9 x10 x11)

def val_main_v283 (x2 : (⟨S640000, .i32⟩ : BufTy).Contents (Elt F)) : (⟨S20000x1, .f32⟩ : BufTy).Contents (Elt F) :=
  broadcastInDim S20000x1 ![0] bcast_S20000_S20000x1_0 (val_main_v272 (F := F) x2)

def val_main_v284 (x2 : (⟨S640000, .i32⟩ : BufTy).Contents (Elt F)) : (⟨S20000x128, .f32⟩ : BufTy).Contents (Elt F) :=
  broadcastInDim S20000x128 ![0, 1] bcast_S20000x1_S20000x128_0_1 (val_main_v283 (F := F) x2)

def val_main_v285 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S20000x128, .f32⟩ : BufTy).Contents (Elt F) :=
  mulf (val_main_v282 (F := F) x0 x1 x2 x3 x4 x5 x6 x7 x8 x9 x10 x11) (val_main_v284 (F := F) x2)

def val_main_c_65 : (⟨S_, .i32⟩ : BufTy).Contents (Elt F) :=
  constantI S_ 32 0#32

def val_main_v286 : (⟨S640000, .i32⟩ : BufTy).Contents (Elt F) :=
  broadcastInDim S640000 ![] bcast_S_S640000 (val_main_c_65 (F := F))

def val_main_v287 (x2 : (⟨S640000, .i32⟩ : BufTy).Contents (Elt F)) : (⟨S640000, .i1⟩ : BufTy).Contents (Elt F) :=
  cmpi .slt (x2) (val_main_v286 (F := F))

def val_main_c_66 : (⟨S_, .i32⟩ : BufTy).Contents (Elt F) :=
  constantI S_ 32 20000#32

def val_main_v288 : (⟨S640000, .i32⟩ : BufTy).Contents (Elt F) :=
  broadcastInDim S640000 ![] bcast_S_S640000 (val_main_c_66 (F := F))

def val_main_v289 (x2 : (⟨S640000, .i32⟩ : BufTy).Contents (Elt F)) : (⟨S640000, .i32⟩ : BufTy).Contents (Elt F) :=
  addi (x2) (val_main_v288 (F := F))

def val_main_v290 (x2 : (⟨S640000, .i32⟩ : BufTy).Contents (Elt F)) : (⟨S640000, .i32⟩ : BufTy).Contents (Elt F) :=
  select (val_main_v287 (F := F) x2) (val_main_v289 (F := F) x2) (x2)

def val_main_v291 (x2 : (⟨S640000, .i32⟩ : BufTy).Contents (Elt F)) : (⟨S640000x1, .i32⟩ : BufTy).Contents (Elt F) :=
  broadcastInDim S640000x1 ![0] bcast_S640000_S640000x1_0 (val_main_v290 (F := F) x2)

def val_main_v292 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S640000x128, .f32⟩ : BufTy).Contents (Elt F) :=
  Host.gather gather_S20000x128_S640000x1_S640000x128_1_0_n_n_0_1_1128 (val_main_v285 (F := F) x0 x1 x2 x3 x4 x5 x6 x7 x8 x9 x10 x11) (val_main_v291 (F := F) x2)

def val_main_cst_67 : (⟨S_, .f32⟩ : BufTy).Contents (Elt F) :=
  constant S_ .f32 0x00000000#32

def val_main_v293 : (⟨S100000x128, .f32⟩ : BufTy).Contents (Elt F) :=
  broadcastInDim S100000x128 ![] bcast_S_S100000x128 (val_main_cst_67 (F := F))

def val_main_v294 (x1 : (⟨S640000, .i32⟩ : BufTy).Contents (Elt F)) : (⟨S640000x1, .i32⟩ : BufTy).Contents (Elt F) :=
  broadcastInDim S640000x1 ![0] bcast_S640000_S640000x1_0 (x1)

def val_main_v295 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  Host.scatterAdd scatter_S100000x128_S640000x1_S640000x128_1_0_0_1 (val_main_v293 (F := F)) (val_main_v294 (F := F) x1) (val_main_v292 (F := F) x0 x1 x2 x3 x4 x5 x6 x7 x8 x9 x10 x11)

def val_main_v296 (x1 x2 : (⟨S640000, .i32⟩ : BufTy).Contents (Elt F)) (x3 : (⟨S20000, .f32⟩ : BufTy).Contents (Elt F)) : (⟨S100000x1, .f32⟩ : BufTy).Contents (Elt F) :=
  broadcastInDim S100000x1 ![0] bcast_S100000_S100000x1_0 (val_main_v263 (F := F) x1 x2 x3)

def val_main_v297 (x1 x2 : (⟨S640000, .i32⟩ : BufTy).Contents (Elt F)) (x3 : (⟨S20000, .f32⟩ : BufTy).Contents (Elt F)) : (⟨S100000x128, .f32⟩ : BufTy).Contents (Elt F) :=
  broadcastInDim S100000x128 ![0, 1] bcast_S100000x1_S100000x128_0_1 (val_main_v296 (F := F) x1 x2 x3)

def val_main_v298 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v295 (F := F) x0 x1 x2 x3 x4 x5 x6 x7 x8 x9 x10 x11) (val_main_v297 (F := F) x1 x2 x3)

def val_main_v299 (x9 : (⟨S3x128, .f32⟩ : BufTy).Contents (Elt F)) : (⟨S1x128, .f32⟩ : BufTy).Contents (Elt F) :=
  broadcastInDim S1x128 ![1] bcast_S128_S1x128_1 (val_main_v247 (F := F) x9)

def val_main_v300 (x9 : (⟨S3x128, .f32⟩ : BufTy).Contents (Elt F)) : (⟨S100000x128, .f32⟩ : BufTy).Contents (Elt F) :=
  broadcastInDim S100000x128 ![0, 1] bcast_S1x128_S100000x128_0_1 (val_main_v299 (F := F) x9)

def val_main_v301 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v298 (F := F) x0 x1 x2 x3 x4 x5 x6 x7 x8 x9 x10 x11) (val_main_v300 (F := F) x9)

def val_main_call9_cst : (⟨S_, .f32⟩ : BufTy).Contents (Elt F) :=
  constant S_ .f32 0x00000000#32

def val_main_call9_v0 : (⟨S100000x128, .f32⟩ : BufTy).Contents (Elt F) :=
  broadcastInDim S100000x128 ![] bcast_S_S100000x128 (val_main_call9_cst (F := F))

def val_main_v302 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  maximumf (val_main_v301 (F := F) x0 x1 x2 x3 x4 x5 x6 x7 x8 x9 x10 x11) (val_main_call9_v0 (F := F))

def val_main_v303 (x10 : (⟨S3x128x1, .f32⟩ : BufTy).Contents (Elt F)) : (⟨S1x128x1, .f32⟩ : BufTy).Contents (Elt F) :=
  extractStridedSlice S1x128x1 ![2, 0, 0] (x10) slices_S3x128x1_S1x128x1_2_0_0

def val_main_v304 (x10 : (⟨S3x128x1, .f32⟩ : BufTy).Contents (Elt F)) : (⟨S128x1, .f32⟩ : BufTy).Contents (Elt F) :=
  shapeCast _ (val_main_v303 (F := F) x10) shapeCasts_S1x128x1_S128x1

def val_main_v305 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.dotGeneral dot_S100000x128_S128x1_S100000x1_1_0_0_1_n_n none (val_main_v214 (F := F) x0 x1 x2 x3 x4 x5 x6 x7 x8 x9 x10 x11) (val_main_v304 (F := F) x10)

def val_main_v306 (x11 : (⟨S3x1, .f32⟩ : BufTy).Contents (Elt F)) : (⟨S1x1, .f32⟩ : BufTy).Contents (Elt F) :=
  extractStridedSlice S1x1 ![2, 0] (x11) slices_S3x1_S1x1_2_0

def val_main_v307 (x11 : (⟨S3x1, .f32⟩ : BufTy).Contents (Elt F)) : (⟨S1, .f32⟩ : BufTy).Contents (Elt F) :=
  shapeCast _ (val_main_v306 (F := F) x11) shapeCasts_S1x1_S1

def val_main_v308 (x11 : (⟨S3x1, .f32⟩ : BufTy).Contents (Elt F)) : (⟨S1x1, .f32⟩ : BufTy).Contents (Elt F) :=
  broadcastInDim S1x1 ![1] bcast_S1_S1x1_1 (val_main_v307 (F := F) x11)

def val_main_v309 (x11 : (⟨S3x1, .f32⟩ : BufTy).Contents (Elt F)) : (⟨S100000x1, .f32⟩ : BufTy).Contents (Elt F) :=
  broadcastInDim S100000x1 ![0, 1] bcast_S1x1_S100000x1_0_1 (val_main_v308 (F := F) x11)

def val_main_v310 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v305 (F := F) x0 x1 x2 x3 x4 x5 x6 x7 x8 x9 x10 x11) (val_main_v309 (F := F) x11)

def val_main_v311 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.negf (val_main_v310 (F := F) x0 x1 x2 x3 x4 x5 x6 x7 x8 x9 x10 x11)

def val_main_v312 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.exp (val_main_v311 (F := F) x0 x1 x2 x3 x4 x5 x6 x7 x8 x9 x10 x11)

def val_main_cst_68 : (⟨S_, .f32⟩ : BufTy).Contents (Elt F) :=
  constant S_ .f32 0x3F800000#32

def val_main_v313 : (⟨S100000x1, .f32⟩ : BufTy).Contents (Elt F) :=
  broadcastInDim S100000x1 ![] bcast_S_S100000x1 (val_main_cst_68 (F := F))

def val_main_v314 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  addf (val_main_v313 (F := F)) (val_main_v312 (F := F) x0 x1 x2 x3 x4 x5 x6 x7 x8 x9 x10 x11)

def val_main_cst_69 : (⟨S_, .f32⟩ : BufTy).Contents (Elt F) :=
  constant S_ .f32 0x3F800000#32

def val_main_v315 : (⟨S100000x1, .f32⟩ : BufTy).Contents (Elt F) :=
  broadcastInDim S100000x1 ![] bcast_S_S100000x1 (val_main_cst_69 (F := F))

def val_main_v316 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x1, .f32⟩ : BufTy).Contents (Elt F) :=
  Host.divf (val_main_v315 (F := F)) (val_main_v314 (F := F) x0 x1 x2 x3 x4 x5 x6 x7 x8 x9 x10 x11)

def val_main_v317 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  broadcastInDim S100000x128 ![0, 1] bcast_S100000x1_S100000x128_0_1 (val_main_v316 (F := F) x0 x1 x2 x3 x4 x5 x6 x7 x8 x9 x10 x11)

def val_main_v318 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  mulf (val_main_v302 (F := F) x0 x1 x2 x3 x4 x5 x6 x7 x8 x9 x10 x11) (val_main_v317 (F := F) x0 x1 x2 x3 x4 x5 x6 x7 x8 x9 x10 x11)

def val_main_v319 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v214 (F := F) x0 x1 x2 x3 x4 x5 x6 x7 x8 x9 x10 x11) (val_main_v318 (F := F) x0 x1 x2 x3 x4 x5 x6 x7 x8 x9 x10 x11)

def val_main_v320 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v319 (F := F) x0 x1 x2 x3 x4 x5 x6 x7 x8 x9 x10 x11) (val_main_v4 (F := F) x0 x4 x5)

theorem val_main_v320_apply (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) (i : S100000x128.Idx) :
    val_main_v320 (F := F) x0 x1 x2 x3 x4 x5 x6 x7 x8 x9 x10 x11 i = FloatOps.addf (val_main_v319 (F := F) x0 x1 x2 x3 x4 x5 x6 x7 x8 x9 x10 x11 i) (val_main_v4 (F := F) x0 x4 x5 i) := rfl

def val_main_v321 (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) : (⟨S100000x128, .f32⟩ : BufTy).Contents (Elt F) :=
  addf (val_main_v320 (F := F) x0 x1 x2 x3 x4 x5 x6 x7 x8 x9 x10 x11) (val_main_v319 (F := F) x0 x1 x2 x3 x4 x5 x6 x7 x8 x9 x10 x11)

theorem val_main_v321_apply (x0 : (⟨S100000x256, .f32⟩ : BufTy).Contents (Elt F)) (x1 x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F)) (i : S100000x128.Idx) :
    val_main_v321 (F := F) x0 x1 x2 x3 x4 x5 x6 x7 x8 x9 x10 x11 i = FloatOps.addf (val_main_v320 (F := F) x0 x1 x2 x3 x4 x5 x6 x7 x8 x9 x10 x11 i) (val_main_v319 (F := F) x0 x1 x2 x3 x4 x5 x6 x7 x8 x9 x10 x11 i) := rfl

end Cert.ReferenceIdeal.ReadP

end
-- ==== Proof.Ref.RunAt.lean ====
import proofs.«415738_j90726889161246_1_alg».proof.Proof.Ref.Read

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable (x0 : (⟨S100000x256, .f32⟩ : BufTy).Contents (Elt F)) (x1 : (⟨S640000, .i32⟩ : BufTy).Contents (Elt F)) (x2 : (⟨S640000, .i32⟩ : BufTy).Contents (Elt F)) (x3 : (⟨S20000, .f32⟩ : BufTy).Contents (Elt F)) (x4 : (⟨S256x128, .f32⟩ : BufTy).Contents (Elt F)) (x5 : (⟨S128, .f32⟩ : BufTy).Contents (Elt F)) (x6 : (⟨S3x128, .f32⟩ : BufTy).Contents (Elt F)) (x7 : (⟨S3x128, .f32⟩ : BufTy).Contents (Elt F)) (x8 : (⟨S3x128x128, .f32⟩ : BufTy).Contents (Elt F)) (x9 : (⟨S3x128, .f32⟩ : BufTy).Contents (Elt F)) (x10 : (⟨S3x128x1, .f32⟩ : BufTy).Contents (Elt F)) (x11 : (⟨S3x1, .f32⟩ : BufTy).Contents (Elt F))

structure At0 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11

structure At1 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5

structure At2 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v37 : W (Proc.devRef .tc main_v37) = val_main_v37 (F := F) x9
  v38 : W (Proc.devRef .tc main_v38) = val_main_v38 (F := F) x0 x4 x5 x6 x7 x8

structure At3 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v37 : W (Proc.devRef .tc main_v37) = val_main_v37 (F := F) x9
  v38 : W (Proc.devRef .tc main_v38) = val_main_v38 (F := F) x0 x4 x5 x6 x7 x8
  v48 : W (Proc.devRef .tc main_v48) = val_main_v48 (F := F) x1 x2 x3
  v50 : W (Proc.devRef .tc main_v50) = val_main_v50 (F := F) x1 x2 x3

structure At4 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v37 : W (Proc.devRef .tc main_v37) = val_main_v37 (F := F) x9
  v38 : W (Proc.devRef .tc main_v38) = val_main_v38 (F := F) x0 x4 x5 x6 x7 x8
  v53 : W (Proc.devRef .tc main_v53) = val_main_v53 (F := F) x1 x2 x3

structure At5 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v37 : W (Proc.devRef .tc main_v37) = val_main_v37 (F := F) x9
  v38 : W (Proc.devRef .tc main_v38) = val_main_v38 (F := F) x0 x4 x5 x6 x7 x8
  v53 : W (Proc.devRef .tc main_v53) = val_main_v53 (F := F) x1 x2 x3
  v62 : W (Proc.devRef .tc main_v62) = val_main_v62 (F := F) x2

structure At6 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v92 : W (Proc.devRef .tc main_v92) = val_main_v92 (F := F) x0 x1 x2 x3 x4 x5 x6 x7 x8 x9

structure At7 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v92 : W (Proc.devRef .tc main_v92) = val_main_v92 (F := F) x0 x1 x2 x3 x4 x5 x6 x7 x8 x9
  v95 : W (Proc.devRef .tc main_v95) = val_main_v95 (F := F) x0 x4 x5 x10
  v97 : W (Proc.devRef .tc main_v97) = val_main_v97 (F := F) x11

structure At8 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11

structure At9 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v142 : W (Proc.devRef .tc main_v142) = val_main_v142 (F := F) x9
  v143 : W (Proc.devRef .tc main_v143) = val_main_v143 (F := F) x0 x1 x2 x3 x4 x5 x6 x7 x8 x9 x10 x11

structure At10 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v142 : W (Proc.devRef .tc main_v142) = val_main_v142 (F := F) x9
  v143 : W (Proc.devRef .tc main_v143) = val_main_v143 (F := F) x0 x1 x2 x3 x4 x5 x6 x7 x8 x9 x10 x11
  v148 : W (Proc.devRef .tc main_v148) = val_main_v148 (F := F) x2

structure At11 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v142 : W (Proc.devRef .tc main_v142) = val_main_v142 (F := F) x9
  v143 : W (Proc.devRef .tc main_v143) = val_main_v143 (F := F) x0 x1 x2 x3 x4 x5 x6 x7 x8 x9 x10 x11
  v158 : W (Proc.devRef .tc main_v158) = val_main_v158 (F := F) x1 x2 x3

structure At12 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v142 : W (Proc.devRef .tc main_v142) = val_main_v142 (F := F) x9
  v143 : W (Proc.devRef .tc main_v143) = val_main_v143 (F := F) x0 x1 x2 x3 x4 x5 x6 x7 x8 x9 x10 x11
  v158 : W (Proc.devRef .tc main_v158) = val_main_v158 (F := F) x1 x2 x3
  v167 : W (Proc.devRef .tc main_v167) = val_main_v167 (F := F) x2

structure At13 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v142 : W (Proc.devRef .tc main_v142) = val_main_v142 (F := F) x9
  v193 : W (Proc.devRef .tc main_v193) = val_main_v193 (F := F) x0 x1 x2 x3 x4 x5 x6 x7 x8 x9 x10 x11

structure At14 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v109 : W (Proc.devRef .tc main_v109) = val_main_v109 (F := F) x0 x1 x2 x3 x4 x5 x6 x7 x8 x9 x10 x11
  v197 : W (Proc.devRef .tc main_v197) = val_main_v197 (F := F) x0 x1 x2 x3 x4 x5 x6 x7 x8 x9 x10 x11

structure At15 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11

structure At16 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v243 : W (Proc.devRef .tc main_v243) = val_main_v243 (F := F) x0 x1 x2 x3 x4 x5 x6 x7 x8 x9 x10 x11
  v245 : W (Proc.devRef .tc main_v245) = val_main_v245 (F := F) x8
  v246 : W (Proc.devRef .tc main_v246) = val_main_v246 (F := F) x9

structure At17 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v247 : W (Proc.devRef .tc main_v247) = val_main_v247 (F := F) x9
  v248 : W (Proc.devRef .tc main_v248) = val_main_v248 (F := F) x0 x1 x2 x3 x4 x5 x6 x7 x8 x9 x10 x11

structure At18 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v247 : W (Proc.devRef .tc main_v247) = val_main_v247 (F := F) x9
  v248 : W (Proc.devRef .tc main_v248) = val_main_v248 (F := F) x0 x1 x2 x3 x4 x5 x6 x7 x8 x9 x10 x11
  v263 : W (Proc.devRef .tc main_v263) = val_main_v263 (F := F) x1 x2 x3

structure At19 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v247 : W (Proc.devRef .tc main_v247) = val_main_v247 (F := F) x9
  v248 : W (Proc.devRef .tc main_v248) = val_main_v248 (F := F) x0 x1 x2 x3 x4 x5 x6 x7 x8 x9 x10 x11
  v263 : W (Proc.devRef .tc main_v263) = val_main_v263 (F := F) x1 x2 x3
  v272 : W (Proc.devRef .tc main_v272) = val_main_v272 (F := F) x2

structure At20 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v247 : W (Proc.devRef .tc main_v247) = val_main_v247 (F := F) x9
  v263 : W (Proc.devRef .tc main_v263) = val_main_v263 (F := F) x1 x2 x3
  v285 : W (Proc.devRef .tc main_v285) = val_main_v285 (F := F) x0 x1 x2 x3 x4 x5 x6 x7 x8 x9 x10 x11
  v290 : W (Proc.devRef .tc main_v290) = val_main_v290 (F := F) x2

structure At21 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v214 : W (Proc.devRef .tc main_v214) = val_main_v214 (F := F) x0 x1 x2 x3 x4 x5 x6 x7 x8 x9 x10 x11
  v302 : W (Proc.devRef .tc main_v302) = val_main_v302 (F := F) x0 x1 x2 x3 x4 x5 x6 x7 x8 x9 x10 x11

structure At22 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v4 : W (Proc.devRef .tc main_v4) = val_main_v4 (F := F) x0 x4 x5
  v319 : W (Proc.devRef .tc main_v319) = val_main_v319 (F := F) x0 x1 x2 x3 x4 x5 x6 x7 x8 x9 x10 x11

structure At23 (W : Valuation τ sig (Elt F)) : Prop where
  arg0 : W (Proc.devRef .tc main_arg0) = x0
  arg1 : W (Proc.devRef .tc main_arg1) = x1
  arg2 : W (Proc.devRef .tc main_arg2) = x2
  arg3 : W (Proc.devRef .tc main_arg3) = x3
  arg4 : W (Proc.devRef .tc main_arg4) = x4
  arg5 : W (Proc.devRef .tc main_arg5) = x5
  arg6 : W (Proc.devRef .tc main_arg6) = x6
  arg7 : W (Proc.devRef .tc main_arg7) = x7
  arg8 : W (Proc.devRef .tc main_arg8) = x8
  arg9 : W (Proc.devRef .tc main_arg9) = x9
  arg10 : W (Proc.devRef .tc main_arg10) = x10
  arg11 : W (Proc.devRef .tc main_arg11) = x11
  v321 : W (Proc.devRef .tc main_v321) = val_main_v321 (F := F) x0 x1 x2 x3 x4 x5 x6 x7 x8 x9 x10 x11

end Cert.ReferenceIdeal.Hand

end
-- ==== Proof.Ref.RunTac.lean ====
import Idealize.ShloMosaic.Lib.StableHlo.Run

namespace Cert.ReferenceIdeal.Hand

open Idealize.ShloMosaic Idealize.ShloMosaic.StableHlo

macro "run_step" : tactic =>
  `(tactic| (constructor <;> after_results_simp <;> (try simp only [TRef.ofBuf, TRef.toBuf, cast_eq]) <;>
      (try simp only [*]) <;> (try rfl)))

end Cert.ReferenceIdeal.Hand
-- ==== Proof.Ref.RunStep0.lean ====
import proofs.«415738_j90726889161246_1_alg».proof.Proof.Ref.Run0
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step0 {W : Valuation τ sig (Elt F)} (h : At0 x0 x1 x2 x3 x4 x5 x6 x7 x8 x9 x10 x11 W) :
    At1 x0 x1 x2 x3 x4 x5 x6 x7 x8 x9 x10 x11 (after chunk0 W) := by
  cases h
  run_step

set_option maxHeartbeats 16000000 in
set_option maxRecDepth 8192 in

theorem step1 {W : Valuation τ sig (Elt F)} (h : At1 x0 x1 x2 x3 x4 x5 x6 x7 x8 x9 x10 x11 W) :
    At2 x0 x1 x2 x3 x4 x5 x6 x7 x8 x9 x10 x11 (after chunk1 W) := by
  cases h
  run_step

set_option maxHeartbeats 16000000 in
set_option maxRecDepth 8192 in

theorem step2 {W : Valuation τ sig (Elt F)} (h : At2 x0 x1 x2 x3 x4 x5 x6 x7 x8 x9 x10 x11 W) :
    At3 x0 x1 x2 x3 x4 x5 x6 x7 x8 x9 x10 x11 (after chunk2 W) := by
  cases h
  run_step

end Cert.ReferenceIdeal.Hand

end
-- ==== Proof.Ref.RunStep1.lean ====
import proofs.«415738_j90726889161246_1_alg».proof.Proof.Ref.Run1
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step3 {W : Valuation τ sig (Elt F)} (h : At3 x0 x1 x2 x3 x4 x5 x6 x7 x8 x9 x10 x11 W) :
    At4 x0 x1 x2 x3 x4 x5 x6 x7 x8 x9 x10 x11 (after chunk3 W) := by
  cases h
  run_step

set_option maxHeartbeats 16000000 in
set_option maxRecDepth 8192 in

theorem step4 {W : Valuation τ sig (Elt F)} (h : At4 x0 x1 x2 x3 x4 x5 x6 x7 x8 x9 x10 x11 W) :
    At5 x0 x1 x2 x3 x4 x5 x6 x7 x8 x9 x10 x11 (after chunk4 W) := by
  cases h
  run_step

set_option maxHeartbeats 16000000 in
set_option maxRecDepth 8192 in

theorem step5 {W : Valuation τ sig (Elt F)} (h : At5 x0 x1 x2 x3 x4 x5 x6 x7 x8 x9 x10 x11 W) :
    At6 x0 x1 x2 x3 x4 x5 x6 x7 x8 x9 x10 x11 (after chunk5 W) := by
  cases h
  run_step

set_option maxHeartbeats 16000000 in
set_option maxRecDepth 8192 in

theorem step6 {W : Valuation τ sig (Elt F)} (h : At6 x0 x1 x2 x3 x4 x5 x6 x7 x8 x9 x10 x11 W) :
    At7 x0 x1 x2 x3 x4 x5 x6 x7 x8 x9 x10 x11 (after chunk6 W) := by
  cases h
  run_step

end Cert.ReferenceIdeal.Hand

end
-- ==== Proof.Ref.RunStep2.lean ====
import proofs.«415738_j90726889161246_1_alg».proof.Proof.Ref.Run2
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step7 {W : Valuation τ sig (Elt F)} (h : At7 x0 x1 x2 x3 x4 x5 x6 x7 x8 x9 x10 x11 W) :
    At8 x0 x1 x2 x3 x4 x5 x6 x7 x8 x9 x10 x11 (after chunk7 W) := by
  cases h
  run_step

set_option maxHeartbeats 16000000 in
set_option maxRecDepth 8192 in

theorem step8 {W : Valuation τ sig (Elt F)} (h : At8 x0 x1 x2 x3 x4 x5 x6 x7 x8 x9 x10 x11 W) :
    At9 x0 x1 x2 x3 x4 x5 x6 x7 x8 x9 x10 x11 (after chunk8 W) := by
  cases h
  run_step

set_option maxHeartbeats 16000000 in
set_option maxRecDepth 8192 in

theorem step9 {W : Valuation τ sig (Elt F)} (h : At9 x0 x1 x2 x3 x4 x5 x6 x7 x8 x9 x10 x11 W) :
    At10 x0 x1 x2 x3 x4 x5 x6 x7 x8 x9 x10 x11 (after chunk9 W) := by
  cases h
  run_step

end Cert.ReferenceIdeal.Hand

end
-- ==== Proof.Ref.RunStep3.lean ====
import proofs.«415738_j90726889161246_1_alg».proof.Proof.Ref.Run3
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step10 {W : Valuation τ sig (Elt F)} (h : At10 x0 x1 x2 x3 x4 x5 x6 x7 x8 x9 x10 x11 W) :
    At11 x0 x1 x2 x3 x4 x5 x6 x7 x8 x9 x10 x11 (after chunk10 W) := by
  cases h
  run_step

set_option maxHeartbeats 16000000 in
set_option maxRecDepth 8192 in

theorem step11 {W : Valuation τ sig (Elt F)} (h : At11 x0 x1 x2 x3 x4 x5 x6 x7 x8 x9 x10 x11 W) :
    At12 x0 x1 x2 x3 x4 x5 x6 x7 x8 x9 x10 x11 (after chunk11 W) := by
  cases h
  run_step

set_option maxHeartbeats 16000000 in
set_option maxRecDepth 8192 in

theorem step12 {W : Valuation τ sig (Elt F)} (h : At12 x0 x1 x2 x3 x4 x5 x6 x7 x8 x9 x10 x11 W) :
    At13 x0 x1 x2 x3 x4 x5 x6 x7 x8 x9 x10 x11 (after chunk12 W) := by
  cases h
  run_step

end Cert.ReferenceIdeal.Hand

end
-- ==== Proof.Ref.RunStep4.lean ====
import proofs.«415738_j90726889161246_1_alg».proof.Proof.Ref.Run4
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step13 {W : Valuation τ sig (Elt F)} (h : At13 x0 x1 x2 x3 x4 x5 x6 x7 x8 x9 x10 x11 W) :
    At14 x0 x1 x2 x3 x4 x5 x6 x7 x8 x9 x10 x11 (after chunk13 W) := by
  cases h
  run_step

set_option maxHeartbeats 16000000 in
set_option maxRecDepth 8192 in

theorem step14 {W : Valuation τ sig (Elt F)} (h : At14 x0 x1 x2 x3 x4 x5 x6 x7 x8 x9 x10 x11 W) :
    At15 x0 x1 x2 x3 x4 x5 x6 x7 x8 x9 x10 x11 (after chunk14 W) := by
  cases h
  run_step

set_option maxHeartbeats 16000000 in
set_option maxRecDepth 8192 in

theorem step15 {W : Valuation τ sig (Elt F)} (h : At15 x0 x1 x2 x3 x4 x5 x6 x7 x8 x9 x10 x11 W) :
    At16 x0 x1 x2 x3 x4 x5 x6 x7 x8 x9 x10 x11 (after chunk15 W) := by
  cases h
  run_step

end Cert.ReferenceIdeal.Hand

end
-- ==== Proof.Ref.RunStep5.lean ====
import proofs.«415738_j90726889161246_1_alg».proof.Proof.Ref.Run5
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step16 {W : Valuation τ sig (Elt F)} (h : At16 x0 x1 x2 x3 x4 x5 x6 x7 x8 x9 x10 x11 W) :
    At17 x0 x1 x2 x3 x4 x5 x6 x7 x8 x9 x10 x11 (after chunk16 W) := by
  cases h
  run_step

set_option maxHeartbeats 16000000 in
set_option maxRecDepth 8192 in

theorem step17 {W : Valuation τ sig (Elt F)} (h : At17 x0 x1 x2 x3 x4 x5 x6 x7 x8 x9 x10 x11 W) :
    At18 x0 x1 x2 x3 x4 x5 x6 x7 x8 x9 x10 x11 (after chunk17 W) := by
  cases h
  run_step

set_option maxHeartbeats 16000000 in
set_option maxRecDepth 8192 in

theorem step18 {W : Valuation τ sig (Elt F)} (h : At18 x0 x1 x2 x3 x4 x5 x6 x7 x8 x9 x10 x11 W) :
    At19 x0 x1 x2 x3 x4 x5 x6 x7 x8 x9 x10 x11 (after chunk18 W) := by
  cases h
  run_step

set_option maxHeartbeats 16000000 in
set_option maxRecDepth 8192 in

theorem step19 {W : Valuation τ sig (Elt F)} (h : At19 x0 x1 x2 x3 x4 x5 x6 x7 x8 x9 x10 x11 W) :
    At20 x0 x1 x2 x3 x4 x5 x6 x7 x8 x9 x10 x11 (after chunk19 W) := by
  cases h
  run_step

end Cert.ReferenceIdeal.Hand

end
-- ==== Proof.Ref.RunStep6.lean ====
import proofs.«415738_j90726889161246_1_alg».proof.Proof.Ref.Run6
import proofs.«415738_j90726889161246_1_alg».proof.Proof.Ref.RunAt
import proofs.«415738_j90726889161246_1_alg».proof.Proof.Ref.RunTac

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable {x0 : (⟨S100000x256, .f32⟩ : BufTy).Contents (Elt F)} {x1 : (⟨S640000, .i32⟩ : BufTy).Contents (Elt F)} {x2 : (⟨S640000, .i32⟩ : BufTy).Contents (Elt F)} {x3 : (⟨S20000, .f32⟩ : BufTy).Contents (Elt F)} {x4 : (⟨S256x128, .f32⟩ : BufTy).Contents (Elt F)} {x5 : (⟨S128, .f32⟩ : BufTy).Contents (Elt F)} {x6 : (⟨S3x128, .f32⟩ : BufTy).Contents (Elt F)} {x7 : (⟨S3x128, .f32⟩ : BufTy).Contents (Elt F)} {x8 : (⟨S3x128x128, .f32⟩ : BufTy).Contents (Elt F)} {x9 : (⟨S3x128, .f32⟩ : BufTy).Contents (Elt F)} {x10 : (⟨S3x128x1, .f32⟩ : BufTy).Contents (Elt F)} {x11 : (⟨S3x1, .f32⟩ : BufTy).Contents (Elt F)}

set_option maxHeartbeats 16000000 in
set_option maxRecDepth 8192 in

theorem step20 {W : Valuation τ sig (Elt F)} (h : At20 x0 x1 x2 x3 x4 x5 x6 x7 x8 x9 x10 x11 W) :
    At21 x0 x1 x2 x3 x4 x5 x6 x7 x8 x9 x10 x11 (after chunk20 W) := by
  cases h
  run_step

set_option maxHeartbeats 16000000 in
set_option maxRecDepth 8192 in

theorem step21 {W : Valuation τ sig (Elt F)} (h : At21 x0 x1 x2 x3 x4 x5 x6 x7 x8 x9 x10 x11 W) :
    At22 x0 x1 x2 x3 x4 x5 x6 x7 x8 x9 x10 x11 (after chunk21 W) := by
  cases h
  run_step

set_option maxHeartbeats 16000000 in
set_option maxRecDepth 8192 in

theorem step22 {W : Valuation τ sig (Elt F)} (h : At22 x0 x1 x2 x3 x4 x5 x6 x7 x8 x9 x10 x11 W) :
    At23 x0 x1 x2 x3 x4 x5 x6 x7 x8 x9 x10 x11 (after chunk22 W) := by
  cases h
  run_step

end Cert.ReferenceIdeal.Hand

end
-- ==== Proof.Ref.RunVal.lean ====
import proofs.«415738_j90726889161246_1_alg».proof.Proof.Ref.Run
import proofs.«415738_j90726889161246_1_alg».proof.Proof.Ref.RunStep0
import proofs.«415738_j90726889161246_1_alg».proof.Proof.Ref.RunStep1
import proofs.«415738_j90726889161246_1_alg».proof.Proof.Ref.RunStep2
import proofs.«415738_j90726889161246_1_alg».proof.Proof.Ref.RunStep3
import proofs.«415738_j90726889161246_1_alg».proof.Proof.Ref.RunStep4
import proofs.«415738_j90726889161246_1_alg».proof.Proof.Ref.RunStep5
import proofs.«415738_j90726889161246_1_alg».proof.Proof.Ref.RunStep6
import Idealize.ShloMosaic.Lib.Pipeline.Frame

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

theorem after_ops (V : Valuation τ sig (Elt F)) :
    after ops V
      = after chunk22 (after chunk21 (after chunk20 (after chunk19 (after chunk18 (after chunk17 (after chunk16
        (after chunk15 (after chunk14 (after chunk13 (after chunk12 (after chunk11 (after chunk10 (after chunk9
        (after chunk8 (after chunk7 (after chunk6 (after chunk5 (after chunk4 (after chunk3 (after chunk2
        (after chunk1 (after chunk0 V)))))))))))))))))))))) := by
  simp only [ops, StableHlo.after_append]

theorem after_ops_at
    {x0 : (⟨S100000x256, .f32⟩ : BufTy).Contents (Elt F)} {x1 x2 : (⟨S640000, .i32⟩ : BufTy).Contents (Elt F)}
    {x3 : (⟨S20000, .f32⟩ : BufTy).Contents (Elt F)} {x4 : (⟨S256x128, .f32⟩ : BufTy).Contents (Elt F)}
    {x5 : (⟨S128, .f32⟩ : BufTy).Contents (Elt F)} {x6 x7 : (⟨S3x128, .f32⟩ : BufTy).Contents (Elt F)}
    {x8 : (⟨S3x128x128, .f32⟩ : BufTy).Contents (Elt F)} {x9 : (⟨S3x128, .f32⟩ : BufTy).Contents (Elt F)}
    {x10 : (⟨S3x128x1, .f32⟩ : BufTy).Contents (Elt F)} {x11 : (⟨S3x1, .f32⟩ : BufTy).Contents (Elt F)}
    {V : Valuation τ sig (Elt F)} (h : At0 x0 x1 x2 x3 x4 x5 x6 x7 x8 x9 x10 x11 V) :
    At23 x0 x1 x2 x3 x4 x5 x6 x7 x8 x9 x10 x11 (after ops V) := by
  rw [after_ops]
  exact step22 (step21 (step20 (step19 (step18 (step17 (step16 (step15 (step14 (step13 (step12 (step11 (step10
    (step9 (step8 (step7 (step6 (step5 (step4 (step3 (step2 (step1 (step0 h))))))))))))))))))))))

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v321)
          = val_main_v321 (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      have hA := after_ops_at (F := F) (V := launchContents m c)
        (x0 := m ((c.tc : Thread nD τ).loc main_arg0)) (x1 := m ((c.tc : Thread nD τ).loc main_arg1))
        (x2 := m ((c.tc : Thread nD τ).loc main_arg2)) (x3 := m ((c.tc : Thread nD τ).loc main_arg3))
        (x4 := m ((c.tc : Thread nD τ).loc main_arg4)) (x5 := m ((c.tc : Thread nD τ).loc main_arg5))
        (x6 := m ((c.tc : Thread nD τ).loc main_arg6)) (x7 := m ((c.tc : Thread nD τ).loc main_arg7))
        (x8 := m ((c.tc : Thread nD τ).loc main_arg8)) (x9 := m ((c.tc : Thread nD τ).loc main_arg9))
        (x10 := m ((c.tc : Thread nD τ).loc main_arg10)) (x11 := m ((c.tc : Thread nD τ).loc main_arg11))
        ⟨rfl, rfl, rfl, rfl, rfl, rfl, rfl, rfl, rfl, rfl, rfl, rfl⟩
      exact ⟨(h c main_v321).trans hA.v321, (h c main_arg0).trans hA.arg0, (h c main_arg1).trans hA.arg1,
        (h c main_arg2).trans hA.arg2, (h c main_arg3).trans hA.arg3, (h c main_arg4).trans hA.arg4,
        (h c main_arg5).trans hA.arg5, (h c main_arg6).trans hA.arg6, (h c main_arg7).trans hA.arg7,
        (h c main_arg8).trans hA.arg8, (h c main_arg9).trans hA.arg9, (h c main_arg10).trans hA.arg10,
        (h c main_arg11).trans hA.arg11⟩)
    (run_fold m ρ)

end Cert.ReferenceIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Mat (n k : Nat) : Type := (⟨2, ![n, k]⟩ : Shape).Idx → EReal

def IsReal {s : Shape} (x : s.Idx → EReal) : Prop := ∀ i, ∃ r : ℝ, x i = (r : EReal)

abbrev wZero : EReal := Ideal.ofBits .f32 0x00000000#32
abbrev wRows : EReal := Ideal.ofBits .f32 0x47C35000#32
abbrev wEps : EReal := Ideal.ofBits .f32 0x3727C5AC#32
abbrev wTwo : EReal := Ideal.ofBits .f32 0x40000000#32

def row1 (b : (⟨1, ![128]⟩ : Shape).Idx → EReal) : Mat 1 128 := fun i => b (ix1 (i 1))

def rowOf3 (g : Mat 3 128) (l : Fin 3) : Mat 1 128 := fun i => g (ix2 l (i 1))

def matOf3 (W : (⟨3, ![3, 128, 128]⟩ : Shape).Idx → EReal) (l : Fin 3) : Mat 128 128 := fun i => W (ix3 l (i 0) (i 1))

def linUpAt (X : Mat 100000 256) (W : Mat 256 128) (b : Mat 1 128) (r : Fin 100000) (j : Fin 128) : EReal :=
  max ((∑ k : Fin 256, X (ix2 r k) * W (ix2 k j)) + b (ix2 0 j)) wZero

def linUp (X : Mat 100000 256) (W : Mat 256 128) (b : Mat 1 128) : Mat 100000 128 :=
  fun i => linUpAt X W b (i 0) (i 1)

def colSum (x : Mat 100000 128) (j : Fin 128) : EReal := ∑ r : Fin 100000, x (ix2 r j)

def colSqSum (x : Mat 100000 128) (j : Fin 128) : EReal := ∑ r : Fin 100000, x (ix2 r j) * x (ix2 r j)

def colMean (x : Mat 100000 128) : Mat 1 128 := fun i => Ideal.div (colSum x (i 1)) wRows

def colVar (x : Mat 100000 128) : Mat 1 128 :=
  fun i => Ideal.div (colSqSum x (i 1)) wRows - colMean x (ix2 0 (i 1)) * colMean x (ix2 0 (i 1))

def colVarDev (x : Mat 100000 128) : Mat 1 128 :=
  fun i => Ideal.div (∑ r : Fin 100000, (x (ix2 r (i 1)) - colMean x (ix2 0 (i 1))) * (x (ix2 r (i 1)) - colMean x (ix2 0 (i 1)))) wRows

def bnAt (x : Mat 100000 128) (mean var gamma beta : Mat 1 128) (r : Fin 100000) (k : Fin 128) : EReal :=
  (x (ix2 r k) - mean (ix2 0 k)) * Ideal.rsqrt (var (ix2 0 k) + wEps) * gamma (ix2 0 k) + beta (ix2 0 k)

def bnMatmulAt (x : Mat 100000 128) (mean var gamma beta : Mat 1 128) (W : Mat 128 128) (r : Fin 100000) (j : Fin 128) : EReal :=
  ∑ k : Fin 128, bnAt x mean var gamma beta r k * W (ix2 k j)

def bnMatmul (x : Mat 100000 128) (mean var gamma beta : Mat 1 128) (W : Mat 128 128) : Mat 100000 128 :=
  fun i => bnMatmulAt x mean var gamma beta W (i 0) (i 1)

def gateResidAt (out x : Mat 100000 128) (logit : Mat 100000 1) (r : Fin 100000) (j : Fin 128) : EReal :=
  x (ix2 r j) + max (out (ix2 r j)) wZero * Ideal.logistic (logit (ix2 r 0))

def gateResid (out x : Mat 100000 128) (logit : Mat 100000 1) : Mat 100000 128 :=
  fun i => gateResidAt out x logit (i 0) (i 1)

def finalizeAt (x idn : Mat 100000 128) (r : Fin 100000) (j : Fin 128) : EReal :=
  wTwo * x (ix2 r j) + idn (ix2 r j)

def finalize (x idn : Mat 100000 128) : Mat 100000 128 :=
  fun i => finalizeAt x idn (i 0) (i 1)

end Cert.Spec

end
-- ==== Proof.SpecLemmas.lean ====
import proofs.«415738_j90726889161246_1_alg».proof.Proof.Spec

noncomputable section

open scoped BigOperators

namespace Cert.Spec

open Idealize.ShloMosaic Idealize.ShloMosaic.ValueIdx

theorem wZero_eq : wZero = 0 := by
  simp [Ideal.ofBits, Ideal.ieee]

theorem wRows_eq : wRows = ((100000 : ℝ) : EReal) := by
  simp [Ideal.ofBits, Ideal.ieee, -EReal.coe_mul]; norm_num

theorem wTwo_eq : wTwo = ((2 : ℝ) : EReal) := by
  simp [Ideal.ofBits, Ideal.ieee, -EReal.coe_mul]; norm_num

theorem wEps_pos : ∃ e : ℝ, 0 < e ∧ wEps = (e : EReal) := by
  refine ⟨10995116 * (2 : ℝ) ^ (-40 : ℤ), by positivity, ?_⟩
  simp [Ideal.ofBits, Ideal.ieee, -EReal.coe_mul]

def IsR (a : EReal) : Prop := ∃ r : ℝ, a = (r : EReal)

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rw [max_eq_right h]; exact hb
  · rw [max_eq_left h]; exact ha

theorem isR_wZero : IsR wZero := ⟨0, wZero_eq.trans EReal.coe_zero.symm⟩

theorem coe_sum {ι : Type} (s : Finset ι) (g : ι → ℝ) :
    (∑ i ∈ s, ((g i : ℝ) : EReal)) = ((∑ i ∈ s, g i : ℝ) : EReal) := by
  classical
  induction s using Finset.induction_on with
  | empty => rw [Finset.sum_empty, Finset.sum_empty, EReal.coe_zero]
  | insert a s ha ih => rw [Finset.sum_insert ha, Finset.sum_insert ha, ih, EReal.coe_add]

theorem IsR.sum {ι : Type} (s : Finset ι) (f : ι → EReal) (h : ∀ i ∈ s, IsR (f i)) : IsR (∑ i ∈ s, f i) := by
  classical
  induction s using Finset.induction_on with
  | empty => exact ⟨0, by rw [Finset.sum_empty, EReal.coe_zero]⟩
  | insert a s ha ih =>
    rw [Finset.sum_insert ha]
    exact IsR.add (h a (Finset.mem_insert_self a s)) (ih fun i hi => h i (Finset.mem_insert_of_mem hi))

theorem div_rows_coe (s : ℝ) : Ideal.div (s : EReal) wRows = ((s / 100000 : ℝ) : EReal) := by
  rw [wRows_eq, Ideal.div_coe (by norm_num : (100000 : ℝ) ≠ 0), ← EReal.coe_mul, mul_one_div]

theorem IsR.logistic {a : EReal} (ha : IsR a) : IsR (Ideal.logistic a) := by
  obtain ⟨r, rfl⟩ := ha; exact ⟨_, Ideal.logistic_coe r⟩

theorem IsR.rsqrt_add_eps {v : EReal} (hv : IsR v) (h0 : 0 ≤ v) : IsR (Ideal.rsqrt (v + wEps)) := by
  obtain ⟨r, rfl⟩ := hv
  obtain ⟨e, he, hw⟩ := wEps_pos
  have hr : 0 ≤ r := EReal.coe_nonneg.1 h0
  have hpos : 0 < r + e := by linarith
  rw [hw, ← EReal.coe_add, Ideal.rsqrt_coe, if_neg (not_lt.2 hpos.le), if_neg hpos.ne']
  exact ⟨_, rfl⟩

section Stats

variable {x : Mat 100000 128} {a : (⟨2, ![100000, 128]⟩ : Shape).Idx → ℝ}

theorem colSum_coe (ha : ∀ i, x i = ((a i : ℝ) : EReal)) (j : Fin 128) :
    colSum x j = ((∑ r : Fin 100000, a (ix2 r j) : ℝ) : EReal) := by
  unfold colSum; simp only [ha]; exact coe_sum _ _

theorem colSqSum_coe (ha : ∀ i, x i = ((a i : ℝ) : EReal)) (j : Fin 128) :
    colSqSum x j = ((∑ r : Fin 100000, a (ix2 r j) * a (ix2 r j) : ℝ) : EReal) := by
  unfold colSqSum; simp only [ha, ← EReal.coe_mul]; exact coe_sum _ _

theorem colMean_coe (ha : ∀ i, x i = ((a i : ℝ) : EReal)) (a0 : Fin 1) (j : Fin 128) :
    colMean x (ix2 a0 j) = (((∑ r : Fin 100000, a (ix2 r j)) / 100000 : ℝ) : EReal) := by
  show Ideal.div (colSum x j) wRows = _
  rw [colSum_coe ha, div_rows_coe]

theorem colVar_coe (ha : ∀ i, x i = ((a i : ℝ) : EReal)) (a0 : Fin 1) (j : Fin 128) :
    colVar x (ix2 a0 j) = (((∑ r : Fin 100000, a (ix2 r j) * a (ix2 r j)) / 100000
      - (∑ r : Fin 100000, a (ix2 r j)) / 100000 * ((∑ r : Fin 100000, a (ix2 r j)) / 100000) : ℝ) : EReal) := by
  show Ideal.div (colSqSum x j) wRows - colMean x (ix2 0 j) * colMean x (ix2 0 j) = _
  rw [colSqSum_coe ha, div_rows_coe, colMean_coe ha, ← EReal.coe_mul, ← EReal.coe_sub]

theorem colVarDev_coe (ha : ∀ i, x i = ((a i : ℝ) : EReal)) (a0 : Fin 1) (j : Fin 128) :
    colVarDev x (ix2 a0 j) = (((∑ r : Fin 100000, (a (ix2 r j) - (∑ r : Fin 100000, a (ix2 r j)) / 100000)
      * (a (ix2 r j) - (∑ r : Fin 100000, a (ix2 r j)) / 100000)) / 100000 : ℝ) : EReal) := by
  show Ideal.div (∑ r : Fin 100000, (x (ix2 r j) - colMean x (ix2 0 j)) * (x (ix2 r j) - colMean x (ix2 0 j))) wRows
    = _
  rw [colMean_coe ha]; simp only [ha, ← EReal.coe_sub, ← EReal.coe_mul]
  rw [coe_sum, div_rows_coe]

end Stats

theorem var_identity {ι : Type} [Fintype ι] (N : ℝ) (hN : (Fintype.card ι : ℝ) = N) (hN0 : N ≠ 0) (a : ι → ℝ) :
    (∑ r, a r * a r) / N - (∑ r, a r) / N * ((∑ r, a r) / N)
      = (∑ r, (a r - (∑ r, a r) / N) * (a r - (∑ r, a r) / N)) / N := by
  have h : (∑ r, (a r - (∑ r, a r) / N) * (a r - (∑ r, a r) / N))
      = (∑ r, a r * a r) - 2 * ((∑ r, a r) / N) * (∑ r, a r) + N * ((∑ r, a r) / N * ((∑ r, a r) / N)) := by
    have e : ∀ r, (a r - (∑ r, a r) / N) * (a r - (∑ r, a r) / N)
        = a r * a r - 2 * ((∑ r, a r) / N) * a r + (∑ r, a r) / N * ((∑ r, a r) / N) := fun r => by ring
    simp only [e]
    rw [Finset.sum_add_distrib, Finset.sum_sub_distrib, ← Finset.mul_sum, Finset.sum_const, Finset.card_univ,
      nsmul_eq_mul, hN]
  rw [h]; field_simp; ring

theorem colVar_eq_colVarDev {x : Mat 100000 128} (hx : IsReal x) : colVar x = colVarDev x := by
  choose a ha using hx
  funext i
  obtain ⟨a0, j, rfl⟩ : ∃ a0 j, i = ix2 a0 j := ⟨_, _, eq_ix2 i⟩
  rw [colVar_coe ha, colVarDev_coe ha]
  exact congrArg _ (var_identity (100000 : ℝ) (by rw [Fintype.card_fin]; norm_num) (by norm_num) fun r => a (ix2 r j))

theorem linUp_isReal {X : Mat 100000 256} {W : Mat 256 128} {b : Mat 1 128} (hX : IsReal X) (hW : IsReal W)
    (hb : IsReal b) : IsReal (linUp X W b) := by
  intro i
  show IsR (linUpAt X W b (i 0) (i 1))
  unfold linUpAt
  exact IsR.max (IsR.add (IsR.sum _ _ fun k _ => IsR.mul (hX _) (hW _)) (hb _)) isR_wZero

theorem colMean_isReal {x : Mat 100000 128} (hx : IsReal x) : IsReal (colMean x) := by
  choose a ha using hx
  intro i
  obtain ⟨a0, j, rfl⟩ : ∃ a0 j, i = ix2 a0 j := ⟨_, _, eq_ix2 i⟩
  exact ⟨_, colMean_coe ha a0 j⟩

theorem colVarDev_isReal {x : Mat 100000 128} (hx : IsReal x) : IsReal (colVarDev x) := by
  choose a ha using hx
  intro i
  obtain ⟨a0, j, rfl⟩ : ∃ a0 j, i = ix2 a0 j := ⟨_, _, eq_ix2 i⟩
  exact ⟨_, colVarDev_coe ha a0 j⟩

theorem colVarDev_nonneg {x : Mat 100000 128} (hx : IsReal x) (i : (⟨2, ![1, 128]⟩ : Shape).Idx) :
    0 ≤ colVarDev x i := by
  choose a ha using hx
  obtain ⟨a0, j, rfl⟩ : ∃ a0 j, i = ix2 a0 j := ⟨_, _, eq_ix2 i⟩
  rw [colVarDev_coe ha]
  exact EReal.coe_nonneg.2 (div_nonneg (Finset.sum_nonneg fun _ _ => mul_self_nonneg _) (by norm_num))

theorem bnMatmul_isReal {x : Mat 100000 128} {mean var gamma beta : Mat 1 128} {W : Mat 128 128} (hx : IsReal x)
    (hm : IsReal mean) (hv : IsReal var) (hv0 : ∀ i, 0 ≤ var i) (hg : IsReal gamma) (hb : IsReal beta)
    (hW : IsReal W) : IsReal (bnMatmul x mean var gamma beta W) := by
  intro i
  show IsR (bnMatmulAt x mean var gamma beta W (i 0) (i 1))
  unfold bnMatmulAt bnAt
  exact IsR.sum _ _ fun k _ =>
    IsR.mul (IsR.add (IsR.mul (IsR.mul (IsR.sub (hx _) (hm _)) (IsR.rsqrt_add_eps (hv _) (hv0 _))) (hg _)) (hb _)) (hW _)

theorem gateResid_isReal {out x : Mat 100000 128} {logit : Mat 100000 1} (hout : IsReal out) (hx : IsReal x)
    (hl : IsReal logit) : IsReal (gateResid out x logit) := by
  intro i
  show IsR (gateResidAt out x logit (i 0) (i 1))
  unfold gateResidAt
  exact IsR.add (hx _) (IsR.mul (IsR.max (hout _) isR_wZero) (IsR.logistic (hl _)))

theorem row1_isReal {b : (⟨1, ![128]⟩ : Shape).Idx → EReal} (hb : IsReal b) : IsReal (row1 b) := fun _ => hb _

theorem rowOf3_isReal {g : Mat 3 128} (hg : IsReal g) (l : Fin 3) : IsReal (rowOf3 g l) := fun _ => hg _

theorem matOf3_isReal {W : (⟨3, ![3, 128, 128]⟩ : Shape).Idx → EReal} (hW : IsReal W) (l : Fin 3) :
    IsReal (matOf3 W l) := fun _ => hW _

theorem wTwo_mul (x : EReal) : wTwo * x = x + x := by
  rw [wTwo_eq]
  induction x with
  | bot => rw [EReal.coe_mul_bot_of_pos (by norm_num), EReal.bot_add]
  | top => rw [EReal.coe_mul_top_of_pos (by norm_num), EReal.top_add_top]
  | coe r => rw [← EReal.coe_mul, ← EReal.coe_add, two_mul]

theorem wTwo_mul_add (x y : EReal) : wTwo * x + y = (x + y) + x := by
  rw [wTwo_mul, add_right_comm]

end Cert.Spec

end
-- ==== Proof.Net.lean ====
import proofs.«415738_j90726889161246_1_alg».proof.Proof.Spec
import proofs.«415738_j90726889161246_1_alg».proof.Proof.SpecLemmas

noncomputable section

namespace Cert.Net

open Idealize.ShloMosaic Idealize.ShloMosaic.ValueIdx Cert.Spec

structure Outside where
  conv : Fin 3 → Mat 100000 128 → Mat 100000 128
  logit : Fin 3 → Mat 100000 128 → Mat 100000 1

structure Params where
  gamma : Fin 3 → Mat 1 128
  beta : Fin 3 → Mat 1 128
  W : Fin 3 → Mat 128 128

def stepK (o : Outside) (p : Params) (l : Fin 3) (x : Mat 100000 128) : Mat 100000 128 :=
  gateResid (o.conv l (bnMatmul x (colMean x) (colVar x) (p.gamma l) (p.beta l) (p.W l))) x (o.logit l x)

def stepR (o : Outside) (p : Params) (l : Fin 3) (x : Mat 100000 128) : Mat 100000 128 :=
  gateResid (o.conv l (bnMatmul x (colMean x) (colVarDev x) (p.gamma l) (p.beta l) (p.W l))) x (o.logit l x)

def netK (o : Outside) (p : Params) (x0 : Mat 100000 128) : Mat 100000 128 :=
  finalize (stepK o p 2 (stepK o p 1 (stepK o p 0 x0))) x0

def netR (o : Outside) (p : Params) (x0 : Mat 100000 128) : Mat 100000 128 :=
  fun i => (stepR o p 2 (stepR o p 1 (stepR o p 0 x0)) i + x0 i) + stepR o p 2 (stepR o p 1 (stepR o p 0 x0)) i

theorem stepK_eq_stepR (o : Outside) (p : Params) (l : Fin 3) (x : Mat 100000 128) (hx : IsReal x) :
    stepK o p l x = stepR o p l x := by
  unfold stepK stepR; rw [colVar_eq_colVarDev hx]

theorem stepR_isReal (o : Outside) (p : Params)
    (hp : ∀ l, IsReal (p.gamma l) ∧ IsReal (p.beta l) ∧ IsReal (p.W l))
    (hconv : ∀ l y, IsReal y → IsReal (o.conv l y)) (hlogit : ∀ l x, IsReal x → IsReal (o.logit l x))
    (l : Fin 3) (x : Mat 100000 128) (hx : IsReal x) : IsReal (stepR o p l x) :=
  gateResid_isReal
    (hconv l _ (bnMatmul_isReal hx (colMean_isReal hx) (colVarDev_isReal hx) (colVarDev_nonneg hx) (hp l).1 (hp l).2.1
      (hp l).2.2))
    hx (hlogit l x hx)

theorem net_eq (o : Outside) (p : Params) (x0 : Mat 100000 128) (hx0 : IsReal x0)
    (hp : ∀ l, IsReal (p.gamma l) ∧ IsReal (p.beta l) ∧ IsReal (p.W l))
    (hconv : ∀ l y, IsReal y → IsReal (o.conv l y)) (hlogit : ∀ l x, IsReal x → IsReal (o.logit l x)) :
    netK o p x0 = netR o p x0 := by
  have r0 := stepR_isReal o p hp hconv hlogit 0 x0 hx0
  have r1 := stepR_isReal o p hp hconv hlogit 1 _ r0
  have e0 := stepK_eq_stepR o p 0 x0 hx0
  have e1 := stepK_eq_stepR o p 1 _ r0
  have e2 := stepK_eq_stepR o p 2 _ r1
  funext i
  obtain ⟨a, b, rfl⟩ : ∃ a b, i = ix2 a b := ⟨_, _, eq_ix2 i⟩
  unfold netK netR
  rw [e0, e1, e2]
  exact wTwo_mul_add _ _

end Cert.Net

end
-- ==== Proof.Ref.Defs.lean ====
import proofs.«415738_j90726889161246_1_alg».proof.Proof.Gen.ReferenceIdeal
import proofs.«415738_j90726889161246_1_alg».proof.Proof.Spec
import proofs.«415738_j90726889161246_1_alg».proof.Proof.Net

noncomputable section

namespace Cert.ReferenceIdeal.Hand

open Cert.ReferenceIdeal Cert.ReferenceIdeal.Gen Idealize.ShloMosaic Idealize.ShloMosaic.TcCoe Idealize.SL.Sem Idealize.ShloMosaic.StableHlo

def dinvR (ni ei : IVec S640000 32) (hw : FVec Ideal S20000 .f32) : FVec Ideal S100000 .f32 :=
  select (cmpf (F := Ideal) .ogt (Host.scatterAdd (F := Ideal) scatter_S100000_S640000x1_S640000_n_0_0_1 (broadcastInDim S100000 ![] bcast_S_S100000 (constant (F := Ideal) S_ .f32 0x00000000#32)) (broadcastInDim S640000x1 ![0] bcast_S640000_S640000x1_0 ni) (Host.gather gather_S20000_S640000x1_S640000_n_0_n_n_0_1_1 hw (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000 ![] bcast_S_S100000 (constant (F := Ideal) S_ .f32 0x00000000#32))) (Host.divf (F := Ideal) (broadcastInDim S100000 ![] bcast_S_S100000 (constant (F := Ideal) S_ .f32 0x3F800000#32)) (Host.scatterAdd (F := Ideal) scatter_S100000_S640000x1_S640000_n_0_0_1 (broadcastInDim S100000 ![] bcast_S_S100000 (constant (F := Ideal) S_ .f32 0x00000000#32)) (broadcastInDim S640000x1 ![0] bcast_S640000_S640000x1_0 ni) (Host.gather gather_S20000_S640000x1_S640000_n_0_n_n_0_1_1 hw (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei))))) (broadcastInDim S100000 ![] bcast_S_S100000 (id (constant (F := Ideal) S_ .f32 0x00000000#32)))

def binvR (ei : IVec S640000 32) : FVec Ideal S20000 .f32 :=
  select (cmpf (F := Ideal) .ogt (Host.scatterAdd (F := Ideal) scatter_S20000_S640000x1_S640000_n_0_0_1 (broadcastInDim S20000 ![] bcast_S_S20000 (constant (F := Ideal) S_ .f32 0x00000000#32)) (broadcastInDim S640000x1 ![0] bcast_S640000_S640000x1_0 ei) (broadcastInDim S640000 ![] bcast_S_S640000 (constant (F := Ideal) S_ .f32 0x3F800000#32))) (broadcastInDim S20000 ![] bcast_S_S20000 (constant (F := Ideal) S_ .f32 0x00000000#32))) (Host.divf (F := Ideal) (broadcastInDim S20000 ![] bcast_S_S20000 (constant (F := Ideal) S_ .f32 0x3F800000#32)) (Host.scatterAdd (F := Ideal) scatter_S20000_S640000x1_S640000_n_0_0_1 (broadcastInDim S20000 ![] bcast_S_S20000 (constant (F := Ideal) S_ .f32 0x00000000#32)) (broadcastInDim S640000x1 ![0] bcast_S640000_S640000x1_0 ei) (broadcastInDim S640000 ![] bcast_S_S640000 (constant (F := Ideal) S_ .f32 0x3F800000#32)))) (broadcastInDim S20000 ![] bcast_S_S20000 (id (constant (F := Ideal) S_ .f32 0x00000000#32)))

def convR (l : Fin 3) (ni ei : IVec S640000 32) (binv : FVec Ideal S20000 .f32) (dinv : FVec Ideal S100000 .f32) (bc : FVec Ideal S3x128 .f32)
    (xw : FVec Ideal S100000x128 .f32) : FVec Ideal S100000x128 .f32 :=
  match l with
  | 0 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast _ (extractStridedSlice S1x128 ![0, 0] bc slices_S3x128_S1x128_0_0) shapeCasts_S1x128_S128)))
  | 1 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast _ (extractStridedSlice S1x128 ![1, 0] bc slices_S3x128_S1x128_1_0) shapeCasts_S1x128_S128)))
  | 2 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast _ (extractStridedSlice S1x128 ![2, 0] bc slices_S3x128_S1x128_2_0) shapeCasts_S1x128_S128)))

def logitR (l : Fin 3) (wg : FVec Ideal S3x128x1 .f32) (bg : FVec Ideal S3x1 .f32) (x : FVec Ideal S100000x128 .f32) : FVec Ideal S100000x1 .f32 :=
  match l with
  | 0 => addf (F := Ideal) (Host.dotGeneral (F := Ideal) dot_S100000x128_S128x1_S100000x1_1_0_0_1_n_n none x (shapeCast _ (extractStridedSlice S1x128x1 ![0, 0, 0] wg slices_S3x128x1_S1x128x1_0_0_0) shapeCasts_S1x128x1_S128x1)) (broadcastInDim S100000x1 ![0, 1] bcast_S1x1_S100000x1_0_1 (broadcastInDim S1x1 ![1] bcast_S1_S1x1_1 (shapeCast _ (extractStridedSlice S1x1 ![0, 0] bg slices_S3x1_S1x1_0_0) shapeCasts_S1x1_S1)))
  | 1 => addf (F := Ideal) (Host.dotGeneral (F := Ideal) dot_S100000x128_S128x1_S100000x1_1_0_0_1_n_n none x (shapeCast _ (extractStridedSlice S1x128x1 ![1, 0, 0] wg slices_S3x128x1_S1x128x1_1_0_0) shapeCasts_S1x128x1_S128x1)) (broadcastInDim S100000x1 ![0, 1] bcast_S1x1_S100000x1_0_1 (broadcastInDim S1x1 ![1] bcast_S1_S1x1_1 (shapeCast _ (extractStridedSlice S1x1 ![1, 0] bg slices_S3x1_S1x1_1_0) shapeCasts_S1x1_S1)))
  | 2 => addf (F := Ideal) (Host.dotGeneral (F := Ideal) dot_S100000x128_S128x1_S100000x1_1_0_0_1_n_n none x (shapeCast _ (extractStridedSlice S1x128x1 ![2, 0, 0] wg slices_S3x128x1_S1x128x1_2_0_0) shapeCasts_S1x128x1_S128x1)) (broadcastInDim S100000x1 ![0, 1] bcast_S1x1_S100000x1_0_1 (broadcastInDim S1x1 ![1] bcast_S1_S1x1_1 (shapeCast _ (extractStridedSlice S1x1 ![2, 0] bg slices_S3x1_S1x1_2_0) shapeCasts_S1x1_S1)))

def paramsR (g b : FVec Ideal S3x128 .f32) (w : FVec Ideal S3x128x128 .f32) : Cert.Net.Params :=
  ⟨fun l => Cert.Spec.rowOf3 g l, fun l => Cert.Spec.rowOf3 b l, fun l => Cert.Spec.matOf3 w l⟩

def outsideR (ni ei : IVec S640000 32) (hw : FVec Ideal S20000 .f32) (bc : FVec Ideal S3x128 .f32) (wg : FVec Ideal S3x128x1 .f32)
    (bg : FVec Ideal S3x1 .f32) : Cert.Net.Outside :=
  ⟨fun l y => convR l ni ei (binvR ei) (dinvR ni ei hw) bc y, fun l x => logitR l wg bg x⟩

end Cert.ReferenceIdeal.Hand

end
-- ==== Proof.Ref.Norm.lean ====
import proofs.«415738_j90726889161246_1_alg».proof.Proof.Ref.Read
import proofs.«415738_j90726889161246_1_alg».proof.Proof.Spec

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

def rowB (v : FVec Ideal S128 .f32) : FVec Ideal S100000x128 .f32 :=
  broadcastInDim S100000x128 ![0, 1] bcast_S1x128_S100000x128_0_1 (broadcastInDim S1x128 ![1] bcast_S128_S1x128_1 v)

def meanT (x : FVec Ideal S100000x128 .f32) : FVec Ideal S128 .f32 :=
  Host.divf (F := Ideal) (Host.reduceAdd (F := Ideal) x (constant (F := Ideal) S_ .f32 0x00000000#32) reducesTo_S100000x128_S128_d0 h_S_)
    (broadcastInDim S128 ![] bcast_S_S128 (constant (F := Ideal) S_ .f32 0x47C35000#32))

def varT (x : FVec Ideal S100000x128 .f32) : FVec Ideal S128 .f32 :=
  Host.divf (F := Ideal) (Host.reduceAdd (F := Ideal) (mulf (F := Ideal) (subf (F := Ideal) x (rowB (meanT x))) (subf (F := Ideal) x (rowB (meanT x))))
      (constant (F := Ideal) S_ .f32 0x00000000#32) reducesTo_S100000x128_S128_d0 h_S_)
    (broadcastInDim S128 ![] bcast_S_S128 (constant (F := Ideal) S_ .f32 0x47C35000#32))

def normT (x : FVec Ideal S100000x128 .f32) (g b : FVec Ideal S128 .f32) : FVec Ideal S100000x128 .f32 :=
  addf (F := Ideal) (mulf (F := Ideal) (mulf (F := Ideal) (subf (F := Ideal) x (rowB (meanT x)))
      (rowB (Host.rsqrt (F := Ideal) (addf (F := Ideal) (varT x) (broadcastInDim S128 ![] bcast_S_S128 (constant (F := Ideal) S_ .f32 0x3727C5AC#32))))))
      (rowB g)) (rowB b)

def bnTerm (x : FVec Ideal S100000x128 .f32) (g b : FVec Ideal S128 .f32) (W : FVec Ideal S128x128 .f32) :
    FVec Ideal S100000x128 .f32 :=
  Host.dotGeneral (F := Ideal) dot_S100000x128_S128x128_S100000x128_1_0_0_1_n_n none (normT x g b) W

theorem rowB_apply (v : FVec Ideal S128 .f32) (r : Fin 100000) (k : Fin 128) : rowB v (ix2 r k) = v (ix1 k) := by
  unfold rowB
  refine (broadcastInDim_apply _ bcast_S1x128_S100000x128_0_1 _ (ix2 r k) (ix2 0 k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ bcast_S128_S1x128_1 v (ix2 0 k) (ix1 k) (fun a => match a with
    | ⟨0, _⟩ => by show k.val = if (128 : Nat) = 1 then 0 else k.val; rw [if_neg (by decide)])

theorem word128_apply (w : BitVec 32) (j : S128.Idx) :
    broadcastInDim S128 ![] bcast_S_S128 (constant (F := Ideal) S_ .f32 w) j = Ideal.ofBits .f32 w :=
  (broadcastInDim_apply _ bcast_S_S128 (constant (F := Ideal) S_ .f32 w) j (fun a => a.elim0) (fun a => a.elim0)).trans rfl

theorem colRed_apply (y : FVec Ideal S100000x128 .f32) (k : Fin 128) :
    Host.reduceAdd (F := Ideal) y (constant (F := Ideal) S_ .f32 0x00000000#32) reducesTo_S100000x128_S128_d0 h_S_ (ix1 k)
      = ∑ r : Fin 100000, y (ix2 r k) := by
  simp only [Host.reduceAdd, Ideal.hostReduceAdd_def]
  rw [Ideal.hostReduceAdd_single reducesTo_S100000x128_S128_d0 (by decide)]
  refine Eq.trans (b := Ideal.ofBits .f32 0x00000000#32 + ∑ r : Fin 100000, y (ix2 r k)) ?_
    (by rw [Ideal.ofBits_zero_f32, zero_add])
  refine congrArg (_ + ·) (Finset.sum_congr rfl fun r _ => ?_)
  exact congrArg y (funext fun a => Fin.ext (by match a with | ⟨0, _⟩ => rfl | ⟨1, _⟩ => rfl))

theorem dot128_apply (A : FVec Ideal S100000x128 .f32) (B : FVec Ideal S128x128 .f32) (r : Fin 100000) (c : Fin 128) :
    Host.dotGeneral (F := Ideal) dot_S100000x128_S128x128_S100000x128_1_0_0_1_n_n none A B (ix2 r c) = ∑ k : Fin 128, A (ix2 r k) * B (ix2 k c) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r c) ((ValueIdx.contrEquiv1 dot_S100000x128_S128x128_S100000x128_1_0_0_1_n_n 128 rfl rfl).symm k) = ix2 r k := funext fun a => Fin.ext (by
    match a with
    | ⟨0, _⟩ => exact ReadP.lhs_main_v38_0 _ _
    | ⟨1, _⟩ => exact (ReadP.lhs_main_v38_1 _ _).trans hk)
  have er : dot_S100000x128_S128x128_S100000x128_1_0_0_1_n_n.rhsIdx (ix2 r c) ((ValueIdx.contrEquiv1 dot_S100000x128_S128x128_S100000x128_1_0_0_1_n_n 128 rfl rfl).symm k) = ix2 k c := funext fun a => Fin.ext (by
    match a with
    | ⟨0, _⟩ => exact (ReadP.rhs_main_v38_0 _ _).trans hk
    | ⟨1, _⟩ => exact ReadP.rhs_main_v38_1 _ _)
  rw [el, er]

theorem meanT_apply (x : FVec Ideal S100000x128 .f32) (k : Fin 128) : meanT x (ix1 k) = Cert.Spec.colMean x (ix2 0 k) := by
  show Ideal.div (Host.reduceAdd (F := Ideal) x (constant (F := Ideal) S_ .f32 0x00000000#32) reducesTo_S100000x128_S128_d0 h_S_ (ix1 k))
      (broadcastInDim S128 ![] bcast_S_S128 (constant (F := Ideal) S_ .f32 0x47C35000#32) (ix1 k))
    = Ideal.div (∑ r : Fin 100000, x (ix2 r k)) Cert.Spec.wRows
  rw [colRed_apply, word128_apply]

theorem varT_apply (x : FVec Ideal S100000x128 .f32) (k : Fin 128) : varT x (ix1 k) = Cert.Spec.colVarDev x (ix2 0 k) := by
  show Ideal.div (Host.reduceAdd (F := Ideal) (mulf (F := Ideal) (subf (F := Ideal) x (rowB (meanT x))) (subf (F := Ideal) x (rowB (meanT x))))
        (constant (F := Ideal) S_ .f32 0x00000000#32) reducesTo_S100000x128_S128_d0 h_S_ (ix1 k))
      (broadcastInDim S128 ![] bcast_S_S128 (constant (F := Ideal) S_ .f32 0x47C35000#32) (ix1 k))
    = Ideal.div (∑ r : Fin 100000, (x (ix2 r k) - Cert.Spec.colMean x (ix2 0 k)) * (x (ix2 r k) - Cert.Spec.colMean x (ix2 0 k))) Cert.Spec.wRows
  rw [colRed_apply, word128_apply]
  have hd : ∀ r : Fin 100000,
      (mulf (F := Ideal) (subf (F := Ideal) x (rowB (meanT x))) (subf (F := Ideal) x (rowB (meanT x)))) (ix2 r k)
        = (x (ix2 r k) - Cert.Spec.colMean x (ix2 0 k)) * (x (ix2 r k) - Cert.Spec.colMean x (ix2 0 k)) := fun r => by
    show (x (ix2 r k) - rowB (meanT x) (ix2 r k)) * (x (ix2 r k) - rowB (meanT x) (ix2 r k)) = _
    rw [rowB_apply, meanT_apply]
  rw [Finset.sum_congr rfl fun r _ => hd r]

theorem normT_apply (x : FVec Ideal S100000x128 .f32) (g b : FVec Ideal S128 .f32) (r : Fin 100000) (k : Fin 128) :
    normT x g b (ix2 r k)
      = Cert.Spec.bnAt x (Cert.Spec.colMean x) (Cert.Spec.colVarDev x) (Cert.Spec.row1 g) (Cert.Spec.row1 b) r k := by
  show (x (ix2 r k) - rowB (meanT x) (ix2 r k))
        * rowB (Host.rsqrt (F := Ideal) (addf (F := Ideal) (varT x) (broadcastInDim S128 ![] bcast_S_S128 (constant (F := Ideal) S_ .f32 0x3727C5AC#32)))) (ix2 r k)
        * rowB g (ix2 r k) + rowB b (ix2 r k)
    = (x (ix2 r k) - Cert.Spec.colMean x (ix2 0 k)) * Ideal.rsqrt (Cert.Spec.colVarDev x (ix2 0 k) + Cert.Spec.wEps) * g (ix1 k) + b (ix1 k)
  rw [rowB_apply, rowB_apply, rowB_apply, rowB_apply, meanT_apply]
  show _ * Ideal.rsqrt (varT x (ix1 k) + broadcastInDim S128 ![] bcast_S_S128 (constant (F := Ideal) S_ .f32 0x3727C5AC#32) (ix1 k)) * _ + _ = _
  rw [varT_apply, word128_apply]

theorem bnTerm_eq (x : FVec Ideal S100000x128 .f32) (g b : FVec Ideal S128 .f32) (W : FVec Ideal S128x128 .f32) :
    bnTerm x g b W
      = Cert.Spec.bnMatmul x (Cert.Spec.colMean x) (Cert.Spec.colVarDev x) (Cert.Spec.row1 g) (Cert.Spec.row1 b) W := by
  funext i
  obtain ⟨r, c, rfl⟩ : ∃ (r : Fin 100000) (c : Fin 128), i = ix2 r c := ⟨i 0, i 1, eq_ix2 i⟩
  show Host.dotGeneral (F := Ideal) dot_S100000x128_S128x128_S100000x128_1_0_0_1_n_n none (normT x g b) W (ix2 r c)
    = ∑ k : Fin 128, Cert.Spec.bnAt x (Cert.Spec.colMean x) (Cert.Spec.colVarDev x) (Cert.Spec.row1 g) (Cert.Spec.row1 b) r k * W (ix2 k c)
  rw [dot128_apply]
  exact Finset.sum_congr rfl fun k _ => congrArg (· * W (ix2 k c)) (normT_apply x g b r k)

end Cert.ReferenceIdeal.Hand

end
-- ==== Proof.Ref.Slices.lean ====
import proofs.«415738_j90726889161246_1_alg».proof.Proof.Gen.ReferenceIdeal
import proofs.«415738_j90726889161246_1_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

theorem rowSlice_eq (l : Fin 3) (x : FVec Ideal S3x128 .f32) (h : S3x128.Slices ![l.val, 0] S1x128) :
    Cert.Spec.row1 (shapeCast S128 (extractStridedSlice S1x128 ![l.val, 0] x h) shapeCasts_S1x128_S128)
      = Cert.Spec.rowOf3 x l := by
  funext i
  show shapeCast S128 (extractStridedSlice S1x128 ![l.val, 0] x h) shapeCasts_S1x128_S128 (ix1 (i 1)) = x (ix2 l (i 1))
  refine (shapeCast_apply _ shapeCasts_S1x128_S128 (ix1 (i 1)) (ix2 0 (i 1)) ?_).trans ?_
  · rewrite [Shape.rowMajor_val_two, Shape.rowMajor_val_one]
    show 0 * 128 + (i 1).val = (i 1).val
    omega
  · exact extractStridedSlice_apply ![l.val, 0] x h (ix2 0 (i 1)) (ix2 l (i 1)) (fun a => match a with
      | ⟨0, _⟩ => by show l.val = l.val + 0; omega
      | ⟨1, _⟩ => by show (i 1).val = 0 + (i 1).val; omega)

theorem matSlice_eq (l : Fin 3) (x : FVec Ideal S3x128x128 .f32) (h : S3x128x128.Slices ![l.val, 0, 0] S1x128x128) :
    shapeCast S128x128 (extractStridedSlice S1x128x128 ![l.val, 0, 0] x h) shapeCasts_S1x128x128_S128x128
      = Cert.Spec.matOf3 x l := by
  funext i
  show shapeCast S128x128 (extractStridedSlice S1x128x128 ![l.val, 0, 0] x h) shapeCasts_S1x128x128_S128x128 i
    = x (ix3 l (i 0) (i 1))
  refine (shapeCast_apply _ shapeCasts_S1x128x128_S128x128 i (ix3 0 (i 0) (i 1)) ?_).trans ?_
  · rewrite [Shape.rowMajor_val_three, Shape.rowMajor_val_two]
    show (0 * 128 + (i 0).val) * 128 + (i 1).val = (i 0).val * 128 + (i 1).val
    omega
  · exact extractStridedSlice_apply ![l.val, 0, 0] x h (ix3 0 (i 0) (i 1)) (ix3 l (i 0) (i 1)) (fun a => match a with
      | ⟨0, _⟩ => by show l.val = l.val + 0; omega
      | ⟨1, _⟩ => by show (i 0).val = 0 + (i 0).val; omega
      | ⟨2, _⟩ => by show (i 1).val = 0 + (i 1).val; omega)

end Cert.ReferenceIdeal.Hand

end
-- ==== Proof.Ref.Pointwise.lean ====
import proofs.«415738_j90726889161246_1_alg».proof.Proof.Ref.Read
import proofs.«415738_j90726889161246_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.ReadP Idealize.ShloMosaic Idealize.ShloMosaic.ValueIdx
  Cert.Spec

theorem one_word : Ideal.ofBits .f32 0x3F800000#32 = 1 := by
  rw [show (1 : EReal) = ((1 : ℝ) : EReal) by norm_cast]
  simp [Ideal.ofBits, Ideal.ieee, -EReal.coe_mul]; norm_num

theorem ref_linUp (x0 : (⟨S100000x256, .f32⟩ : BufTy).Contents (Elt Ideal)) (x4 : (⟨S256x128, .f32⟩ : BufTy).Contents (Elt Ideal))
    (x5 : (⟨S128, .f32⟩ : BufTy).Contents (Elt Ideal)) :
    maximumf (F := Ideal) (φ := .f32)
        (addf (F := Ideal) (φ := .f32)
          (Host.dotGeneral (F := Ideal) (φ₁ := .f32) (φ₂ := .f32) dot_S100000x256_S256x128_S100000x128_1_0_0_1_n_n none x0 x4)
          (broadcastInDim (s := S1x128) S100000x128 ![0, 1] bcast_S1x128_S100000x128_0_1
            (broadcastInDim (s := S128) S1x128 ![1] bcast_S128_S1x128_1 x5)))
        (broadcastInDim (s := S_) S100000x128 ![] bcast_S_S100000x128 (constant (F := Ideal) S_ .f32 0x00000000#32))
      = Cert.Spec.linUp x0 x4 (Cert.Spec.row1 x5) := by
  show val_main_v4 (F := Ideal) x0 x4 x5 = _
  funext i
  obtain ⟨r, j, rfl⟩ : ∃ (r : Fin 100000) (j : Fin 128), i = ix2 r j := ⟨i 0, i 1, eq_ix2 i⟩
  rw [val_main_v4_apply, val_main_v3_apply, val_main_v0_apply, val_main_v2_apply, val_main_v1_apply]
  have hl : ∀ k : Fin 256, lidx_main_v0 (ix2 r j) k = ix2 r k := fun k => funext fun a => by
    match a with
    | ⟨0, _⟩ => rfl
    | ⟨1, _⟩ => rfl
  have hr : ∀ k : Fin 256, ridx_main_v0 (ix2 r j) k = ix2 k j := fun k => funext fun a => by
    match a with
    | ⟨0, _⟩ => rfl
    | ⟨1, _⟩ => rfl
  have hb : idx_main_v1 (idx_main_v2 (ix2 r j)) = ix1 j := funext fun a => by
    match a with
    | ⟨0, _⟩ => rfl
  rw [hb, Finset.sum_congr rfl fun k _ => by rw [hl k, hr k]]
  rfl

theorem val_main_v4_eq_linUp (x0 : (⟨S100000x256, .f32⟩ : BufTy).Contents (Elt Ideal)) (x4 : (⟨S256x128, .f32⟩ : BufTy).Contents (Elt Ideal))
    (x5 : (⟨S128, .f32⟩ : BufTy).Contents (Elt Ideal)) :
    val_main_v4 (F := Ideal) x0 x4 x5 = Cert.Spec.linUp x0 x4 (Cert.Spec.row1 x5) :=
  ref_linUp x0 x4 x5

theorem ref_gate (out x : (⟨S100000x128, .f32⟩ : BufTy).Contents (Elt Ideal))
    (logit : (⟨S100000x1, .f32⟩ : BufTy).Contents (Elt Ideal)) :
    addf (F := Ideal) (φ := .f32) x
        (mulf (F := Ideal) (φ := .f32)
          (maximumf (F := Ideal) (φ := .f32) out
            (broadcastInDim (s := S_) S100000x128 ![] bcast_S_S100000x128 (constant (F := Ideal) S_ .f32 0x00000000#32)))
          (broadcastInDim (s := S100000x1) S100000x128 ![0, 1] bcast_S100000x1_S100000x128_0_1
            (Host.divf (F := Ideal) (φ := .f32)
              (broadcastInDim (s := S_) S100000x1 ![] bcast_S_S100000x1 (constant (F := Ideal) S_ .f32 0x3F800000#32))
              (addf (F := Ideal) (φ := .f32)
                (broadcastInDim (s := S_) S100000x1 ![] bcast_S_S100000x1 (constant (F := Ideal) S_ .f32 0x3F800000#32))
                (Host.exp (F := Ideal) (φ := .f32) (Host.negf (F := Ideal) (φ := .f32) logit))))))
      = Cert.Spec.gateResid out x logit := by
  funext i
  obtain ⟨r, j, rfl⟩ : ∃ (r : Fin 100000) (j : Fin 128), i = ix2 r j := ⟨i 0, i 1, eq_ix2 i⟩
  have hb : ∀ D : (⟨S100000x1, .f32⟩ : BufTy).Contents (Elt Ideal),
      broadcastInDim (s := S100000x1) S100000x128 ![0, 1] bcast_S100000x1_S100000x128_0_1 D (ix2 r j) = D (ix2 r 0) := fun D =>
    broadcastInDim_apply _ bcast_S100000x1_S100000x128_0_1 D (ix2 r j) (ix2 r 0) (fun a => match a with
      | ⟨0, _⟩ => by show r.val = if (100000 : Nat) = 1 then 0 else r.val; rw [if_neg (by decide)]
      | ⟨1, _⟩ => by show 0 = if (1 : Nat) = 1 then 0 else j.val; rw [if_pos rfl])
  show x (ix2 r j) + max (out (ix2 r j)) (Ideal.ofBits .f32 0x00000000#32)
        * broadcastInDim (s := S100000x1) (α := EReal) S100000x128 ![0, 1] bcast_S100000x1_S100000x128_0_1 _ (ix2 r j) = _
  rw [hb]
  show x (ix2 r j) + max (out (ix2 r j)) (Ideal.ofBits .f32 0x00000000#32)
        * Ideal.div (Ideal.ofBits .f32 0x3F800000#32) (Ideal.ofBits .f32 0x3F800000#32 + Ideal.exp (-(logit (ix2 r 0))))
      = x (ix2 r j) + max (out (ix2 r j)) wZero * Ideal.div 1 (1 + Ideal.exp (-(logit (ix2 r 0))))
  rw [one_word]

end Cert.ReferenceIdeal.Hand

end
-- ==== Proof.Ref.Layer.lean ====
import proofs.«415738_j90726889161246_1_alg».proof.Proof.Ref.Defs
import proofs.«415738_j90726889161246_1_alg».proof.Proof.Ref.Norm
import proofs.«415738_j90726889161246_1_alg».proof.Proof.Ref.Slices
import proofs.«415738_j90726889161246_1_alg».proof.Proof.Ref.Pointwise

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

def layerTerm (l : Fin 3) (ni ei : IVec S640000 32) (hw : FVec Ideal S20000 .f32) (bc : FVec Ideal S3x128 .f32) (wg : FVec Ideal S3x128x1 .f32)
    (bg : FVec Ideal S3x1 .f32) (g b : FVec Ideal S128 .f32) (W : FVec Ideal S128x128 .f32) (X : FVec Ideal S100000x128 .f32) : FVec Ideal S100000x128 .f32 :=
  addf (F := Ideal) X (mulf (F := Ideal) (maximumf (F := Ideal) ((convR l ni ei (binvR ei) (dinvR ni ei hw) bc (bnTerm X g b W))) (broadcastInDim S100000x128 ![] bcast_S_S100000x128 (constant (F := Ideal) S_ .f32 0x00000000#32))) (broadcastInDim S100000x128 ![0, 1] bcast_S100000x1_S100000x128_0_1 (Host.divf (F := Ideal) (broadcastInDim S100000x1 ![] bcast_S_S100000x1 (constant (F := Ideal) S_ .f32 0x3F800000#32)) (addf (F := Ideal) (broadcastInDim S100000x1 ![] bcast_S_S100000x1 (constant (F := Ideal) S_ .f32 0x3F800000#32)) (Host.exp (F := Ideal) (Host.negf (F := Ideal) ((logitR l wg bg X))))))))

theorem layerTerm_eq (l : Fin 3) (ni ei : IVec S640000 32) (hw : FVec Ideal S20000 .f32) (bc : FVec Ideal S3x128 .f32) (wg : FVec Ideal S3x128x1 .f32)
    (bg : FVec Ideal S3x1 .f32) (g6 b7 : FVec Ideal S3x128 .f32) (w8 : FVec Ideal S3x128x128 .f32)
    (hg hb : S3x128.Slices ![l.val, 0] S1x128) (hm : S3x128x128.Slices ![l.val, 0, 0] S1x128x128) (X : FVec Ideal S100000x128 .f32) :
    layerTerm l ni ei hw bc wg bg
        (shapeCast S128 (extractStridedSlice S1x128 ![l.val, 0] g6 hg) shapeCasts_S1x128_S128)
        (shapeCast S128 (extractStridedSlice S1x128 ![l.val, 0] b7 hb) shapeCasts_S1x128_S128)
        (shapeCast S128x128 (extractStridedSlice S1x128x128 ![l.val, 0, 0] w8 hm) shapeCasts_S1x128x128_S128x128) X
      = Cert.Net.stepR (outsideR ni ei hw bc wg bg) (paramsR g6 b7 w8) l X := by
  unfold layerTerm
  refine (ref_gate _ _ _).trans ?_
  rw [bnTerm_eq, rowSlice_eq l g6 hg, rowSlice_eq l b7 hb, matSlice_eq l w8 hm]
  unfold Cert.Net.stepR outsideR paramsR
  rfl

end Cert.ReferenceIdeal.Hand

end
-- ==== Proof.Ref.Value.lean ====
import proofs.«415738_j90726889161246_1_alg».proof.Proof.Ref.Layer

noncomputable section

namespace Cert.ReferenceIdeal.Hand

open Cert.ReferenceIdeal Cert.ReferenceIdeal.Gen Idealize.ShloMosaic Idealize.ShloMosaic.TcCoe Idealize.SL.Sem Idealize.ShloMosaic.StableHlo

theorem layer0_eq (x0 : (⟨S100000x256, .f32⟩ : BufTy).Contents (Elt Ideal)) (x1 x2 : (⟨S640000, .i32⟩ : BufTy).Contents (Elt Ideal))
    (x3 : (⟨S20000, .f32⟩ : BufTy).Contents (Elt Ideal)) (x4 : (⟨S256x128, .f32⟩ : BufTy).Contents (Elt Ideal))
    (x5 : (⟨S128, .f32⟩ : BufTy).Contents (Elt Ideal)) (x6 x7 : (⟨S3x128, .f32⟩ : BufTy).Contents (Elt Ideal))
    (x8 : (⟨S3x128x128, .f32⟩ : BufTy).Contents (Elt Ideal)) (x9 : (⟨S3x128, .f32⟩ : BufTy).Contents (Elt Ideal))
    (x10 : (⟨S3x128x1, .f32⟩ : BufTy).Contents (Elt Ideal)) (x11 : (⟨S3x1, .f32⟩ : BufTy).Contents (Elt Ideal)) :
    ReadP.val_main_v109 (F := Ideal) x0 x1 x2 x3 x4 x5 x6 x7 x8 x9 x10 x11
      = Cert.Net.stepR (outsideR x1 x2 x3 x9 x10 x11) (paramsR x6 x7 x8) 0 (ReadP.val_main_v4 (F := Ideal) x0 x4 x5) :=
  layerTerm_eq 0 x1 x2 x3 x9 x10 x11 x6 x7 x8 slices_S3x128_S1x128_0_0 slices_S3x128_S1x128_0_0
    slices_S3x128x128_S1x128x128_0_0_0 (ReadP.val_main_v4 (F := Ideal) x0 x4 x5)

theorem layer1_eq (x0 : (⟨S100000x256, .f32⟩ : BufTy).Contents (Elt Ideal)) (x1 x2 : (⟨S640000, .i32⟩ : BufTy).Contents (Elt Ideal))
    (x3 : (⟨S20000, .f32⟩ : BufTy).Contents (Elt Ideal)) (x4 : (⟨S256x128, .f32⟩ : BufTy).Contents (Elt Ideal))
    (x5 : (⟨S128, .f32⟩ : BufTy).Contents (Elt Ideal)) (x6 x7 : (⟨S3x128, .f32⟩ : BufTy).Contents (Elt Ideal))
    (x8 : (⟨S3x128x128, .f32⟩ : BufTy).Contents (Elt Ideal)) (x9 : (⟨S3x128, .f32⟩ : BufTy).Contents (Elt Ideal))
    (x10 : (⟨S3x128x1, .f32⟩ : BufTy).Contents (Elt Ideal)) (x11 : (⟨S3x1, .f32⟩ : BufTy).Contents (Elt Ideal)) :
    ReadP.val_main_v214 (F := Ideal) x0 x1 x2 x3 x4 x5 x6 x7 x8 x9 x10 x11
      = Cert.Net.stepR (outsideR x1 x2 x3 x9 x10 x11) (paramsR x6 x7 x8) 1 (ReadP.val_main_v109 (F := Ideal) x0 x1 x2 x3 x4 x5 x6 x7 x8 x9 x10 x11) :=
  layerTerm_eq 1 x1 x2 x3 x9 x10 x11 x6 x7 x8 slices_S3x128_S1x128_1_0 slices_S3x128_S1x128_1_0
    slices_S3x128x128_S1x128x128_1_0_0 (ReadP.val_main_v109 (F := Ideal) x0 x1 x2 x3 x4 x5 x6 x7 x8 x9 x10 x11)

theorem layer2_eq (x0 : (⟨S100000x256, .f32⟩ : BufTy).Contents (Elt Ideal)) (x1 x2 : (⟨S640000, .i32⟩ : BufTy).Contents (Elt Ideal))
    (x3 : (⟨S20000, .f32⟩ : BufTy).Contents (Elt Ideal)) (x4 : (⟨S256x128, .f32⟩ : BufTy).Contents (Elt Ideal))
    (x5 : (⟨S128, .f32⟩ : BufTy).Contents (Elt Ideal)) (x6 x7 : (⟨S3x128, .f32⟩ : BufTy).Contents (Elt Ideal))
    (x8 : (⟨S3x128x128, .f32⟩ : BufTy).Contents (Elt Ideal)) (x9 : (⟨S3x128, .f32⟩ : BufTy).Contents (Elt Ideal))
    (x10 : (⟨S3x128x1, .f32⟩ : BufTy).Contents (Elt Ideal)) (x11 : (⟨S3x1, .f32⟩ : BufTy).Contents (Elt Ideal)) :
    ReadP.val_main_v319 (F := Ideal) x0 x1 x2 x3 x4 x5 x6 x7 x8 x9 x10 x11
      = Cert.Net.stepR (outsideR x1 x2 x3 x9 x10 x11) (paramsR x6 x7 x8) 2 (ReadP.val_main_v214 (F := Ideal) x0 x1 x2 x3 x4 x5 x6 x7 x8 x9 x10 x11) :=
  layerTerm_eq 2 x1 x2 x3 x9 x10 x11 x6 x7 x8 slices_S3x128_S1x128_2_0 slices_S3x128_S1x128_2_0
    slices_S3x128x128_S1x128x128_2_0_0 (ReadP.val_main_v214 (F := Ideal) x0 x1 x2 x3 x4 x5 x6 x7 x8 x9 x10 x11)

theorem ref_value (x0 : (⟨S100000x256, .f32⟩ : BufTy).Contents (Elt Ideal)) (x1 x2 : (⟨S640000, .i32⟩ : BufTy).Contents (Elt Ideal))
    (x3 : (⟨S20000, .f32⟩ : BufTy).Contents (Elt Ideal)) (x4 : (⟨S256x128, .f32⟩ : BufTy).Contents (Elt Ideal))
    (x5 : (⟨S128, .f32⟩ : BufTy).Contents (Elt Ideal)) (x6 x7 : (⟨S3x128, .f32⟩ : BufTy).Contents (Elt Ideal))
    (x8 : (⟨S3x128x128, .f32⟩ : BufTy).Contents (Elt Ideal)) (x9 : (⟨S3x128, .f32⟩ : BufTy).Contents (Elt Ideal))
    (x10 : (⟨S3x128x1, .f32⟩ : BufTy).Contents (Elt Ideal)) (x11 : (⟨S3x1, .f32⟩ : BufTy).Contents (Elt Ideal)) :
    ReadP.val_main_v321 (F := Ideal) x0 x1 x2 x3 x4 x5 x6 x7 x8 x9 x10 x11
      = Cert.Net.netR (outsideR x1 x2 x3 x9 x10 x11) (paramsR x6 x7 x8) (Cert.Spec.linUp x0 x4 (Cert.Spec.row1 x5)) := by
  funext i
  rw [ReadP.val_main_v321_apply, ReadP.val_main_v320_apply, layer2_eq, layer1_eq, layer0_eq, val_main_v4_eq_linUp]
  rfl

end Cert.ReferenceIdeal.Hand

end
-- ==== Proof.PreReal.lean ====
import proofs.«415738_j90726889161246_1_alg».proof.Pre_finite_inputs
import proofs.«415738_j90726889161246_1_alg».proof.Proof.Gen.Pre_finite_inputs
import proofs.«415738_j90726889161246_1_alg».proof.Proof.Spec
import Idealize.ShloMosaic.Lib.ReduceAll
import Idealize.ShloMosaic.Lib.ValueIdx

noncomputable section

namespace Cert.PreReal

open Idealize.ShloMosaic Idealize.ShloMosaic.ValueIdx Cert.Spec Cert.Pre_finite_inputs

instance : Subsingleton S_.Idx := ⟨fun _ _ => funext fun d => d.elim0⟩

theorem inf_word : Ideal.ofBits .f32 0x7F800000#32 = ⊤ := by simp [Ideal.ofBits, Ideal.ieee]

theorem real_of_abs_lt_inf {x : EReal}
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

theorem isReal_of_test {s : Shape} (hb : S_.BroadcastsInDim s (![] : Fin 0 → Fin s.rank)) (x : FVec Ideal s .f32)
    (h : ∀ i, cmpf .olt (Host.absf x) (broadcastInDim s ![] hb (constant (F := Ideal) S_ .f32 0x7F800000#32)) i = 1#1) :
    IsReal x := by
  intro i
  exact real_of_abs_lt_inf (h i)

theorem andi_one {A B : IVec S_ 1} (h : andi A B ix0 = 1#1) : A ix0 = 1#1 ∧ B ix0 = 1#1 :=
  IntOp.andi_eq_one.1 h

variable [Facts]

theorem isReal_of_all {s : Shape} (hb : S_.BroadcastsInDim s (![] : Fin 0 → Fin s.rank)) {axes : List (Fin s.rank)}
    (hr : s.ReducesTo axes S_) (x : FVec Ideal s .f32)
    (h : Host.reduce IntOp.andi
          (cmpf .olt (Host.absf x) (broadcastInDim s ![] hb (constant (F := Ideal) S_ .f32 0x7F800000#32)))
          (constantI S_ 1 1#1) hr Facts.h_S_ ix0 = 1#1) : IsReal x :=
  isReal_of_test hb x (Host.reduce_andi_all _ _ hr Facts.h_S_ ix0 h)

theorem args_real (a0 : FVec Ideal S100000x256 .f32) (a1 a2 : IVec S640000 32) (a3 : FVec Ideal S20000 .f32)
    (a4 : FVec Ideal S256x128 .f32) (a5 : FVec Ideal S128 .f32) (a6 a7 : FVec Ideal S3x128 .f32)
    (a8 : FVec Ideal S3x128x128 .f32) (a9 : FVec Ideal S3x128 .f32) (a10 : FVec Ideal S3x128x1 .f32)
    (a11 : FVec Ideal S3x1 .f32)
    (h : fn (F := Ideal) a0 a1 a2 a3 a4 a5 a6 a7 a8 a9 a10 a11 = fun _ => 1#1) :
    IsReal a0 ∧ IsReal a3 ∧ IsReal a4 ∧ IsReal a5 ∧ IsReal a6 ∧ IsReal a7 ∧ IsReal a8 ∧ IsReal a9 ∧ IsReal a10
      ∧ IsReal a11 := by
  have h0 : fn (F := Ideal) a0 a1 a2 a3 a4 a5 a6 a7 a8 a9 a10 a11 ix0 = 1#1 := congrFun h ix0
  unfold fn fn_part1 fn_part2 at h0
  dsimp only at h0
  obtain ⟨h43, H47⟩ := andi_one h0
  obtain ⟨h38, H42⟩ := andi_one h43
  obtain ⟨h33, H37⟩ := andi_one h38
  obtain ⟨h28, H32⟩ := andi_one h33
  obtain ⟨h23, H27⟩ := andi_one h28
  obtain ⟨h18, H22⟩ := andi_one h23
  obtain ⟨h13, H17⟩ := andi_one h18
  obtain ⟨h8, H12⟩ := andi_one h13
  obtain ⟨H3, H7⟩ := andi_one h8
  exact ⟨isReal_of_all _ _ a0 H3, isReal_of_all _ _ a3 H7, isReal_of_all _ _ a4 H12, isReal_of_all _ _ a5 H17,
    isReal_of_all _ _ a6 H22, isReal_of_all _ _ a7 H27, isReal_of_all _ _ a8 H32, isReal_of_all _ _ a9 H37,
    isReal_of_all _ _ a10 H42, isReal_of_all _ _ a11 H47⟩

end Cert.PreReal

end
-- ==== Proof.Ref.Final.lean ====
import proofs.«415738_j90726889161246_1_alg».proof.Defs
import proofs.«415738_j90726889161246_1_alg».proof.Proof.Gen.ReferenceIdeal
import proofs.«415738_j90726889161246_1_alg».proof.Proof.Gen.Pre_finite_inputs
import proofs.«415738_j90726889161246_1_alg».proof.Proof.Ref.RunVal
import proofs.«415738_j90726889161246_1_alg».proof.Proof.Ref.Value
import proofs.«415738_j90726889161246_1_alg».proof.Proof.PreReal

noncomputable section

namespace Cert.ReferenceIdeal.Hand

open Cert.ReferenceIdeal Cert.ReferenceIdeal.Gen Idealize.ShloMosaic Idealize.ShloMosaic.TcCoe Idealize.SL.Sem Idealize.ShloMosaic.StableHlo
  Cert.Spec

theorem frame_ref : Cert.frame_ReferenceIdeal :=
  fun m ρ _ => (θ_run (Cert.ReferenceIdeal.defs (F := Ideal)) _ _).mono (fun _ h c => (h c).2) (run_val (F := Ideal) m ρ)

theorem ref_run_net (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
      r.2.mem ((c.tc : Thread nD τ).loc main_v321)
          = Cert.Net.netR
              (outsideR (m ((c.tc : Thread nD τ).loc main_arg1)) (m ((c.tc : Thread nD τ).loc main_arg2)) (m ((c.tc : Thread nD τ).loc main_arg3))
                (m ((c.tc : Thread nD τ).loc main_arg9)) (m ((c.tc : Thread nD τ).loc main_arg10)) (m ((c.tc : Thread nD τ).loc main_arg11)))
              (paramsR (m ((c.tc : Thread nD τ).loc main_arg6)) (m ((c.tc : Thread nD τ).loc main_arg7)) (m ((c.tc : Thread nD τ).loc main_arg8)))
              (Cert.Spec.linUp (m ((c.tc : Thread nD τ).loc main_arg0)) (m ((c.tc : Thread nD τ).loc main_arg4))
                (Cert.Spec.row1 (m ((c.tc : Thread nD τ).loc main_arg5))))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  (θ_run (Cert.ReferenceIdeal.defs (F := Ideal)) _ _).mono
    (fun _ h c => ⟨(h c).1.trans (ref_value _ _ _ _ _ _ _ _ _ _ _ _), (h c).2⟩) (run_val (F := Ideal) m ρ)

end Cert.ReferenceIdeal.Hand

end
-- ==== Proof.KI.ChainVal.lean ====
import proofs.«415738_j90726889161246_1_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

theorem W6_main_v1 (c : Dev nD) : W6 m c main_v1 = (dat0 (V1 m) c).arrAt 3 cfg0.N := (W6_of m c main_v1 (by decide)).trans ((W5_of m c main_v1 (by decide)).trans ((W4_of m c main_v1 (by decide)).trans ((W3_of m c main_v1 (by decide)).trans (W2_arr m c 3))))
theorem W8_main_v1 (c : Dev nD) : W8 m c main_v1 = (dat0 (V1 m) c).arrAt 3 cfg0.N := (W8_of m c main_v1 (by decide)).trans ((W7_of m c main_v1 (by decide)).trans (W6_main_v1 m c))
theorem W9_main_v1 (c : Dev nD) : W9 m c main_v1 = (dat0 (V1 m) c).arrAt 3 cfg0.N := (W9_of m c main_v1 (by decide)).trans (W8_main_v1 m c)
theorem W10_main_v1 (c : Dev nD) : W10 m c main_v1 = (dat0 (V1 m) c).arrAt 3 cfg0.N := (W10_of m c main_v1 (by decide)).trans (W9_main_v1 m c)
theorem W21_main_v1 (c : Dev nD) : W21 m c main_v1 = (dat0 (V1 m) c).arrAt 3 cfg0.N := (W21_of m c main_v1 (by decide)).trans ((W20_of m c main_v1 (by decide)).trans ((W19_of m c main_v1 (by decide)).trans ((W18_of m c main_v1 (by decide)).trans ((W17_of m c main_v1 (by decide)).trans ((W16_of m c main_v1 (by decide)).trans ((W15_of m c main_v1 (by decide)).trans ((W14_of m c main_v1 (by decide)).trans ((W13_of m c main_v1 (by decide)).trans ((W12_of m c main_v1 (by decide)).trans ((W11_of m c main_v1 (by decide)).trans (W10_main_v1 m c)))))))))))

theorem W8_main_v26_0 (c : Dev nD) : W8 m c main_v26_0 = (dat1 (V6 m) c).arrAt 1 cfg1.N := (W8_of m c main_v26_0 (by decide)).trans (W7_arr m c 1)
theorem W8_main_v26_1 (c : Dev nD) : W8 m c main_v26_1 = (dat1 (V6 m) c).arrAt 2 cfg1.N := (W8_of m c main_v26_1 (by decide)).trans (W7_arr m c 2)

theorem W9_main_v31 (c : Dev nD) : W9 m c main_v31 = (dat2 (V8 m) c).arrAt 6 cfg2.N := W9_arr m c 6

theorem W11_main_v71 (c : Dev nD) : W11 m c main_v71 = (dat3 (V10 m) c).arrAt 3 cfg3.N := W11_arr m c 3
theorem W13_main_v71 (c : Dev nD) : W13 m c main_v71 = (dat3 (V10 m) c).arrAt 3 cfg3.N := (W13_of m c main_v71 (by decide)).trans ((W12_of m c main_v71 (by decide)).trans (W11_main_v71 m c))
theorem W14_main_v71 (c : Dev nD) : W14 m c main_v71 = (dat3 (V10 m) c).arrAt 3 cfg3.N := (W14_of m c main_v71 (by decide)).trans (W13_main_v71 m c)
theorem W15_main_v71 (c : Dev nD) : W15 m c main_v71 = (dat3 (V10 m) c).arrAt 3 cfg3.N := (W15_of m c main_v71 (by decide)).trans (W14_main_v71 m c)

theorem W13_main_v72_0 (c : Dev nD) : W13 m c main_v72_0 = (dat4 (V11 m) c).arrAt 1 cfg4.N := (W13_of m c main_v72_0 (by decide)).trans (W12_arr m c 1)
theorem W13_main_v72_1 (c : Dev nD) : W13 m c main_v72_1 = (dat4 (V11 m) c).arrAt 2 cfg4.N := (W13_of m c main_v72_1 (by decide)).trans (W12_arr m c 2)

theorem W14_main_v77 (c : Dev nD) : W14 m c main_v77 = (dat5 (V13 m) c).arrAt 6 cfg5.N := W14_arr m c 6

theorem W16_main_v117 (c : Dev nD) : W16 m c main_v117 = (dat6 (V15 m) c).arrAt 3 cfg6.N := W16_arr m c 3
theorem W18_main_v117 (c : Dev nD) : W18 m c main_v117 = (dat6 (V15 m) c).arrAt 3 cfg6.N := (W18_of m c main_v117 (by decide)).trans ((W17_of m c main_v117 (by decide)).trans (W16_main_v117 m c))
theorem W19_main_v117 (c : Dev nD) : W19 m c main_v117 = (dat6 (V15 m) c).arrAt 3 cfg6.N := (W19_of m c main_v117 (by decide)).trans (W18_main_v117 m c)
theorem W20_main_v117 (c : Dev nD) : W20 m c main_v117 = (dat6 (V15 m) c).arrAt 3 cfg6.N := (W20_of m c main_v117 (by decide)).trans (W19_main_v117 m c)

theorem W18_main_v118_0 (c : Dev nD) : W18 m c main_v118_0 = (dat7 (V16 m) c).arrAt 1 cfg7.N := (W18_of m c main_v118_0 (by decide)).trans (W17_arr m c 1)
theorem W18_main_v118_1 (c : Dev nD) : W18 m c main_v118_1 = (dat7 (V16 m) c).arrAt 2 cfg7.N := (W18_of m c main_v118_1 (by decide)).trans (W17_arr m c 2)

theorem W19_main_v123 (c : Dev nD) : W19 m c main_v123 = (dat8 (V18 m) c).arrAt 6 cfg8.N := W19_arr m c 6

theorem W21_main_v163 (c : Dev nD) : W21 m c main_v163 = (dat9 (V20 m) c).arrAt 3 cfg9.N := W21_arr m c 3

theorem W22_main_v164 (c : Dev nD) : W22 m c main_v164 = (dat10 (V21 m) c).arrAt 2 cfg10.N := W22_arr m c 2

end Cert.KernelIdeal.Hand

end
-- ==== Proof.KI.Host.lean ====
import proofs.«415738_j90726889161246_1_alg».proof.Proof.Gen.KernelIdeal.Launch
import proofs.«415738_j90726889161246_1_alg».proof.Proof.Spec
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

def dinvK (ni ei : IVec S640000 32) (hw : FVec Ideal S20000 .f32) : FVec Ideal S100000 .f32 :=
  select (cmpf (F := Ideal) .ogt (Host.scatterAdd (F := Ideal) scatter_S100000_S640000x1_S640000_n_0_0_1 (broadcastInDim S100000 ![] bcast_S_S100000 (constant (F := Ideal) S_ .f32 0x00000000#32)) (broadcastInDim S640000x1 ![0] bcast_S640000_S640000x1_0 ni) (Host.gather gather_S20000_S640000x1_S640000_n_0_n_n_0_1_1 hw (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000 ![] bcast_S_S100000 (constant (F := Ideal) S_ .f32 0x00000000#32))) (Host.divf (F := Ideal) (broadcastInDim S100000 ![] bcast_S_S100000 (constant (F := Ideal) S_ .f32 0x3F800000#32)) (Host.scatterAdd (F := Ideal) scatter_S100000_S640000x1_S640000_n_0_0_1 (broadcastInDim S100000 ![] bcast_S_S100000 (constant (F := Ideal) S_ .f32 0x00000000#32)) (broadcastInDim S640000x1 ![0] bcast_S640000_S640000x1_0 ni) (Host.gather gather_S20000_S640000x1_S640000_n_0_n_n_0_1_1 hw (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei))))) (broadcastInDim S100000 ![] bcast_S_S100000 (id (constant (F := Ideal) S_ .f32 0x00000000#32)))

def binvK (ei : IVec S640000 32) : FVec Ideal S20000 .f32 :=
  select (cmpf (F := Ideal) .ogt (Host.scatterAdd (F := Ideal) scatter_S20000_S640000x1_S640000_n_0_0_1 (broadcastInDim S20000 ![] bcast_S_S20000 (constant (F := Ideal) S_ .f32 0x00000000#32)) (broadcastInDim S640000x1 ![0] bcast_S640000_S640000x1_0 ei) (broadcastInDim S640000 ![] bcast_S_S640000 (constant (F := Ideal) S_ .f32 0x3F800000#32))) (broadcastInDim S20000 ![] bcast_S_S20000 (constant (F := Ideal) S_ .f32 0x00000000#32))) (Host.divf (F := Ideal) (broadcastInDim S20000 ![] bcast_S_S20000 (constant (F := Ideal) S_ .f32 0x3F800000#32)) (Host.scatterAdd (F := Ideal) scatter_S20000_S640000x1_S640000_n_0_0_1 (broadcastInDim S20000 ![] bcast_S_S20000 (constant (F := Ideal) S_ .f32 0x00000000#32)) (broadcastInDim S640000x1 ![0] bcast_S640000_S640000x1_0 ei) (broadcastInDim S640000 ![] bcast_S_S640000 (constant (F := Ideal) S_ .f32 0x3F800000#32)))) (broadcastInDim S20000 ![] bcast_S_S20000 (id (constant (F := Ideal) S_ .f32 0x00000000#32)))

def convK (l : Fin 3) (ni ei : IVec S640000 32) (binv : FVec Ideal S20000 .f32) (dinv : FVec Ideal S100000 .f32)
    (bc : FVec Ideal S3x128 .f32) (xw : FVec Ideal S100000x128 .f32) : FVec Ideal S100000x128 .f32 :=
  match l with
  | 0 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![0, 0] bc slices_S3x128_S1x128_0_0) shapeCasts_S1x128_S128)))
  | 1 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![1, 0] bc slices_S3x128_S1x128_1_0) shapeCasts_S1x128_S128)))
  | 2 => addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![2, 0] bc slices_S3x128_S1x128_2_0) shapeCasts_S1x128_S128)))

def logitK (l : Fin 3) (wg : FVec Ideal S3x128x1 .f32) (bg : FVec Ideal S3x1 .f32) (x : FVec Ideal S100000x128 .f32) :
    FVec Ideal S100000x1 .f32 :=
  match l with
  | 0 => addf (F := Ideal) (Host.dotGeneral (F := Ideal) dot_S100000x128_S128x1_S100000x1_1_0_0_1_n_n none x (shapeCast S128x1 (extractStridedSlice S1x128x1 ![0, 0, 0] wg slices_S3x128x1_S1x128x1_0_0_0) shapeCasts_S1x128x1_S128x1)) (broadcastInDim S100000x1 ![0, 1] bcast_S1x1_S100000x1_0_1 (broadcastInDim S1x1 ![1] bcast_S1_S1x1_1 (shapeCast S1 (extractStridedSlice S1x1 ![0, 0] bg slices_S3x1_S1x1_0_0) shapeCasts_S1x1_S1)))
  | 1 => addf (F := Ideal) (Host.dotGeneral (F := Ideal) dot_S100000x128_S128x1_S100000x1_1_0_0_1_n_n none x (shapeCast S128x1 (extractStridedSlice S1x128x1 ![1, 0, 0] wg slices_S3x128x1_S1x128x1_1_0_0) shapeCasts_S1x128x1_S128x1)) (broadcastInDim S100000x1 ![0, 1] bcast_S1x1_S100000x1_0_1 (broadcastInDim S1x1 ![1] bcast_S1_S1x1_1 (shapeCast S1 (extractStridedSlice S1x1 ![1, 0] bg slices_S3x1_S1x1_1_0) shapeCasts_S1x1_S1)))
  | 2 => addf (F := Ideal) (Host.dotGeneral (F := Ideal) dot_S100000x128_S128x1_S100000x1_1_0_0_1_n_n none x (shapeCast S128x1 (extractStridedSlice S1x128x1 ![2, 0, 0] wg slices_S3x128x1_S1x128x1_2_0_0) shapeCasts_S1x128x1_S128x1)) (broadcastInDim S100000x1 ![0, 1] bcast_S1x1_S100000x1_0_1 (broadcastInDim S1x1 ![1] bcast_S1_S1x1_1 (shapeCast S1 (extractStridedSlice S1x1 ![2, 0] bg slices_S3x1_S1x1_2_0) shapeCasts_S1x1_S1)))

end Cert.KernelIdeal.Hand

end
-- ==== Proof.KI.Host1.lean ====
import proofs.«415738_j90726889161246_1_alg».proof.Proof.Gen.KernelIdeal.Launch
import proofs.«415738_j90726889161246_1_alg».proof.Proof.Spec
import proofs.«415738_j90726889161246_1_alg».proof.Proof.KI.Host
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

variable {α : Type}

theorem slice3_lead_apply {n0 n1 n2 : Nat} (o : Nat) (X : (⟨3, ![n0, n1, n2]⟩ : Shape).Idx → α)
    (h : (⟨3, ![n0, n1, n2]⟩ : Shape).Slices ![o, 0, 0] ⟨3, ![1, n1, n2]⟩)
    (u : Fin 1) (a : Fin n1) (b : Fin n2) (k : Fin n0) (hk : k.val = o) :
    extractStridedSlice ⟨3, ![1, n1, n2]⟩ ![o, 0, 0] X h (ix3 u a b) = X (ix3 k a b) :=
  extractStridedSlice_apply _ _ _ _ _ (fun ax => by
    match ax with
    | ⟨0, _⟩ =>
      show k.val = o + u.val
      have := u.isLt
      omega
    | ⟨1, _⟩ => exact (Nat.zero_add _).symm
    | ⟨2, _⟩ => exact (Nat.zero_add _).symm)

theorem sliceRow_eq (o : Nat) (l : Fin 3) (hl : l.val = o) (g : Spec.Mat 3 128)
    (h : (⟨2, ![3, 128]⟩ : Shape).Slices ![o, 0] ⟨2, ![1, 128]⟩) :
    extractStridedSlice ⟨2, ![1, 128]⟩ ![o, 0] g h = Spec.rowOf3 g l := by
  funext i
  refine (congrArg (extractStridedSlice ⟨2, ![1, 128]⟩ ![o, 0] g h) (eq_ix2 i)).trans ?_
  exact slice2_axis0_apply o g h (i 0) (i 1) l (by have h0 : (i 0).val < 1 := (i 0).isLt; omega)

theorem sliceMat_eq (o : Nat) (l : Fin 3) (hl : l.val = o) (X : (⟨3, ![3, 128, 128]⟩ : Shape).Idx → EReal)
    (h : (⟨3, ![3, 128, 128]⟩ : Shape).Slices ![o, 0, 0] ⟨3, ![1, 128, 128]⟩)
    (hc : (⟨3, ![1, 128, 128]⟩ : Shape).ShapeCasts ⟨2, ![128, 128]⟩) :
    shapeCast ⟨2, ![128, 128]⟩ (extractStridedSlice ⟨3, ![1, 128, 128]⟩ ![o, 0, 0] X h) hc = Spec.matOf3 X l := by
  funext i
  refine (congrArg (shapeCast ⟨2, ![128, 128]⟩ (extractStridedSlice ⟨3, ![1, 128, 128]⟩ ![o, 0, 0] X h) hc) (eq_ix2 i)).trans ?_
  refine (shapeCast_1ab_ab_apply _ hc (i 0) (i 1)).trans ?_
  exact slice3_lead_apply o X h 0 (i 0) (i 1) l hl

theorem host0_v0 (W : Valuation τ sig (Elt Ideal)) :
    (StableHlo.after (hostOps0 (F := Ideal)) W (Proc.devRef .tc main_v0) : S1x128.Idx → EReal)
      = Spec.row1 (W (Proc.devRef .tc main_arg5)) := by
  simp only [hostOps0]
  after_results_simp
  funext i
  exact (congrArg _ (eq_ix2 i)).trans (shapeCast_a_1a_apply (W (Proc.devRef .tc main_arg5)) shapeCasts_S128_S1x128 (i 0) (i 1))

theorem where_v16 (W : Valuation τ sig (Elt Ideal)) :
    (StableHlo.after (hostOps1_1 (F := Ideal)) W (Proc.devRef .tc main_v16) : S100000.Idx → EReal)
      = select (W (Proc.devRef .tc main_v13)) (W (Proc.devRef .tc main_v15)) (broadcastInDim S100000 ![] bcast_S_S100000 (id (W (Proc.devRef .tc main_cst_3)))) := by
  simp only [hostOps1_1]
  after_results_simp
  rfl

theorem where_v25 (W : Valuation τ sig (Elt Ideal)) :
    (StableHlo.after (hostOps1_3 (F := Ideal)) W (Proc.devRef .tc main_v25) : S20000.Idx → EReal)
      = select (W (Proc.devRef .tc main_v22)) (W (Proc.devRef .tc main_v24)) (broadcastInDim S20000 ![] bcast_S_S20000 (id (W (Proc.devRef .tc main_cst_8)))) := by
  simp only [hostOps1_3]
  after_results_simp
  rfl

set_option maxHeartbeats 4000000 in

theorem host1_v16 (W : Valuation τ sig (Elt Ideal)) :
    (StableHlo.after (hostOps1_1 (F := Ideal)) (StableHlo.after (hostOps1 (F := Ideal)) W) (Proc.devRef .tc main_v16) : S100000.Idx → EReal)
      = dinvK (W (Proc.devRef .tc main_arg1)) (W (Proc.devRef .tc main_arg2)) (W (Proc.devRef .tc main_arg3)) := by
  rw [where_v16]
  simp only [hostOps1, dinvK]
  after_results_simp

set_option maxHeartbeats 4000000 in

theorem host1_v25 (W : Valuation τ sig (Elt Ideal)) :
    (StableHlo.after (hostOps1_3 (F := Ideal)) (StableHlo.after (hostOps1_2 (F := Ideal)) W) (Proc.devRef .tc main_v25) : S20000.Idx → EReal)
      = binvK (W (Proc.devRef .tc main_arg2)) := by
  rw [where_v25]
  simp only [hostOps1_2, binvK]
  after_results_simp

theorem host2_v27 (W : Valuation τ sig (Elt Ideal)) :
    (StableHlo.after (hostOps2 (F := Ideal)) W (Proc.devRef .tc main_v27) : S1x128.Idx → EReal)
      = Spec.rowOf3 (W (Proc.devRef .tc main_arg6)) 0 := by
  simp only [hostOps2]
  after_results_simp
  exact sliceRow_eq 0 0 rfl _ _

theorem host2_v28 (W : Valuation τ sig (Elt Ideal)) :
    (StableHlo.after (hostOps2 (F := Ideal)) W (Proc.devRef .tc main_v28) : S1x128.Idx → EReal)
      = Spec.rowOf3 (W (Proc.devRef .tc main_arg7)) 0 := by
  simp only [hostOps2]
  after_results_simp
  exact sliceRow_eq 0 0 rfl _ _

theorem host2_v30 (W : Valuation τ sig (Elt Ideal)) :
    (StableHlo.after (hostOps2 (F := Ideal)) W (Proc.devRef .tc main_v30) : S128x128.Idx → EReal)
      = Spec.matOf3 (W (Proc.devRef .tc main_arg8)) 0 := by
  simp only [hostOps2]
  after_results_simp
  funext i
  exact congrFun (sliceMat_eq 0 0 rfl (W (Proc.devRef .tc main_arg8)) slices_S3x128x128_S1x128x128_0_0_0 shapeCasts_S1x128x128_S128x128) i

theorem host5_v73 (W : Valuation τ sig (Elt Ideal)) :
    (StableHlo.after (hostOps5 (F := Ideal)) W (Proc.devRef .tc main_v73) : S1x128.Idx → EReal)
      = Spec.rowOf3 (W (Proc.devRef .tc main_arg6)) 1 := by
  simp only [hostOps5]
  after_results_simp
  exact sliceRow_eq 1 1 rfl _ _

theorem host5_v74 (W : Valuation τ sig (Elt Ideal)) :
    (StableHlo.after (hostOps5 (F := Ideal)) W (Proc.devRef .tc main_v74) : S1x128.Idx → EReal)
      = Spec.rowOf3 (W (Proc.devRef .tc main_arg7)) 1 := by
  simp only [hostOps5]
  after_results_simp
  exact sliceRow_eq 1 1 rfl _ _

theorem host5_v76 (W : Valuation τ sig (Elt Ideal)) :
    (StableHlo.after (hostOps5 (F := Ideal)) W (Proc.devRef .tc main_v76) : S128x128.Idx → EReal)
      = Spec.matOf3 (W (Proc.devRef .tc main_arg8)) 1 := by
  simp only [hostOps5]
  after_results_simp
  funext i
  exact congrFun (sliceMat_eq 1 1 rfl (W (Proc.devRef .tc main_arg8)) slices_S3x128x128_S1x128x128_1_0_0 shapeCasts_S1x128x128_S128x128) i

theorem host8_v119 (W : Valuation τ sig (Elt Ideal)) :
    (StableHlo.after (hostOps8 (F := Ideal)) W (Proc.devRef .tc main_v119) : S1x128.Idx → EReal)
      = Spec.rowOf3 (W (Proc.devRef .tc main_arg6)) 2 := by
  simp only [hostOps8]
  after_results_simp
  exact sliceRow_eq 2 2 rfl _ _

theorem host8_v120 (W : Valuation τ sig (Elt Ideal)) :
    (StableHlo.after (hostOps8 (F := Ideal)) W (Proc.devRef .tc main_v120) : S1x128.Idx → EReal)
      = Spec.rowOf3 (W (Proc.devRef .tc main_arg7)) 2 := by
  simp only [hostOps8]
  after_results_simp
  exact sliceRow_eq 2 2 rfl _ _

theorem host8_v122 (W : Valuation τ sig (Elt Ideal)) :
    (StableHlo.after (hostOps8 (F := Ideal)) W (Proc.devRef .tc main_v122) : S128x128.Idx → EReal)
      = Spec.matOf3 (W (Proc.devRef .tc main_arg8)) 2 := by
  simp only [hostOps8]
  after_results_simp
  funext i
  exact congrFun (sliceMat_eq 2 2 rfl (W (Proc.devRef .tc main_arg8)) slices_S3x128x128_S1x128x128_2_0_0 shapeCasts_S1x128x128_S128x128) i

end Cert.KernelIdeal.Hand

end
-- ==== Proof.KI.Host3.lean ====
import proofs.«415738_j90726889161246_1_alg».proof.Proof.Gen.KernelIdeal.Launch
import proofs.«415738_j90726889161246_1_alg».proof.Proof.Spec
import proofs.«415738_j90726889161246_1_alg».proof.Proof.KI.Host
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

theorem convK_0 (ni ei : IVec S640000 32) (binv : FVec Ideal S20000 .f32) (dinv : FVec Ideal S100000 .f32)
    (bc : FVec Ideal S3x128 .f32) (xw : FVec Ideal S100000x128 .f32) :
    convK 0 ni ei binv dinv bc xw = addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![0, 0] bc slices_S3x128_S1x128_0_0) shapeCasts_S1x128_S128))) := rfl

theorem logitK_0 (wg : FVec Ideal S3x128x1 .f32) (bg : FVec Ideal S3x1 .f32) (x : FVec Ideal S100000x128 .f32) :
    logitK 0 wg bg x = addf (F := Ideal) (Host.dotGeneral (F := Ideal) dot_S100000x128_S128x1_S100000x1_1_0_0_1_n_n none x (shapeCast S128x1 (extractStridedSlice S1x128x1 ![0, 0, 0] wg slices_S3x128x1_S1x128x1_0_0_0) shapeCasts_S1x128x1_S128x1)) (broadcastInDim S100000x1 ![0, 1] bcast_S1x1_S100000x1_0_1 (broadcastInDim S1x1 ![1] bcast_S1_S1x1_1 (shapeCast S1 (extractStridedSlice S1x1 ![0, 0] bg slices_S3x1_S1x1_0_0) shapeCasts_S1x1_S1))) := rfl

theorem convK_1 (ni ei : IVec S640000 32) (binv : FVec Ideal S20000 .f32) (dinv : FVec Ideal S100000 .f32)
    (bc : FVec Ideal S3x128 .f32) (xw : FVec Ideal S100000x128 .f32) :
    convK 1 ni ei binv dinv bc xw = addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![1, 0] bc slices_S3x128_S1x128_1_0) shapeCasts_S1x128_S128))) := rfl

theorem logitK_1 (wg : FVec Ideal S3x128x1 .f32) (bg : FVec Ideal S3x1 .f32) (x : FVec Ideal S100000x128 .f32) :
    logitK 1 wg bg x = addf (F := Ideal) (Host.dotGeneral (F := Ideal) dot_S100000x128_S128x1_S100000x1_1_0_0_1_n_n none x (shapeCast S128x1 (extractStridedSlice S1x128x1 ![1, 0, 0] wg slices_S3x128x1_S1x128x1_1_0_0) shapeCasts_S1x128x1_S128x1)) (broadcastInDim S100000x1 ![0, 1] bcast_S1x1_S100000x1_0_1 (broadcastInDim S1x1 ![1] bcast_S1_S1x1_1 (shapeCast S1 (extractStridedSlice S1x1 ![1, 0] bg slices_S3x1_S1x1_1_0) shapeCasts_S1x1_S1))) := rfl

theorem convK_2 (ni ei : IVec S640000 32) (binv : FVec Ideal S20000 .f32) (dinv : FVec Ideal S100000 .f32)
    (bc : FVec Ideal S3x128 .f32) (xw : FVec Ideal S100000x128 .f32) :
    convK 2 ni ei binv dinv bc xw = addf (F := Ideal) (mulf (F := Ideal) (Host.scatterAdd (F := Ideal) scatter_S100000x128_S640000x1_S640000x128_1_0_0_1 (broadcastInDim S100000x128 ![] bcast_S_S100000x128 (constant (F := Ideal) S_ .f32 0x00000000#32)) (broadcastInDim S640000x1 ![0] bcast_S640000_S640000x1_0 ni) (Host.gather gather_S20000x128_S640000x1_S640000x128_1_0_n_n_0_1_1128 (mulf (F := Ideal) (Host.scatterAdd (F := Ideal) scatter_S20000x128_S640000x1_S640000x128_1_0_0_1 (broadcastInDim S20000x128 ![] bcast_S_S20000x128 (constant (F := Ideal) S_ .f32 0x00000000#32)) (broadcastInDim S640000x1 ![0] bcast_S640000_S640000x1_0 ei) (Host.gather gather_S100000x128_S640000x1_S640000x128_1_0_n_n_0_1_1128 xw (broadcastInDim S640000x1 ![0] bcast_S640000_S640000x1_0 (select (cmpi .slt ni (broadcastInDim S640000 ![] bcast_S_S640000 (constantI S_ 32 0#32))) (addi ni (broadcastInDim S640000 ![] bcast_S_S640000 (constantI S_ 32 100000#32))) ni)))) (broadcastInDim S20000x128 ![0, 1] bcast_S20000x1_S20000x128_0_1 (broadcastInDim S20000x1 ![0] bcast_S20000_S20000x1_0 binv))) (broadcastInDim S640000x1 ![0] bcast_S640000_S640000x1_0 (select (cmpi .slt ei (broadcastInDim S640000 ![] bcast_S_S640000 (constantI S_ 32 0#32))) (addi ei (broadcastInDim S640000 ![] bcast_S_S640000 (constantI S_ 32 20000#32))) ei)))) (broadcastInDim S100000x128 ![0, 1] bcast_S100000x1_S100000x128_0_1 (broadcastInDim S100000x1 ![0] bcast_S100000_S100000x1_0 dinv))) (broadcastInDim S100000x128 ![0, 1] bcast_S1x128_S100000x128_0_1 (broadcastInDim S1x128 ![1] bcast_S128_S1x128_1 (shapeCast S128 (extractStridedSlice S1x128 ![2, 0] bc slices_S3x128_S1x128_2_0) shapeCasts_S1x128_S128))) := rfl

theorem logitK_2 (wg : FVec Ideal S3x128x1 .f32) (bg : FVec Ideal S3x1 .f32) (x : FVec Ideal S100000x128 .f32) :
    logitK 2 wg bg x = addf (F := Ideal) (Host.dotGeneral (F := Ideal) dot_S100000x128_S128x1_S100000x1_1_0_0_1_n_n none x (shapeCast S128x1 (extractStridedSlice S1x128x1 ![2, 0, 0] wg slices_S3x128x1_S1x128x1_2_0_0) shapeCasts_S1x128x1_S128x1)) (broadcastInDim S100000x1 ![0, 1] bcast_S1x1_S100000x1_0_1 (broadcastInDim S1x1 ![1] bcast_S1_S1x1_1 (shapeCast S1 (extractStridedSlice S1x1 ![2, 0] bg slices_S3x1_S1x1_2_0) shapeCasts_S1x1_S1))) := rfl

set_option maxHeartbeats 40000000 in

theorem host3_v62 (W : Valuation τ sig (Elt Ideal)) :
    (StableHlo.after (hostOps3 (F := Ideal)) W (Proc.devRef .tc main_v62) : S100000x128.Idx → EReal)
      = convK 0 (W (Proc.devRef .tc main_arg1)) (W (Proc.devRef .tc main_arg2)) (W (Proc.devRef .tc main_v25)) (W (Proc.devRef .tc main_v16)) (W (Proc.devRef .tc main_arg9)) (W (Proc.devRef .tc main_v31)) := by
  simp only [hostOps3, convK_0]
  after_results_simp
  rfl

set_option maxHeartbeats 40000000 in

theorem host3_v70 (W : Valuation τ sig (Elt Ideal)) :
    (StableHlo.after (hostOps3 (F := Ideal)) W (Proc.devRef .tc main_v70) : S100000x1.Idx → EReal)
      = logitK 0 (W (Proc.devRef .tc main_arg10)) (W (Proc.devRef .tc main_arg11)) (W (Proc.devRef .tc main_v1)) := by
  simp only [hostOps3, logitK_0]
  after_results_simp
  rfl

set_option maxHeartbeats 40000000 in

theorem host6_v108 (W : Valuation τ sig (Elt Ideal)) :
    (StableHlo.after (hostOps6 (F := Ideal)) W (Proc.devRef .tc main_v108) : S100000x128.Idx → EReal)
      = convK 1 (W (Proc.devRef .tc main_arg1)) (W (Proc.devRef .tc main_arg2)) (W (Proc.devRef .tc main_v25)) (W (Proc.devRef .tc main_v16)) (W (Proc.devRef .tc main_arg9)) (W (Proc.devRef .tc main_v77)) := by
  simp only [hostOps6, convK_1]
  after_results_simp
  rfl

set_option maxHeartbeats 40000000 in

theorem host6_v116 (W : Valuation τ sig (Elt Ideal)) :
    (StableHlo.after (hostOps6 (F := Ideal)) W (Proc.devRef .tc main_v116) : S100000x1.Idx → EReal)
      = logitK 1 (W (Proc.devRef .tc main_arg10)) (W (Proc.devRef .tc main_arg11)) (W (Proc.devRef .tc main_v71)) := by
  simp only [hostOps6, logitK_1]
  after_results_simp
  rfl

set_option maxHeartbeats 40000000 in

theorem host9_v154 (W : Valuation τ sig (Elt Ideal)) :
    (StableHlo.after (hostOps9 (F := Ideal)) W (Proc.devRef .tc main_v154) : S100000x128.Idx → EReal)
      = convK 2 (W (Proc.devRef .tc main_arg1)) (W (Proc.devRef .tc main_arg2)) (W (Proc.devRef .tc main_v25)) (W (Proc.devRef .tc main_v16)) (W (Proc.devRef .tc main_arg9)) (W (Proc.devRef .tc main_v123)) := by
  simp only [hostOps9, convK_2]
  after_results_simp
  rfl

set_option maxHeartbeats 40000000 in

theorem host9_v162 (W : Valuation τ sig (Elt Ideal)) :
    (StableHlo.after (hostOps9 (F := Ideal)) W (Proc.devRef .tc main_v162) : S100000x1.Idx → EReal)
      = logitK 2 (W (Proc.devRef .tc main_arg10)) (W (Proc.devRef .tc main_arg11)) (W (Proc.devRef .tc main_v117)) := by
  simp only [hostOps9, logitK_2]
  after_results_simp
  rfl

end Cert.KernelIdeal.Hand

end
-- ==== Proof.KI.V0.lean ====
import proofs.«415738_j90726889161246_1_alg».proof.Proof.KI.R0
import proofs.«415738_j90726889161246_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open scoped BigOperators
open Cert.KernelIdeal Cert.KernelIdeal.Gen

theorem lhs0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem matmul0_apply (a : FVec Ideal S5000x256 .bf16) (b : FVec Ideal S256x128 .bf16) (r : Fin 5000) (j : Fin 128) :
    FloatOps.matmul dot_S5000x256_S256x128_S5000x128_1_0_0_1_n_n none a b (constant (F := Ideal) S5000x128 .f32 0x00000000#32) (ix2 r j)
      = ∑ k : Fin 256, a (ix2 r k) * b (ix2 k j) := by
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 r j) ((contrEquiv1 dot_S5000x256_S256x128_S5000x128_1_0_0_1_n_n 256 rfl rfl).symm k) = ix2 r k := funext fun a => Fin.ext (by
    match a with
    | ⟨0, _⟩ => exact lhs0_0 _ _
    | ⟨1, _⟩ => exact (lhs0_1 _ _).trans hk)
  have er : dot_S5000x256_S256x128_S5000x128_1_0_0_1_n_n.rhsIdx (ix2 r j) ((contrEquiv1 dot_S5000x256_S256x128_S5000x128_1_0_0_1_n_n 256 rfl rfl).symm k) = ix2 k j := funext fun a => Fin.ext (by
    match a with
    | ⟨0, _⟩ => exact (rhs0_0 _ _).trans hk
    | ⟨1, _⟩ => exact rhs0_1 _ _)
  rw [el, er]

theorem bias0_apply (x2 : FVec Ideal S1x128 .f32) (r : Fin 5000) (j : Fin 128) :
    broadcastTo S5000x128 (shapeCast S1x128 x2 shapeCasts_S1x128_S1x128) broadcasts_S1x128_S5000x128 (ix2 r j) = x2 (ix2 0 j) := by
  rw [shapeCast_self]
  exact broadcastTo_apply x2 broadcasts_S1x128_S5000x128 (ix2 r j) (ix2 (0 : Fin 1) j) (fun a => by
    match a with
    | ⟨0, _⟩ => rfl
    | ⟨1, _⟩ => rfl)

theorem pay0_apply (x0 : FVec Ideal S5000x256 .f32) (x1 : FVec Ideal S256x128 .f32) (x2 : FVec Ideal S1x128 .f32)
    (r : Fin 5000) (j : Fin 128) :
    k0_pay1 (F := Ideal) x0 x1 x2 (ix2 r j)
      = max ((∑ k : Fin 256, x0 (ix2 r k) * x1 (ix2 k j)) + x2 (ix2 0 j)) Cert.Spec.wZero := by
  unfold k0_pay1
  exact congrArg₂ max (congrArg₂ (· + ·) (matmul0_apply (truncf .bf16 x0 bitsLt_bf16_f32) (truncf .bf16 x1 bitsLt_bf16_f32) r j) (bias0_apply x2 r j)) rfl

theorem pay0_blk (X : Cert.Spec.Mat 100000 256) (W : Cert.Spec.Mat 256 128) (b : Cert.Spec.Mat 1 128)
    (x0 : FVec Ideal S5000x256 .f32) (x1 : FVec Ideal S256x128 .f32) (x2 : FVec Ideal S1x128 .f32) (n : Nat)
    (h0 : ∀ (r : Fin 5000) (k : Fin 256) (ri : Fin 100000), ri.val = n * 5000 + r.val → x0 (ix2 r k) = X (ix2 ri k))
    (h1 : ∀ (k : Fin 256) (j : Fin 128), x1 (ix2 k j) = W (ix2 k j))
    (h2 : ∀ j : Fin 128, x2 (ix2 0 j) = b (ix2 0 j))
    (y : S5000x128.Idx) (i : S100000x128.Idx) (hi0 : (i 0).val = n * 5000 + (y 0).val) (hi1 : (i 1).val = (y 1).val) :
    k0_pay1 (F := Ideal) x0 x1 x2 y = Cert.Spec.linUp X W b i := by
  obtain ⟨r, j, rfl⟩ : ∃ (r : Fin 5000) (j : Fin 128), y = ix2 r j := ⟨y 0, y 1, eq_ix2 y⟩
  obtain ⟨ri, ji, rfl⟩ : ∃ (ri : Fin 100000) (ji : Fin 128), i = ix2 ri ji := ⟨i 0, i 1, eq_ix2 i⟩
  have e0 : ri.val = n * 5000 + r.val := hi0
  obtain rfl : ji = j := Fin.ext hi1
  refine (pay0_apply x0 x1 x2 r ji).trans ?_
  show _ = max ((∑ k : Fin 256, X (ix2 ri k) * W (ix2 k ji)) + b (ix2 0 ji)) Cert.Spec.wZero
  refine congrArg₂ max (congrArg₂ (· + ·) (Finset.sum_congr rfl fun k _ => ?_) (h2 ji)) rfl
  rw [h0 r k ri e0, h1 k ji]

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

theorem iblk0_0_apply (c : Dev nD) (t : Fin cfg0.N) (x : S5000x256.Idx) (k : S100000x256.Idx)
    (hk0 : (k 0).val = t.val * 5000 + (x 0).val) (hk1 : (k 1).val = (x 1).val) :
    (iblk0 (F := Ideal) V c 0 t : Vec Ideal S5000x256 .f32) x = (V c main_arg0 : S100000x256.Idx → Elt Ideal .f32) k := by
  obtain ⟨e0, e1, -⟩ := idx_facts0 t
  unfold iblk0
  show V c main_arg0 (((cfg0.win 0).blk t).view.emb x) = V c main_arg0 k
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 256 + 1 * (x 1).val = (k 1).val; rw [e1, hk1]; omega

theorem iblk0_1_apply (c : Dev nD) (t : Fin cfg0.N) (x : S256x128.Idx) :
    (iblk0 (F := Ideal) V c 1 t : Vec Ideal S256x128 .f32) x = (V c main_arg4 : S256x128.Idx → Elt Ideal .f32) x := by
  obtain ⟨-, -, e2, e3, -⟩ := idx_facts0 t
  unfold iblk0
  show V c main_arg4 (((cfg0.win 1).blk t).view.emb x) = V c main_arg4 x
  congr 1
  funext a
  apply Fin.ext
  match a with
  | ⟨0, _⟩ => show win0_1.index t (0 : Fin 2) * 256 + 1 * (x 0).val = (x 0).val; rw [e2]; omega
  | ⟨1, _⟩ => show win0_1.index t (1 : Fin 2) * 128 + 1 * (x 1).val = (x 1).val; rw [e3]; omega

theorem iblk0_2_apply (c : Dev nD) (t : Fin cfg0.N) (x : S1x128.Idx) :
    (iblk0 (F := Ideal) V c 2 t : Vec Ideal S1x128 .f32) x = (V c main_v0 : S1x128.Idx → Elt Ideal .f32) x := by
  obtain ⟨-, -, -, -, e4, e5, -⟩ := idx_facts0 t
  unfold iblk0
  show V c main_v0 (((cfg0.win 2).blk t).view.emb x) = V c main_v0 x
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 128 + 1 * (x 1).val = (x 1).val; rw [e5]; omega

theorem hz0 : (![0, 0] : Fin 2 → Nat) = fun _ => 0 := funext fun a => by fin_cases a <;> rfl

theorem flushed0_eq (c : Dev nD) (t : Fin cfg0.N) :
    (dat0 (F := Ideal) V c).flushed 3 t
      = ((cfg0.win 3).blk t).view.read (Elt Ideal) (Cert.Spec.linUp (V c main_arg0) (V c main_arg4) (V c main_v0)) := by
  show (cfg0.win 3).cut (grid0.coords t) ((dat0 (F := Ideal) V c).after 3 t) = _
  rw [after0_3]
  unfold out0_3
  rw [View.canon_unit_zero hz0]
  simp only [View.ld_unit_zero (S := S5000x256) hz0, View.ld_unit_zero (S := S256x128) hz0, View.ld_unit_zero (S := S1x128) hz0]
  obtain ⟨-, -, -, -, -, -, e6, e7⟩ := idx_facts0 t
  funext y
  show k0_pay1 (F := Ideal) (iblk0 (F := Ideal) V c 0 t) (iblk0 (F := Ideal) V c 1 t) (iblk0 (F := Ideal) V c 2 t) y
    = Cert.Spec.linUp (V c main_arg0) (V c main_arg4) (V c main_v0) (((cfg0.win 3).blk t).view.emb y)
  exact pay0_blk (V c main_arg0) (V c main_arg4) (V c main_v0)
    (iblk0 (F := Ideal) V c 0 t) (iblk0 (F := Ideal) V c 1 t) (iblk0 (F := Ideal) V c 2 t) t.val
    (fun r k ri hri => iblk0_0_apply V c t (ix2 r k) (ix2 ri k) hri rfl)
    (fun k j => iblk0_1_apply V c t (ix2 k j))
    (fun j => iblk0_2_apply V c t (ix2 0 j))
    y (((cfg0.win 3).blk t).view.emb y)
    (by show win0_3.index t (0 : Fin 2) * 5000 + 1 * (y 0).val = t.val * 5000 + (y 0).val; rw [e6]; omega)
    (by show win0_3.index t (1 : Fin 2) * 128 + 1 * (y 1).val = (y 1).val; rw [e7]; omega)

theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

theorem val0 (c : Dev nD) :
    (dat0 (F := Ideal) V c).arrAt 3 cfg0.N = Cert.Spec.linUp (V c main_arg0) (V c main_arg4) (V c main_v0) :=
  (dat0 (F := Ideal) V c).arrAt_eq_of_cover 3 (Cert.Spec.linUp (V c main_arg0) (V c main_arg4) (V c main_v0))
    (fun t _ => flushed0_eq V c t) cover0

end Cert.KernelIdeal.Hand

end
-- ==== Proof.KI.StatsPay.lean ====
import proofs.«415738_j90726889161246_1_alg».proof.Proof.Gen.KernelIdeal.Skeleton
import proofs.«415738_j90726889161246_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open scoped BigOperators
open Cert.KernelIdeal Cert.KernelIdeal.Gen

theorem colred1_apply (x : FVec Ideal S5000x128 .f32) (j : Fin 128) :
    multiReduction .add [0] S128 x 0x00000000#32 reduces_S5000x128_S128 (.inl rfl) rfl (ix1 j)
      = ∑ r : Fin 5000, x (ix2 r j) := by
  refine (Ideal.multiReduction_add_single x 0x00000000#32 reduces_S5000x128_S128 (.inl rfl) rfl (ix1 j)).trans ?_
  refine Finset.sum_congr rfl fun r _ => congrArg x (funext fun a => Fin.ext ?_)
  match a with
  | ⟨0, _⟩ => rfl
  | ⟨1, _⟩ => rfl

theorem pay1_1_apply (j : Fin 128) : (k1_pay1 (F := Ideal)) (ix2 0 j) = Cert.Spec.wZero := by
  unfold k1_pay1
  exact congrFun (shapeCast_self _ shapeCasts_S1x128_S1x128) (ix2 0 j)

theorem pay1_2_apply (j : Fin 128) : (k1_pay2 (F := Ideal)) (ix2 0 j) = Cert.Spec.wZero := by
  unfold k1_pay2
  exact congrFun (shapeCast_self _ shapeCasts_S1x128_S1x128) (ix2 0 j)

theorem pay1_4_apply (x : FVec Ideal S5000x128 .f32) (a : FVec Ideal S1x128 .f32) (j : Fin 128) :
    k1_pay4 (F := Ideal) x a (ix2 0 j) = a (ix2 0 j) + ∑ r : Fin 5000, x (ix2 r j) := by
  unfold k1_pay4 k1_pay3
  refine (congrFun (shapeCast_self _ shapeCasts_S1x128_S1x128) (ix2 0 j)).trans ?_
  refine congrArg (a (ix2 0 j) + ·) ?_
  refine (shapeCast_a_1a_apply _ shapeCasts_S128_S1x128 0 j).trans ?_
  refine (colred1_apply _ j).trans ?_
  exact Finset.sum_congr rfl fun r _ => congrFun (shapeCast_self x shapeCasts_S5000x128_S5000x128) (ix2 r j)

theorem pay1_5_apply (x : FVec Ideal S5000x128 .f32) (a : FVec Ideal S1x128 .f32) (j : Fin 128) :
    k1_pay5 (F := Ideal) x a (ix2 0 j) = a (ix2 0 j) + ∑ r : Fin 5000, x (ix2 r j) * x (ix2 r j) := by
  unfold k1_pay5 k1_pay3
  refine (congrFun (shapeCast_self _ shapeCasts_S1x128_S1x128) (ix2 0 j)).trans ?_
  refine congrArg (a (ix2 0 j) + ·) ?_
  refine (shapeCast_a_1a_apply _ shapeCasts_S128_S1x128 0 j).trans ?_
  refine (colred1_apply _ j).trans ?_
  refine Finset.sum_congr rfl fun r _ => ?_
  have e := congrFun (shapeCast_self x shapeCasts_S5000x128_S5000x128) (ix2 r j)
  exact congrArg₂ (· * ·) e e

theorem pay1_6_apply (s : FVec Ideal S1x128 .f32) (j : Fin 128) :
    k1_pay6 (F := Ideal) s (ix2 0 j) = Ideal.div (s (ix2 0 j)) Cert.Spec.wRows := by
  unfold k1_pay6
  rfl

theorem pay1_7_apply (s q : FVec Ideal S1x128 .f32) (j : Fin 128) :
    k1_pay7 (F := Ideal) s q (ix2 0 j)
      = Ideal.div (q (ix2 0 j)) Cert.Spec.wRows
        - Ideal.div (s (ix2 0 j)) Cert.Spec.wRows * Ideal.div (s (ix2 0 j)) Cert.Spec.wRows := by
  unfold k1_pay7 k1_pay6
  rfl

-- The later layers' payloads are layer 1's functions.
theorem pay4_1_apply (j : Fin 128) : (k4_pay1 (F := Ideal)) (ix2 0 j) = Cert.Spec.wZero :=
  pay1_1_apply j
theorem pay4_2_apply (j : Fin 128) : (k4_pay2 (F := Ideal)) (ix2 0 j) = Cert.Spec.wZero :=
  pay1_2_apply j
theorem pay4_4_apply (x : FVec Ideal S5000x128 .f32) (a : FVec Ideal S1x128 .f32) (j : Fin 128) :
    k4_pay4 (F := Ideal) x a (ix2 0 j) = a (ix2 0 j) + ∑ r : Fin 5000, x (ix2 r j) :=
  pay1_4_apply x a j
theorem pay4_5_apply (x : FVec Ideal S5000x128 .f32) (a : FVec Ideal S1x128 .f32) (j : Fin 128) :
    k4_pay5 (F := Ideal) x a (ix2 0 j) = a (ix2 0 j) + ∑ r : Fin 5000, x (ix2 r j) * x (ix2 r j) :=
  pay1_5_apply x a j
theorem pay4_6_apply (s : FVec Ideal S1x128 .f32) (j : Fin 128) :
    k4_pay6 (F := Ideal) s (ix2 0 j) = Ideal.div (s (ix2 0 j)) Cert.Spec.wRows :=
  pay1_6_apply s j
theorem pay4_7_apply (s q : FVec Ideal S1x128 .f32) (j : Fin 128) :
    k4_pay7 (F := Ideal) s q (ix2 0 j)
      = Ideal.div (q (ix2 0 j)) Cert.Spec.wRows
        - Ideal.div (s (ix2 0 j)) Cert.Spec.wRows * Ideal.div (s (ix2 0 j)) Cert.Spec.wRows :=
  pay1_7_apply s q j

theorem pay7_1_apply (j : Fin 128) : (k7_pay1 (F := Ideal)) (ix2 0 j) = Cert.Spec.wZero :=
  pay1_1_apply j
theorem pay7_2_apply (j : Fin 128) : (k7_pay2 (F := Ideal)) (ix2 0 j) = Cert.Spec.wZero :=
  pay1_2_apply j
theorem pay7_4_apply (x : FVec Ideal S5000x128 .f32) (a : FVec Ideal S1x128 .f32) (j : Fin 128) :
    k7_pay4 (F := Ideal) x a (ix2 0 j) = a (ix2 0 j) + ∑ r : Fin 5000, x (ix2 r j) :=
  pay1_4_apply x a j
theorem pay7_5_apply (x : FVec Ideal S5000x128 .f32) (a : FVec Ideal S1x128 .f32) (j : Fin 128) :
    k7_pay5 (F := Ideal) x a (ix2 0 j) = a (ix2 0 j) + ∑ r : Fin 5000, x (ix2 r j) * x (ix2 r j) :=
  pay1_5_apply x a j
theorem pay7_6_apply (s : FVec Ideal S1x128 .f32) (j : Fin 128) :
    k7_pay6 (F := Ideal) s (ix2 0 j) = Ideal.div (s (ix2 0 j)) Cert.Spec.wRows :=
  pay1_6_apply s j
theorem pay7_7_apply (s q : FVec Ideal S1x128 .f32) (j : Fin 128) :
    k7_pay7 (F := Ideal) s q (ix2 0 j)
      = Ideal.div (q (ix2 0 j)) Cert.Spec.wRows
        - Ideal.div (s (ix2 0 j)) Cert.Spec.wRows * Ideal.div (s (ix2 0 j)) Cert.Spec.wRows :=
  pay1_7_apply s q j

end Cert.KernelIdeal.Hand

end
-- ==== Proof.RowBlocks.lean ====
import Mathlib.Algebra.BigOperators.Fin
import Mathlib.Algebra.BigOperators.Group.Finset.Basic

open scoped BigOperators

namespace Cert.RowBlocks

variable {M : Type*} [AddCommMonoid M]

def rowIn (b : Fin 20) (r : Fin 5000) : Fin 100000 := ⟨5000 * b.val + r.val, by have := b.isLt; have := r.isLt; omega⟩

@[simp] theorem rowIn_val (b : Fin 20) (r : Fin 5000) : (rowIn b r).val = 5000 * b.val + r.val := rfl

def ext (f : Fin 100000 → M) (k : ℕ) : M := if h : k < 100000 then f ⟨k, h⟩ else 0

def below (f : Fin 100000 → M) (n : ℕ) : M := ∑ k ∈ Finset.range (5000 * n), ext f k

def blockSum (f : Fin 100000 → M) (b : Fin 20) : M := ∑ r : Fin 5000, f (rowIn b r)

theorem below_zero (f : Fin 100000 → M) : below f 0 = 0 := by
  unfold below; rw [Nat.mul_zero, Finset.range_zero, Finset.sum_empty]

theorem below_succ (f : Fin 100000 → M) (n : ℕ) (hn : n < 20) :
    below f (n + 1) = below f n + blockSum f ⟨n, hn⟩ := by
  have e : 5000 * (n + 1) = 5000 * n + 5000 := by omega
  have step : ∀ r : Fin 5000, ext f (5000 * n + r.val) = f (rowIn ⟨n, hn⟩ r) := fun r => by
    have hr := r.isLt
    exact dif_pos (show 5000 * n + r.val < 100000 by omega)
  unfold below blockSum
  rw [e, Finset.sum_range_add (ext f) (5000 * n) 5000, Finset.sum_range (fun k => ext f (5000 * n + k))]
  exact congrArg _ (Finset.sum_congr rfl fun r _ => step r)

theorem below_all (f : Fin 100000 → M) : below f 20 = ∑ i : Fin 100000, f i := by
  have e : 5000 * 20 = 100000 := by decide
  unfold below
  rw [e, Finset.sum_range (ext f)]
  exact Finset.sum_congr rfl fun i _ => dif_pos i.isLt

end Cert.RowBlocks
-- ==== Proof.KI.V1.lean ====
import proofs.«415738_j90726889161246_1_alg».proof.Proof.KI.R1
import proofs.«415738_j90726889161246_1_alg».proof.Proof.KI.StatsPay
import proofs.«415738_j90726889161246_1_alg».proof.Proof.RowBlocks
import proofs.«415738_j90726889161246_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open scoped BigOperators
open Cert.KernelIdeal Cert.KernelIdeal.Gen

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

variable (V : (c : Dev nD) → (b : Ref sig .tc) → Buf (Elt Ideal) ((c : Thread nD τ).loc b))

abbrev xblk1 (c : Dev nD) (t : Fin cfg1.N) : FVec Ideal S5000x128 .f32 := iblk1 (F := Ideal) V c 0 t
abbrev xarr1 (c : Dev nD) : Cert.Spec.Mat 100000 128 := V c main_v1

theorem iblk1_0_apply (c : Dev nD) (t : Fin cfg1.N) (x : S5000x128.Idx) (k : S100000x128.Idx)
    (hk0 : (k 0).val = t.val * 5000 + (x 0).val) (hk1 : (k 1).val = (x 1).val) :
    xblk1 V c t x = xarr1 V c k := by
  obtain ⟨e0, e1, -⟩ := idx_facts1 t
  show V c main_v1 (((cfg1.win 0).blk t).view.emb x) = V c main_v1 k
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

theorem blk1_colsum (c : Dev nD) (t : Fin cfg1.N) (b : Fin 20) (hb : b.val = t.val) (j : Fin 128) :
    ∑ r : Fin 5000, xblk1 V c t (ix2 r j)
      = Cert.RowBlocks.blockSum (fun ri : Fin 100000 => xarr1 V c (ix2 ri j)) b :=
  Finset.sum_congr rfl fun r _ =>
    iblk1_0_apply V c t (ix2 r j) (ix2 (Cert.RowBlocks.rowIn b r) j)
      (by show 5000 * b.val + r.val = t.val * 5000 + r.val; omega) rfl

theorem blk1_colsqsum (c : Dev nD) (t : Fin cfg1.N) (b : Fin 20) (hb : b.val = t.val) (j : Fin 128) :
    ∑ r : Fin 5000, xblk1 V c t (ix2 r j)
        * xblk1 V c t (ix2 r j)
      = Cert.RowBlocks.blockSum (fun ri : Fin 100000 => xarr1 V c (ix2 ri j)
          * xarr1 V c (ix2 ri j)) b :=
  Finset.sum_congr rfl fun r _ => by
    have e := iblk1_0_apply V c t (ix2 r j) (ix2 (Cert.RowBlocks.rowIn b r) j)
      (by show 5000 * b.val + r.val = t.val * 5000 + r.val; omega) rfl
    exact congrArg₂ (· * ·) e e

theorem sumAt1_apply (c : Dev nD) (j : Fin 128) : ∀ (n : ℕ) (hn : n < 20),
    (sumAt1 (F := Ideal) V c n : FVec Ideal S1x128 .f32) (ix2 0 j)
      = Cert.RowBlocks.below (fun ri : Fin 100000 => xarr1 V c (ix2 ri j)) (n + 1)
  | 0, hn => by
    have hN : cfg1.N = 20 := N_1
    have h0 : 0 < cfg1.N := by rw [hN]; omega
    rw [sumAt1_zero V c h0]
    refine (pay1_4_apply (xblk1 V c ⟨0, h0⟩) (k1_pay1 (F := Ideal)) j).trans ?_
    rw [pay1_1_apply j, blk1_colsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg1.N = 20 := N_1
    have h1 : n + 1 < cfg1.N := by rw [hN]; omega
    rw [sumAt1_succ V c n h1]
    refine (pay1_4_apply (xblk1 V c ⟨n + 1, h1⟩) (sumAt1 (F := Ideal) V c n) j).trans ?_
    rw [sumAt1_apply c j n (by omega), blk1_colsum V c ⟨n + 1, h1⟩ ⟨n + 1, hn⟩ rfl j,
      ← Cert.RowBlocks.below_succ _ (n + 1) hn]

theorem sqAt1_apply (c : Dev nD) (j : Fin 128) : ∀ (n : ℕ) (hn : n < 20),
    (sqAt1 (F := Ideal) V c n : FVec Ideal S1x128 .f32) (ix2 0 j)
      = Cert.RowBlocks.below (fun ri : Fin 100000 => xarr1 V c (ix2 ri j)
          * xarr1 V c (ix2 ri j)) (n + 1)
  | 0, hn => by
    have hN : cfg1.N = 20 := N_1
    have h0 : 0 < cfg1.N := by rw [hN]; omega
    rw [sqAt1_zero V c h0]
    refine (pay1_5_apply (xblk1 V c ⟨0, h0⟩) (k1_pay2 (F := Ideal)) j).trans ?_
    rw [pay1_2_apply j, blk1_colsqsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg1.N = 20 := N_1
    have h1 : n + 1 < cfg1.N := by rw [hN]; omega
    rw [sqAt1_succ V c n h1]
    refine (pay1_5_apply (xblk1 V c ⟨n + 1, h1⟩) (sqAt1 (F := Ideal) V c n) j).trans ?_
    rw [sqAt1_apply c j n (by omega), blk1_colsqsum V c ⟨n + 1, h1⟩ ⟨n + 1, hn⟩ rfl j,
      ← Cert.RowBlocks.below_succ _ (n + 1) hn]

theorem sumAt1_last (c : Dev nD) (j : Fin 128) :
    (sumAt1 (F := Ideal) V c 19 : FVec Ideal S1x128 .f32) (ix2 0 j) = Cert.Spec.colSum (xarr1 V c) j :=
  (sumAt1_apply V c j 19 (by omega)).trans (Cert.RowBlocks.below_all _)

theorem sqAt1_last (c : Dev nD) (j : Fin 128) :
    (sqAt1 (F := Ideal) V c 19 : FVec Ideal S1x128 .f32) (ix2 0 j) = Cert.Spec.colSqSum (xarr1 V c) j :=
  (sqAt1_apply V c j 19 (by omega)).trans (Cert.RowBlocks.below_all _)

theorem emb1_1 (t : Fin cfg1.N) (j : Fin 128) :
    ((cfg1.win 1).blk t).view.emb (ix2 (0 : Fin 1) j) = (ix2 (0 : Fin 1) j : S1x128.Idx) := by
  obtain ⟨-, -, e2, e3, -⟩ := idx_facts1 t
  funext a
  apply Fin.ext
  match a with
  | ⟨0, _⟩ => show win1_1.index t (0 : Fin 2) * 1 + 1 * 0 = 0; rw [e2]
  | ⟨1, _⟩ => show win1_1.index t (1 : Fin 2) * 128 + 1 * j.val = j.val; rw [e3]; omega

theorem emb1_2 (t : Fin cfg1.N) (j : Fin 128) :
    ((cfg1.win 2).blk t).view.emb (ix2 (0 : Fin 1) j) = (ix2 (0 : Fin 1) j : S1x128.Idx) := by
  obtain ⟨-, -, -, -, e4, e5⟩ := idx_facts1 t
  funext a
  apply Fin.ext
  match a with
  | ⟨0, _⟩ => show win1_2.index t (0 : Fin 2) * 1 + 1 * 0 = 0; rw [e4]
  | ⟨1, _⟩ => show win1_2.index t (1 : Fin 2) * 128 + 1 * j.val = j.val; rw [e5]; omega

theorem flushed1_1_eq (c : Dev nD) (t : Fin cfg1.N) (hf : (cfg1.win 1).flush t = true) :
    (dat1 (F := Ideal) V c).flushed 1 t
      = ((cfg1.win 1).blk t).view.read (Elt Ideal) (Cert.Spec.colMean (V c main_v1)) := by
  have hN : cfg1.N = 20 := N_1
  have h19 : t.val = 19 := by have := (flush1_1 t).mp hf; have := t.isLt; omega
  show (cfg1.win 1).cut (grid1.coords t) ((dat1 (F := Ideal) V c).after 1 t) = _
  rw [after1_1, h19]
  funext y
  show k1_pay6 (F := Ideal) (sumAt1 (F := Ideal) V c 19) y
    = Cert.Spec.colMean (V c main_v1) (((cfg1.win 1).blk t).view.emb y)
  obtain ⟨u, j, rfl⟩ : ∃ (u : Fin 1) (j : Fin 128), y = ix2 u j := ⟨y 0, y 1, eq_ix2 y⟩
  obtain rfl : u = 0 := Subsingleton.elim _ _
  refine (pay1_6_apply (sumAt1 (F := Ideal) V c 19) j).trans ?_
  refine Eq.trans ?_ (congrArg (Cert.Spec.colMean (V c main_v1)) (emb1_1 t j)).symm
  exact congrArg (Ideal.div · Cert.Spec.wRows) (sumAt1_last V c j)

theorem flushed1_2_eq (c : Dev nD) (t : Fin cfg1.N) (hf : (cfg1.win 2).flush t = true) :
    (dat1 (F := Ideal) V c).flushed 2 t
      = ((cfg1.win 2).blk t).view.read (Elt Ideal) (Cert.Spec.colVar (V c main_v1)) := by
  have hN : cfg1.N = 20 := N_1
  have h19 : t.val = 19 := by have := (flush1_2 t).mp hf; have := t.isLt; omega
  show (cfg1.win 2).cut (grid1.coords t) ((dat1 (F := Ideal) V c).after 2 t) = _
  rw [after1_2, h19]
  funext y
  show k1_pay7 (F := Ideal) (sumAt1 (F := Ideal) V c 19) (sqAt1 (F := Ideal) V c 19) y
    = Cert.Spec.colVar (V c main_v1) (((cfg1.win 2).blk t).view.emb y)
  obtain ⟨u, j, rfl⟩ : ∃ (u : Fin 1) (j : Fin 128), y = ix2 u j := ⟨y 0, y 1, eq_ix2 y⟩
  obtain rfl : u = 0 := Subsingleton.elim _ _
  refine (pay1_7_apply (sumAt1 (F := Ideal) V c 19) (sqAt1 (F := Ideal) V c 19) j).trans ?_
  refine Eq.trans ?_ (congrArg (Cert.Spec.colVar (V c main_v1)) (emb1_2 t j)).symm
  have es := congrArg (Ideal.div · Cert.Spec.wRows) (sumAt1_last V c j)
  have eq := congrArg (Ideal.div · Cert.Spec.wRows) (sqAt1_last V c j)
  exact congrArg₂ (· - ·) eq (congrArg₂ (· * ·) es es)

theorem mem_blk1_1 (t : Fin cfg1.N) (i : S1x128.Idx) :
    i ∈ ((cfg1.win 1).blk t).view.set ↔ ∀ a : Fin 2, win1_1.index t a * S1x128.size a ≤ (i a).val ∧ (i a).val < win1_1.index t a * S1x128.size a + S1x128.size a := by
  show i ∈ ((View.whole main_v26_0).slice (win1_1.rect t)).set ↔ _
  rw [View.set_slice_whole, Rect.mem_set_unit]
  exact Iff.rfl

theorem mem_blk1_2 (t : Fin cfg1.N) (i : S1x128.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v26_1).slice (win1_2.rect t)).set ↔ _
  rw [View.set_slice_whole, Rect.mem_set_unit]
  exact Iff.rfl

theorem cover1_1 (i : S1x128.Idx) :
    ∃ t : Fin cfg1.N, (cfg1.win 1).flush t = true ∧ i ∈ ((cfg1.win 1).blk t).view.set := by
  have hi0 : (i 0).val < 1 := (i 0).isLt
  have hi1 : (i 1).val < 128 := (i 1).isLt
  have hN : cfg1.N = 20 := N_1
  obtain ⟨t, ht⟩ : ∃ t : Fin cfg1.N, t.val = 19 := ⟨⟨19, by rw [hN]; omega⟩, rfl⟩
  obtain ⟨-, -, e2, e3, -⟩ := idx_facts1 t
  refine ⟨t, (flush1_1 t).mpr (by rw [ht]), ?_⟩
  rw [mem_blk1_1]
  intro a
  match a with
  | ⟨0, _⟩ => show win1_1.index t (0 : Fin 2) * 1 ≤ (i 0).val ∧ (i 0).val < win1_1.index t (0 : Fin 2) * 1 + 1; rw [e2]; omega
  | ⟨1, _⟩ => show win1_1.index t (1 : Fin 2) * 128 ≤ (i 1).val ∧ (i 1).val < win1_1.index t (1 : Fin 2) * 128 + 128; rw [e3]; omega

theorem cover1_2 (i : S1x128.Idx) :
    ∃ t : Fin cfg1.N, (cfg1.win 2).flush t = true ∧ i ∈ ((cfg1.win 2).blk t).view.set := by
  have hi0 : (i 0).val < 1 := (i 0).isLt
  have hi1 : (i 1).val < 128 := (i 1).isLt
  have hN : cfg1.N = 20 := N_1
  obtain ⟨t, ht⟩ : ∃ t : Fin cfg1.N, t.val = 19 := ⟨⟨19, by rw [hN]; omega⟩, rfl⟩
  obtain ⟨-, -, -, -, e4, e5⟩ := idx_facts1 t
  refine ⟨t, (flush1_2 t).mpr (by rw [ht]), ?_⟩
  rw [mem_blk1_2]
  intro a
  match a with
  | ⟨0, _⟩ => show win1_2.index t (0 : Fin 2) * 1 ≤ (i 0).val ∧ (i 0).val < win1_2.index t (0 : Fin 2) * 1 + 1; rw [e4]; omega
  | ⟨1, _⟩ => show win1_2.index t (1 : Fin 2) * 128 ≤ (i 1).val ∧ (i 1).val < win1_2.index t (1 : Fin 2) * 128 + 128; rw [e5]; omega

theorem val1_mean (c : Dev nD) :
    (dat1 (F := Ideal) V c).arrAt 1 cfg1.N = Cert.Spec.colMean (V c main_v1) :=
  (dat1 (F := Ideal) V c).arrAt_eq_of_cover 1 (Cert.Spec.colMean (V c main_v1))
    (fun t hf => flushed1_1_eq V c t hf) cover1_1

theorem val1_var (c : Dev nD) :
    (dat1 (F := Ideal) V c).arrAt 2 cfg1.N = Cert.Spec.colVar (V c main_v1) :=
  (dat1 (F := Ideal) V c).arrAt_eq_of_cover 2 (Cert.Spec.colVar (V c main_v1))
    (fun t hf => flushed1_2_eq V c t hf) cover1_2

end Cert.KernelIdeal.Hand

end
-- ==== Proof.KI.BnPay.lean ====
import proofs.«415738_j90726889161246_1_alg».proof.Proof.Gen.KernelIdeal.Skeleton
import proofs.«415738_j90726889161246_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

theorem lhs2_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs2_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs2_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs2_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay2_at (x0 : Vec Ideal S5000x128 .f32) (x1 x2 x3 x4 : Vec Ideal S1x128 .f32) (x5 : Vec Ideal S128x128 .f32)
    (p : Fin 5000) (q : Fin 128) :
    k2_pay1 (F := Ideal) x0 x1 x2 x3 x4 x5 (ix2 p q)
      = ∑ k : Fin 128, ((x0 (ix2 p k) - x1 (ix2 (0 : Fin 1) k)) * Ideal.rsqrt (x2 (ix2 (0 : Fin 1) k) + Cert.Spec.wEps)
          * x3 (ix2 (0 : Fin 1) k) + x4 (ix2 (0 : Fin 1) k)) * x5 (ix2 k q) := by
  unfold k2_pay1
  simp only [shapeCast_self]
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]

  have b1 : broadcastTo S5000x128 x1 broadcasts_S1x128_S5000x128 (ix2 p k) = x1 (ix2 (0 : Fin 1) k) :=
    broadcastTo_1b_ab_apply x1 broadcasts_S1x128_S5000x128 p k
  have b2 : broadcastTo S5000x128 (rsqrt (addf x2 (broadcast S1x128 (Scalar.ofBits (F := Ideal) .f32 0x3727C5AC#32)))) broadcasts_S1x128_S5000x128 (ix2 p k)
      = Ideal.rsqrt (x2 (ix2 (0 : Fin 1) k) + Cert.Spec.wEps) :=
    (broadcastTo_1b_ab_apply _ broadcasts_S1x128_S5000x128 p k).trans rfl
  have b3 : broadcastTo S5000x128 x3 broadcasts_S1x128_S5000x128 (ix2 p k) = x3 (ix2 (0 : Fin 1) k) :=
    broadcastTo_1b_ab_apply x3 broadcasts_S1x128_S5000x128 p k
  have b4 : broadcastTo S5000x128 x4 broadcasts_S1x128_S5000x128 (ix2 p k) = x4 (ix2 (0 : Fin 1) k) :=
    broadcastTo_1b_ab_apply x4 broadcasts_S1x128_S5000x128 p k
  show ((x0 (ix2 p k) - broadcastTo S5000x128 x1 broadcasts_S1x128_S5000x128 (ix2 p k))
        * broadcastTo S5000x128 (rsqrt (addf x2 (broadcast S1x128 (Scalar.ofBits (F := Ideal) .f32 0x3727C5AC#32)))) broadcasts_S1x128_S5000x128 (ix2 p k)
        * broadcastTo S5000x128 x3 broadcasts_S1x128_S5000x128 (ix2 p k)
        + broadcastTo S5000x128 x4 broadcasts_S1x128_S5000x128 (ix2 p k)) * x5 (ix2 k q) = _
  rw [b1, b2, b3, b4]

-- The later layers' payloads are layer 1's function.
theorem pay5_at (x0 : Vec Ideal S5000x128 .f32) (x1 x2 x3 x4 : Vec Ideal S1x128 .f32) (x5 : Vec Ideal S128x128 .f32)
    (p : Fin 5000) (q : Fin 128) :
    k5_pay1 (F := Ideal) x0 x1 x2 x3 x4 x5 (ix2 p q)
      = ∑ k : Fin 128, ((x0 (ix2 p k) - x1 (ix2 (0 : Fin 1) k)) * Ideal.rsqrt (x2 (ix2 (0 : Fin 1) k) + Cert.Spec.wEps)
          * x3 (ix2 (0 : Fin 1) k) + x4 (ix2 (0 : Fin 1) k)) * x5 (ix2 k q) :=
  pay2_at x0 x1 x2 x3 x4 x5 p q

theorem pay8_at (x0 : Vec Ideal S5000x128 .f32) (x1 x2 x3 x4 : Vec Ideal S1x128 .f32) (x5 : Vec Ideal S128x128 .f32)
    (p : Fin 5000) (q : Fin 128) :
    k8_pay1 (F := Ideal) x0 x1 x2 x3 x4 x5 (ix2 p q)
      = ∑ k : Fin 128, ((x0 (ix2 p k) - x1 (ix2 (0 : Fin 1) k)) * Ideal.rsqrt (x2 (ix2 (0 : Fin 1) k) + Cert.Spec.wEps)
          * x3 (ix2 (0 : Fin 1) k) + x4 (ix2 (0 : Fin 1) k)) * x5 (ix2 k q) :=
  pay2_at x0 x1 x2 x3 x4 x5 p q

end Cert.KernelIdeal.Hand

end
-- ==== Proof.KI.V2.lean ====
import proofs.«415738_j90726889161246_1_alg».proof.Proof.KI.R2
import proofs.«415738_j90726889161246_1_alg».proof.Proof.KI.BnPay
import proofs.«415738_j90726889161246_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zoff2 : (![0, 0] : Fin 2 → Nat) = fun _ => 0 := funext fun a => by fin_cases a <;> rfl

theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem iblk2_0_at (c : Dev nD) (t : Fin cfg2.N) (p : Fin 5000) (k : Fin 128) (r : Fin 100000)
    (hr : r.val = 5000 * t.val + p.val) :
    (iblk2 V c 0 t : Vec Ideal S5000x128 .f32) (ix2 p k) = (V c main_v1 : S100000x128.Idx → EReal) (ix2 r k) := by
  obtain ⟨e0, e1, -⟩ := idx2_facts t
  unfold iblk2
  rw [View.read_apply]
  show V c main_v1 _ = V c main_v1 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

theorem iblk2_1_at (c : Dev nD) (t : Fin cfg2.N) (k : Fin 128) :
    (iblk2 V c 1 t : Vec Ideal S1x128 .f32) (ix2 (0 : Fin 1) k) = (V c main_v26_0 : S1x128.Idx → EReal) (ix2 (0 : Fin 1) k) := by
  obtain ⟨-, -, e0, e1, -⟩ := idx2_facts t
  unfold iblk2
  rw [View.read_apply]
  show V c main_v26_0 _ = V c main_v26_0 _
  congr 1
  funext a
  apply Fin.ext
  match a with
  | ⟨0, _⟩ => show win2_1.index t (0 : Fin 2) * 1 + 1 * 0 = 0; omega
  | ⟨1, _⟩ => show win2_1.index t (1 : Fin 2) * 128 + 1 * k.val = k.val; omega

theorem iblk2_2_at (c : Dev nD) (t : Fin cfg2.N) (k : Fin 128) :
    (iblk2 V c 2 t : Vec Ideal S1x128 .f32) (ix2 (0 : Fin 1) k) = (V c main_v26_1 : S1x128.Idx → EReal) (ix2 (0 : Fin 1) k) := by
  obtain ⟨-, -, -, -, e0, e1, -⟩ := idx2_facts t
  unfold iblk2
  rw [View.read_apply]
  show V c main_v26_1 _ = V c main_v26_1 _
  congr 1
  funext a
  apply Fin.ext
  match a with
  | ⟨0, _⟩ => show win2_2.index t (0 : Fin 2) * 1 + 1 * 0 = 0; omega
  | ⟨1, _⟩ => show win2_2.index t (1 : Fin 2) * 128 + 1 * k.val = k.val; omega

theorem iblk2_3_at (c : Dev nD) (t : Fin cfg2.N) (k : Fin 128) :
    (iblk2 V c 3 t : Vec Ideal S1x128 .f32) (ix2 (0 : Fin 1) k) = (V c main_v27 : S1x128.Idx → EReal) (ix2 (0 : Fin 1) k) := by
  obtain ⟨-, -, -, -, -, -, e0, e1, -⟩ := idx2_facts t
  unfold iblk2
  rw [View.read_apply]
  show V c main_v27 _ = V c main_v27 _
  congr 1
  funext a
  apply Fin.ext
  match a with
  | ⟨0, _⟩ => show win2_3.index t (0 : Fin 2) * 1 + 1 * 0 = 0; omega
  | ⟨1, _⟩ => show win2_3.index t (1 : Fin 2) * 128 + 1 * k.val = k.val; omega

theorem iblk2_4_at (c : Dev nD) (t : Fin cfg2.N) (k : Fin 128) :
    (iblk2 V c 4 t : Vec Ideal S1x128 .f32) (ix2 (0 : Fin 1) k) = (V c main_v28 : S1x128.Idx → EReal) (ix2 (0 : Fin 1) k) := by
  obtain ⟨-, -, -, -, -, -, -, -, e0, e1, -⟩ := idx2_facts t
  unfold iblk2
  rw [View.read_apply]
  show V c main_v28 _ = V c main_v28 _
  congr 1
  funext a
  apply Fin.ext
  match a with
  | ⟨0, _⟩ => show win2_4.index t (0 : Fin 2) * 1 + 1 * 0 = 0; omega
  | ⟨1, _⟩ => show win2_4.index t (1 : Fin 2) * 128 + 1 * k.val = k.val; omega

theorem iblk2_5_at (c : Dev nD) (t : Fin cfg2.N) (k q : Fin 128) :
    (iblk2 V c 5 t : Vec Ideal S128x128 .f32) (ix2 k q) = (V c main_v30 : S128x128.Idx → EReal) (ix2 k q) := by
  obtain ⟨-, -, -, -, -, -, -, -, -, -, e0, e1, -⟩ := idx2_facts t
  unfold iblk2
  rw [View.read_apply]
  show V c main_v30 _ = V c main_v30 _
  congr 1
  funext a
  apply Fin.ext
  match a with
  | ⟨0, _⟩ => show win2_5.index t (0 : Fin 2) * 128 + 1 * k.val = k.val; omega
  | ⟨1, _⟩ => show win2_5.index t (1 : Fin 2) * 128 + 1 * q.val = q.val; omega

abbrev res2 (c : Dev nD) : S100000x128.Idx → EReal :=
  Cert.Spec.bnMatmul (V c main_v1) (V c main_v26_0) (V c main_v26_1) (V c main_v27) (V c main_v28) (V c main_v30)

theorem flushed2_eq (c : Dev nD) (t : Fin cfg2.N) :
    (dat2 (F := Ideal) V c).flushed 6 t = ((cfg2.win 6).blk t).view.read (Elt Ideal) (res2 V c) := by
  show (cfg2.win 6).cut (grid2.coords t) ((dat2 (F := Ideal) V c).after 6 t) = _
  rw [after2_6]
  unfold out2_6
  rw [View.canon_unit_zero zoff2]
  simp only [View.ld_unit_zero (S := S5000x128) zoff2, View.ld_unit_zero (S := S1x128) zoff2, View.ld_unit_zero (S := S128x128) zoff2]
  obtain ⟨-, -, -, -, -, -, -, -, -, -, -, -, e0, e1⟩ := idx2_facts t
  funext j
  obtain ⟨p, q, rfl⟩ : ∃ (p : Fin 5000) (q : Fin 128), j = ix2 p q := ⟨j 0, j 1, eq_ix2 j⟩
  have hlt : 5000 * t.val + p.val < 100000 := by
    have ht : t.val < 20 := lt_of_lt_of_eq t.isLt N_2
    have hp := p.isLt
    omega
  have hemb : ((cfg2.win 6).blk t).view.emb (ix2 p q) = (ix2 (⟨5000 * t.val + p.val, hlt⟩ : Fin 100000) q : S100000x128.Idx) :=
    funext fun a => Fin.ext (by
      match a with
      | ⟨0, _⟩ => show win2_6.index t (0 : Fin 2) * 5000 + 1 * p.val = 5000 * t.val + p.val; omega
      | ⟨1, _⟩ => show win2_6.index t (1 : Fin 2) * 128 + 1 * q.val = q.val; omega)
  rw [View.read_apply, hemb]
  refine (pay2_at (iblk2 V c 0 t) (iblk2 V c 1 t) (iblk2 V c 2 t) (iblk2 V c 3 t) (iblk2 V c 4 t) (iblk2 V c 5 t) p q).trans ?_
  show _ = ∑ k : Fin 128, Cert.Spec.bnAt (V c main_v1) (V c main_v26_0) (V c main_v26_1) (V c main_v27) (V c main_v28)
      (⟨5000 * t.val + p.val, hlt⟩ : Fin 100000) k * (V c main_v30 : S128x128.Idx → EReal) (ix2 k q)
  refine Finset.sum_congr rfl fun k _ => ?_
  rw [iblk2_0_at V c t p k ⟨5000 * t.val + p.val, hlt⟩ rfl, iblk2_1_at V c t k, iblk2_2_at V c t k, iblk2_3_at V c t k,
    iblk2_4_at V c t k, iblk2_5_at V c t k q]
  rfl

theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have htlt : (i 0).val / 5000 < cfg2.N := by rw [hN]; omega
  refine ⟨⟨(i 0).val / 5000, htlt⟩, flush2_6 _, ?_⟩
  obtain ⟨-, -, -, -, -, -, -, -, -, -, -, -, e0, e1⟩ := idx2_facts ⟨(i 0).val / 5000, htlt⟩
  have e0' : win2_6.index ⟨(i 0).val / 5000, htlt⟩ (0 : Fin 2) = (i 0).val / 5000 := e0
  show i ∈ ((View.whole main_v31).slice (win2_6.rect ⟨(i 0).val / 5000, htlt⟩)).set
  rw [View.set_slice_whole, Rect.mem_set_unit]
  intro a
  match a with
  | ⟨0, _⟩ =>
    show win2_6.index ⟨(i 0).val / 5000, htlt⟩ (0 : Fin 2) * 5000 ≤ (i 0).val
      ∧ (i 0).val < win2_6.index ⟨(i 0).val / 5000, htlt⟩ (0 : Fin 2) * 5000 + 5000
    omega
  | ⟨1, _⟩ =>
    show win2_6.index ⟨(i 0).val / 5000, htlt⟩ (1 : Fin 2) * 128 ≤ (i 1).val
      ∧ (i 1).val < win2_6.index ⟨(i 0).val / 5000, htlt⟩ (1 : Fin 2) * 128 + 128
    omega

theorem val2 (c : Dev nD) :
    (dat2 (F := Ideal) V c).arrAt 6 cfg2.N
      = Cert.Spec.bnMatmul (V c main_v1) (V c main_v26_0) (V c main_v26_1) (V c main_v27) (V c main_v28) (V c main_v30) :=
  (dat2 (F := Ideal) V c).arrAt_eq_of_cover 6 (res2 V c) (fun t _ => flushed2_eq V c t) (cover2)

end Cert.KernelIdeal.Hand

end
-- ==== Proof.KI.V3.lean ====
import proofs.«415738_j90726889161246_1_alg».proof.Proof.KI.R3
import proofs.«415738_j90726889161246_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem origin3 : (![0, 0] : Fin 2 → Nat) = fun _ => 0 := funext fun a => by fin_cases a <;> rfl

theorem spread3_at (g : FVec Ideal S5000x1 .f32) (p : Fin 5000) (q : Fin 128) :
    broadcastTo S5000x128 g broadcasts_S5000x1_S5000x128 (ix2 p q) = g (ix2 p 0) :=
  broadcastTo_apply g broadcasts_S5000x1_S5000x128 (ix2 p q) (ix2 p 0) fun a => by
    match a with
    | ⟨0, _⟩ => rfl
    | ⟨1, _⟩ => rfl

theorem pay3_at (b0 b1 : Vec Ideal S5000x128 .f32) (b2 : Vec Ideal S5000x1 .f32) (p : Fin 5000) (q : Fin 128) :
    k3_pay1 b0 b2 b1 (ix2 p q)
      = b1 (ix2 p q) + max (b0 (ix2 p q)) Cert.Spec.wZero * Ideal.logistic (b2 (ix2 p 0)) := by
  unfold k3_pay1
  simp only [shapeCast_self]
  show b1 (ix2 p q) + max (b0 (ix2 p q)) Cert.Spec.wZero
      * broadcastTo S5000x128 (logistic (F := Ideal) b2) broadcasts_S5000x1_S5000x128 (ix2 p q) = _
  rw [spread3_at]
  rfl

theorem resid3_at (out x : Cert.Spec.Mat 100000 128) (logit : Cert.Spec.Mat 100000 1) (r : Fin 100000) (q : Fin 128) :
    Cert.Spec.gateResid out x logit (ix2 r q)
      = x (ix2 r q) + max (out (ix2 r q)) Cert.Spec.wZero * Ideal.logistic (logit (ix2 r 0)) := rfl

theorem pay3_eq_gateResid (out x : Cert.Spec.Mat 100000 128) (logit : Cert.Spec.Mat 100000 1)
    (b0 b1 : Vec Ideal S5000x128 .f32) (b2 : Vec Ideal S5000x1 .f32) (p : Fin 5000) (q : Fin 128) (r : Fin 100000)
    (h0 : b0 (ix2 p q) = out (ix2 r q)) (h1 : b1 (ix2 p q) = x (ix2 r q)) (h2 : b2 (ix2 p 0) = logit (ix2 r 0)) :
    k3_pay1 b0 b2 b1 (ix2 p q) = Cert.Spec.gateResid out x logit (ix2 r q) := by
  rw [pay3_at, h0, h1, h2, resid3_at]

theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem flushed3_eq (c : Dev nD) (t : Fin cfg3.N) :
    (dat3 (F := Ideal) V c).flushed 3 t
      = ((cfg3.win 3).blk t).view.read (Elt Ideal) (Cert.Spec.gateResid (V c main_v62) (V c main_v1) (V c main_v70)) := by
  show (cfg3.win 3).cut (grid3.coords t) ((dat3 V c).after 3 t) = _
  rw [after3_3]
  unfold out3_3
  rw [View.canon_unit_zero origin3]
  simp only [View.ld_unit_zero (S := S5000x128) origin3, View.ld_unit_zero (S := S5000x1) origin3]
  obtain ⟨a0, a1, b0, b1, c0, c1, d0, d1⟩ := idx3 t
  have hN : cfg3.N = 20 := N_3
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  have h3 : ((cfg3.win 3).blk t).view.emb (ix2 p q) = ix2 (⟨t.val * 5000 + p.val, hr⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  show k3_pay1 (iblk3 V c 0 t) (iblk3 V c 2 t) (iblk3 V c 1 t) (ix2 p q)
    = Cert.Spec.gateResid (V c main_v62) (V c main_v1) (V c main_v70) (((cfg3.win 3).blk t).view.emb (ix2 p q))
  rw [h3]
  refine pay3_eq_gateResid (V c main_v62) (V c main_v1) (V c main_v70) (iblk3 V c 0 t) (iblk3 V c 1 t) (iblk3 V c 2 t)
    p q ⟨t.val * 5000 + p.val, hr⟩ ?_ ?_ ?_
  · show V c main_v62 (((cfg3.win 0).blk t).view.emb (ix2 p q)) = V c main_v62 (ix2 (⟨t.val * 5000 + p.val, hr⟩ : Fin 100000) q)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show V c main_v1 (((cfg3.win 1).blk t).view.emb (ix2 p q)) = V c main_v1 (ix2 (⟨t.val * 5000 + p.val, hr⟩ : Fin 100000) q)
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 128 + 1 * q.val = q.val; omega
  · show V c main_v70 (((cfg3.win 2).blk t).view.emb (ix2 p (0 : Fin 1))) = V c main_v70 (ix2 (⟨t.val * 5000 + p.val, hr⟩ : Fin 100000) (0 : Fin 1))
    refine congrArg _ (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega

theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v71).slice (win3_3.rect t)).set ↔ _
  rw [View.set_slice_whole, Rect.mem_set_unit]
  exact Iff.rfl

theorem cover3 (i : S100000x128.Idx) :
    ∃ t : Fin cfg3.N, (cfg3.win 3).flush t = true ∧ i ∈ ((cfg3.win 3).blk t).view.set := by
  have hi0 : (i 0).val < 100000 := idx2_lt0 i
  have hi1 : (i 1).val < 128 := idx2_lt1 i
  have hN : cfg3.N = 20 := N_3
  have hq : (i 0).val / 5000 < cfg3.N := by omega
  obtain ⟨-, -, -, -, -, -, d0, d1⟩ := idx3 ⟨(i 0).val / 5000, hq⟩
  have d0' : win3_3.index ⟨(i 0).val / 5000, hq⟩ (0 : Fin 2) = (i 0).val / 5000 := d0
  refine ⟨⟨(i 0).val / 5000, hq⟩, flush3_3 _, ?_⟩
  rw [mem_blk3]
  intro a
  match a with
  | ⟨0, _⟩ =>
    show win3_3.index ⟨(i 0).val / 5000, hq⟩ (0 : Fin 2) * 5000 ≤ (i 0).val
      ∧ (i 0).val < win3_3.index ⟨(i 0).val / 5000, hq⟩ (0 : Fin 2) * 5000 + 5000
    rw [d0']; omega
  | ⟨1, _⟩ =>
    show win3_3.index ⟨(i 0).val / 5000, hq⟩ (1 : Fin 2) * 128 ≤ (i 1).val
      ∧ (i 1).val < win3_3.index ⟨(i 0).val / 5000, hq⟩ (1 : Fin 2) * 128 + 128
    rw [d1]; omega

theorem val3 (c : Dev nD) :
    (dat3 (F := Ideal) V c).arrAt 3 cfg3.N = Cert.Spec.gateResid (V c main_v62) (V c main_v1) (V c main_v70) :=
  (dat3 V c).arrAt_eq_of_cover 3 (Cert.Spec.gateResid (V c main_v62) (V c main_v1) (V c main_v70)) (fun t _ => flushed3_eq V c t) cover3

end Cert.KernelIdeal.Hand

end
-- ==== Proof.KI.V4.lean ====
import proofs.«415738_j90726889161246_1_alg».proof.Proof.KI.R4
import proofs.«415738_j90726889161246_1_alg».proof.Proof.KI.StatsPay
import proofs.«415738_j90726889161246_1_alg».proof.Proof.RowBlocks
import proofs.«415738_j90726889161246_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open scoped BigOperators
open Cert.KernelIdeal Cert.KernelIdeal.Gen

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

variable (V : (c : Dev nD) → (b : Ref sig .tc) → Buf (Elt Ideal) ((c : Thread nD τ).loc b))

abbrev xblk4 (c : Dev nD) (t : Fin cfg4.N) : FVec Ideal S5000x128 .f32 := iblk4 (F := Ideal) V c 0 t
abbrev xarr4 (c : Dev nD) : Cert.Spec.Mat 100000 128 := V c main_v71

theorem iblk4_0_apply (c : Dev nD) (t : Fin cfg4.N) (x : S5000x128.Idx) (k : S100000x128.Idx)
    (hk0 : (k 0).val = t.val * 5000 + (x 0).val) (hk1 : (k 1).val = (x 1).val) :
    xblk4 V c t x = xarr4 V c k := by
  obtain ⟨e0, e1, -⟩ := idx_facts4 t
  show V c main_v71 (((cfg4.win 0).blk t).view.emb x) = V c main_v71 k
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

theorem blk4_colsum (c : Dev nD) (t : Fin cfg4.N) (b : Fin 20) (hb : b.val = t.val) (j : Fin 128) :
    ∑ r : Fin 5000, xblk4 V c t (ix2 r j)
      = Cert.RowBlocks.blockSum (fun ri : Fin 100000 => xarr4 V c (ix2 ri j)) b :=
  Finset.sum_congr rfl fun r _ =>
    iblk4_0_apply V c t (ix2 r j) (ix2 (Cert.RowBlocks.rowIn b r) j)
      (by show 5000 * b.val + r.val = t.val * 5000 + r.val; omega) rfl

theorem blk4_colsqsum (c : Dev nD) (t : Fin cfg4.N) (b : Fin 20) (hb : b.val = t.val) (j : Fin 128) :
    ∑ r : Fin 5000, xblk4 V c t (ix2 r j)
        * xblk4 V c t (ix2 r j)
      = Cert.RowBlocks.blockSum (fun ri : Fin 100000 => xarr4 V c (ix2 ri j)
          * xarr4 V c (ix2 ri j)) b :=
  Finset.sum_congr rfl fun r _ => by
    have e := iblk4_0_apply V c t (ix2 r j) (ix2 (Cert.RowBlocks.rowIn b r) j)
      (by show 5000 * b.val + r.val = t.val * 5000 + r.val; omega) rfl
    exact congrArg₂ (· * ·) e e

theorem sumAt4_apply (c : Dev nD) (j : Fin 128) : ∀ (n : ℕ) (hn : n < 20),
    (sumAt4 (F := Ideal) V c n : FVec Ideal S1x128 .f32) (ix2 0 j)
      = Cert.RowBlocks.below (fun ri : Fin 100000 => xarr4 V c (ix2 ri j)) (n + 1)
  | 0, hn => by
    have hN : cfg4.N = 20 := N_4
    have h0 : 0 < cfg4.N := by rw [hN]; omega
    rw [sumAt4_zero V c h0]
    refine (pay4_4_apply (xblk4 V c ⟨0, h0⟩) (k4_pay1 (F := Ideal)) j).trans ?_
    rw [pay4_1_apply j, blk4_colsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg4.N = 20 := N_4
    have h1 : n + 1 < cfg4.N := by rw [hN]; omega
    rw [sumAt4_succ V c n h1]
    refine (pay4_4_apply (xblk4 V c ⟨n + 1, h1⟩) (sumAt4 (F := Ideal) V c n) j).trans ?_
    rw [sumAt4_apply c j n (by omega), blk4_colsum V c ⟨n + 1, h1⟩ ⟨n + 1, hn⟩ rfl j,
      ← Cert.RowBlocks.below_succ _ (n + 1) hn]

theorem sqAt4_apply (c : Dev nD) (j : Fin 128) : ∀ (n : ℕ) (hn : n < 20),
    (sqAt4 (F := Ideal) V c n : FVec Ideal S1x128 .f32) (ix2 0 j)
      = Cert.RowBlocks.below (fun ri : Fin 100000 => xarr4 V c (ix2 ri j)
          * xarr4 V c (ix2 ri j)) (n + 1)
  | 0, hn => by
    have hN : cfg4.N = 20 := N_4
    have h0 : 0 < cfg4.N := by rw [hN]; omega
    rw [sqAt4_zero V c h0]
    refine (pay4_5_apply (xblk4 V c ⟨0, h0⟩) (k4_pay2 (F := Ideal)) j).trans ?_
    rw [pay4_2_apply j, blk4_colsqsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg4.N = 20 := N_4
    have h1 : n + 1 < cfg4.N := by rw [hN]; omega
    rw [sqAt4_succ V c n h1]
    refine (pay4_5_apply (xblk4 V c ⟨n + 1, h1⟩) (sqAt4 (F := Ideal) V c n) j).trans ?_
    rw [sqAt4_apply c j n (by omega), blk4_colsqsum V c ⟨n + 1, h1⟩ ⟨n + 1, hn⟩ rfl j,
      ← Cert.RowBlocks.below_succ _ (n + 1) hn]

theorem sumAt4_last (c : Dev nD) (j : Fin 128) :
    (sumAt4 (F := Ideal) V c 19 : FVec Ideal S1x128 .f32) (ix2 0 j) = Cert.Spec.colSum (xarr4 V c) j :=
  (sumAt4_apply V c j 19 (by omega)).trans (Cert.RowBlocks.below_all _)

theorem sqAt4_last (c : Dev nD) (j : Fin 128) :
    (sqAt4 (F := Ideal) V c 19 : FVec Ideal S1x128 .f32) (ix2 0 j) = Cert.Spec.colSqSum (xarr4 V c) j :=
  (sqAt4_apply V c j 19 (by omega)).trans (Cert.RowBlocks.below_all _)

theorem emb4_1 (t : Fin cfg4.N) (j : Fin 128) :
    ((cfg4.win 1).blk t).view.emb (ix2 (0 : Fin 1) j) = (ix2 (0 : Fin 1) j : S1x128.Idx) := by
  obtain ⟨-, -, e2, e3, -⟩ := idx_facts4 t
  funext a
  apply Fin.ext
  match a with
  | ⟨0, _⟩ => show win4_1.index t (0 : Fin 2) * 1 + 1 * 0 = 0; rw [e2]
  | ⟨1, _⟩ => show win4_1.index t (1 : Fin 2) * 128 + 1 * j.val = j.val; rw [e3]; omega

theorem emb4_2 (t : Fin cfg4.N) (j : Fin 128) :
    ((cfg4.win 2).blk t).view.emb (ix2 (0 : Fin 1) j) = (ix2 (0 : Fin 1) j : S1x128.Idx) := by
  obtain ⟨-, -, -, -, e4, e5⟩ := idx_facts4 t
  funext a
  apply Fin.ext
  match a with
  | ⟨0, _⟩ => show win4_2.index t (0 : Fin 2) * 1 + 1 * 0 = 0; rw [e4]
  | ⟨1, _⟩ => show win4_2.index t (1 : Fin 2) * 128 + 1 * j.val = j.val; rw [e5]; omega

theorem flushed4_1_eq (c : Dev nD) (t : Fin cfg4.N) (hf : (cfg4.win 1).flush t = true) :
    (dat4 (F := Ideal) V c).flushed 1 t
      = ((cfg4.win 1).blk t).view.read (Elt Ideal) (Cert.Spec.colMean (V c main_v71)) := by
  have hN : cfg4.N = 20 := N_4
  have h19 : t.val = 19 := by have := (flush4_1 t).mp hf; have := t.isLt; omega
  show (cfg4.win 1).cut (grid4.coords t) ((dat4 (F := Ideal) V c).after 1 t) = _
  rw [after4_1, h19]
  funext y
  show k4_pay6 (F := Ideal) (sumAt4 (F := Ideal) V c 19) y
    = Cert.Spec.colMean (V c main_v71) (((cfg4.win 1).blk t).view.emb y)
  obtain ⟨u, j, rfl⟩ : ∃ (u : Fin 1) (j : Fin 128), y = ix2 u j := ⟨y 0, y 1, eq_ix2 y⟩
  obtain rfl : u = 0 := Subsingleton.elim _ _
  refine (pay4_6_apply (sumAt4 (F := Ideal) V c 19) j).trans ?_
  refine Eq.trans ?_ (congrArg (Cert.Spec.colMean (V c main_v71)) (emb4_1 t j)).symm
  exact congrArg (Ideal.div · Cert.Spec.wRows) (sumAt4_last V c j)

theorem flushed4_2_eq (c : Dev nD) (t : Fin cfg4.N) (hf : (cfg4.win 2).flush t = true) :
    (dat4 (F := Ideal) V c).flushed 2 t
      = ((cfg4.win 2).blk t).view.read (Elt Ideal) (Cert.Spec.colVar (V c main_v71)) := by
  have hN : cfg4.N = 20 := N_4
  have h19 : t.val = 19 := by have := (flush4_2 t).mp hf; have := t.isLt; omega
  show (cfg4.win 2).cut (grid4.coords t) ((dat4 (F := Ideal) V c).after 2 t) = _
  rw [after4_2, h19]
  funext y
  show k4_pay7 (F := Ideal) (sumAt4 (F := Ideal) V c 19) (sqAt4 (F := Ideal) V c 19) y
    = Cert.Spec.colVar (V c main_v71) (((cfg4.win 2).blk t).view.emb y)
  obtain ⟨u, j, rfl⟩ : ∃ (u : Fin 1) (j : Fin 128), y = ix2 u j := ⟨y 0, y 1, eq_ix2 y⟩
  obtain rfl : u = 0 := Subsingleton.elim _ _
  refine (pay4_7_apply (sumAt4 (F := Ideal) V c 19) (sqAt4 (F := Ideal) V c 19) j).trans ?_
  refine Eq.trans ?_ (congrArg (Cert.Spec.colVar (V c main_v71)) (emb4_2 t j)).symm
  have es := congrArg (Ideal.div · Cert.Spec.wRows) (sumAt4_last V c j)
  have eq := congrArg (Ideal.div · Cert.Spec.wRows) (sqAt4_last V c j)
  exact congrArg₂ (· - ·) eq (congrArg₂ (· * ·) es es)

theorem mem_blk4_1 (t : Fin cfg4.N) (i : S1x128.Idx) :
    i ∈ ((cfg4.win 1).blk t).view.set ↔ ∀ a : Fin 2, win4_1.index t a * S1x128.size a ≤ (i a).val ∧ (i a).val < win4_1.index t a * S1x128.size a + S1x128.size a := by
  show i ∈ ((View.whole main_v72_0).slice (win4_1.rect t)).set ↔ _
  rw [View.set_slice_whole, Rect.mem_set_unit]
  exact Iff.rfl

theorem mem_blk4_2 (t : Fin cfg4.N) (i : S1x128.Idx) :
    i ∈ ((cfg4.win 2).blk t).view.set ↔ ∀ a : Fin 2, win4_2.index t a * S1x128.size a ≤ (i a).val ∧ (i a).val < win4_2.index t a * S1x128.size a + S1x128.size a := by
  show i ∈ ((View.whole main_v72_1).slice (win4_2.rect t)).set ↔ _
  rw [View.set_slice_whole, Rect.mem_set_unit]
  exact Iff.rfl

theorem cover4_1 (i : S1x128.Idx) :
    ∃ t : Fin cfg4.N, (cfg4.win 1).flush t = true ∧ i ∈ ((cfg4.win 1).blk t).view.set := by
  have hi0 : (i 0).val < 1 := (i 0).isLt
  have hi1 : (i 1).val < 128 := (i 1).isLt
  have hN : cfg4.N = 20 := N_4
  obtain ⟨t, ht⟩ : ∃ t : Fin cfg4.N, t.val = 19 := ⟨⟨19, by rw [hN]; omega⟩, rfl⟩
  obtain ⟨-, -, e2, e3, -⟩ := idx_facts4 t
  refine ⟨t, (flush4_1 t).mpr (by rw [ht]), ?_⟩
  rw [mem_blk4_1]
  intro a
  match a with
  | ⟨0, _⟩ => show win4_1.index t (0 : Fin 2) * 1 ≤ (i 0).val ∧ (i 0).val < win4_1.index t (0 : Fin 2) * 1 + 1; rw [e2]; omega
  | ⟨1, _⟩ => show win4_1.index t (1 : Fin 2) * 128 ≤ (i 1).val ∧ (i 1).val < win4_1.index t (1 : Fin 2) * 128 + 128; rw [e3]; omega

theorem cover4_2 (i : S1x128.Idx) :
    ∃ t : Fin cfg4.N, (cfg4.win 2).flush t = true ∧ i ∈ ((cfg4.win 2).blk t).view.set := by
  have hi0 : (i 0).val < 1 := (i 0).isLt
  have hi1 : (i 1).val < 128 := (i 1).isLt
  have hN : cfg4.N = 20 := N_4
  obtain ⟨t, ht⟩ : ∃ t : Fin cfg4.N, t.val = 19 := ⟨⟨19, by rw [hN]; omega⟩, rfl⟩
  obtain ⟨-, -, -, -, e4, e5⟩ := idx_facts4 t
  refine ⟨t, (flush4_2 t).mpr (by rw [ht]), ?_⟩
  rw [mem_blk4_2]
  intro a
  match a with
  | ⟨0, _⟩ => show win4_2.index t (0 : Fin 2) * 1 ≤ (i 0).val ∧ (i 0).val < win4_2.index t (0 : Fin 2) * 1 + 1; rw [e4]; omega
  | ⟨1, _⟩ => show win4_2.index t (1 : Fin 2) * 128 ≤ (i 1).val ∧ (i 1).val < win4_2.index t (1 : Fin 2) * 128 + 128; rw [e5]; omega

theorem val4_mean (c : Dev nD) :
    (dat4 (F := Ideal) V c).arrAt 1 cfg4.N = Cert.Spec.colMean (V c main_v71) :=
  (dat4 (F := Ideal) V c).arrAt_eq_of_cover 1 (Cert.Spec.colMean (V c main_v71))
    (fun t hf => flushed4_1_eq V c t hf) cover4_1

theorem val4_var (c : Dev nD) :
    (dat4 (F := Ideal) V c).arrAt 2 cfg4.N = Cert.Spec.colVar (V c main_v71) :=
  (dat4 (F := Ideal) V c).arrAt_eq_of_cover 2 (Cert.Spec.colVar (V c main_v71))
    (fun t hf => flushed4_2_eq V c t hf) cover4_2

end Cert.KernelIdeal.Hand

end
-- ==== Proof.KI.V5.lean ====
import proofs.«415738_j90726889161246_1_alg».proof.Proof.KI.R5
import proofs.«415738_j90726889161246_1_alg».proof.Proof.KI.BnPay
import proofs.«415738_j90726889161246_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zoff5 : (![0, 0] : Fin 2 → Nat) = fun _ => 0 := funext fun a => by fin_cases a <;> rfl

theorem idx5_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem iblk5_0_at (c : Dev nD) (t : Fin cfg5.N) (p : Fin 5000) (k : Fin 128) (r : Fin 100000)
    (hr : r.val = 5000 * t.val + p.val) :
    (iblk5 V c 0 t : Vec Ideal S5000x128 .f32) (ix2 p k) = (V c main_v71 : S100000x128.Idx → EReal) (ix2 r k) := by
  obtain ⟨e0, e1, -⟩ := idx5_facts t
  unfold iblk5
  rw [View.read_apply]
  show V c main_v71 _ = V c main_v71 _
  congr 1
  funext a
  apply Fin.ext
  match a with
  | ⟨0, _⟩ => show win5_0.index t (0 : Fin 2) * 5000 + 1 * p.val = r.val; omega
  | ⟨1, _⟩ => show win5_0.index t (1 : Fin 2) * 128 + 1 * k.val = k.val; omega

theorem iblk5_1_at (c : Dev nD) (t : Fin cfg5.N) (k : Fin 128) :
    (iblk5 V c 1 t : Vec Ideal S1x128 .f32) (ix2 (0 : Fin 1) k) = (V c main_v72_0 : S1x128.Idx → EReal) (ix2 (0 : Fin 1) k) := by
  obtain ⟨-, -, e0, e1, -⟩ := idx5_facts t
  unfold iblk5
  rw [View.read_apply]
  show V c main_v72_0 _ = V c main_v72_0 _
  congr 1
  funext a
  apply Fin.ext
  match a with
  | ⟨0, _⟩ => show win5_1.index t (0 : Fin 2) * 1 + 1 * 0 = 0; omega
  | ⟨1, _⟩ => show win5_1.index t (1 : Fin 2) * 128 + 1 * k.val = k.val; omega

theorem iblk5_2_at (c : Dev nD) (t : Fin cfg5.N) (k : Fin 128) :
    (iblk5 V c 2 t : Vec Ideal S1x128 .f32) (ix2 (0 : Fin 1) k) = (V c main_v72_1 : S1x128.Idx → EReal) (ix2 (0 : Fin 1) k) := by
  obtain ⟨-, -, -, -, e0, e1, -⟩ := idx5_facts t
  unfold iblk5
  rw [View.read_apply]
  show V c main_v72_1 _ = V c main_v72_1 _
  congr 1
  funext a
  apply Fin.ext
  match a with
  | ⟨0, _⟩ => show win5_2.index t (0 : Fin 2) * 1 + 1 * 0 = 0; omega
  | ⟨1, _⟩ => show win5_2.index t (1 : Fin 2) * 128 + 1 * k.val = k.val; omega

theorem iblk5_3_at (c : Dev nD) (t : Fin cfg5.N) (k : Fin 128) :
    (iblk5 V c 3 t : Vec Ideal S1x128 .f32) (ix2 (0 : Fin 1) k) = (V c main_v73 : S1x128.Idx → EReal) (ix2 (0 : Fin 1) k) := by
  obtain ⟨-, -, -, -, -, -, e0, e1, -⟩ := idx5_facts t
  unfold iblk5
  rw [View.read_apply]
  show V c main_v73 _ = V c main_v73 _
  congr 1
  funext a
  apply Fin.ext
  match a with
  | ⟨0, _⟩ => show win5_3.index t (0 : Fin 2) * 1 + 1 * 0 = 0; omega
  | ⟨1, _⟩ => show win5_3.index t (1 : Fin 2) * 128 + 1 * k.val = k.val; omega

theorem iblk5_4_at (c : Dev nD) (t : Fin cfg5.N) (k : Fin 128) :
    (iblk5 V c 4 t : Vec Ideal S1x128 .f32) (ix2 (0 : Fin 1) k) = (V c main_v74 : S1x128.Idx → EReal) (ix2 (0 : Fin 1) k) := by
  obtain ⟨-, -, -, -, -, -, -, -, e0, e1, -⟩ := idx5_facts t
  unfold iblk5
  rw [View.read_apply]
  show V c main_v74 _ = V c main_v74 _
  congr 1
  funext a
  apply Fin.ext
  match a with
  | ⟨0, _⟩ => show win5_4.index t (0 : Fin 2) * 1 + 1 * 0 = 0; omega
  | ⟨1, _⟩ => show win5_4.index t (1 : Fin 2) * 128 + 1 * k.val = k.val; omega

theorem iblk5_5_at (c : Dev nD) (t : Fin cfg5.N) (k q : Fin 128) :
    (iblk5 V c 5 t : Vec Ideal S128x128 .f32) (ix2 k q) = (V c main_v76 : S128x128.Idx → EReal) (ix2 k q) := by
  obtain ⟨-, -, -, -, -, -, -, -, -, -, e0, e1, -⟩ := idx5_facts t
  unfold iblk5
  rw [View.read_apply]
  show V c main_v76 _ = V c main_v76 _
  congr 1
  funext a
  apply Fin.ext
  match a with
  | ⟨0, _⟩ => show win5_5.index t (0 : Fin 2) * 128 + 1 * k.val = k.val; omega
  | ⟨1, _⟩ => show win5_5.index t (1 : Fin 2) * 128 + 1 * q.val = q.val; omega

abbrev res5 (c : Dev nD) : S100000x128.Idx → EReal :=
  Cert.Spec.bnMatmul (V c main_v71) (V c main_v72_0) (V c main_v72_1) (V c main_v73) (V c main_v74) (V c main_v76)

theorem flushed5_eq (c : Dev nD) (t : Fin cfg5.N) :
    (dat5 (F := Ideal) V c).flushed 6 t = ((cfg5.win 6).blk t).view.read (Elt Ideal) (res5 V c) := by
  show (cfg5.win 6).cut (grid5.coords t) ((dat5 (F := Ideal) V c).after 6 t) = _
  rw [after5_6]
  unfold out5_6
  rw [View.canon_unit_zero zoff5]
  simp only [View.ld_unit_zero (S := S5000x128) zoff5, View.ld_unit_zero (S := S1x128) zoff5, View.ld_unit_zero (S := S128x128) zoff5]
  obtain ⟨-, -, -, -, -, -, -, -, -, -, -, -, e0, e1⟩ := idx5_facts t
  funext j
  obtain ⟨p, q, rfl⟩ : ∃ (p : Fin 5000) (q : Fin 128), j = ix2 p q := ⟨j 0, j 1, eq_ix2 j⟩
  have hlt : 5000 * t.val + p.val < 100000 := by
    have ht : t.val < 20 := lt_of_lt_of_eq t.isLt N_5
    have hp := p.isLt
    omega
  have hemb : ((cfg5.win 6).blk t).view.emb (ix2 p q) = (ix2 (⟨5000 * t.val + p.val, hlt⟩ : Fin 100000) q : S100000x128.Idx) :=
    funext fun a => Fin.ext (by
      match a with
      | ⟨0, _⟩ => show win5_6.index t (0 : Fin 2) * 5000 + 1 * p.val = 5000 * t.val + p.val; omega
      | ⟨1, _⟩ => show win5_6.index t (1 : Fin 2) * 128 + 1 * q.val = q.val; omega)
  rw [View.read_apply, hemb]
  refine (pay5_at (iblk5 V c 0 t) (iblk5 V c 1 t) (iblk5 V c 2 t) (iblk5 V c 3 t) (iblk5 V c 4 t) (iblk5 V c 5 t) p q).trans ?_
  show _ = ∑ k : Fin 128, Cert.Spec.bnAt (V c main_v71) (V c main_v72_0) (V c main_v72_1) (V c main_v73) (V c main_v74)
      (⟨5000 * t.val + p.val, hlt⟩ : Fin 100000) k * (V c main_v76 : S128x128.Idx → EReal) (ix2 k q)
  refine Finset.sum_congr rfl fun k _ => ?_
  rw [iblk5_0_at V c t p k ⟨5000 * t.val + p.val, hlt⟩ rfl, iblk5_1_at V c t k, iblk5_2_at V c t k, iblk5_3_at V c t k,
    iblk5_4_at V c t k, iblk5_5_at V c t k q]
  rfl

theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  have htlt : (i 0).val / 5000 < cfg5.N := by rw [hN]; omega
  refine ⟨⟨(i 0).val / 5000, htlt⟩, flush5_6 _, ?_⟩
  obtain ⟨-, -, -, -, -, -, -, -, -, -, -, -, e0, e1⟩ := idx5_facts ⟨(i 0).val / 5000, htlt⟩
  have e0' : win5_6.index ⟨(i 0).val / 5000, htlt⟩ (0 : Fin 2) = (i 0).val / 5000 := e0
  show i ∈ ((View.whole main_v77).slice (win5_6.rect ⟨(i 0).val / 5000, htlt⟩)).set
  rw [View.set_slice_whole, Rect.mem_set_unit]
  intro a
  match a with
  | ⟨0, _⟩ =>
    show win5_6.index ⟨(i 0).val / 5000, htlt⟩ (0 : Fin 2) * 5000 ≤ (i 0).val
      ∧ (i 0).val < win5_6.index ⟨(i 0).val / 5000, htlt⟩ (0 : Fin 2) * 5000 + 5000
    omega
  | ⟨1, _⟩ =>
    show win5_6.index ⟨(i 0).val / 5000, htlt⟩ (1 : Fin 2) * 128 ≤ (i 1).val
      ∧ (i 1).val < win5_6.index ⟨(i 0).val / 5000, htlt⟩ (1 : Fin 2) * 128 + 128
    omega

theorem val5 (c : Dev nD) :
    (dat5 (F := Ideal) V c).arrAt 6 cfg5.N
      = Cert.Spec.bnMatmul (V c main_v71) (V c main_v72_0) (V c main_v72_1) (V c main_v73) (V c main_v74) (V c main_v76) :=
  (dat5 (F := Ideal) V c).arrAt_eq_of_cover 6 (res5 V c) (fun t _ => flushed5_eq V c t) (cover5)

end Cert.KernelIdeal.Hand

end
-- ==== Proof.KI.V6.lean ====
import proofs.«415738_j90726889161246_1_alg».proof.Proof.KI.R6
import proofs.«415738_j90726889161246_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem origin6 : (![0, 0] : Fin 2 → Nat) = fun _ => 0 := funext fun a => by fin_cases a <;> rfl

theorem spread6_at (g : FVec Ideal S5000x1 .f32) (p : Fin 5000) (q : Fin 128) :
    broadcastTo S5000x128 g broadcasts_S5000x1_S5000x128 (ix2 p q) = g (ix2 p 0) :=
  broadcastTo_apply g broadcasts_S5000x1_S5000x128 (ix2 p q) (ix2 p 0) fun a => by
    match a with
    | ⟨0, _⟩ => rfl
    | ⟨1, _⟩ => rfl

theorem pay6_at (b0 b1 : Vec Ideal S5000x128 .f32) (b2 : Vec Ideal S5000x1 .f32) (p : Fin 5000) (q : Fin 128) :
    k6_pay1 b0 b2 b1 (ix2 p q)
      = b1 (ix2 p q) + max (b0 (ix2 p q)) Cert.Spec.wZero * Ideal.logistic (b2 (ix2 p 0)) := by
  unfold k6_pay1
  simp only [shapeCast_self]
  show b1 (ix2 p q) + max (b0 (ix2 p q)) Cert.Spec.wZero
      * broadcastTo S5000x128 (logistic (F := Ideal) b2) broadcasts_S5000x1_S5000x128 (ix2 p q) = _
  rw [spread6_at]
  rfl

theorem resid6_at (out x : Cert.Spec.Mat 100000 128) (logit : Cert.Spec.Mat 100000 1) (r : Fin 100000) (q : Fin 128) :
    Cert.Spec.gateResid out x logit (ix2 r q)
      = x (ix2 r q) + max (out (ix2 r q)) Cert.Spec.wZero * Ideal.logistic (logit (ix2 r 0)) := rfl

theorem pay6_eq_gateResid (out x : Cert.Spec.Mat 100000 128) (logit : Cert.Spec.Mat 100000 1)
    (b0 b1 : Vec Ideal S5000x128 .f32) (b2 : Vec Ideal S5000x1 .f32) (p : Fin 5000) (q : Fin 128) (r : Fin 100000)
    (h0 : b0 (ix2 p q) = out (ix2 r q)) (h1 : b1 (ix2 p q) = x (ix2 r q)) (h2 : b2 (ix2 p 0) = logit (ix2 r 0)) :
    k6_pay1 b0 b2 b1 (ix2 p q) = Cert.Spec.gateResid out x logit (ix2 r q) := by
  rw [pay6_at, h0, h1, h2, resid6_at]

theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem flushed6_eq (c : Dev nD) (t : Fin cfg6.N) :
    (dat6 (F := Ideal) V c).flushed 3 t
      = ((cfg6.win 3).blk t).view.read (Elt Ideal) (Cert.Spec.gateResid (V c main_v108) (V c main_v71) (V c main_v116)) := by
  show (cfg6.win 3).cut (grid6.coords t) ((dat6 V c).after 3 t) = _
  rw [after6_3]
  unfold out6_3
  rw [View.canon_unit_zero origin6]
  simp only [View.ld_unit_zero (S := S5000x128) origin6, View.ld_unit_zero (S := S5000x1) origin6]
  obtain ⟨a0, a1, b0, b1, c0, c1, d0, d1⟩ := idx6 t
  have hN : cfg6.N = 20 := N_6
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  have h3 : ((cfg6.win 3).blk t).view.emb (ix2 p q) = ix2 (⟨t.val * 5000 + p.val, hr⟩ : Fin 100000) q := by
    funext a; apply Fin.ext
    match a with
    | ⟨0, _⟩ => show win6_3.index t (0 : Fin 2) * 5000 + 1 * p.val = t.val * 5000 + p.val; omega
    | ⟨1, _⟩ => show win6_3.index t (1 : Fin 2) * 128 + 1 * q.val = q.val; omega
  show k6_pay1 (iblk6 V c 0 t) (iblk6 V c 2 t) (iblk6 V c 1 t) (ix2 p q)
    = Cert.Spec.gateResid (V c main_v108) (V c main_v71) (V c main_v116) (((cfg6.win 3).blk t).view.emb (ix2 p q))
  rw [h3]
  refine pay6_eq_gateResid (V c main_v108) (V c main_v71) (V c main_v116) (iblk6 V c 0 t) (iblk6 V c 1 t) (iblk6 V c 2 t)
    p q ⟨t.val * 5000 + p.val, hr⟩ ?_ ?_ ?_
  · show V c main_v108 (((cfg6.win 0).blk t).view.emb (ix2 p q)) = V c main_v108 (ix2 (⟨t.val * 5000 + p.val, hr⟩ : Fin 100000) q)
    refine congrArg _ (funext fun a => Fin.ext ?_)
    match a with
    | ⟨0, _⟩ => show win6_0.index t (0 : Fin 2) * 5000 + 1 * p.val = t.val * 5000 + p.val; omega
    | ⟨1, _⟩ => show win6_0.index t (1 : Fin 2) * 128 + 1 * q.val = q.val; omega
  · show V c main_v71 (((cfg6.win 1).blk t).view.emb (ix2 p q)) = V c main_v71 (ix2 (⟨t.val * 5000 + p.val, hr⟩ : Fin 100000) q)
    refine congrArg _ (funext fun a => Fin.ext ?_)
    match a with
    | ⟨0, _⟩ => show win6_1.index t (0 : Fin 2) * 5000 + 1 * p.val = t.val * 5000 + p.val; omega
    | ⟨1, _⟩ => show win6_1.index t (1 : Fin 2) * 128 + 1 * q.val = q.val; omega
  · show V c main_v116 (((cfg6.win 2).blk t).view.emb (ix2 p (0 : Fin 1))) = V c main_v116 (ix2 (⟨t.val * 5000 + p.val, hr⟩ : Fin 100000) (0 : Fin 1))
    refine congrArg _ (funext fun a => Fin.ext ?_)
    match a with
    | ⟨0, _⟩ => show win6_2.index t (0 : Fin 2) * 5000 + 1 * p.val = t.val * 5000 + p.val; omega
    | ⟨1, _⟩ => show win6_2.index t (1 : Fin 2) * 1 + 1 * 0 = 0; omega

theorem mem_blk6 (t : Fin cfg6.N) (i : S100000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v117).slice (win6_3.rect t)).set ↔ _
  rw [View.set_slice_whole, Rect.mem_set_unit]
  exact Iff.rfl

theorem cover6 (i : S100000x128.Idx) :
    ∃ t : Fin cfg6.N, (cfg6.win 3).flush t = true ∧ i ∈ ((cfg6.win 3).blk t).view.set := by
  have hi0 : (i 0).val < 100000 := idx2_lt0 i
  have hi1 : (i 1).val < 128 := idx2_lt1 i
  have hN : cfg6.N = 20 := N_6
  have hq : (i 0).val / 5000 < cfg6.N := by omega
  obtain ⟨-, -, -, -, -, -, d0, d1⟩ := idx6 ⟨(i 0).val / 5000, hq⟩
  have d0' : win6_3.index ⟨(i 0).val / 5000, hq⟩ (0 : Fin 2) = (i 0).val / 5000 := d0
  refine ⟨⟨(i 0).val / 5000, hq⟩, flush6_3 _, ?_⟩
  rw [mem_blk6]
  intro a
  match a with
  | ⟨0, _⟩ =>
    show win6_3.index ⟨(i 0).val / 5000, hq⟩ (0 : Fin 2) * 5000 ≤ (i 0).val
      ∧ (i 0).val < win6_3.index ⟨(i 0).val / 5000, hq⟩ (0 : Fin 2) * 5000 + 5000
    rw [d0']; omega
  | ⟨1, _⟩ =>
    show win6_3.index ⟨(i 0).val / 5000, hq⟩ (1 : Fin 2) * 128 ≤ (i 1).val
      ∧ (i 1).val < win6_3.index ⟨(i 0).val / 5000, hq⟩ (1 : Fin 2) * 128 + 128
    rw [d1]; omega

theorem val6 (c : Dev nD) :
    (dat6 (F := Ideal) V c).arrAt 3 cfg6.N = Cert.Spec.gateResid (V c main_v108) (V c main_v71) (V c main_v116) :=
  (dat6 V c).arrAt_eq_of_cover 3 (Cert.Spec.gateResid (V c main_v108) (V c main_v71) (V c main_v116)) (fun t _ => flushed6_eq V c t) cover6

end Cert.KernelIdeal.Hand

end
-- ==== Proof.KI.V7.lean ====
import proofs.«415738_j90726889161246_1_alg».proof.Proof.KI.R7
import proofs.«415738_j90726889161246_1_alg».proof.Proof.KI.StatsPay
import proofs.«415738_j90726889161246_1_alg».proof.Proof.RowBlocks
import proofs.«415738_j90726889161246_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open scoped BigOperators
open Cert.KernelIdeal Cert.KernelIdeal.Gen

theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0 :=
  (by decide +kernel : ∀ t : Fin grid7.N, _)

variable (V : (c : Dev nD) → (b : Ref sig .tc) → Buf (Elt Ideal) ((c : Thread nD τ).loc b))

abbrev xblk7 (c : Dev nD) (t : Fin cfg7.N) : FVec Ideal S5000x128 .f32 := iblk7 (F := Ideal) V c 0 t
abbrev xarr7 (c : Dev nD) : Cert.Spec.Mat 100000 128 := V c main_v117

theorem iblk7_0_apply (c : Dev nD) (t : Fin cfg7.N) (x : S5000x128.Idx) (k : S100000x128.Idx)
    (hk0 : (k 0).val = t.val * 5000 + (x 0).val) (hk1 : (k 1).val = (x 1).val) :
    xblk7 V c t x = xarr7 V c k := by
  obtain ⟨e0, e1, -⟩ := idx_facts7 t
  show V c main_v117 (((cfg7.win 0).blk t).view.emb x) = V c main_v117 k
  congr 1
  funext a
  apply Fin.ext
  match a with
  | ⟨0, _⟩ => show win7_0.index t (0 : Fin 2) * 5000 + 1 * (x 0).val = (k 0).val; rw [e0, hk0]; omega
  | ⟨1, _⟩ => show win7_0.index t (1 : Fin 2) * 128 + 1 * (x 1).val = (k 1).val; rw [e1, hk1]; omega

theorem blk7_colsum (c : Dev nD) (t : Fin cfg7.N) (b : Fin 20) (hb : b.val = t.val) (j : Fin 128) :
    ∑ r : Fin 5000, xblk7 V c t (ix2 r j)
      = Cert.RowBlocks.blockSum (fun ri : Fin 100000 => xarr7 V c (ix2 ri j)) b :=
  Finset.sum_congr rfl fun r _ =>
    iblk7_0_apply V c t (ix2 r j) (ix2 (Cert.RowBlocks.rowIn b r) j)
      (by show 5000 * b.val + r.val = t.val * 5000 + r.val; omega) rfl

theorem blk7_colsqsum (c : Dev nD) (t : Fin cfg7.N) (b : Fin 20) (hb : b.val = t.val) (j : Fin 128) :
    ∑ r : Fin 5000, xblk7 V c t (ix2 r j)
        * xblk7 V c t (ix2 r j)
      = Cert.RowBlocks.blockSum (fun ri : Fin 100000 => xarr7 V c (ix2 ri j)
          * xarr7 V c (ix2 ri j)) b :=
  Finset.sum_congr rfl fun r _ => by
    have e := iblk7_0_apply V c t (ix2 r j) (ix2 (Cert.RowBlocks.rowIn b r) j)
      (by show 5000 * b.val + r.val = t.val * 5000 + r.val; omega) rfl
    exact congrArg₂ (· * ·) e e

theorem sumAt7_apply (c : Dev nD) (j : Fin 128) : ∀ (n : ℕ) (hn : n < 20),
    (sumAt7 (F := Ideal) V c n : FVec Ideal S1x128 .f32) (ix2 0 j)
      = Cert.RowBlocks.below (fun ri : Fin 100000 => xarr7 V c (ix2 ri j)) (n + 1)
  | 0, hn => by
    have hN : cfg7.N = 20 := N_7
    have h0 : 0 < cfg7.N := by rw [hN]; omega
    rw [sumAt7_zero V c h0]
    refine (pay7_4_apply (xblk7 V c ⟨0, h0⟩) (k7_pay1 (F := Ideal)) j).trans ?_
    rw [pay7_1_apply j, blk7_colsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg7.N = 20 := N_7
    have h1 : n + 1 < cfg7.N := by rw [hN]; omega
    rw [sumAt7_succ V c n h1]
    refine (pay7_4_apply (xblk7 V c ⟨n + 1, h1⟩) (sumAt7 (F := Ideal) V c n) j).trans ?_
    rw [sumAt7_apply c j n (by omega), blk7_colsum V c ⟨n + 1, h1⟩ ⟨n + 1, hn⟩ rfl j,
      ← Cert.RowBlocks.below_succ _ (n + 1) hn]

theorem sqAt7_apply (c : Dev nD) (j : Fin 128) : ∀ (n : ℕ) (hn : n < 20),
    (sqAt7 (F := Ideal) V c n : FVec Ideal S1x128 .f32) (ix2 0 j)
      = Cert.RowBlocks.below (fun ri : Fin 100000 => xarr7 V c (ix2 ri j)
          * xarr7 V c (ix2 ri j)) (n + 1)
  | 0, hn => by
    have hN : cfg7.N = 20 := N_7
    have h0 : 0 < cfg7.N := by rw [hN]; omega
    rw [sqAt7_zero V c h0]
    refine (pay7_5_apply (xblk7 V c ⟨0, h0⟩) (k7_pay2 (F := Ideal)) j).trans ?_
    rw [pay7_2_apply j, blk7_colsqsum V c ⟨0, h0⟩ ⟨0, by omega⟩ rfl j, Cert.RowBlocks.below_succ _ 0 (by omega),
      Cert.RowBlocks.below_zero]
    exact congrArg (· + _) Ideal.ofBits_zero_f32
  | n + 1, hn => by
    have hN : cfg7.N = 20 := N_7
    have h1 : n + 1 < cfg7.N := by rw [hN]; omega
    rw [sqAt7_succ V c n h1]
    refine (pay7_5_apply (xblk7 V c ⟨n + 1, h1⟩) (sqAt7 (F := Ideal) V c n) j).trans ?_
    rw [sqAt7_apply c j n (by omega), blk7_colsqsum V c ⟨n + 1, h1⟩ ⟨n + 1, hn⟩ rfl j,
      ← Cert.RowBlocks.below_succ _ (n + 1) hn]

theorem sumAt7_last (c : Dev nD) (j : Fin 128) :
    (sumAt7 (F := Ideal) V c 19 : FVec Ideal S1x128 .f32) (ix2 0 j) = Cert.Spec.colSum (xarr7 V c) j :=
  (sumAt7_apply V c j 19 (by omega)).trans (Cert.RowBlocks.below_all _)

theorem sqAt7_last (c : Dev nD) (j : Fin 128) :
    (sqAt7 (F := Ideal) V c 19 : FVec Ideal S1x128 .f32) (ix2 0 j) = Cert.Spec.colSqSum (xarr7 V c) j :=
  (sqAt7_apply V c j 19 (by omega)).trans (Cert.RowBlocks.below_all _)

theorem emb7_1 (t : Fin cfg7.N) (j : Fin 128) :
    ((cfg7.win 1).blk t).view.emb (ix2 (0 : Fin 1) j) = (ix2 (0 : Fin 1) j : S1x128.Idx) := by
  obtain ⟨-, -, e2, e3, -⟩ := idx_facts7 t
  funext a
  apply Fin.ext
  match a with
  | ⟨0, _⟩ => show win7_1.index t (0 : Fin 2) * 1 + 1 * 0 = 0; rw [e2]
  | ⟨1, _⟩ => show win7_1.index t (1 : Fin 2) * 128 + 1 * j.val = j.val; rw [e3]; omega

theorem emb7_2 (t : Fin cfg7.N) (j : Fin 128) :
    ((cfg7.win 2).blk t).view.emb (ix2 (0 : Fin 1) j) = (ix2 (0 : Fin 1) j : S1x128.Idx) := by
  obtain ⟨-, -, -, -, e4, e5⟩ := idx_facts7 t
  funext a
  apply Fin.ext
  match a with
  | ⟨0, _⟩ => show win7_2.index t (0 : Fin 2) * 1 + 1 * 0 = 0; rw [e4]
  | ⟨1, _⟩ => show win7_2.index t (1 : Fin 2) * 128 + 1 * j.val = j.val; rw [e5]; omega

theorem flushed7_1_eq (c : Dev nD) (t : Fin cfg7.N) (hf : (cfg7.win 1).flush t = true) :
    (dat7 (F := Ideal) V c).flushed 1 t
      = ((cfg7.win 1).blk t).view.read (Elt Ideal) (Cert.Spec.colMean (V c main_v117)) := by
  have hN : cfg7.N = 20 := N_7
  have h19 : t.val = 19 := by have := (flush7_1 t).mp hf; have := t.isLt; omega
  show (cfg7.win 1).cut (grid7.coords t) ((dat7 (F := Ideal) V c).after 1 t) = _
  rw [after7_1, h19]
  funext y
  show k7_pay6 (F := Ideal) (sumAt7 (F := Ideal) V c 19) y
    = Cert.Spec.colMean (V c main_v117) (((cfg7.win 1).blk t).view.emb y)
  obtain ⟨u, j, rfl⟩ : ∃ (u : Fin 1) (j : Fin 128), y = ix2 u j := ⟨y 0, y 1, eq_ix2 y⟩
  obtain rfl : u = 0 := Subsingleton.elim _ _
  refine (pay7_6_apply (sumAt7 (F := Ideal) V c 19) j).trans ?_
  refine Eq.trans ?_ (congrArg (Cert.Spec.colMean (V c main_v117)) (emb7_1 t j)).symm
  exact congrArg (Ideal.div · Cert.Spec.wRows) (sumAt7_last V c j)

theorem flushed7_2_eq (c : Dev nD) (t : Fin cfg7.N) (hf : (cfg7.win 2).flush t = true) :
    (dat7 (F := Ideal) V c).flushed 2 t
      = ((cfg7.win 2).blk t).view.read (Elt Ideal) (Cert.Spec.colVar (V c main_v117)) := by
  have hN : cfg7.N = 20 := N_7
  have h19 : t.val = 19 := by have := (flush7_2 t).mp hf; have := t.isLt; omega
  show (cfg7.win 2).cut (grid7.coords t) ((dat7 (F := Ideal) V c).after 2 t) = _
  rw [after7_2, h19]
  funext y
  show k7_pay7 (F := Ideal) (sumAt7 (F := Ideal) V c 19) (sqAt7 (F := Ideal) V c 19) y
    = Cert.Spec.colVar (V c main_v117) (((cfg7.win 2).blk t).view.emb y)
  obtain ⟨u, j, rfl⟩ : ∃ (u : Fin 1) (j : Fin 128), y = ix2 u j := ⟨y 0, y 1, eq_ix2 y⟩
  obtain rfl : u = 0 := Subsingleton.elim _ _
  refine (pay7_7_apply (sumAt7 (F := Ideal) V c 19) (sqAt7 (F := Ideal) V c 19) j).trans ?_
  refine Eq.trans ?_ (congrArg (Cert.Spec.colVar (V c main_v117)) (emb7_2 t j)).symm
  have es := congrArg (Ideal.div · Cert.Spec.wRows) (sumAt7_last V c j)
  have eq := congrArg (Ideal.div · Cert.Spec.wRows) (sqAt7_last V c j)
  exact congrArg₂ (· - ·) eq (congrArg₂ (· * ·) es es)

theorem mem_blk7_1 (t : Fin cfg7.N) (i : S1x128.Idx) :
    i ∈ ((cfg7.win 1).blk t).view.set ↔ ∀ a : Fin 2, win7_1.index t a * S1x128.size a ≤ (i a).val ∧ (i a).val < win7_1.index t a * S1x128.size a + S1x128.size a := by
  show i ∈ ((View.whole main_v118_0).slice (win7_1.rect t)).set ↔ _
  rw [View.set_slice_whole, Rect.mem_set_unit]
  exact Iff.rfl

theorem mem_blk7_2 (t : Fin cfg7.N) (i : S1x128.Idx) :
    i ∈ ((cfg7.win 2).blk t).view.set ↔ ∀ a : Fin 2, win7_2.index t a * S1x128.size a ≤ (i a).val ∧ (i a).val < win7_2.index t a * S1x128.size a + S1x128.size a := by
  show i ∈ ((View.whole main_v118_1).slice (win7_2.rect t)).set ↔ _
  rw [View.set_slice_whole, Rect.mem_set_unit]
  exact Iff.rfl

theorem cover7_1 (i : S1x128.Idx) :
    ∃ t : Fin cfg7.N, (cfg7.win 1).flush t = true ∧ i ∈ ((cfg7.win 1).blk t).view.set := by
  have hi0 : (i 0).val < 1 := (i 0).isLt
  have hi1 : (i 1).val < 128 := (i 1).isLt
  have hN : cfg7.N = 20 := N_7
  obtain ⟨t, ht⟩ : ∃ t : Fin cfg7.N, t.val = 19 := ⟨⟨19, by rw [hN]; omega⟩, rfl⟩
  obtain ⟨-, -, e2, e3, -⟩ := idx_facts7 t
  refine ⟨t, (flush7_1 t).mpr (by rw [ht]), ?_⟩
  rw [mem_blk7_1]
  intro a
  match a with
  | ⟨0, _⟩ => show win7_1.index t (0 : Fin 2) * 1 ≤ (i 0).val ∧ (i 0).val < win7_1.index t (0 : Fin 2) * 1 + 1; rw [e2]; omega
  | ⟨1, _⟩ => show win7_1.index t (1 : Fin 2) * 128 ≤ (i 1).val ∧ (i 1).val < win7_1.index t (1 : Fin 2) * 128 + 128; rw [e3]; omega

theorem cover7_2 (i : S1x128.Idx) :
    ∃ t : Fin cfg7.N, (cfg7.win 2).flush t = true ∧ i ∈ ((cfg7.win 2).blk t).view.set := by
  have hi0 : (i 0).val < 1 := (i 0).isLt
  have hi1 : (i 1).val < 128 := (i 1).isLt
  have hN : cfg7.N = 20 := N_7
  obtain ⟨t, ht⟩ : ∃ t : Fin cfg7.N, t.val = 19 := ⟨⟨19, by rw [hN]; omega⟩, rfl⟩
  obtain ⟨-, -, -, -, e4, e5⟩ := idx_facts7 t
  refine ⟨t, (flush7_2 t).mpr (by rw [ht]), ?_⟩
  rw [mem_blk7_2]
  intro a
  match a with
  | ⟨0, _⟩ => show win7_2.index t (0 : Fin 2) * 1 ≤ (i 0).val ∧ (i 0).val < win7_2.index t (0 : Fin 2) * 1 + 1; rw [e4]; omega
  | ⟨1, _⟩ => show win7_2.index t (1 : Fin 2) * 128 ≤ (i 1).val ∧ (i 1).val < win7_2.index t (1 : Fin 2) * 128 + 128; rw [e5]; omega

theorem val7_mean (c : Dev nD) :
    (dat7 (F := Ideal) V c).arrAt 1 cfg7.N = Cert.Spec.colMean (V c main_v117) :=
  (dat7 (F := Ideal) V c).arrAt_eq_of_cover 1 (Cert.Spec.colMean (V c main_v117))
    (fun t hf => flushed7_1_eq V c t hf) cover7_1

theorem val7_var (c : Dev nD) :
    (dat7 (F := Ideal) V c).arrAt 2 cfg7.N = Cert.Spec.colVar (V c main_v117) :=
  (dat7 (F := Ideal) V c).arrAt_eq_of_cover 2 (Cert.Spec.colVar (V c main_v117))
    (fun t hf => flushed7_2_eq V c t hf) cover7_2

end Cert.KernelIdeal.Hand

end
-- ==== Proof.KI.V8.lean ====
import proofs.«415738_j90726889161246_1_alg».proof.Proof.KI.R8
import proofs.«415738_j90726889161246_1_alg».proof.Proof.KI.BnPay
import proofs.«415738_j90726889161246_1_alg».proof.Proof.Spec
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zoff8 : (![0, 0] : Fin 2 → Nat) = fun _ => 0 := funext fun a => by fin_cases a <;> rfl

theorem idx8_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

theorem iblk8_0_at (c : Dev nD) (t : Fin cfg8.N) (p : Fin 5000) (k : Fin 128) (r : Fin 100000)
    (hr : r.val = 5000 * t.val + p.val) :
    (iblk8 V c 0 t : Vec Ideal S5000x128 .f32) (ix2 p k) = (V c main_v117 : S100000x128.Idx → EReal) (ix2 r k) := by
  obtain ⟨e0, e1, -⟩ := idx8_facts t
  unfold iblk8
  rw [View.read_apply]
  show V c main_v117 _ = V c main_v117 _
  congr 1
  funext a
  apply Fin.ext
  match a with
  | ⟨0, _⟩ => show win8_0.index t (0 : Fin 2) * 5000 + 1 * p.val = r.val; omega
  | ⟨1, _⟩ => show win8_0.index t (1 : Fin 2) * 128 + 1 * k.val = k.val; omega

theorem iblk8_1_at (c : Dev nD) (t : Fin cfg8.N) (k : Fin 128) :
    (iblk8 V c 1 t : Vec Ideal S1x128 .f32) (ix2 (0 : Fin 1) k) = (V c main_v118_0 : S1x128.Idx → EReal) (ix2 (0 : Fin 1) k) := by
  obtain ⟨-, -, e0, e1, -⟩ := idx8_facts t
  unfold iblk8
  rw [View.read_apply]
  show V c main_v118_0 _ = V c main_v118_0 _
  congr 1
  funext a
  apply Fin.ext
  match a with
  | ⟨0, _⟩ => show win8_1.index t (0 : Fin 2) * 1 + 1 * 0 = 0; omega
  | ⟨1, _⟩ => show win8_1.index t (1 : Fin 2) * 128 + 1 * k.val = k.val; omega

theorem iblk8_2_at (c : Dev nD) (t : Fin cfg8.N) (k : Fin 128) :
    (iblk8 V c 2 t : Vec Ideal S1x128 .f32) (ix2 (0 : Fin 1) k) = (V c main_v118_1 : S1x128.Idx → EReal) (ix2 (0 : Fin 1) k) := by
  obtain ⟨-, -, -, -, e0, e1, -⟩ := idx8_facts t
  unfold iblk8
  rw [View.read_apply]
  show V c main_v118_1 _ = V c main_v118_1 _
  congr 1
  funext a
  apply Fin.ext
  match a with
  | ⟨0, _⟩ => show win8_2.index t (0 : Fin 2) * 1 + 1 * 0 = 0; omega
  | ⟨1, _⟩ => show win8_2.index t (1 : Fin 2) * 128 + 1 * k.val = k.val; omega

theorem iblk8_3_at (c : Dev nD) (t : Fin cfg8.N) (k : Fin 128) :
    (iblk8 V c 3 t : Vec Ideal S1x128 .f32) (ix2 (0 : Fin 1) k) = (V c main_v119 : S1x128.Idx → EReal) (ix2 (0 : Fin 1) k) := by
  obtain ⟨-, -, -, -, -, -, e0, e1, -⟩ := idx8_facts t
  unfold iblk8
  rw [View.read_apply]
  show V c main_v119 _ = V c main_v119 _
  congr 1
  funext a
  apply Fin.ext
  match a with
  | ⟨0, _⟩ => show win8_3.index t (0 : Fin 2) * 1 + 1 * 0 = 0; omega
  | ⟨1, _⟩ => show win8_3.index t (1 : Fin 2) * 128 + 1 * k.val = k.val; omega

theorem iblk8_4_at (c : Dev nD) (t : Fin cfg8.N) (k : Fin 128) :
    (iblk8 V c 4 t : Vec Ideal S1x128 .f32) (ix2 (0 : Fin 1) k) = (V c main_v120 : S1x128.Idx → EReal) (ix2 (0 : Fin 1) k) := by
  obtain ⟨-, -, -, -, -, -, -, -, e0, e1, -⟩ := idx8_facts t
  unfold iblk8
  rw [View.read_apply]
  show V c main_v120 _ = V c main_v120 _
  congr 1
  funext a
  apply Fin.ext
  match a with
  | ⟨0, _⟩ => show win8_4.index t (0 : Fin 2) * 1 + 1 * 0 = 0; omega
  | ⟨1, _⟩ => show win8_4.index t (1 : Fin 2) * 128 + 1 * k.val = k.val; omega

theorem iblk8_5_at (c : Dev nD) (t : Fin cfg8.N) (k q : Fin 128) :
    (iblk8 V c 5 t : Vec Ideal S128x128 .f32) (ix2 k q) = (V c main_v122 : S128x128.Idx → EReal) (ix2 k q) := by
  obtain ⟨-, -, -, -, -, -, -, -, -, -, e0, e1, -⟩ := idx8_facts t
  unfold iblk8
  rw [View.read_apply]
  show V c main_v122 _ = V c main_v122 _
  congr 1
  funext a
  apply Fin.ext
  match a with
  | ⟨0, _⟩ => show win8_5.index t (0 : Fin 2) * 128 + 1 * k.val = k.val; omega
  | ⟨1, _⟩ => show win8_5.index t (1 : Fin 2) * 128 + 1 * q.val = q.val; omega

abbrev res8 (c : Dev nD) : S100000x128.Idx → EReal :=
  Cert.Spec.bnMatmul (V c main_v117) (V c main_v118_0) (V c main_v118_1) (V c main_v119) (V c main_v120) (V c main_v122)

theorem flushed8_eq (c : Dev nD) (t : Fin cfg8.N) :
    (dat8 (F := Ideal) V c).flushed 6 t = ((cfg8.win 6).blk t).view.read (Elt Ideal) (res8 V c) := by
  show (cfg8.win 6).cut (grid8.coords t) ((dat8 (F := Ideal) V c).after 6 t) = _
  rw [after8_6]
  unfold out8_6
  rw [View.canon_unit_zero zoff8]
  simp only [View.ld_unit_zero (S := S5000x128) zoff8, View.ld_unit_zero (S := S1x128) zoff8, View.ld_unit_zero (S := S128x128) zoff8]
  obtain ⟨-, -, -, -, -, -, -, -, -, -, -, -, e0, e1⟩ := idx8_facts t
  funext j
  obtain ⟨p, q, rfl⟩ : ∃ (p : Fin 5000) (q : Fin 128), j = ix2 p q := ⟨j 0, j 1, eq_ix2 j⟩
  have hlt : 5000 * t.val + p.val < 100000 := by
    have ht : t.val < 20 := lt_of_lt_of_eq t.isLt N_8
    have hp := p.isLt
    omega
  have hemb : ((cfg8.win 6).blk t).view.emb (ix2 p q) = (ix2 (⟨5000 * t.val + p.val, hlt⟩ : Fin 100000) q : S100000x128.Idx) :=
    funext fun a => Fin.ext (by
      match a with
      | ⟨0, _⟩ => show win8_6.index t (0 : Fin 2) * 5000 + 1 * p.val = 5000 * t.val + p.val; omega
      | ⟨1, _⟩ => show win8_6.index t (1 : Fin 2) * 128 + 1 * q.val = q.val; omega)
  rw [View.read_apply, hemb]
  refine (pay8_at (iblk8 V c 0 t) (iblk8 V c 1 t) (iblk8 V c 2 t) (iblk8 V c 3 t) (iblk8 V c 4 t) (iblk8 V c 5 t) p q).trans ?_
  show _ = ∑ k : Fin 128, Cert.Spec.bnAt (V c main_v117) (V c main_v118_0) (V c main_v118_1) (V c main_v119) (V c main_v120)
      (⟨5000 * t.val + p.val, hlt⟩ : Fin 100000) k * (V c main_v122 : S128x128.Idx → EReal) (ix2 k q)
  refine Finset.sum_congr rfl fun k _ => ?_
  rw [iblk8_0_at V c t p k ⟨5000 * t.val + p.val, hlt⟩ rfl, iblk8_1_at V c t k, iblk8_2_at V c t k, iblk8_3_at V c t k,
    iblk8_4_at V c t k, iblk8_5_at V c t k q]
  rfl

theorem cover8 (i : S100000x128.Idx) :
    ∃ t : Fin cfg8.N, (cfg8.win 6).flush t = true ∧ i ∈ ((cfg8.win 6).blk t).view.set := by
  have hi0 : (i 0).val < 100000 := (i 0).isLt
  have hi1 : (i 1).val < 128 := (i 1).isLt
  have hN : cfg8.N = 20 := N_8
  have htlt : (i 0).val / 5000 < cfg8.N := by rw [hN]; omega
  refine ⟨⟨(i 0).val / 5000, htlt⟩, flush8_6 _, ?_⟩
  obtain ⟨-, -, -, -, -, -, -, -, -, -, -, -, e0, e1⟩ := idx8_facts ⟨(i 0).val / 5000, htlt⟩
  have e0' : win8_6.index ⟨(i 0).val / 5000, htlt⟩ (0 : Fin 2) = (i 0).val / 5000 := e0
  show i ∈ ((View.whole main_v123).slice (win8_6.rect ⟨(i 0).val / 5000, htlt⟩)).set
  rw [View.set_slice_whole, Rect.mem_set_unit]
  intro a
  match a with
  | ⟨0, _⟩ =>
    show win8_6.index ⟨(i 0).val / 5000, htlt⟩ (0 : Fin 2) * 5000 ≤ (i 0).val
      ∧ (i 0).val < win8_6.index ⟨(i 0).val / 5000, htlt⟩ (0 : Fin 2) * 5000 + 5000
    omega
  | ⟨1, _⟩ =>
    show win8_6.index ⟨(i 0).val / 5000, htlt⟩ (1 : Fin 2) * 128 ≤ (i 1).val
      ∧ (i 1).val < win8_6.index ⟨(i 0).val / 5000, htlt⟩ (1 : Fin 2) * 128 + 128
    omega

theorem val8 (c : Dev nD) :
    (dat8 (F := Ideal) V c).arrAt 6 cfg8.N
      = Cert.Spec.bnMatmul (V c main_v117) (V c main_v118_0) (V c main_v118_1) (V c main_v119) (V c main_v120) (V c main_v122) :=
  (dat8 (F := Ideal) V c).arrAt_eq_of_cover 6 (res8 V c) (fun t _ => flushed8_eq V c t) (cover8)

end Cert.KernelIdeal.Hand

end
-- ==== Proof.KI.V9.lean ====
import proofs.«415738_j90726889161246_1_alg».proof.Proof.KI.R9
import proofs.«415738_j90726889161246_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem origin9 : (![0, 0] : Fin 2 → Nat) = fun _ => 0 := funext fun a => by fin_cases a <;> rfl

theorem spread9_at (g : FVec Ideal S5000x1 .f32) (p : Fin 5000) (q : Fin 128) :
    broadcastTo S5000x128 g broadcasts_S5000x1_S5000x128 (ix2 p q) = g (ix2 p 0) :=
  broadcastTo_apply g broadcasts_S5000x1_S5000x128 (ix2 p q) (ix2 p 0) fun a => by
    match a with
    | ⟨0, _⟩ => rfl
    | ⟨1, _⟩ => rfl

theorem pay9_at (b0 b1 : Vec Ideal S5000x128 .f32) (b2 : Vec Ideal S5000x1 .f32) (p : Fin 5000) (q : Fin 128) :
    k9_pay1 b0 b2 b1 (ix2 p q)
      = b1 (ix2 p q) + max (b0 (ix2 p q)) Cert.Spec.wZero * Ideal.logistic (b2 (ix2 p 0)) := by
  unfold k9_pay1
  simp only [shapeCast_self]
  show b1 (ix2 p q) + max (b0 (ix2 p q)) Cert.Spec.wZero
      * broadcastTo S5000x128 (logistic (F := Ideal) b2) broadcasts_S5000x1_S5000x128 (ix2 p q) = _
  rw [spread9_at]
  rfl

theorem resid9_at (out x : Cert.Spec.Mat 100000 128) (logit : Cert.Spec.Mat 100000 1) (r : Fin 100000) (q : Fin 128) :
    Cert.Spec.gateResid out x logit (ix2 r q)
      = x (ix2 r q) + max (out (ix2 r q)) Cert.Spec.wZero * Ideal.logistic (logit (ix2 r 0)) := rfl

theorem pay9_eq_gateResid (out x : Cert.Spec.Mat 100000 128) (logit : Cert.Spec.Mat 100000 1)
    (b0 b1 : Vec Ideal S5000x128 .f32) (b2 : Vec Ideal S5000x1 .f32) (p : Fin 5000) (q : Fin 128) (r : Fin 100000)
    (h0 : b0 (ix2 p q) = out (ix2 r q)) (h1 : b1 (ix2 p q) = x (ix2 r q)) (h2 : b2 (ix2 p 0) = logit (ix2 r 0)) :
    k9_pay1 b0 b2 b1 (ix2 p q) = Cert.Spec.gateResid out x logit (ix2 r q) := by
  rw [pay9_at, h0, h1, h2, resid9_at]

theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

theorem flushed9_eq (c : Dev nD) (t : Fin cfg9.N) :
    (dat9 (F := Ideal) V c).flushed 3 t
      = ((cfg9.win 3).blk t).view.read (Elt Ideal) (Cert.Spec.gateResid (V c main_v154) (V c main_v117) (V c main_v162)) := by
  show (cfg9.win 3).cut (grid9.coords t) ((dat9 V c).after 3 t) = _
  rw [after9_3]
  unfold out9_3
  rw [View.canon_unit_zero origin9]
  simp only [View.ld_unit_zero (S := S5000x128) origin9, View.ld_unit_zero (S := S5000x1) origin9]
  obtain ⟨a0, a1, b0, b1, c0, c1, d0, d1⟩ := idx9 t
  have hN : cfg9.N = 20 := N_9
  funext j
  obtain ⟨p, q, rfl⟩ : ∃ (p : Fin 5000) (q : Fin 128), j = ix2 p q := ⟨j 0, j 1, eq_ix2 j⟩
  have hr : t.val * 5000 + p.val < 100000 := by have := t.isLt; have := p.isLt; omega
  have h3 : ((cfg9.win 3).blk t).view.emb (ix2 p q) = ix2 (⟨t.val * 5000 + p.val, hr⟩ : Fin 100000) q := by
    funext a; apply Fin.ext
    match a with
    | ⟨0, _⟩ => show win9_3.index t (0 : Fin 2) * 5000 + 1 * p.val = t.val * 5000 + p.val; omega
    | ⟨1, _⟩ => show win9_3.index t (1 : Fin 2) * 128 + 1 * q.val = q.val; omega
  show k9_pay1 (iblk9 V c 0 t) (iblk9 V c 2 t) (iblk9 V c 1 t) (ix2 p q)
    = Cert.Spec.gateResid (V c main_v154) (V c main_v117) (V c main_v162) (((cfg9.win 3).blk t).view.emb (ix2 p q))
  rw [h3]
  refine pay9_eq_gateResid (V c main_v154) (V c main_v117) (V c main_v162) (iblk9 V c 0 t) (iblk9 V c 1 t) (iblk9 V c 2 t)
    p q ⟨t.val * 5000 + p.val, hr⟩ ?_ ?_ ?_
  · show V c main_v154 (((cfg9.win 0).blk t).view.emb (ix2 p q)) = V c main_v154 (ix2 (⟨t.val * 5000 + p.val, hr⟩ : Fin 100000) q)
    refine congrArg _ (funext fun a => Fin.ext ?_)
    match a with
    | ⟨0, _⟩ => show win9_0.index t (0 : Fin 2) * 5000 + 1 * p.val = t.val * 5000 + p.val; omega
    | ⟨1, _⟩ => show win9_0.index t (1 : Fin 2) * 128 + 1 * q.val = q.val; omega
  · show V c main_v117 (((cfg9.win 1).blk t).view.emb (ix2 p q)) = V c main_v117 (ix2 (⟨t.val * 5000 + p.val, hr⟩ : Fin 100000) q)
    refine congrArg _ (funext fun a => Fin.ext ?_)
    match a with
    | ⟨0, _⟩ => show win9_1.index t (0 : Fin 2) * 5000 + 1 * p.val = t.val * 5000 + p.val; omega
    | ⟨1, _⟩ => show win9_1.index t (1 : Fin 2) * 128 + 1 * q.val = q.val; omega
  · show V c main_v162 (((cfg9.win 2).blk t).view.emb (ix2 p (0 : Fin 1))) = V c main_v162 (ix2 (⟨t.val * 5000 + p.val, hr⟩ : Fin 100000) (0 : Fin 1))
    refine congrArg _ (funext fun a => Fin.ext ?_)
    match a with
    | ⟨0, _⟩ => show win9_2.index t (0 : Fin 2) * 5000 + 1 * p.val = t.val * 5000 + p.val; omega
    | ⟨1, _⟩ => show win9_2.index t (1 : Fin 2) * 1 + 1 * 0 = 0; omega

theorem mem_blk9 (t : Fin cfg9.N) (i : S100000x128.Idx) :
    i ∈ ((cfg9.win 3).blk t).view.set ↔ ∀ a : Fin 2, win9_3.index t a * S5000x128.size a ≤ (i a).val ∧ (i a).val < win9_3.index t a * S5000x128.size a + S5000x128.size a := by
  show i ∈ ((View.whole main_v163).slice (win9_3.rect t)).set ↔ _
  rw [View.set_slice_whole, Rect.mem_set_unit]
  exact Iff.rfl

theorem cover9 (i : S100000x128.Idx) :
    ∃ t : Fin cfg9.N, (cfg9.win 3).flush t = true ∧ i ∈ ((cfg9.win 3).blk t).view.set := by
  have hi0 : (i 0).val < 100000 := idx2_lt0 i
  have hi1 : (i 1).val < 128 := idx2_lt1 i
  have hN : cfg9.N = 20 := N_9
  have hq : (i 0).val / 5000 < cfg9.N := by omega
  obtain ⟨-, -, -, -, -, -, d0, d1⟩ := idx9 ⟨(i 0).val / 5000, hq⟩
  have d0' : win9_3.index ⟨(i 0).val / 5000, hq⟩ (0 : Fin 2) = (i 0).val / 5000 := d0
  refine ⟨⟨(i 0).val / 5000, hq⟩, flush9_3 _, ?_⟩
  rw [mem_blk9]
  intro a
  match a with
  | ⟨0, _⟩ =>
    show win9_3.index ⟨(i 0).val / 5000, hq⟩ (0 : Fin 2) * 5000 ≤ (i 0).val
      ∧ (i 0).val < win9_3.index ⟨(i 0).val / 5000, hq⟩ (0 : Fin 2) * 5000 + 5000
    rw [d0']; omega
  | ⟨1, _⟩ =>
    show win9_3.index ⟨(i 0).val / 5000, hq⟩ (1 : Fin 2) * 128 ≤ (i 1).val
      ∧ (i 1).val < win9_3.index ⟨(i 0).val / 5000, hq⟩ (1 : Fin 2) * 128 + 128
    rw [d1]; omega

theorem val9 (c : Dev nD) :
    (dat9 (F := Ideal) V c).arrAt 3 cfg9.N = Cert.Spec.gateResid (V c main_v154) (V c main_v117) (V c main_v162) :=
  (dat9 V c).arrAt_eq_of_cover 3 (Cert.Spec.gateResid (V c main_v154) (V c main_v117) (V c main_v162)) (fun t _ => flushed9_eq V c t) cover9

end Cert.KernelIdeal.Hand

end
-- ==== Proof.KI.V10.lean ====
import proofs.«415738_j90726889161246_1_alg».proof.Proof.KI.R10
import proofs.«415738_j90726889161246_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem origin10 : (![0, 0] : Fin 2 → Nat) = fun _ => 0 := funext fun a => by fin_cases a <;> rfl

theorem pay10_at (b0 b1 : Vec Ideal S5000x128 .f32) (j : S5000x128.Idx) :
    k10_pay1 b0 b1 j = Cert.Spec.wTwo * b0 j + b1 j := by
  unfold k10_pay1
  simp only [shapeCast_self]
  rfl

theorem finalize_at (x idn : Cert.Spec.Mat 100000 128) (i : S100000x128.Idx) :
    Cert.Spec.finalize x idn i = Cert.Spec.wTwo * x i + idn i := by
  have e : ix2 (i 0) (i 1) = i := (eq_ix2 i).symm
  exact congrArg (fun z => Cert.Spec.wTwo * x z + idn z) e

theorem pay10_eq_finalize (x idn : Cert.Spec.Mat 100000 128) (b0 b1 : Vec Ideal S5000x128 .f32) (j : S5000x128.Idx)
    (i : S100000x128.Idx) (h0 : b0 j = x i) (h1 : b1 j = idn i) :
    k10_pay1 b0 b1 j = Cert.Spec.finalize x idn i := by
  rw [pay10_at, h0, h1, finalize_at]

theorem idx10 : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = win10_2.index t (1 : Fin 2)
    ∧ win10_2.index t (0 : Fin 2) = t.val
    ∧ win10_2.index t (1 : Fin 2) = 0 :=
  (by decide +kernel : ∀ t : Fin grid10.N, _)

theorem flushed10_eq (c : Dev nD) (t : Fin cfg10.N) :
    (dat10 (F := Ideal) V c).flushed 2 t
      = ((cfg10.win 2).blk t).view.read (Elt Ideal) (Cert.Spec.finalize (V c main_v163) (V c main_v1)) := by
  show (cfg10.win 2).cut (grid10.coords t) ((dat10 V c).after 2 t) = _
  rw [after10_2]
  unfold out10_2
  rw [View.canon_unit_zero origin10]
  simp only [View.ld_unit_zero (S := S5000x128) origin10]
  obtain ⟨e0, e1, e2, e3, -, -⟩ := idx10 t
  funext j
  have h0 : ((cfg10.win 0).blk t).view.emb j = ((cfg10.win 2).blk t).view.emb j := by
    funext a; apply Fin.ext
    match a with
    | ⟨0, _⟩ => show win10_0.index t (0 : Fin 2) * 5000 + 1 * (j 0).val = win10_2.index t (0 : Fin 2) * 5000 + 1 * (j 0).val; omega
    | ⟨1, _⟩ => show win10_0.index t (1 : Fin 2) * 128 + 1 * (j 1).val = win10_2.index t (1 : Fin 2) * 128 + 1 * (j 1).val; omega
  have h1 : ((cfg10.win 1).blk t).view.emb j = ((cfg10.win 2).blk t).view.emb j := by
    funext a; apply Fin.ext
    match a with
    | ⟨0, _⟩ => show win10_1.index t (0 : Fin 2) * 5000 + 1 * (j 0).val = win10_2.index t (0 : Fin 2) * 5000 + 1 * (j 0).val; omega
    | ⟨1, _⟩ => show win10_1.index t (1 : Fin 2) * 128 + 1 * (j 1).val = win10_2.index t (1 : Fin 2) * 128 + 1 * (j 1).val; omega
  refine pay10_eq_finalize (V c main_v163) (V c main_v1) (iblk10 V c 0 t) (iblk10 V c 1 t) j (((cfg10.win 2).blk t).view.emb j) ?_ ?_
  · show V c main_v163 (((cfg10.win 0).blk t).view.emb j) = V c main_v163 (((cfg10.win 2).blk t).view.emb j)
    rw [h0]
  · show V c main_v1 (((cfg10.win 1).blk t).view.emb j) = V c main_v1 (((cfg10.win 2).blk t).view.emb j)
    rw [h1]

theorem mem_blk10 (t : Fin cfg10.N) (i : S100000x128.Idx) :
    i ∈ ((cfg10.win 2).blk t).view.set ↔ ∀ a : Fin 2, win10_2.index t a * S5000x128.size a ≤ (i a).val ∧ (i a).val < win10_2.index t a * S5000x128.size a + S5000x128.size a := by
  show i ∈ ((View.whole main_v164).slice (win10_2.rect t)).set ↔ _
  rw [View.set_slice_whole, Rect.mem_set_unit]
  exact Iff.rfl

theorem cover10 (i : S100000x128.Idx) :
    ∃ t : Fin cfg10.N, (cfg10.win 2).flush t = true ∧ i ∈ ((cfg10.win 2).blk t).view.set := by
  have hi0 : (i 0).val < 100000 := idx2_lt0 i
  have hi1 : (i 1).val < 128 := idx2_lt1 i
  have hN : cfg10.N = 20 := N_10
  have hq : (i 0).val / 5000 < cfg10.N := by omega
  obtain ⟨-, -, -, -, e4, e5⟩ := idx10 ⟨(i 0).val / 5000, hq⟩
  have e4' : win10_2.index ⟨(i 0).val / 5000, hq⟩ (0 : Fin 2) = (i 0).val / 5000 := e4
  refine ⟨⟨(i 0).val / 5000, hq⟩, flush10_2 _, ?_⟩
  rw [mem_blk10]
  intro a
  match a with
  | ⟨0, _⟩ =>
    show win10_2.index ⟨(i 0).val / 5000, hq⟩ (0 : Fin 2) * 5000 ≤ (i 0).val
      ∧ (i 0).val < win10_2.index ⟨(i 0).val / 5000, hq⟩ (0 : Fin 2) * 5000 + 5000
    rw [e4']; omega
  | ⟨1, _⟩ =>
    show win10_2.index ⟨(i 0).val / 5000, hq⟩ (1 : Fin 2) * 128 ≤ (i 1).val
      ∧ (i 1).val < win10_2.index ⟨(i 0).val / 5000, hq⟩ (1 : Fin 2) * 128 + 128
    rw [e5]; omega

theorem val10 (c : Dev nD) :
    (dat10 (F := Ideal) V c).arrAt 2 cfg10.N = Cert.Spec.finalize (V c main_v163) (V c main_v1) :=
  (dat10 V c).arrAt_eq_of_cover 2 (Cert.Spec.finalize (V c main_v163) (V c main_v1)) (fun t _ => flushed10_eq V c t) cover10

end Cert.KernelIdeal.Hand

end
-- ==== Proof.KI.Compose.lean ====
import proofs.«415738_j90726889161246_1_alg».proof.Proof.KI.ChainVal
import proofs.«415738_j90726889161246_1_alg».proof.Proof.KI.Host
import proofs.«415738_j90726889161246_1_alg».proof.Proof.KI.Host1
import proofs.«415738_j90726889161246_1_alg».proof.Proof.KI.Host3
import proofs.«415738_j90726889161246_1_alg».proof.Proof.KI.V0
import proofs.«415738_j90726889161246_1_alg».proof.Proof.KI.V1
import proofs.«415738_j90726889161246_1_alg».proof.Proof.KI.V2
import proofs.«415738_j90726889161246_1_alg».proof.Proof.KI.V3
import proofs.«415738_j90726889161246_1_alg».proof.Proof.KI.V4
import proofs.«415738_j90726889161246_1_alg».proof.Proof.KI.V5
import proofs.«415738_j90726889161246_1_alg».proof.Proof.KI.V6
import proofs.«415738_j90726889161246_1_alg».proof.Proof.KI.V7
import proofs.«415738_j90726889161246_1_alg».proof.Proof.KI.V8
import proofs.«415738_j90726889161246_1_alg».proof.Proof.KI.V9
import proofs.«415738_j90726889161246_1_alg».proof.Proof.KI.V10
import proofs.«415738_j90726889161246_1_alg».proof.Proof.Net

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

def x0K : Spec.Mat 100000 128 :=
  Spec.linUp (W0 m c main_arg0) (W0 m c main_arg4) (Spec.row1 (W0 m c main_arg5))

def oK : Net.Outside where
  conv l y := convK l (W0 m c main_arg1) (W0 m c main_arg2) (binvK (W0 m c main_arg2))
    (dinvK (W0 m c main_arg1) (W0 m c main_arg2) (W0 m c main_arg3)) (W0 m c main_arg9) y
  logit l x := logitK l (W0 m c main_arg10) (W0 m c main_arg11) x

def pK : Net.Params where
  gamma l := Spec.rowOf3 (W0 m c main_arg6) l
  beta l := Spec.rowOf3 (W0 m c main_arg7) l
  W l := Spec.matOf3 (W0 m c main_arg8) l

def x1K : Spec.Mat 100000 128 := Net.stepK (oK m c) (pK m c) 0 (x0K m c)
def x2K : Spec.Mat 100000 128 := Net.stepK (oK m c) (pK m c) 1 (x1K m c)
def x3K : Spec.Mat 100000 128 := Net.stepK (oK m c) (pK m c) 2 (x2K m c)

def xwK (l : Fin 3) (x : Spec.Mat 100000 128) : Spec.Mat 100000 128 :=
  Spec.bnMatmul x (Spec.colMean x) (Spec.colVar x) ((pK m c).gamma l) ((pK m c).beta l) ((pK m c).W l)

theorem at1_v0 : W1 m c main_v0 = Spec.row1 (W0 m c main_arg5) := host0_v0 (W0 m c)

theorem arr0 : (dat0 (V1 m) c).arrAt 3 cfg0.N = x0K m c := by
  rw [val0]
  show Spec.linUp (W1 m c main_arg0) (W1 m c main_arg4) (W1 m c main_v0) = _
  rw [W1_arg m c main_arg0 (by decide), W1_arg m c main_arg4 (by decide), at1_v0]
  rfl

theorem at4_v16 :
    W4 m c main_v16 = dinvK (W0 m c main_arg1) (W0 m c main_arg2) (W0 m c main_arg3) := by
  have h := host1_v16 (W2 m c)
  rw [W2_arg m c main_arg1 (by decide), W2_arg m c main_arg2 (by decide), W2_arg m c main_arg3 (by decide)] at h
  exact h

theorem at6_v25 : W6 m c main_v25 = binvK (W0 m c main_arg2) := by
  have h := host1_v25 (W4 m c)
  rw [W4_arg m c main_arg2 (by decide)] at h
  exact h

theorem at9_v16 :
    W9 m c main_v16 = dinvK (W0 m c main_arg1) (W0 m c main_arg2) (W0 m c main_arg3) :=
  (W9_of m c main_v16 (by decide)).trans <| (W8_of m c main_v16 (by decide)).trans <|
    (W7_of m c main_v16 (by decide)).trans <| (W6_of m c main_v16 (by decide)).trans <|
    (W5_of m c main_v16 (by decide)).trans (at4_v16 m c)

theorem at9_v25 : W9 m c main_v25 = binvK (W0 m c main_arg2) :=
  (W9_of m c main_v25 (by decide)).trans <| (W8_of m c main_v25 (by decide)).trans <|
    (W7_of m c main_v25 (by decide)).trans (at6_v25 m c)

theorem at14_v16 :
    W14 m c main_v16 = dinvK (W0 m c main_arg1) (W0 m c main_arg2) (W0 m c main_arg3) :=
  (W14_of m c main_v16 (by decide)).trans <| (W13_of m c main_v16 (by decide)).trans <|
    (W12_of m c main_v16 (by decide)).trans <| (W11_of m c main_v16 (by decide)).trans <|
    (W10_of m c main_v16 (by decide)).trans (at9_v16 m c)

theorem at14_v25 : W14 m c main_v25 = binvK (W0 m c main_arg2) :=
  (W14_of m c main_v25 (by decide)).trans <| (W13_of m c main_v25 (by decide)).trans <|
    (W12_of m c main_v25 (by decide)).trans <| (W11_of m c main_v25 (by decide)).trans <|
    (W10_of m c main_v25 (by decide)).trans (at9_v25 m c)

theorem at19_v16 :
    W19 m c main_v16 = dinvK (W0 m c main_arg1) (W0 m c main_arg2) (W0 m c main_arg3) :=
  (W19_of m c main_v16 (by decide)).trans <| (W18_of m c main_v16 (by decide)).trans <|
    (W17_of m c main_v16 (by decide)).trans <| (W16_of m c main_v16 (by decide)).trans <|
    (W15_of m c main_v16 (by decide)).trans (at14_v16 m c)

theorem at19_v25 : W19 m c main_v25 = binvK (W0 m c main_arg2) :=
  (W19_of m c main_v25 (by decide)).trans <| (W18_of m c main_v25 (by decide)).trans <|
    (W17_of m c main_v25 (by decide)).trans <| (W16_of m c main_v25 (by decide)).trans <|
    (W15_of m c main_v25 (by decide)).trans (at14_v25 m c)

theorem arr1_mean : (dat1 (V6 m) c).arrAt 1 cfg1.N = Spec.colMean (x0K m c) := by
  rw [val1_mean]
  show Spec.colMean (W6 m c main_v1) = _
  rw [W6_main_v1, arr0]

theorem arr1_var : (dat1 (V6 m) c).arrAt 2 cfg1.N = Spec.colVar (x0K m c) := by
  rw [val1_var]
  show Spec.colVar (W6 m c main_v1) = _
  rw [W6_main_v1, arr0]

theorem at8_v27 : W8 m c main_v27 = (pK m c).gamma 0 := by
  have h := host2_v27 (W7 m c)
  rw [W7_arg m c main_arg6 (by decide)] at h
  exact h

theorem at8_v28 : W8 m c main_v28 = (pK m c).beta 0 := by
  have h := host2_v28 (W7 m c)
  rw [W7_arg m c main_arg7 (by decide)] at h
  exact h

theorem at8_v30 : W8 m c main_v30 = (pK m c).W 0 := by
  have h := host2_v30 (W7 m c)
  rw [W7_arg m c main_arg8 (by decide)] at h
  exact h

theorem arr2 : (dat2 (V8 m) c).arrAt 6 cfg2.N = xwK m c 0 (x0K m c) := by
  rw [val2]
  show Spec.bnMatmul (W8 m c main_v1) (W8 m c main_v26_0) (W8 m c main_v26_1) (W8 m c main_v27) (W8 m c main_v28)
    (W8 m c main_v30) = _
  rw [W8_main_v1, arr0, W8_main_v26_0, arr1_mean, W8_main_v26_1, arr1_var, at8_v27, at8_v28, at8_v30]
  rfl

theorem at10_v62 : W10 m c main_v62 = (oK m c).conv 0 (xwK m c 0 (x0K m c)) := by
  have h := host3_v62 (W9 m c)
  rw [W9_arg m c main_arg1 (by decide), W9_arg m c main_arg2 (by decide), at9_v25, at9_v16,
    W9_arg m c main_arg9 (by decide), W9_main_v31, arr2] at h
  exact h

theorem at10_v70 : W10 m c main_v70 = (oK m c).logit 0 (x0K m c) := by
  have h := host3_v70 (W9 m c)
  rw [W9_arg m c main_arg10 (by decide), W9_arg m c main_arg11 (by decide), W9_main_v1, arr0] at h
  exact h

theorem arr3 : (dat3 (V10 m) c).arrAt 3 cfg3.N = x1K m c := by
  rw [val3]
  show Spec.gateResid (W10 m c main_v62) (W10 m c main_v1) (W10 m c main_v70) = _
  rw [at10_v62, W10_main_v1, arr0, at10_v70]
  rfl

theorem arr4_mean : (dat4 (V11 m) c).arrAt 1 cfg4.N = Spec.colMean (x1K m c) := by
  rw [val4_mean]
  show Spec.colMean (W11 m c main_v71) = _
  rw [W11_main_v71, arr3]

theorem arr4_var : (dat4 (V11 m) c).arrAt 2 cfg4.N = Spec.colVar (x1K m c) := by
  rw [val4_var]
  show Spec.colVar (W11 m c main_v71) = _
  rw [W11_main_v71, arr3]

theorem at13_v73 : W13 m c main_v73 = (pK m c).gamma 1 := by
  have h := host5_v73 (W12 m c)
  rw [W12_arg m c main_arg6 (by decide)] at h
  exact h

theorem at13_v74 : W13 m c main_v74 = (pK m c).beta 1 := by
  have h := host5_v74 (W12 m c)
  rw [W12_arg m c main_arg7 (by decide)] at h
  exact h

theorem at13_v76 : W13 m c main_v76 = (pK m c).W 1 := by
  have h := host5_v76 (W12 m c)
  rw [W12_arg m c main_arg8 (by decide)] at h
  exact h

theorem arr5 : (dat5 (V13 m) c).arrAt 6 cfg5.N = xwK m c 1 (x1K m c) := by
  rw [val5]
  show Spec.bnMatmul (W13 m c main_v71) (W13 m c main_v72_0) (W13 m c main_v72_1) (W13 m c main_v73)
    (W13 m c main_v74) (W13 m c main_v76) = _
  rw [W13_main_v71, arr3, W13_main_v72_0, arr4_mean, W13_main_v72_1, arr4_var, at13_v73, at13_v74, at13_v76]
  rfl

theorem at15_v108 : W15 m c main_v108 = (oK m c).conv 1 (xwK m c 1 (x1K m c)) := by
  have h := host6_v108 (W14 m c)
  rw [W14_arg m c main_arg1 (by decide), W14_arg m c main_arg2 (by decide), at14_v25, at14_v16,
    W14_arg m c main_arg9 (by decide), W14_main_v77, arr5] at h
  exact h

theorem at15_v116 : W15 m c main_v116 = (oK m c).logit 1 (x1K m c) := by
  have h := host6_v116 (W14 m c)
  rw [W14_arg m c main_arg10 (by decide), W14_arg m c main_arg11 (by decide), W14_main_v71, arr3] at h
  exact h

theorem arr6 : (dat6 (V15 m) c).arrAt 3 cfg6.N = x2K m c := by
  rw [val6]
  show Spec.gateResid (W15 m c main_v108) (W15 m c main_v71) (W15 m c main_v116) = _
  rw [at15_v108, W15_main_v71, arr3, at15_v116]
  rfl

theorem arr7_mean : (dat7 (V16 m) c).arrAt 1 cfg7.N = Spec.colMean (x2K m c) := by
  rw [val7_mean]
  show Spec.colMean (W16 m c main_v117) = _
  rw [W16_main_v117, arr6]

theorem arr7_var : (dat7 (V16 m) c).arrAt 2 cfg7.N = Spec.colVar (x2K m c) := by
  rw [val7_var]
  show Spec.colVar (W16 m c main_v117) = _
  rw [W16_main_v117, arr6]

theorem at18_v119 : W18 m c main_v119 = (pK m c).gamma 2 := by
  have h := host8_v119 (W17 m c)
  rw [W17_arg m c main_arg6 (by decide)] at h
  exact h

theorem at18_v120 : W18 m c main_v120 = (pK m c).beta 2 := by
  have h := host8_v120 (W17 m c)
  rw [W17_arg m c main_arg7 (by decide)] at h
  exact h

theorem at18_v122 : W18 m c main_v122 = (pK m c).W 2 := by
  have h := host8_v122 (W17 m c)
  rw [W17_arg m c main_arg8 (by decide)] at h
  exact h

theorem arr8 : (dat8 (V18 m) c).arrAt 6 cfg8.N = xwK m c 2 (x2K m c) := by
  rw [val8]
  show Spec.bnMatmul (W18 m c main_v117) (W18 m c main_v118_0) (W18 m c main_v118_1) (W18 m c main_v119)
    (W18 m c main_v120) (W18 m c main_v122) = _
  rw [W18_main_v117, arr6, W18_main_v118_0, arr7_mean, W18_main_v118_1, arr7_var, at18_v119, at18_v120, at18_v122]
  rfl

theorem at20_v154 : W20 m c main_v154 = (oK m c).conv 2 (xwK m c 2 (x2K m c)) := by
  have h := host9_v154 (W19 m c)
  rw [W19_arg m c main_arg1 (by decide), W19_arg m c main_arg2 (by decide), at19_v25, at19_v16,
    W19_arg m c main_arg9 (by decide), W19_main_v123, arr8] at h
  exact h

theorem at20_v162 : W20 m c main_v162 = (oK m c).logit 2 (x2K m c) := by
  have h := host9_v162 (W19 m c)
  rw [W19_arg m c main_arg10 (by decide), W19_arg m c main_arg11 (by decide), W19_main_v117, arr6] at h
  exact h

theorem arr9 : (dat9 (V20 m) c).arrAt 3 cfg9.N = x3K m c := by
  rw [val9]
  show Spec.gateResid (W20 m c main_v154) (W20 m c main_v117) (W20 m c main_v162) = _
  rw [at20_v154, W20_main_v117, arr6, at20_v162]
  rfl

theorem kernel_value : W22 m c main_v164 = Net.netK (oK m c) (pK m c) (x0K m c) := by
  rw [W22_main_v164, val10]
  show Spec.finalize (W21 m c main_v163) (W21 m c main_v1) = _
  rw [W21_main_v163, arr9, W21_main_v1, arr0]
  rfl

end Cert.KernelIdeal.Hand

end
-- ==== Proof.RealOps.lean ====
import Idealize.ShloMosaic.PureOps.Ideal
import Idealize.ShloMosaic.PureOps.Ideal.Laws
import Idealize.ShloMosaic.Lib.ValueIdx
import proofs.«415738_j90726889161246_1_alg».proof.Proof.Spec

noncomputable section

open scoped BigOperators

namespace Cert.RealOps

open Idealize.ShloMosaic Idealize.ShloMosaic.ValueIdx Cert.Spec

theorem sum_real {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by rw [Finset.sum_empty, EReal.coe_zero]⟩
  | insert a S ha ih =>
    obtain ⟨r, hr⟩ := hf a (Finset.mem_insert_self a S)
    obtain ⟨q, hq⟩ := ih fun j hj => hf j (Finset.mem_insert_of_mem hj)
    exact ⟨r + q, by rw [Finset.sum_insert ha, hr, hq, EReal.coe_add]⟩

theorem add_real {x y : EReal} (hx : ∃ r : ℝ, x = (r : EReal)) (hy : ∃ r : ℝ, y = (r : EReal)) :
    ∃ r : ℝ, x + y = (r : EReal) := by
  obtain ⟨r, rfl⟩ := hx
  obtain ⟨q, rfl⟩ := hy
  exact ⟨r + q, (EReal.coe_add r q).symm⟩

theorem sub_real {x y : EReal} (hx : ∃ r : ℝ, x = (r : EReal)) (hy : ∃ r : ℝ, y = (r : EReal)) :
    ∃ r : ℝ, x - y = (r : EReal) := by
  obtain ⟨r, rfl⟩ := hx
  obtain ⟨q, rfl⟩ := hy
  exact ⟨r - q, (EReal.coe_sub r q).symm⟩

theorem mul_real {x y : EReal} (hx : ∃ r : ℝ, x = (r : EReal)) (hy : ∃ r : ℝ, y = (r : EReal)) :
    ∃ r : ℝ, x * y = (r : EReal) := by
  obtain ⟨r, rfl⟩ := hx
  obtain ⟨q, rfl⟩ := hy
  exact ⟨r * q, (EReal.coe_mul r q).symm⟩

theorem max_real {x y : EReal} (hx : ∃ r : ℝ, x = (r : EReal)) (hy : ∃ r : ℝ, y = (r : EReal)) :
    ∃ r : ℝ, max x y = (r : EReal) := by
  rcases max_choice x y with h | h
  · rw [h]; exact hx
  · rw [h]; exact hy

theorem div_real {x y : EReal} (hx : ∃ r : ℝ, x = (r : EReal)) (hy : ∃ r : ℝ, y = (r : EReal)) (h0 : y ≠ 0) :
    ∃ r : ℝ, Ideal.div x y = (r : EReal) := by
  obtain ⟨r, rfl⟩ := hx
  obtain ⟨q, rfl⟩ := hy
  have hq : q ≠ 0 := fun h => h0 (by rw [h, EReal.coe_zero])
  exact ⟨r * (1 / q), by rw [Ideal.div_coe hq, EReal.coe_mul]⟩

theorem zero_word_real : ∃ r : ℝ, Ideal.ofBits .f32 0x00000000#32 = (r : EReal) :=
  ⟨0, by rw [Ideal.ofBits_zero_f32, EReal.coe_zero]⟩

theorem one_word : Ideal.ofBits .f32 0x3F800000#32 = ((1 : ℝ) : EReal) := by
  simp [Ideal.ofBits, Ideal.ieee, -EReal.coe_mul]; norm_num

theorem one_word_real : ∃ r : ℝ, Ideal.ofBits .f32 0x3F800000#32 = (r : EReal) := ⟨1, one_word⟩

section Reindex
variable {s t : Shape}

theorem gather_isReal {si : Shape} {w : Nat} (d : GatherDims s si t) {x : s.Idx → EReal} (idx : IVec si w)
    (hx : IsReal x) : IsReal (Host.gather d x idx) :=
  fun j => hx (d.operandIdx j idx)

theorem broadcastInDim_isReal (dims : Fin s.rank → Fin t.rank) (h : s.BroadcastsInDim t dims) {x : s.Idx → EReal}
    (hx : IsReal x) : IsReal (broadcastInDim t dims h x) := by
  intro j
  unfold broadcastInDim
  exact hx _

theorem extractStridedSlice_isReal (off : Fin s.rank → Nat) {x : s.Idx → EReal} (h : s.Slices off t)
    (hx : IsReal x) : IsReal (extractStridedSlice t off x h) := by
  intro j
  unfold extractStridedSlice
  exact hx _

theorem shapeCast_isReal {x : s.Idx → EReal} (h : s.ShapeCasts t) (hx : IsReal x) : IsReal (shapeCast t x h) :=
  fun j => hx (Shape.reshapeEquiv h j)

theorem id_isReal {x : s.Idx → EReal} (hx : IsReal x) : IsReal (id x) := hx

end Reindex

theorem constant_isReal (s : Shape) {b : BitVec (FTy.f32).bits} (hb : ∃ r : ℝ, Ideal.ofBits .f32 b = (r : EReal)) :
    IsReal (constant (F := Ideal) s .f32 b) :=
  fun _ => hb

theorem constant_zero_isReal (s : Shape) : IsReal (constant (F := Ideal) s .f32 0x00000000#32) :=
  constant_isReal s zero_word_real

theorem constant_one_isReal (s : Shape) : IsReal (constant (F := Ideal) s .f32 0x3F800000#32) :=
  constant_isReal s one_word_real

theorem constant_zero_apply (s : Shape) (i : s.Idx) : constant (F := Ideal) s .f32 0x00000000#32 i = 0 :=
  Ideal.ofBits_zero_f32

section Pointwise
variable {s : Shape} {φ : FTy} {a b : FVec Ideal s φ}

theorem addf_isReal (ha : IsReal a) (hb : IsReal b) : IsReal (addf a b) :=
  fun i => add_real (ha i) (hb i)

theorem mulf_isReal (ha : IsReal a) (hb : IsReal b) : IsReal (mulf a b) :=
  fun i => mul_real (ha i) (hb i)

end Pointwise

theorem dotGeneral_isReal {sl sr so : Shape} {φ₁ φ₂ : FTy} (d : DotDims sl sr so) (prec : Option ContractPrecision)
    {l : FVec Ideal sl φ₁} {r : FVec Ideal sr φ₂} (hl : IsReal l) (hr : IsReal r) :
    IsReal (Host.dotGeneral d prec l r) := by
  intro j
  show ∃ q : ℝ, FloatOps.dotGeneral d prec .single l r j = (q : EReal)
  rw [Ideal.dotGeneral_apply]
  exact sum_real _ _ fun k _ => mul_real (hl _) (hr _)

theorem scatterAdd_isReal {s si u : Shape} {φ : FTy} {w : Nat} (d : ScatterDims s si u) {x : FVec Ideal s φ}
    (idx : IVec si w) {upd : FVec Ideal u φ} (hx : IsReal x) (hu : IsReal upd) :
    IsReal (Host.scatterAdd d x idx upd) := by
  intro i
  show ∃ q : ℝ, Ideal.hostScatterAdd d x idx upd i = (q : EReal)
  unfold Ideal.hostScatterAdd
  exact add_real (hx i) (sum_real _ _ fun j _ => hu j)

theorem ne_zero_of_cmpf_ogt {s : Shape} {φ : FTy} {D Z₀ : FVec Ideal s φ} (hZ₀ : ∀ i, Z₀ i = 0) (i : s.Idx)
    (h : cmpf .ogt D Z₀ i = 1#1) : D i ≠ 0 := by
  rw [cmpf_apply, Ideal.cmpf_def, hZ₀ i] at h
  have hlt : (0 : EReal) < D i := by
    by_contra hn
    simp [Ideal.cmp, hn] at h
  exact hlt.ne'

theorem select_divf_isReal {s : Shape} {φ : FTy} {c : IVec s 1} {N D Z : FVec Ideal s φ} (hN : IsReal N)
    (hD : IsReal D) (hZ : IsReal Z) (hc : ∀ i, c i = 1#1 → D i ≠ 0) : IsReal (select c (Host.divf N D) Z) := by
  intro i
  rw [select_apply]
  unfold Scalar.select
  split
  · rename_i h1
    show ∃ q : ℝ, Ideal.div (N i) (D i) = (q : EReal)
    exact div_real (hN i) (hD i) (hc i h1)
  · exact hZ i

theorem where_pos_divf_isReal {s : Shape} {φ : FTy} {N D Z₀ Z : FVec Ideal s φ} (hN : IsReal N) (hD : IsReal D)
    (hZ : IsReal Z) (hZ₀ : ∀ i, Z₀ i = 0) : IsReal (select (cmpf .ogt D Z₀) (Host.divf N D) Z) :=
  select_divf_isReal hN hD hZ (ne_zero_of_cmpf_ogt hZ₀)

end Cert.RealOps

end
-- ==== Proof.KI.HostReal.lean ====
import proofs.«415738_j90726889161246_1_alg».proof.Proof.Gen.KernelIdeal.Launch
import proofs.«415738_j90726889161246_1_alg».proof.Proof.Spec
import proofs.«415738_j90726889161246_1_alg».proof.Proof.KI.Host
import proofs.«415738_j90726889161246_1_alg».proof.Proof.RealOps
import Idealize.ShloMosaic.Lib.StableHlo.Run
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Cert.KernelIdeal Cert.KernelIdeal.Gen

open Cert.Spec Cert.RealOps

theorem zeros_apply {t : Shape} (h : S_.BroadcastsInDim t ![]) (i : t.Idx) :
    broadcastInDim t ![] h (constant (F := Ideal) S_ .f32 0x00000000#32) i = 0 := by
  unfold broadcastInDim
  exact constant_zero_apply _ _

theorem dinvK_isReal (ni ei : IVec S640000 32) (hw : FVec Ideal S20000 .f32) (hhw : IsReal hw) :
    IsReal (dinvK ni ei hw) := by
  unfold dinvK
  refine where_pos_divf_isReal ?_ ?_ ?_ ?_
  · exact broadcastInDim_isReal _ _ (constant_one_isReal _)
  · exact scatterAdd_isReal _ _ (broadcastInDim_isReal _ _ (constant_zero_isReal _)) (gather_isReal _ _ hhw)
  · exact broadcastInDim_isReal _ _ (id_isReal (constant_zero_isReal _))
  · exact zeros_apply _

theorem binvK_isReal (ei : IVec S640000 32) : IsReal (binvK ei) := by
  unfold binvK
  refine where_pos_divf_isReal ?_ ?_ ?_ ?_
  · exact broadcastInDim_isReal _ _ (constant_one_isReal _)
  · exact scatterAdd_isReal _ _ (broadcastInDim_isReal _ _ (constant_zero_isReal _)) (broadcastInDim_isReal _ _ (constant_one_isReal _))
  · exact broadcastInDim_isReal _ _ (id_isReal (constant_zero_isReal _))
  · exact zeros_apply _

theorem convK_isReal (l : Fin 3) (ni ei : IVec S640000 32) (binv : FVec Ideal S20000 .f32) (dinv : FVec Ideal S100000 .f32)
    (bc : FVec Ideal S3x128 .f32) (xw : FVec Ideal S100000x128 .f32)
    (hbinv : IsReal binv) (hdinv : IsReal dinv) (hbc : IsReal bc) (hxw : IsReal xw) :
    IsReal (convK l ni ei binv dinv bc xw) := by
  match l with
  | 0 => exact addf_isReal (mulf_isReal (scatterAdd_isReal _ _ (broadcastInDim_isReal _ _ (constant_zero_isReal _)) (gather_isReal _ _ (mulf_isReal (scatterAdd_isReal _ _ (broadcastInDim_isReal _ _ (constant_zero_isReal _)) (gather_isReal _ _ hxw)) (broadcastInDim_isReal _ _ (broadcastInDim_isReal _ _ hbinv))))) (broadcastInDim_isReal _ _ (broadcastInDim_isReal _ _ hdinv))) (broadcastInDim_isReal _ _ (broadcastInDim_isReal _ _ (shapeCast_isReal _ (extractStridedSlice_isReal _ _ hbc))))
  | 1 => exact addf_isReal (mulf_isReal (scatterAdd_isReal _ _ (broadcastInDim_isReal _ _ (constant_zero_isReal _)) (gather_isReal _ _ (mulf_isReal (scatterAdd_isReal _ _ (broadcastInDim_isReal _ _ (constant_zero_isReal _)) (gather_isReal _ _ hxw)) (broadcastInDim_isReal _ _ (broadcastInDim_isReal _ _ hbinv))))) (broadcastInDim_isReal _ _ (broadcastInDim_isReal _ _ hdinv))) (broadcastInDim_isReal _ _ (broadcastInDim_isReal _ _ (shapeCast_isReal _ (extractStridedSlice_isReal _ _ hbc))))
  | 2 => exact addf_isReal (mulf_isReal (scatterAdd_isReal _ _ (broadcastInDim_isReal _ _ (constant_zero_isReal _)) (gather_isReal _ _ (mulf_isReal (scatterAdd_isReal _ _ (broadcastInDim_isReal _ _ (constant_zero_isReal _)) (gather_isReal _ _ hxw)) (broadcastInDim_isReal _ _ (broadcastInDim_isReal _ _ hbinv))))) (broadcastInDim_isReal _ _ (broadcastInDim_isReal _ _ hdinv))) (broadcastInDim_isReal _ _ (broadcastInDim_isReal _ _ (shapeCast_isReal _ (extractStridedSlice_isReal _ _ hbc))))

theorem logitK_isReal (l : Fin 3) (wg : FVec Ideal S3x128x1 .f32) (bg : FVec Ideal S3x1 .f32) (x : FVec Ideal S100000x128 .f32)
    (hwg : IsReal wg) (hbg : IsReal bg) (hx : IsReal x) : IsReal (logitK l wg bg x) := by
  match l with
  | 0 => exact addf_isReal (dotGeneral_isReal _ _ hx (shapeCast_isReal _ (extractStridedSlice_isReal _ _ hwg))) (broadcastInDim_isReal _ _ (broadcastInDim_isReal _ _ (shapeCast_isReal _ (extractStridedSlice_isReal _ _ hbg))))
  | 1 => exact addf_isReal (dotGeneral_isReal _ _ hx (shapeCast_isReal _ (extractStridedSlice_isReal _ _ hwg))) (broadcastInDim_isReal _ _ (broadcastInDim_isReal _ _ (shapeCast_isReal _ (extractStridedSlice_isReal _ _ hbg))))
  | 2 => exact addf_isReal (dotGeneral_isReal _ _ hx (shapeCast_isReal _ (extractStridedSlice_isReal _ _ hwg))) (broadcastInDim_isReal _ _ (broadcastInDim_isReal _ _ (shapeCast_isReal _ (extractStridedSlice_isReal _ _ hbg))))

end Cert.KernelIdeal.Hand

end
-- ==== Proof.Outside.lean ====
import proofs.«415738_j90726889161246_1_alg».proof.Proof.KI.Host
import proofs.«415738_j90726889161246_1_alg».proof.Proof.Ref.Defs

set_option maxRecDepth 16384

noncomputable section

namespace Cert.Outside

theorem binv_eq : Cert.KernelIdeal.Hand.binvK = Cert.ReferenceIdeal.Hand.binvR := rfl

theorem dinv_eq : Cert.KernelIdeal.Hand.dinvK = Cert.ReferenceIdeal.Hand.dinvR := rfl

theorem logit_eq : Cert.KernelIdeal.Hand.logitK = Cert.ReferenceIdeal.Hand.logitR := by
  funext l wg bg x
  match l with
  | 0 => rfl
  | 1 => rfl
  | 2 => rfl

theorem conv_eq : Cert.KernelIdeal.Hand.convK = Cert.ReferenceIdeal.Hand.convR := by
  funext l ni ei binv dinv bc xw
  match l with
  | 0 => rfl
  | 1 => rfl
  | 2 => rfl

end Cert.Outside

end
-- ==== Proof.Algebraic.lean ====
import proofs.«415738_j90726889161246_1_alg».proof.Defs
import proofs.«415738_j90726889161246_1_alg».proof.Proof.KI.Run
import proofs.«415738_j90726889161246_1_alg».proof.Proof.KI.Compose
import proofs.«415738_j90726889161246_1_alg».proof.Proof.KI.HostReal
import proofs.«415738_j90726889161246_1_alg».proof.Proof.Ref.Final
import proofs.«415738_j90726889161246_1_alg».proof.Proof.Outside
import proofs.«415738_j90726889161246_1_alg».proof.Proof.Net
import proofs.«415738_j90726889161246_1_alg».proof.Proof.SpecLemmas
import proofs.«415738_j90726889161246_1_alg».proof.Proof.PreReal

noncomputable section

namespace Cert.Proof

open Idealize.ShloMosaic Idealize.ShloMosaic.TcCoe Idealize.SL.Sem Cert.Spec

theorem outside_eq (m : (ℓ : Loc Cert.KernelIdeal.nD Cert.KernelIdeal.τ Cert.KernelIdeal.sig) → Buf (Elt Ideal) ℓ)
    (c : Dev Cert.KernelIdeal.nD) :
    Cert.ReferenceIdeal.Hand.outsideR
        (Cert.KernelIdeal.Hand.W0 m c Cert.KernelIdeal.main_arg1) (Cert.KernelIdeal.Hand.W0 m c Cert.KernelIdeal.main_arg2)
        (Cert.KernelIdeal.Hand.W0 m c Cert.KernelIdeal.main_arg3) (Cert.KernelIdeal.Hand.W0 m c Cert.KernelIdeal.main_arg9)
        (Cert.KernelIdeal.Hand.W0 m c Cert.KernelIdeal.main_arg10) (Cert.KernelIdeal.Hand.W0 m c Cert.KernelIdeal.main_arg11)
      = Cert.KernelIdeal.Hand.oK m c := by
  unfold Cert.ReferenceIdeal.Hand.outsideR Cert.KernelIdeal.Hand.oK
  rw [← Cert.Outside.conv_eq, ← Cert.Outside.binv_eq, ← Cert.Outside.dinv_eq, ← Cert.Outside.logit_eq]

theorem params_eq (m : (ℓ : Loc Cert.KernelIdeal.nD Cert.KernelIdeal.τ Cert.KernelIdeal.sig) → Buf (Elt Ideal) ℓ)
    (c : Dev Cert.KernelIdeal.nD) :
    Cert.ReferenceIdeal.Hand.paramsR (Cert.KernelIdeal.Hand.W0 m c Cert.KernelIdeal.main_arg6)
        (Cert.KernelIdeal.Hand.W0 m c Cert.KernelIdeal.main_arg7) (Cert.KernelIdeal.Hand.W0 m c Cert.KernelIdeal.main_arg8)
      = Cert.KernelIdeal.Hand.pK m c := rfl

theorem algebraic : Cert.algebraic_KernelIdeal_ReferenceIdeal := by
  intro m ρ m' ρ' hpre hagree
  refine ⟨fun c => Cert.KernelIdeal.Hand.W22 (F := Ideal) m c Cert.KernelIdeal.main_v164,
    Cert.KernelIdeal.Hand.run_value (F := Ideal) m ρ, ?_⟩
  refine (θ_run (Cert.ReferenceIdeal.defs (F := Ideal)) _ _).mono (fun r h c => ⟨(h c).1.trans ?_, (h c).2⟩)
    (Cert.ReferenceIdeal.Hand.ref_run_net m' ρ')
  obtain ⟨h0, h1, h2, h3, h4, h5, h6, h7, h8, h9, h10, h11⟩ := hagree c
  obtain ⟨r0, r3, r4, r5, r6, r7, r8, r9, r10, r11⟩ := Cert.PreReal.args_real _ _ _ _ _ _ _ _ _ _ _ _ (hpre c)
  rw [h0, h1, h2, h3, h4, h5, h6, h7, h8, h9, h10, h11]
  show Cert.Net.netR
      (Cert.ReferenceIdeal.Hand.outsideR (Cert.KernelIdeal.Hand.W0 m c Cert.KernelIdeal.main_arg1)
        (Cert.KernelIdeal.Hand.W0 m c Cert.KernelIdeal.main_arg2) (Cert.KernelIdeal.Hand.W0 m c Cert.KernelIdeal.main_arg3)
        (Cert.KernelIdeal.Hand.W0 m c Cert.KernelIdeal.main_arg9) (Cert.KernelIdeal.Hand.W0 m c Cert.KernelIdeal.main_arg10)
        (Cert.KernelIdeal.Hand.W0 m c Cert.KernelIdeal.main_arg11))
      (Cert.ReferenceIdeal.Hand.paramsR (Cert.KernelIdeal.Hand.W0 m c Cert.KernelIdeal.main_arg6)
        (Cert.KernelIdeal.Hand.W0 m c Cert.KernelIdeal.main_arg7) (Cert.KernelIdeal.Hand.W0 m c Cert.KernelIdeal.main_arg8))
      (Cert.KernelIdeal.Hand.x0K m c)
    = Cert.KernelIdeal.Hand.W22 (F := Ideal) m c Cert.KernelIdeal.main_v164
  rw [outside_eq, params_eq, Cert.KernelIdeal.Hand.kernel_value m c]
  refine (Cert.Net.net_eq (Cert.KernelIdeal.Hand.oK m c) (Cert.KernelIdeal.Hand.pK m c) (Cert.KernelIdeal.Hand.x0K m c)
    (linUp_isReal r0 r4 (row1_isReal r5))
    (fun l => ⟨rowOf3_isReal r6 l, rowOf3_isReal r7 l, matOf3_isReal r8 l⟩)
    (fun l y hy => Cert.KernelIdeal.Hand.convK_isReal l _ _ _ _ _ _
      (Cert.KernelIdeal.Hand.binvK_isReal _) (Cert.KernelIdeal.Hand.dinvK_isReal _ _ _ r3) r9 hy)
    (fun l x hx => Cert.KernelIdeal.Hand.logitK_isReal l _ _ _ r10 r11 hx)).symm

end Cert.Proof

end
-- ==== Proof.lean ====
import proofs.«415738_j90726889161246_1_alg».proof.Defs
import proofs.«415738_j90726889161246_1_alg».proof.Proof.Gen.Kernel
import proofs.«415738_j90726889161246_1_alg».proof.Proof.Gen.KernelIdeal
import proofs.«415738_j90726889161246_1_alg».proof.Proof.Gen.ReferenceIdeal
import proofs.«415738_j90726889161246_1_alg».proof.Proof.Gen.Pre_finite_inputs
import proofs.«415738_j90726889161246_1_alg».proof.Proof.K.Run
import proofs.«415738_j90726889161246_1_alg».proof.Proof.KI.Run
import proofs.«415738_j90726889161246_1_alg».proof.Proof.Ref.Final
import proofs.«415738_j90726889161246_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.Hand.frame_ref,
    trivial,
    Cert.Proof.algebraic⟩

end Cert.Proof

end
